-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S64x1000x5x64 : Shape := ⟨4, ![64, 1000, 5, 64]⟩
abbrev S64 : Shape := ⟨1, ![64]⟩
abbrev S64x1000x10x64 : Shape := ⟨4, ![64, 1000, 10, 64]⟩
abbrev S64x1000x15x64 : Shape := ⟨4, ![64, 1000, 15, 64]⟩
abbrev S64x1000x20x64 : Shape := ⟨4, ![64, 1000, 20, 64]⟩
abbrev S2x256 : Shape := ⟨2, ![2, 256]⟩
abbrev S2 : Shape := ⟨1, ![2]⟩
abbrev S_ : Shape := ⟨0, ![]⟩

class Facts : Prop where
  bcast_S_S64x1000x5x64 : S_.BroadcastsInDim S64x1000x5x64 (![] : Fin 0 → Fin S64x1000x5x64.rank)
  reducesTo_S64x1000x5x64_S_d0_1_2_3 : S64x1000x5x64.ReducesTo [0, 1, 2, 3] S_
  h_S_ : 0 < S_.numel
  bcast_S_S64 : S_.BroadcastsInDim S64 (![] : Fin 0 → Fin S64.rank)
  reducesTo_S64_S_d0 : S64.ReducesTo [0] S_
  bcast_S_S64x1000x10x64 : S_.BroadcastsInDim S64x1000x10x64 (![] : Fin 0 → Fin S64x1000x10x64.rank)
  reducesTo_S64x1000x10x64_S_d0_1_2_3 : S64x1000x10x64.ReducesTo [0, 1, 2, 3] S_
  bcast_S_S64x1000x15x64 : S_.BroadcastsInDim S64x1000x15x64 (![] : Fin 0 → Fin S64x1000x15x64.rank)
  reducesTo_S64x1000x15x64_S_d0_1_2_3 : S64x1000x15x64.ReducesTo [0, 1, 2, 3] S_
  bcast_S_S64x1000x20x64 : S_.BroadcastsInDim S64x1000x20x64 (![] : Fin 0 → Fin S64x1000x20x64.rank)
  reducesTo_S64x1000x20x64_S_d0_1_2_3 : S64x1000x20x64.ReducesTo [0, 1, 2, 3] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg0 : IVec S128x64 32) (main_v48 : IVec S_ 1) (main_v50 : IVec S128x64 1) : IVec S_ 1 :=
  let main_c_19 : IVec S_ 1 := constantI S_ 1 1#1
  let main_v51 : IVec S_ 1 := (fun x v => Host.reduce IntOp.andi x v reducesTo_S128x64_S_d0_1 h_S_) main_v50 main_c_19
  let main_v52 : IVec S_ 1 := andi main_v48 main_v51
  let main_c_20 : IVec S_ 32 := constantI S_ 32 0#32
  let main_v53 : IVec S128x64 32 := broadcastInDim S128x64 ![] bcast_S_S128x64 main_c_20
  let main_v54 : IVec S128x64 1 := cmpi .sge main_arg0 main_v53
  let main_c_21 : IVec S_ 1 := constantI S_ 1 1#1
  let main_v55 : IVec S_ 1 := (fun x v => Host.reduce IntOp.andi x v reducesTo_S128x64_S_d0_1 h_S_) main_v54 main_c_21
  let main_v56 : IVec S_ 1 := andi main_v52 main_v55
  main_v56

def fn_part2 {F : FTy → Type} [FloatOps F] (main_arg0 : IVec S128x64 32) (main_arg8 : FVec F S64 .f32) (main_arg9 : FVec F S2x256 .f32) (main_arg10 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_c_18 : IVec S_ 32 := constantI S_ 32 1000#32
  let main_v49 : IVec S128x64 32 := broadcastInDim S128x64 ![] bcast_S_S128x64 main_c_18
  let main_v50 : IVec S128x64 1 := cmpi .slt main_arg0 main_v49
  fn_part3 (F := F) main_arg0 main_v48 main_v50

def fn_part1 {F : FTy → Type} [FloatOps F] (main_arg0 : IVec S128x64 32) (main_arg5 : FVec F S64x1000x15x64 .f32) (main_arg6 : FVec F S64 .f32) (main_arg7 : FVec F S64x1000x20x64 .f32) (main_arg8 : FVec F S64 .f32) (main_arg9 : FVec F S2x256 .f32) (main_arg10 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1000x15x64 .f32 := Host.absf main_arg5
  let main_cst_6 : FVec F S_ .f32 := constant S_ .f32 0x7F800000#32
  let main_v20 : FVec F S64x1000x15x64 .f32 := broadcastInDim S64x1000x15x64 ![] bcast_S_S64x1000x15x64 main_cst_6
  let main_v21 : IVec S64x1000x15x64 1 := cmpf .olt main_v19 main_v20
  let main_c_7 : IVec S_ 1 := constantI S_ 1 1#1
  let main_v22 : IVec S_ 1 := (fun x v => Host.reduce IntOp.andi x v reducesTo_S64x1000x15x64_S_d0_1_2_3 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1000x20x64 .f32 := Host.absf main_arg7
  let main_cst_10 : FVec F S_ .f32 := constant S_ .f32 0x7F800000#32
  let main_v30 : FVec F S64x1000x20x64 .f32 := broadcastInDim S64x1000x20x64 ![] bcast_S_S64x1000x20x64 main_cst_10
  let main_v31 : IVec S64x1000x20x64 1 := cmpf .olt main_v29 main_v30
  let main_c_11 : IVec S_ 1 := constantI S_ 1 1#1
  let main_v32 : IVec S_ 1 := (fun x v => Host.reduce IntOp.andi x v reducesTo_S64x1000x20x64_S_d0_1_2_3 h_S_) main_v31 main_c_11
  let main_v33 : IVec S_ 1 := andi main_v28 main_v32
  fn_part2 (F := F) main_arg0 main_arg8 main_arg9 main_arg10 main_v33

def fn {F : FTy → Type} [FloatOps F] (main_arg0 : IVec S128x64 32) (main_arg1 : FVec F S64x1000x5x64 .f32) (main_arg2 : FVec F S64 .f32) (main_arg3 : FVec F S64x1000x10x64 .f32) (main_arg4 : FVec F S64 .f32) (main_arg5 : FVec F S64x1000x15x64 .f32) (main_arg6 : FVec F S64 .f32) (main_arg7 : FVec F S64x1000x20x64 .f32) (main_arg8 : FVec F S64 .f32) (main_arg9 : FVec F S2x256 .f32) (main_arg10 : FVec F S2 .f32) : IVec S_ 1 :=
  let main_v0 : FVec F S64x1000x5x64 .f32 := Host.absf main_arg1
  let main_cst : FVec F S_ .f32 := constant S_ .f32 0x7F800000#32
  let main_v1 : FVec F S64x1000x5x64 .f32 := broadcastInDim S64x1000x5x64 ![] bcast_S_S64x1000x5x64 main_cst
  let main_v2 : IVec S64x1000x5x64 1 := cmpf .olt main_v0 main_v1
  let main_c : IVec S_ 1 := constantI S_ 1 1#1
  let main_v3 : IVec S_ 1 := (fun x v => Host.reduce IntOp.andi x v reducesTo_S64x1000x5x64_S_d0_1_2_3 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x1000x10x64 .f32 := Host.absf main_arg3
  let main_cst_2 : FVec F S_ .f32 := constant S_ .f32 0x7F800000#32
  let main_v10 : FVec F S64x1000x10x64 .f32 := broadcastInDim S64x1000x10x64 ![] bcast_S_S64x1000x10x64 main_cst_2
  let main_v11 : IVec S64x1000x10x64 1 := cmpf .olt main_v9 main_v10
  let main_c_3 : IVec S_ 1 := constantI S_ 1 1#1
  let main_v12 : IVec S_ 1 := (fun x v => Host.reduce IntOp.andi x v reducesTo_S64x1000x10x64_S_d0_1_2_3 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg5 main_arg6 main_arg7 main_arg8 main_arg9 main_arg10 main_v13 main_v16
-- ==== Kernel.lean ====
abbrev S128x64 : Shape := ⟨2, ![128, 64]⟩
abbrev S64x1000x5x64 : Shape := ⟨4, ![64, 1000, 5, 64]⟩
abbrev S64 : Shape := ⟨1, ![64]⟩
abbrev S64x1000x10x64 : Shape := ⟨4, ![64, 1000, 10, 64]⟩
abbrev S64x1000x15x64 : Shape := ⟨4, ![64, 1000, 15, 64]⟩
abbrev S64x1000x20x64 : Shape := ⟨4, ![64, 1000, 20, 64]⟩
abbrev S2x256 : Shape := ⟨2, ![2, 256]⟩
abbrev S2 : Shape := ⟨1, ![2]⟩
abbrev S1000 : Shape := ⟨1, ![1000]⟩
abbrev S128x1x64 : Shape := ⟨3, ![128, 1, 64]⟩
abbrev S1x1000x1 : Shape := ⟨3, ![1, 1000, 1]⟩
abbrev S128x1000x64 : Shape := ⟨3, ![128, 1000, 64]⟩
abbrev S128x64000 : Shape := ⟨2, ![128, 64000]⟩
abbrev S64x1 : Shape := ⟨2, ![64, 1]⟩
abbrev S1000x64x64x5 : Shape := ⟨4, ![1000, 64, 64, 5]⟩
abbrev S64000x320 : Shape := ⟨2, ![64000, 320]⟩
abbrev S64x128 : Shape := ⟨2, ![64, 128]⟩
abbrev S128x2560 : Shape := ⟨2, ![128, 2560]⟩
abbrev S2560x320 : Shape := ⟨2, ![2560, 320]⟩
abbrev S128x320 : Shape := ⟨2, ![128, 320]⟩
abbrev S128x64x5 : Shape := ⟨3, ![128, 64, 5]⟩
abbrev S1x64x1 : Shape := ⟨3, ![1, 64, 1]⟩
abbrev S1000x64x64x10 : Shape := ⟨4, ![1000, 64, 64, 10]⟩
abbrev S64000x640 : Shape := ⟨2, ![64000, 640]⟩
abbrev S2560x640 : Shape := ⟨2, ![2560, 640]⟩
abbrev S128x640 : Shape := ⟨2, ![128, 640]⟩
abbrev S128x64x10 : Shape := ⟨3, ![128, 64, 10]⟩
abbrev S1000x64x64x15 : Shape := ⟨4, ![1000, 64, 64, 15]⟩
abbrev S64000x960 : Shape := ⟨2, ![64000, 960]⟩
abbrev S2560x960 : Shape := ⟨2, ![2560, 960]⟩
abbrev S128x960 : Shape := ⟨2, ![128, 960]⟩
abbrev S128x64x15 : Shape := ⟨3, ![128, 64, 15]⟩
abbrev S1000x64x64x20 : Shape := ⟨4, ![1000, 64, 64, 20]⟩
abbrev S64000x1280 : Shape := ⟨2, ![64000, 1280]⟩
abbrev S32x1 : Shape := ⟨2, ![32, 1]⟩
abbrev S32x128 : Shape := ⟨2, ![32, 128]⟩
abbrev S128x32x20 : Shape := ⟨3, ![128, 32, 20]⟩
abbrev S1x32x1 : Shape := ⟨3, ![1, 32, 1]⟩
abbrev S128x32 : Shape := ⟨2, ![128, 32]⟩
abbrev S128x256 : Shape := ⟨2, ![128, 256]⟩
abbrev S256x2 : Shape := ⟨2, ![256, 2]⟩
abbrev S128x2 : Shape := ⟨2, ![128, 2]⟩
abbrev S1x2 : Shape := ⟨2, ![1, 2]⟩

abbrev nBuf : Space → Nat
  | .hbm => 45
  | .vmem => 30
  | .smem => 0
  | _ => 0

abbrev bufTy : (tb : Table) → Fin (tcTables nBuf tb) → BufTy
  | .hbm, ⟨0, _⟩ => ⟨S128x64, .i32⟩
  | .hbm, ⟨1, _⟩ => ⟨S64x1000x5x64, .f32⟩
  | .hbm, ⟨2, _⟩ => ⟨S64, .f32⟩
  | .hbm, ⟨3, _⟩ => ⟨S64x1000x10x64, .f32⟩
  | .hbm, ⟨4, _⟩ => ⟨S64, .f32⟩
  | .hbm, ⟨5, _⟩ => ⟨S64x1000x15x64, .f32⟩
  | .hbm, ⟨6, _⟩ => ⟨S64, .f32⟩
  | .hbm, ⟨7, _⟩ => ⟨S64x1000x20x64, .f32⟩
  | .hbm, ⟨8, _⟩ => ⟨S64, .f32⟩
  | .hbm, ⟨9, _⟩ => ⟨S2x256, .f32⟩
  | .hbm, ⟨10, _⟩ => ⟨S2, .f32⟩
  | .hbm, ⟨11, _⟩ => ⟨S1000, .i32⟩
  | .hbm, ⟨12, _⟩ => ⟨S128x1x64, .i32⟩
  | .hbm, ⟨13, _⟩ => ⟨S1x1000x1, .i32⟩
  | .hbm, ⟨14, _⟩ => ⟨S128x1000x64, .i32⟩
  | .hbm, ⟨15, _⟩ => ⟨S128x1000x64, .i32⟩
  | .hbm, ⟨16, _⟩ => ⟨S128x1000x64, .i1⟩
  | .hbm, ⟨17, _⟩ => ⟨S128x1000x64, .bf16⟩
  | .hbm, ⟨18, _⟩ => ⟨S128x64000, .bf16⟩
  | .hbm, ⟨19, _⟩ => ⟨S64x1, .f32⟩
  | .hbm, ⟨20, _⟩ => ⟨S1000x64x64x5, .f32⟩
  | .hbm, ⟨21, _⟩ => ⟨S64000x320, .f32⟩
  | .hbm, ⟨22, _⟩ => ⟨S64x128, .f32⟩
  | .hbm, ⟨23, _⟩ => ⟨S128x64, .f32⟩
  | .hbm, ⟨24, _⟩ => ⟨S64x1, .f32⟩
  | .hbm, ⟨25, _⟩ => ⟨S1000x64x64x10, .f32⟩
  | .hbm, ⟨26, _⟩ => ⟨S64000x640, .f32⟩
  | .hbm, ⟨27, _⟩ => ⟨S64x128, .f32⟩
  | .hbm, ⟨28, _⟩ => ⟨S128x64, .f32⟩
  | .hbm, ⟨29, _⟩ => ⟨S64x1, .f32⟩
  | .hbm, ⟨30, _⟩ => ⟨S1000x64x64x15, .f32⟩
  | .hbm, ⟨31, _⟩ => ⟨S64000x960, .f32⟩
  | .hbm, ⟨32, _⟩ => ⟨S64x128, .f32⟩
  | .hbm, ⟨33, _⟩ => ⟨S128x64, .f32⟩
  | .hbm, ⟨34, _⟩ => ⟨S64x1, .f32⟩
  | .hbm, ⟨35, _⟩ => ⟨S1000x64x64x20, .f32⟩
  | .hbm, ⟨36, _⟩ => ⟨S64000x1280, .f32⟩
  | .hbm, ⟨37, _⟩ => ⟨S64x128, .f32⟩
  | .hbm, ⟨38, _⟩ => ⟨S128x64, .f32⟩
  | .hbm, ⟨39, _⟩ => ⟨S128x256, .f32⟩
  | .hbm, ⟨40, _⟩ => ⟨S256x2, .f32⟩
  | .hbm, ⟨41, _⟩ => ⟨S128x2, .f32⟩
  | .hbm, ⟨42, _⟩ => ⟨S1x2, .f32⟩
  | .hbm, ⟨43, _⟩ => ⟨S128x2, .f32⟩
  | .hbm, ⟨44, _⟩ => ⟨S128x2, .f32⟩
  | .local _ .vmem, ⟨0, _⟩ => ⟨S128x2560, .bf16⟩
  | .local _ .vmem, ⟨1, _⟩ => ⟨S128x2560, .bf16⟩
  | .local _ .vmem, ⟨2, _⟩ => ⟨S2560x320, .f32⟩
  | .local _ .vmem, ⟨3, _⟩ => ⟨S2560x320, .f32⟩
  | .local _ .vmem, ⟨4, _⟩ => ⟨S64x1, .f32⟩
  | .local _ .vmem, ⟨5, _⟩ => ⟨S64x128, .f32⟩
  | .local _ .vmem, ⟨6, _⟩ => ⟨S128x320, .f32⟩
  | .local _ .vmem, ⟨7, _⟩ => ⟨S128x2560, .bf16⟩
  | .local _ .vmem, ⟨8, _⟩ => ⟨S128x2560, .bf16⟩
  | .local _ .vmem, ⟨9, _⟩ => ⟨S2560x640, .f32⟩
  | .local _ .vmem, ⟨10, _⟩ => ⟨S2560x640, .f32⟩
  | .local _ .vmem, ⟨11, _⟩ => ⟨S64x1, .f32⟩
  | .local _ .vmem, ⟨12, _⟩ => ⟨S64x128, .f32⟩
  | .local _ .vmem, ⟨13, _⟩ => ⟨S128x640, .f32⟩
  | .local _ .vmem, ⟨14, _⟩ => ⟨S128x2560, .bf16⟩
  | .local _ .vmem, ⟨15, _⟩ => ⟨S128x2560, .bf16⟩
  | .local _ .vmem, ⟨16, _⟩ => ⟨S2560x960, .f32⟩
  | .local _ .vmem, ⟨17, _⟩ => ⟨S2560x960, .f32⟩
  | .local _ .vmem, ⟨18, _⟩ => ⟨S64x1, .f32⟩
  | .local _ .vmem, ⟨19, _⟩ => ⟨S64x128, .f32⟩
  | .local _ .vmem, ⟨20, _⟩ => ⟨S128x960, .f32⟩
  | .local _ .vmem, ⟨21, _⟩ => ⟨S128x2560, .bf16⟩
  | .local _ .vmem, ⟨22, _⟩ => ⟨S128x2560, .bf16⟩
  | .local _ .vmem, ⟨23, _⟩ => ⟨S2560x640, .f32⟩
  | .local _ .vmem, ⟨24, _⟩ => ⟨S2560x640, .f32⟩
  | .local _ .vmem, ⟨25, _⟩ => ⟨S32x1, .f32⟩
  | .local _ .vmem, ⟨26, _⟩ => ⟨S32x1, .f32⟩
  | .local _ .vmem, ⟨27, _⟩ => ⟨S32x128, .f32⟩
  | .local _ .vmem, ⟨28, _⟩ => ⟨S32x128, .f32⟩
  | .local _ .vmem, ⟨29, _⟩ => ⟨S128x640, .f32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨2, ![1, 25], ![false, false]⟩

def k0_cond2 (i : grid0.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2560x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨2, ![1, 25], ![false, false]⟩

def k1_cond2 (i : grid1.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2560x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev grid2 : Pipeline.Grid := ⟨2, ![1, 25], ![false, false]⟩

def k2_cond2 (i : grid2.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S128x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2560x960 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev grid3 : Pipeline.Grid := ⟨2, ![2, 25], ![false, false]⟩

def k3_cond2 (i : grid3.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S128x2560 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2560x640 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S32x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S32x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bcast_S128x64_S128x1x64_0_2 : S128x64.BroadcastsInDim S128x1x64 (![0, 2] : Fin 2 → Fin S128x1x64.rank)
  bcast_S1000_S1x1000x1_1 : S1000.BroadcastsInDim S1x1000x1 (![1] : Fin 1 → Fin S1x1000x1.rank)
  bcast_S128x1x64_S128x1000x64_0_1_2 : S128x1x64.BroadcastsInDim S128x1000x64 (![0, 1, 2] : Fin 3 → Fin S128x1000x64.rank)
  bcast_S1x1000x1_S128x1000x64_0_1_2 : S1x1000x1.BroadcastsInDim S128x1000x64 (![0, 1, 2] : Fin 3 → Fin S128x1000x64.rank)
  shapeCasts_S128x1000x64_S128x64000 : S128x1000x64.ShapeCasts S128x64000
  shapeCasts_S64_S64x1 : S64.ShapeCasts S64x1
  transposes_S64x1000x5x64_S1000x64x64x5_1_3_0_2 : S64x1000x5x64.Transposes [1, 3, 0, 2] S1000x64x64x5
  shapeCasts_S1000x64x64x5_S64000x320 : S1000x64x64x5.ShapeCasts S64000x320
  inb_S128x320_S128x320_0_0 : ∀ a, (![0, 0] : Fin 2 → Nat) a + S128x320.size a ≤ S128x320.size a
  h_S128x320 : 0 < S128x320.numel
  shapeCasts_S128x320_S128x320 : S128x320.ShapeCasts S128x320
  inb_S128x2560_S128x2560_0_0 : ∀ a, (![0, 0] : Fin 2 → Nat) a + S128x2560.size a ≤ S128x2560.size a
  h_S128x2560 : 0 < S128x2560.numel
  shapeCasts_S128x2560_S128x2560 : S128x2560.ShapeCasts S128x2560
  inb_S2560x320_S2560x320_0_0 : ∀ a, (![0, 0] : Fin 2 → Nat) a + S2560x320.size a ≤ S2560x320.size a
  h_S2560x320 : 0 < S2560x320.numel
  shapeCasts_S2560x320_S2560x320 : S2560x320.ShapeCasts S2560x320
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S128x320_S128x64x5 : S128x320.ShapeCasts S128x64x5
  shapeCasts_S64x1_S1x64x1 : S64x1.ShapeCasts S1x64x1
  broadcasts_S1x64x1_S128x64x5 : S1x64x1.Broadcasts S128x64x5
  reduces_S128x64x5_S128x64 : S128x64x5.Reduces [2] S128x64
  transposes_S128x64_p1_0_S64x128 : S128x64.Transposes [1, 0] S64x128
  inb_S64x128_S64x128_0_0 : ∀ a, (![0, 0] : Fin 2 → Nat) a + S64x128.size a ≤ S64x128.size a
  h_S64x128 : 0 < S64x128.numel
  transposes_S64x128_S128x64_1_0 : S64x128.Transposes [1, 0] S128x64
  transposes_S64x1000x10x64_S1000x64x64x10_1_3_0_2 : S64x1000x10x64.Transposes [1, 3, 0, 2] S1000x64x64x10
  shapeCasts_S1000x64x64x10_S64000x640 : S1000x64x64x10.ShapeCasts S64000x640
  inb_S128x640_S128x640_0_0 : ∀ a, (![0, 0] : Fin 2 → Nat) a + S128x640.size a ≤ S128x640.size a
  h_S128x640 : 0 < S128x640.numel
  shapeCasts_S128x640_S128x640 : S128x640.ShapeCasts S128x640
  inb_S2560x640_S2560x640_0_0 : ∀ a, (![0, 0] : Fin 2 → Nat) a + S2560x640.size a ≤ S2560x640.size a
  h_S2560x640 : 0 < S2560x640.numel
  shapeCasts_S2560x640_S2560x640 : S2560x640.ShapeCasts S2560x640
  shapeCasts_S128x640_S128x64x10 : S128x640.ShapeCasts S128x64x10
  broadcasts_S1x64x1_S128x64x10 : S1x64x1.Broadcasts S128x64x10
  reduces_S128x64x10_S128x64 : S128x64x10.Reduces [2] S128x64
  transposes_S64x1000x15x64_S1000x64x64x15_1_3_0_2 : S64x1000x15x64.Transposes [1, 3, 0, 2] S1000x64x64x15
  shapeCasts_S1000x64x64x15_S64000x960 : S1000x64x64x15.ShapeCasts S64000x960
  inb_S128x960_S128x960_0_0 : ∀ a, (![0, 0] : Fin 2 → Nat) a + S128x960.size a ≤ S128x960.size a
  h_S128x960 : 0 < S128x960.numel
  shapeCasts_S128x960_S128x960 : S128x960.ShapeCasts S128x960
  inb_S2560x960_S2560x960_0_0 : ∀ a, (![0, 0] : Fin 2 → Nat) a + S2560x960.size a ≤ S2560x960.size a
  h_S2560x960 : 0 < S2560x960.numel
  shapeCasts_S2560x960_S2560x960 : S2560x960.ShapeCasts S2560x960
  shapeCasts_S128x960_S128x64x15 : S128x960.ShapeCasts S128x64x15
  broadcasts_S1x64x1_S128x64x15 : S1x64x1.Broadcasts S128x64x15
  reduces_S128x64x15_S128x64 : S128x64x15.Reduces [2] S128x64
  transposes_S64x1000x20x64_S1000x64x64x20_1_3_0_2 : S64x1000x20x64.Transposes [1, 3, 0, 2] S1000x64x64x20
  shapeCasts_S1000x64x64x20_S64000x1280 : S1000x64x64x20.ShapeCasts S64000x1280
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S128x640_S128x32x20 : S128x640.ShapeCasts S128x32x20
  shapeCasts_S32x1_S1x32x1 : S32x1.ShapeCasts S1x32x1
  broadcasts_S1x32x1_S128x32x20 : S1x32x1.Broadcasts S128x32x20
  reduces_S128x32x20_S128x32 : S128x32x20.Reduces [2] S128x32
  transposes_S128x32_p1_0_S32x128 : S128x32.Transposes [1, 0] S32x128
  inb_S32x128_S32x128_0_0 : ∀ a, (![0, 0] : Fin 2 → Nat) a + S32x128.size a ≤ S32x128.size a
  h_S32x128 : 0 < S32x128.numel
  concatenates_S128x64_S128x64_S128x64_S128x64_S128x256_d1 : Shape.Concatenates [S128x64, S128x64, S128x64, S128x64] S128x256 1
  transposes_S2x256_S256x2_1_0 : S2x256.Transposes [1, 0] S256x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S128x2560_S2560x320_S128x320_1_0_0_1_n_n_wf : DotDims.WF S128x2560 S2560x320 S128x320 [1] [0] [0] [1] [] []
  dot_S128x2560_S2560x640_S128x640_1_0_0_1_n_n_wf : DotDims.WF S128x2560 S2560x640 S128x640 [1] [0] [0] [1] [] []
  dot_S128x2560_S2560x960_S128x960_1_0_0_1_n_n_wf : DotDims.WF S128x2560 S2560x960 S128x960 [1] [0] [0] [1] [] []
  dot_S128x256_S256x2_S128x2_1_0_0_1_n_n_wf : DotDims.WF S128x256 S256x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2560.size a ≤ S128x64000.size a
  hwx0_0 : ∀ i : grid0.Coords, EltTy.bits .bf16 = 32 ∨ (Rect.block (s := S128x64000) S128x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x320.size a ≤ S64000x320.size a
  hwx0_1 : ∀ i : grid0.Coords, EltTy.bits .f32 = 32 ∨ (Rect.block (s := S64000x320) S2560x320.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2560.size a ≤ S128x64000.size a
  hwx1_0 : ∀ i : grid1.Coords, EltTy.bits .bf16 = 32 ∨ (Rect.block (s := S128x64000) S128x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x640.size a ≤ S64000x640.size a
  hwx1_1 : ∀ i : grid1.Coords, EltTy.bits .f32 = 32 ∨ (Rect.block (s := S64000x640) S2560x640.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2560.size a ≤ S128x64000.size a
  hwx2_0 : ∀ i : grid2.Coords, EltTy.bits .bf16 = 32 ∨ (Rect.block (s := S128x64000) S128x2560.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x960.size a ≤ S64000x960.size a
  hwx2_1 : ∀ i : grid2.Coords, EltTy.bits .f32 = 32 ∨ (Rect.block (s := S64000x960) S2560x960.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x2560.size a ≤ S128x64000.size a
  hwx3_0 : ∀ i : grid3.Coords, EltTy.bits .bf16 = 32 ∨ (Rect.block (s := S128x64000) S128x2560.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2560x640.size a ≤ S64000x1280.size a
  hwx3_1 : ∀ i : grid3.Coords, EltTy.bits .f32 = 32 ∨ (Rect.block (s := S64000x1280) S2560x640.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x1.size a ≤ S64x1.size a
  hwx3_2 : ∀ i : grid3.Coords, EltTy.bits .f32 = 32 ∨ (Rect.block (s := S64x1) S32x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S32x128.size a ≤ S64x128.size a
  hwx3_3 : ∀ i : grid3.Coords, EltTy.bits .f32 = 32 ∨ (Rect.block (s := S64x128) S32x128.size (cc3_transform_3 i) (hinb3_3 i)).WholeWords (EltTy.packing .f32)

variable [Facts₀]

def dot_S128x2560_S2560x320_S128x320_1_0_0_1_n_n : DotDims S128x2560 S2560x320 S128x320 where
  lhsContracting := [1]
  rhsContracting := [0]
  lhsNonContracting := [0]
  rhsNonContracting := [1]
  lhsBatch := []
  rhsBatch := []
  wf := dot_S128x2560_S2560x320_S128x320_1_0_0_1_n_n_wf
def dot_S128x2560_S2560x640_S128x640_1_0_0_1_n_n : DotDims S128x2560 S2560x640 S128x640 where
  lhsContracting := [1]
  rhsContracting := [0]
  lhsNonContracting := [0]
  rhsNonContracting := [1]
  lhsBatch := []
  rhsBatch := []
  wf := dot_S128x2560_S2560x640_S128x640_1_0_0_1_n_n_wf
def dot_S128x2560_S2560x960_S128x960_1_0_0_1_n_n : DotDims S128x2560 S2560x960 S128x960 where
  lhsContracting := [1]
  rhsContracting := [0]
  lhsNonContracting := [0]
  rhsNonContracting := [1]
  lhsBatch := []
  rhsBatch := []
  wf := dot_S128x2560_S2560x960_S128x960_1_0_0_1_n_n_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

abbrev win0_0 : Pipeline.Window sig grid0 :=
  Pipeline.Window.ofSpec (Memref.whole main_v7) S128x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2560x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S128x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2560x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x1.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S64x128.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v7) S128x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2560x960.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S64x1.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S64x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v7) S128x2560.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S2560x640.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S32x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S32x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S128x64 : Shape := ⟨2, ![128, 64]⟩
abbrev S64x1000x5x64 : Shape := ⟨4, ![64, 1000, 5, 64]⟩
abbrev S64 : Shape := ⟨1, ![64]⟩
abbrev S64x1000x10x64 : Shape := ⟨4, ![64, 1000, 10, 64]⟩
abbrev S64x1000x15x64 : Shape := ⟨4, ![64, 1000, 15, 64]⟩
abbrev S64x1000x20x64 : Shape := ⟨4, ![64, 1000, 20, 64]⟩
abbrev S2x256 : Shape := ⟨2, ![2, 256]⟩
abbrev S2 : Shape := ⟨1, ![2]⟩
abbrev S1x64 : Shape := ⟨2, ![1, 64]⟩
abbrev S_ : Shape := ⟨0, ![]⟩
abbrev S128x64x1 : Shape := ⟨3, ![128, 64, 1]⟩
abbrev S128x64x2 : Shape := ⟨3, ![128, 64, 2]⟩
abbrev S128x64x5x64 : Shape := ⟨4, ![128, 64, 5, 64]⟩
abbrev S128x5x64 : Shape := ⟨3, ![128, 5, 64]⟩
abbrev S1x1x64 : Shape := ⟨3, ![1, 1, 64]⟩
abbrev S128x64x5 : Shape := ⟨3, ![128, 64, 5]⟩
abbrev S128x64x10x64 : Shape := ⟨4, ![128, 64, 10, 64]⟩
abbrev S128x10x64 : Shape := ⟨3, ![128, 10, 64]⟩
abbrev S128x64x10 : Shape := ⟨3, ![128, 64, 10]⟩
abbrev S128x64x15x64 : Shape := ⟨4, ![128, 64, 15, 64]⟩
abbrev S128x15x64 : Shape := ⟨3, ![128, 15, 64]⟩
abbrev S128x64x15 : Shape := ⟨3, ![128, 64, 15]⟩
abbrev S128x64x20x64 : Shape := ⟨4, ![128, 64, 20, 64]⟩
abbrev S128x20x64 : Shape := ⟨3, ![128, 20, 64]⟩
abbrev S128x64x20 : Shape := ⟨3, ![128, 64, 20]⟩
abbrev S128x256 : Shape := ⟨2, ![128, 256]⟩
abbrev S256x2 : Shape := ⟨2, ![256, 2]⟩
abbrev S128x2 : Shape := ⟨2, ![128, 2]⟩
abbrev S1x2 : Shape := ⟨2, ![1, 2]⟩

abbrev nBuf : Space → Nat
  | .hbm => 177
  | .vmem => 0
  | .smem => 0
  | _ => 0

abbrev hbmTy0_0 (i : Nat) : BufTy := match i % 128 with
  | 0 => ⟨S128x64, .i32⟩
  | 1 => ⟨S64x1000x5x64, .f32⟩
  | 2 => ⟨S64, .f32⟩
  | 3 => ⟨S64x1000x10x64, .f32⟩
  | 4 => ⟨S64, .f32⟩
  | 5 => ⟨S64x1000x15x64, .f32⟩
  | 6 => ⟨S64, .f32⟩
  | 7 => ⟨S64x1000x20x64, .f32⟩
  | 8 => ⟨S64, .f32⟩
  | 9 => ⟨S2x256, .f32⟩
  | 10 => ⟨S2, .f32⟩
  | 11 => ⟨S64x1000x5x64, .f32⟩
  | 12 => ⟨S64, .i32⟩
  | 13 => ⟨S1x64, .i32⟩
  | 14 => ⟨S_, .i32⟩
  | 15 => ⟨S1x64, .i32⟩
  | 16 => ⟨S1x64, .i1⟩
  | 17 => ⟨S_, .i32⟩
  | 18 => ⟨S1x64, .i32⟩
  | 19 => ⟨S1x64, .i32⟩
  | 20 => ⟨S1x64, .i32⟩
  | 21 => ⟨S_, .i32⟩
  | 22 => ⟨S128x64, .i32⟩
  | 23 => ⟨S128x64, .i1⟩
  | 24 => ⟨S_, .i32⟩
  | 25 => ⟨S128x64, .i32⟩
  | 26 => ⟨S128x64, .i32⟩
  | 27 => ⟨S128x64, .i32⟩
  | 28 => ⟨S128x64, .i32⟩
  | 29 => ⟨S128x64x1, .i32⟩
  | 30 => ⟨S128x64x1, .i32⟩
  | 31 => ⟨S128x64x2, .i32⟩
  | 32 => ⟨S128x64x5x64, .f32⟩
  | 33 => ⟨S_, .f32⟩
  | 34 => ⟨S128x5x64, .f32⟩
  | 35 => ⟨S128x5x64, .f32⟩
  | 36 => ⟨S1x1x64, .f32⟩
  | 37 => ⟨S128x5x64, .f32⟩
  | 38 => ⟨S128x5x64, .f32⟩
  | 39 => ⟨S128x64x5, .f32⟩
  | 40 => ⟨S_, .f32⟩
  | 41 => ⟨S128x64x5, .f32⟩
  | 42 => ⟨S128x64x5, .f32⟩
  | 43 => ⟨S_, .f32⟩
  | 44 => ⟨S128x64, .f32⟩
  | 45 => ⟨S128x64, .f32⟩
  | 46 => ⟨S_, .f32⟩
  | 47 => ⟨S128x64, .f32⟩
  | 48 => ⟨S128x64, .f32⟩
  | 49 => ⟨S128x64, .f32⟩
  | 50 => ⟨S128x64, .f32⟩
  | 51 => ⟨S64x1000x10x64, .f32⟩
  | 52 => ⟨S64, .i32⟩
  | 53 => ⟨S1x64, .i32⟩
  | 54 => ⟨S_, .i32⟩
  | 55 => ⟨S1x64, .i32⟩
  | 56 => ⟨S1x64, .i1⟩
  | 57 => ⟨S_, .i32⟩
  | 58 => ⟨S1x64, .i32⟩
  | 59 => ⟨S1x64, .i32⟩
  | 60 => ⟨S1x64, .i32⟩
  | 61 => ⟨S_, .i32⟩
  | 62 => ⟨S128x64, .i32⟩
  | 63 => ⟨S128x64, .i1⟩
  | 64 => ⟨S_, .i32⟩
  | 65 => ⟨S128x64, .i32⟩
  | 66 => ⟨S128x64, .i32⟩
  | 67 => ⟨S128x64, .i32⟩
  | 68 => ⟨S128x64, .i32⟩
  | 69 => ⟨S128x64x1, .i32⟩
  | 70 => ⟨S128x64x1, .i32⟩
  | 71 => ⟨S128x64x2, .i32⟩
  | 72 => ⟨S128x64x10x64, .f32⟩
  | 73 => ⟨S_, .f32⟩
  | 74 => ⟨S128x10x64, .f32⟩
  | 75 => ⟨S128x10x64, .f32⟩
  | 76 => ⟨S1x1x64, .f32⟩
  | 77 => ⟨S128x10x64, .f32⟩
  | 78 => ⟨S128x10x64, .f32⟩
  | 79 => ⟨S128x64x10, .f32⟩
  | 80 => ⟨S_, .f32⟩
  | 81 => ⟨S128x64x10, .f32⟩
  | 82 => ⟨S128x64x10, .f32⟩
  | 83 => ⟨S_, .f32⟩
  | 84 => ⟨S128x64, .f32⟩
  | 85 => ⟨S128x64, .f32⟩
  | 86 => ⟨S_, .f32⟩
  | 87 => ⟨S128x64, .f32⟩
  | 88 => ⟨S128x64, .f32⟩
  | 89 => ⟨S128x64, .f32⟩
  | 90 => ⟨S128x64, .f32⟩
  | 91 => ⟨S64x1000x15x64, .f32⟩
  | 92 => ⟨S64, .i32⟩
  | 93 => ⟨S1x64, .i32⟩
  | 94 => ⟨S_, .i32⟩
  | 95 => ⟨S1x64, .i32⟩
  | 96 => ⟨S1x64, .i1⟩
  | 97 => ⟨S_, .i32⟩
  | 98 => ⟨S1x64, .i32⟩
  | 99 => ⟨S1x64, .i32⟩
  | 100 => ⟨S1x64, .i32⟩
  | 101 => ⟨S_, .i32⟩
  | 102 => ⟨S128x64, .i32⟩
  | 103 => ⟨S128x64, .i1⟩
  | 104 => ⟨S_, .i32⟩
  | 105 => ⟨S128x64, .i32⟩
  | 106 => ⟨S128x64, .i32⟩
  | 107 => ⟨S128x64, .i32⟩
  | 108 => ⟨S128x64, .i32⟩
  | 109 => ⟨S128x64x1, .i32⟩
  | 110 => ⟨S128x64x1, .i32⟩
  | 111 => ⟨S128x64x2, .i32⟩
  | 112 => ⟨S128x64x15x64, .f32⟩
  | 113 => ⟨S_, .f32⟩
  | 114 => ⟨S128x15x64, .f32⟩
  | 115 => ⟨S128x15x64, .f32⟩
  | 116 => ⟨S1x1x64, .f32⟩
  | 117 => ⟨S128x15x64, .f32⟩
  | 118 => ⟨S128x15x64, .f32⟩
  | 119 => ⟨S128x64x15, .f32⟩
  | 120 => ⟨S_, .f32⟩
  | 121 => ⟨S128x64x15, .f32⟩
  | 122 => ⟨S128x64x15, .f32⟩
  | 123 => ⟨S_, .f32⟩
  | 124 => ⟨S128x64, .f32⟩
  | 125 => ⟨S128x64, .f32⟩
  | 126 => ⟨S_, .f32⟩
  | 127 => ⟨S128x64, .f32⟩
  | _ => ⟨S128x64, .i32⟩

abbrev hbmTy0_1 (i : Nat) : BufTy := match i % 128 with
  | 0 => ⟨S128x64, .f32⟩
  | 1 => ⟨S128x64, .f32⟩
  | 2 => ⟨S128x64, .f32⟩
  | 3 => ⟨S64x1000x20x64, .f32⟩
  | 4 => ⟨S64, .i32⟩
  | 5 => ⟨S1x64, .i32⟩
  | 6 => ⟨S_, .i32⟩
  | 7 => ⟨S1x64, .i32⟩
  | 8 => ⟨S1x64, .i1⟩
  | 9 => ⟨S_, .i32⟩
  | 10 => ⟨S1x64, .i32⟩
  | 11 => ⟨S1x64, .i32⟩
  | 12 => ⟨S1x64, .i32⟩
  | 13 => ⟨S_, .i32⟩
  | 14 => ⟨S128x64, .i32⟩
  | 15 => ⟨S128x64, .i1⟩
  | 16 => ⟨S_, .i32⟩
  | 17 => ⟨S128x64, .i32⟩
  | 18 => ⟨S128x64, .i32⟩
  | 19 => ⟨S128x64, .i32⟩
  | 20 => ⟨S128x64, .i32⟩
  | 21 => ⟨S128x64x1, .i32⟩
  | 22 => ⟨S128x64x1, .i32⟩
  | 23 => ⟨S128x64x2, .i32⟩
  | 24 => ⟨S128x64x20x64, .f32⟩
  | 25 => ⟨S_, .f32⟩
  | 26 => ⟨S128x20x64, .f32⟩
  | 27 => ⟨S128x20x64, .f32⟩
  | 28 => ⟨S1x1x64, .f32⟩
  | 29 => ⟨S128x20x64, .f32⟩
  | 30 => ⟨S128x20x64, .f32⟩
  | 31 => ⟨S128x64x20, .f32⟩
  | 32 => ⟨S_, .f32⟩
  | 33 => ⟨S128x64x20, .f32⟩
  | 34 => ⟨S128x64x20, .f32⟩
  | 35 => ⟨S_, .f32⟩
  | 36 => ⟨S128x64, .f32⟩
  | 37 => ⟨S128x64, .f32⟩
  | 38 => ⟨S_, .f32⟩
  | 39 => ⟨S128x64, .f32⟩
  | 40 => ⟨S128x64, .f32⟩
  | 41 => ⟨S128x64, .f32⟩
  | 42 => ⟨S128x64, .f32⟩
  | 43 => ⟨S128x256, .f32⟩
  | 44 => ⟨S256x2, .f32⟩
  | 45 => ⟨S128x2, .f32⟩
  | 46 => ⟨S1x2, .f32⟩
  | 47 => ⟨S128x2, .f32⟩
  | 48 => ⟨S128x2, .f32⟩
  | _ => ⟨S128x64, .i32⟩

abbrev hbmTy (i : Nat) : BufTy := match i / 128 with
  | 0 => hbmTy0_0 i
  | 1 => hbmTy0_1 i
  | _ => ⟨S128x64, .i32⟩

abbrev bufTy : (tb : Table) → Fin (tcTables nBuf tb) → BufTy
  | .hbm, ⟨i, _⟩ => hbmTy i
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call2_cst : Ref sig .tc := ⟨.hbm, 120, rfl⟩
abbrev main_call2_v0 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_19 : Ref sig .tc := ⟨.hbm, 134, rfl⟩
abbrev main_v96 : Ref sig .tc := ⟨.hbm, 135, rfl⟩
abbrev main_v97 : Ref sig .tc := ⟨.hbm, 136, rfl⟩
abbrev main_c_20 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_21 : Ref sig .tc := ⟨.hbm, 141, rfl⟩
abbrev main_v101 : Ref sig .tc := ⟨.hbm, 142, rfl⟩
abbrev main_v102 : Ref sig .tc := ⟨.hbm, 143, rfl⟩
abbrev main_c_22 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_23 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call3_cst : Ref sig .tc := ⟨.hbm, 160, rfl⟩
abbrev main_call3_v0 : Ref sig .tc := ⟨.hbm, 161, rfl⟩
abbrev main_v117 : Ref sig .tc := ⟨.hbm, 162, rfl⟩
abbrev main_cst_24 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩

abbrev nD : Nat := 1
abbrev τ : Topo := Topo.v7x

variable {F : FTy → Type} [FloatOps F]

class Facts₀ : Prop where
  transposes_S64x1000x5x64_S64x1000x5x64_3_1_2_0 : S64x1000x5x64.Transposes [3, 1, 2, 0] S64x1000x5x64
  bcast_S64_S1x64_1 : S64.BroadcastsInDim S1x64 (![1] : Fin 1 → Fin S1x64.rank)
  bcast_S_S1x64 : S_.BroadcastsInDim S1x64 (![] : Fin 0 → Fin S1x64.rank)
  bcast_S_S128x64 : S_.BroadcastsInDim S128x64 (![] : Fin 0 → Fin S128x64.rank)
  bcast_S1x64_S128x64_0_1 : S1x64.BroadcastsInDim S128x64 (![0, 1] : Fin 2 → Fin S128x64.rank)
  bcast_S128x64_S128x64x1_0_1 : S128x64.BroadcastsInDim S128x64x1 (![0, 1] : Fin 2 → Fin S128x64x1.rank)
  concatenates_S128x64x1_S128x64x1_S128x64x2_d2 : Shape.Concatenates [S128x64x1, S128x64x1] S128x64x2 2
  reducesTo_S128x64x5x64_S128x5x64_d1 : S128x64x5x64.ReducesTo [1] S128x5x64
  h_S_ : 0 < S_.numel
  bcast_S64_S1x1x64_2 : S64.BroadcastsInDim S1x1x64 (![2] : Fin 1 → Fin S1x1x64.rank)
  bcast_S1x1x64_S128x5x64_0_1_2 : S1x1x64.BroadcastsInDim S128x5x64 (![0, 1, 2] : Fin 3 → Fin S128x5x64.rank)
  transposes_S128x5x64_S128x64x5_0_2_1 : S128x5x64.Transposes [0, 2, 1] S128x64x5
  bcast_S_S128x64x5 : S_.BroadcastsInDim S128x64x5 (![] : Fin 0 → Fin S128x64x5.rank)
  reducesTo_S128x64x5_S128x64_d2 : S128x64x5.ReducesTo [2] S128x64
  transposes_S64x1000x10x64_S64x1000x10x64_3_1_2_0 : S64x1000x10x64.Transposes [3, 1, 2, 0] S64x1000x10x64
  reducesTo_S128x64x10x64_S128x10x64_d1 : S128x64x10x64.ReducesTo [1] S128x10x64
  bcast_S1x1x64_S128x10x64_0_1_2 : S1x1x64.BroadcastsInDim S128x10x64 (![0, 1, 2] : Fin 3 → Fin S128x10x64.rank)
  transposes_S128x10x64_S128x64x10_0_2_1 : S128x10x64.Transposes [0, 2, 1] S128x64x10
  bcast_S_S128x64x10 : S_.BroadcastsInDim S128x64x10 (![] : Fin 0 → Fin S128x64x10.rank)
  reducesTo_S128x64x10_S128x64_d2 : S128x64x10.ReducesTo [2] S128x64
  transposes_S64x1000x15x64_S64x1000x15x64_3_1_2_0 : S64x1000x15x64.Transposes [3, 1, 2, 0] S64x1000x15x64
  reducesTo_S128x64x15x64_S128x15x64_d1 : S128x64x15x64.ReducesTo [1] S128x15x64
  bcast_S1x1x64_S128x15x64_0_1_2 : S1x1x64.BroadcastsInDim S128x15x64 (![0, 1, 2] : Fin 3 → Fin S128x15x64.rank)
  transposes_S128x15x64_S128x64x15_0_2_1 : S128x15x64.Transposes [0, 2, 1] S128x64x15
  bcast_S_S128x64x15 : S_.BroadcastsInDim S128x64x15 (![] : Fin 0 → Fin S128x64x15.rank)
  reducesTo_S128x64x15_S128x64_d2 : S128x64x15.ReducesTo [2] S128x64
  transposes_S64x1000x20x64_S64x1000x20x64_3_1_2_0 : S64x1000x20x64.Transposes [3, 1, 2, 0] S64x1000x20x64
  reducesTo_S128x64x20x64_S128x20x64_d1 : S128x64x20x64.ReducesTo [1] S128x20x64
  bcast_S1x1x64_S128x20x64_0_1_2 : S1x1x64.BroadcastsInDim S128x20x64 (![0, 1, 2] : Fin 3 → Fin S128x20x64.rank)
  transposes_S128x20x64_S128x64x20_0_2_1 : S128x20x64.Transposes [0, 2, 1] S128x64x20
  bcast_S_S128x64x20 : S_.BroadcastsInDim S128x64x20 (![] : Fin 0 → Fin S128x64x20.rank)
  reducesTo_S128x64x20_S128x64_d2 : S128x64x20.ReducesTo [2] S128x64
  concatenates_S128x64_S128x64_S128x64_S128x64_S128x256_d1 : Shape.Concatenates [S128x64, S128x64, S128x64, S128x64] S128x256 1
  transposes_S2x256_S256x2_1_0 : S2x256.Transposes [1, 0] S256x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S64x1000x5x64_S128x64x2_S128x64x5x64_23_01_n_n_01_2_11564_wf : GatherDims.WF S64x1000x5x64 S128x64x2 S128x64x5x64 [2, 3] [0, 1] [] [0, 1] [] 2 ![1, 1, 5, 64]
  gather_S64x1000x10x64_S128x64x2_S128x64x10x64_23_01_n_n_01_2_111064_wf : GatherDims.WF S64x1000x10x64 S128x64x2 S128x64x10x64 [2, 3] [0, 1] [] [0, 1] [] 2 ![1, 1, 10, 64]
  gather_S64x1000x15x64_S128x64x2_S128x64x15x64_23_01_n_n_01_2_111564_wf : GatherDims.WF S64x1000x15x64 S128x64x2 S128x64x15x64 [2, 3] [0, 1] [] [0, 1] [] 2 ![1, 1, 15, 64]
  gather_S64x1000x20x64_S128x64x2_S128x64x20x64_23_01_n_n_01_2_112064_wf : GatherDims.WF S64x1000x20x64 S128x64x2 S128x64x20x64 [2, 3] [0, 1] [] [0, 1] [] 2 ![1, 1, 20, 64]
  dot_S128x256_S256x2_S128x2_1_0_0_1_n_n_wf : DotDims.WF S128x256 S256x2 S128x2 [1] [0] [0] [1] [] []

variable [Facts₀]

def gather_S64x1000x5x64_S128x64x2_S128x64x5x64_23_01_n_n_01_2_11564 : GatherDims S64x1000x5x64 S128x64x2 S128x64x5x64 where
  offsetDims := [2, 3]
  collapsedSliceDims := [0, 1]
  operandBatchingDims := []
  startIndicesBatchingDims := []
  startIndexMap := [0, 1]
  indexVectorDim := 2
  sliceSizes := ![1, 1, 5, 64]
  wf := gather_S64x1000x5x64_S128x64x2_S128x64x5x64_23_01_n_n_01_2_11564_wf
def gather_S64x1000x10x64_S128x64x2_S128x64x10x64_23_01_n_n_01_2_111064 : GatherDims S64x1000x10x64 S128x64x2 S128x64x10x64 where
  offsetDims := [2, 3]
  collapsedSliceDims := [0, 1]
  operandBatchingDims := []
  startIndicesBatchingDims := []
  startIndexMap := [0, 1]
  indexVectorDim := 2
  sliceSizes := ![1, 1, 10, 64]
  wf := gather_S64x1000x10x64_S128x64x2_S128x64x10x64_23_01_n_n_01_2_111064_wf
def gather_S64x1000x15x64_S128x64x2_S128x64x15x64_23_01_n_n_01_2_111564 : GatherDims S64x1000x15x64 S128x64x2 S128x64x15x64 where
  offsetDims := [2, 3]
  collapsedSliceDims := [0, 1]
  operandBatchingDims := []
  startIndicesBatchingDims := []
  startIndexMap := [0, 1]
  indexVectorDim := 2
  sliceSizes := ![1, 1, 15, 64]
  wf := gather_S64x1000x15x64_S128x64x2_S128x64x15x64_23_01_n_n_01_2_111564_wf
def gather_S64x1000x20x64_S128x64x2_S128x64x20x64_23_01_n_n_01_2_112064 : GatherDims S64x1000x20x64 S128x64x2 S128x64x20x64 where
  offsetDims := [2, 3]
  collapsedSliceDims := [0, 1]
  operandBatchingDims := []
  startIndicesBatchingDims := []
  startIndexMap := [0, 1]
  indexVectorDim := 2
  sliceSizes := ![1, 1, 20, 64]
  wf := gather_S64x1000x20x64_S128x64x2_S128x64x20x64_23_01_n_n_01_2_112064_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

class Facts : Prop extends Facts₀ where

variable [Facts]
-- ==== Proof.KbRegs.lean ====
import proofs.«409415_j7344394076371_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.RunAll

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))
variable (pdats : (p : Fin 4) → (c : Dev nD) → Dat τ (Elt F) Unit ℕ (UR sig nD τ) ℕ (cfgs p) c)

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

variable (p : Fin 4) (wo : Fin (cfgs p).W) (V : Dev nD → Valuation τ sig (Elt F))
  (o : (c : Dev nD) → Buf (Elt F) ((c : Thread nD τ).loc (Pipeline.arrRef (cfgs p).spec wo)))

/-- What region `p`, entered at `V` and leaving `o` in the array of its window `wo`, asks of its proof data. -/
structure RegionOk : Prop where
  A : ∀ c w, (pdats p c).A w = V c (Pipeline.arrRef (cfgs p).spec w)
  body : ∀ c, BodyObligation (pdats p c) (defs₀ (F := F)) Variants.none () Set.univ
  share : ∀ c w, (pdats p c).q w = fullShare
  owed : ∀ c t, (pdats p c).owed t = 0
  recorded : ∀ c t, (pdats p c).recorded t = Set.univ
  inv_in : ∀ c, (Pipeline.ΦA (cfgs p).spec c : sProp 𝕄) ⊢ (pdats p c).Φ 0
  inv_out : ∀ c, (pdats p c).Φ (Fin.last _) ⊢ (Pipeline.ΦA (cfgs p).spec c : sProp 𝕄)
  out : ∀ c, o c = (pdats p c).arrAt wo (cfgs p).N

/-- The buffers after the region: `V` with the output array at `o`. -/
abbrev exitV (c : Dev nD) : Valuation τ sig (Elt F) := Function.update (V c) (Pipeline.arrRef (cfgs p).spec wo) (o c)

variable {m outs pdats p wo V o}

/-- Only window `wo` is written, and distinct windows have distinct arrays. -/
theorem RegionOk.hF (h : RegionOk pdats p wo V o) (win : Pipeline.WinFacts (cfgs p).spec)
    (hio : ∀ w, w ≠ wo → ((cfgs p).win w).isOut = false) (c : Dev nD) (w : Fin (cfgs p).W) :
    (pdats p c).arrAt w (cfgs p).N = exitV p wo V o c (Pipeline.arrRef (cfgs p).spec w) := by
  rcases eq_or_ne w wo with rfl | hw
  · rw [exitV, Function.update_self, h.out c]
  · exact ((pdats p c).arrAt_in w (hio w hw) _).trans ((h.A c w).trans
      (Function.update_of_ne (StableHlo.devRef_ne_of_ne (win.arr_inj.ne hw)) ..).symm)

set_option backward.isDefEq.respectTransparency.types false in
/-- Region `p` as a segment of the run, from the buffers at `V` to the buffers at `exitV`. -/
def reg (lf : Pipeline.LaunchFacts (nD := nD) (τ := τ) cfgs p) (hio : ∀ w, w ≠ wo → ((cfgs p).win w).isOut = false)
    (h : RegionOk pdats p wo V o) : RegionSeg (pcfgs (F := F)) adm pdats () defs₀ Variants.none L lv p where
  win := lf.win.to₀
  block_pos := lf.block_pos
  stage_whole := lf.stage_whole
  K := PEmpty
  osem k := k.elim
  ho := Pipeline.OwnSemFacts.none _
  hbody c := (h.body c).loose
  hwaits := Pipeline.hwaits_of_owed_zero _ _ _ _ L lv p h.owed
  pre c := iprop(StableHlo.held (c : Thread nD τ) (Pipeline.ucRefs τ sig) (V c) ∗ R c)
  post c := iprop(StableHlo.held (c : Thread nD τ) (Pipeline.ucRefs τ sig) (exitV p wo V o c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pdats lf.win lf.arr_whole c
      ((pdats p c).share_full (h.share c)) (fun b => V c b) (h.A c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.owed c 0]
      icases HO with ⟨%W, HO⟩; iexists W; isplitr; · ipureintro; exact fun _ _ => Or.inl (by rw [h.recorded c 0]; trivial)
      iexact HO
    isplitl [Hp]; · iexact Hp
    iexact Hrest
  hin c := by
    refine BIBase.Entails.trans ?_ (h.inv_in c)
    unfold Pipeline.ΦA
    iintro ⟨Hp, -, Hr⟩
    isplitl [Hr]; · iexact Hr
    iexact Hp
  hout c := by
    rw [Pipeline.ownSems0_none]
    refine (h.inv_out c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (h.share c))
      (fun b => V c b) (fun b => exitV p wo V o c b) ((pdats p c).arrAt · (cfgs p).N) (h.hF lf.win hio c)
      (fun b hb => Function.update_of_ne (StableHlo.devRef_ne_of_ne fun e =>
        hb (Finset.mem_image.mpr ⟨wo, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h.owed c (Fin.last _)]
    icases HO with ⟨%W, -, HO⟩; iexists W; iexact HO

variable (m outs pdats)

abbrev RegionOk0 := RegionOk pdats 0 3 (V1 m) (outs 2 main_v11)
abbrev RegionOk1 := RegionOk pdats 1 3 (V3 m outs) (outs 4 main_v16)
abbrev RegionOk2 := RegionOk pdats 2 3 (V5 m outs) (outs 6 main_v21)
abbrev RegionOk3 := RegionOk pdats 3 3 (V7 m outs) (outs 8 main_v26)

variable {m outs pdats}

def reg0 (h : RegionOk0 m outs pdats) := reg launch0 (by decide) h
def reg1 (h : RegionOk1 m outs pdats) := reg launch1 (by decide) h
def reg2 (h : RegionOk2 m outs pdats) := reg launch2 (by decide) h
def reg3 (h : RegionOk3 m outs pdats) := reg launch3 (by decide) h

variable (m outs pdats)

set_option backward.isDefEq.respectTransparency.types false in
theorem run_all (h0 : RegionOk0 m outs pdats) (h1 : RegionOk1 m outs pdats) (h2 : RegionOk2 m outs pdats) (h3 : RegionOk3 m outs pdats) :
    θ_run defs (onTc (τ := τ) (main (F := F))) ⟨m, fun _ => 0, ρ⟩
      (fun r => ∀ c : Dev nD, ∀ b ∈ Pipeline.ucRefs τ sig, r.2.mem ((c : Thread nD τ).1, b) = V9 m outs c b) := by
  refine Pipeline.θ_run_regions_kit_dev (pcfgs (F := F)) adm pdats () cellOf_inj emb₁ defs₀ Variants.none L lv m ρ main
    (segs m outs Variants.none L lv (fun _ c => R c) () pdats (reg0 h0) (reg1 h1) (reg2 h2) (reg3 h3))
    (fun c Q => by
      rewrite [main_chain c, Seg.run_eq_chain,
        show (segs m outs Variants.none L lv (fun _ c => R c) () pdats (reg0 h0) (reg1 h1) (reg2 h2) (reg3 h3) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V9 m outs c))
    (hch := fun c => ⟨.rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V9 m outs c b)
    (hfin := fun c s' => by
      iintro ⟨Hh, HSI⟩
      unfold StableHlo.held
      imodintro
      iapply (pointsTo_read_all (Pipeline.ucRefs τ sig) (fun b => ((c : Thread nD τ).1, b)) (V9 m outs c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_all (h0 : RegionOk0 m outs pdats) (h1 : RegionOk1 m outs pdats) (h2 : RegionOk2 m outs pdats) (h3 : RegionOk3 m outs pdats) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c (Proc.devRef .tc main_arg0) (mem_uc main_arg0 (by decide))).trans (V9_main_arg0 m outs c),
      (h c (Proc.devRef .tc main_arg1) (mem_uc main_arg1 (by decide))).trans (V9_main_arg1 m outs c),
      (h c (Proc.devRef .tc main_arg2) (mem_uc main_arg2 (by decide))).trans (V9_main_arg2 m outs c),
      (h c (Proc.devRef .tc main_arg3) (mem_uc main_arg3 (by decide))).trans (V9_main_arg3 m outs c),
      (h c (Proc.devRef .tc main_arg4) (mem_uc main_arg4 (by decide))).trans (V9_main_arg4 m outs c),
      (h c (Proc.devRef .tc main_arg5) (mem_uc main_arg5 (by decide))).trans (V9_main_arg5 m outs c),
      (h c (Proc.devRef .tc main_arg6) (mem_uc main_arg6 (by decide))).trans (V9_main_arg6 m outs c),
      (h c (Proc.devRef .tc main_arg7) (mem_uc main_arg7 (by decide))).trans (V9_main_arg7 m outs c),
      (h c (Proc.devRef .tc main_arg8) (mem_uc main_arg8 (by decide))).trans (V9_main_arg8 m outs c),
      (h c (Proc.devRef .tc main_arg9) (mem_uc main_arg9 (by decide))).trans (V9_main_arg9 m outs c),
      (h c (Proc.devRef .tc main_arg10) (mem_uc main_arg10 (by decide))).trans (V9_main_arg10 m outs c)⟩)
    (run_all m ρ outs pdats h0 h1 h2 h3)

end Cert.Kernel.RunAll

end
-- ==== Proof.KbR0Base.lean ====
import proofs.«409415_j7344394076371_2_alg».proof.Proof.Gen.Kernel.Launch
import proofs.«409415_j7344394076371_2_alg».proof.Proof.Gen.Kernel.Skeleton
import proofs.«409415_j7344394076371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in {c : Dev nD} (dat : Dat τ (Elt F) Unit ℕ (UR sig nD τ) ℕ cfg0 c) (hA : ∀ w, dat.A w = V c (Pipeline.arrRef spec0 w))
    (h0 : ∀ t, dat.after 0 t = blk V c 0 t) (h1 : ∀ t, dat.after 1 t = blk V c 1 t) (h2 : ∀ t, dat.after 2 t = blk V c 2 t) (t : Fin cfg0.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid0.Coords) : Prop :=
  (Scalar.cmpi .ne (Scalar.extui (Scalar.cmpi .eq (BitVec.ofNat 32 (i 1).val) 0#32)) 0#32) = 1#1

theorem isFirst_iff : ∀ t : Fin cfg0.N, isFirst (grid0.coords t) ↔ t.val % 25 = 0 :=
  (by decide +kernel : ∀ t : Fin grid0.N, isFirst (grid0.coords t) ↔ t.val % 25 = 0)

abbrev isLast (i : grid0.Coords) : Prop := k0_cond2 i = 1#1

theorem isLast_iff : ∀ t : Fin cfg0.N, isLast (grid0.coords t) ↔ t.val % 25 = 24 :=
  (by decide +kernel : ∀ t : Fin grid0.N, isLast (grid0.coords t) ↔ t.val % 25 = 24)

theorem live_in : ∀ t : Fin cfg0.N, cfg0.idle 0 (grid0.coords t) = false ∧ cfg0.idle 1 (grid0.coords t) = false ∧ cfg0.idle 2 (grid0.coords t) = false := by
  decide +kernel

theorem idle_out : ∀ t : Fin cfg0.N, ¬isLast (grid0.coords t) → cfg0.idle 3 (grid0.coords t) = true := by decide +kernel

theorem noflush_out : ∀ t : Fin cfg0.N, ¬isLast (grid0.coords t) → (cfg0.win 3).flush t = false := by decide +kernel

theorem live_out : ∀ t : Fin cfg0.N, isLast (grid0.coords t) → cfg0.idle 3 (grid0.coords t) = false := by decide +kernel

abbrev msSel (t : Fin cfg0.N) : Memref sig .tc .vmem S128x2560 .bf16 := win0_0.stage (cfg0.slots t 0)
abbrev msWts (t : Fin cfg0.N) : Memref sig .tc .vmem S2560x320 .f32 := win0_1.stage (cfg0.slots t 1)
abbrev msBias (t : Fin cfg0.N) : Memref sig .tc .vmem S64x1 .f32 := win0_2.stage (cfg0.slots t 2)
abbrev msOut (t : Fin cfg0.N) : Memref sig .tc .vmem S64x128 .f32 := win0_3.stage (cfg0.slots t 3)

abbrev accM : Memref sig .tc .vmem S128x320 .f32 := Memref.whole cc0_scratch0

abbrev accV : View sig .tc .vmem S128x320 .f32 := accM.view
abbrev outV : View sig .tc .vmem S64x128 .f32 := (Memref.whole cc0_stg3_0 : Memref sig .tc .vmem S64x128 .f32).view

abbrev others (c : Dev nD) : sProp 𝕄 :=
  Pipeline.scopedRestBut (Ix := Unit) (Name := ℕ) (U := UR sig nD τ) (Lvl := ℕ) (Val := Elt F) spec0 c [cc0_scratch0]

theorem entryInv_eq (c : Dev nD) :
    (Pipeline.ΦA spec0 c : sProp 𝕄)
      = iprop(iprop((∃ d, owns (c : Thread nD τ) accM fullShare d) ∗ others c) ∗ (∃ r, prngReg c r)) := by
  unfold Pipeline.ΦA
  rw [Pipeline.scopedRest_split_of_list spec0 c [cc0_scratch0] (by decide) (by decide)]
  simp only [bigSepL, accM, owns_whole]
  rfl

end Cert.Kernel.R0

end
-- ==== Proof.KbR0Run.lean ====
import proofs.«409415_j7344394076371_2_alg».proof.Proof.KbR0Base
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid0.Coords) (arg2 : Memref sig .tc .vmem S128x2560 .bf16) (harg2 : arg2.IsWhole) (arg3 : Memref sig .tc .vmem S2560x320 .f32) (harg3 : arg3.IsWhole) (arg4 : Memref sig .tc .vmem S64x1 .f32) (harg4 : arg4.IsWhole) (arg5 : Memref sig .tc .vmem S64x128 .f32) (harg5 : arg5.IsWhole) (arg6 : Memref sig .tc .vmem S128x320 .f32) (harg6 : arg6.IsWhole)
  (x0 : Vec F S128x2560 .bf16) (x1 : Vec F S2560x320 .f32) (x2 : Vec F S64x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x320 .f32) : Vec F S128x320 .f32 :=
  k0_pay2 x0 x1 (if isFirst i then k0_pay1 (F := F) else xs)

set_option maxHeartbeats 1000000 in
/-- One run of the body, whichever tile: at a last tile the accumulated sum also fills the output block. -/
theorem run (h : ¬(isFirst i ∧ isLast i)) (xs : Vec F S128x320 .f32) (xo : Vec F S64x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k0_pay3 x2 (accAfter i x0 x1 xs) else xo)
            ∗ owns (c : Thread nD τ) arg6 fullShare (accAfter i x0 x1 xs)) -∗ K ⟨⟩))
      ⊢ wp frame (wpE (defs₀ (F := F)) Variants.none c none) E (cc0__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc0__branch_kernel_eq_skeleton]; unfold cc0__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S64x128.size (by sl_kernel_rfl)), View.canon_unit_zero off0]
           simp only [View.readAt_eq_ld, Memref.IsWhole.read_unread, View.readCov_unit_zero (S := S128x320) _ off0, View.ld_unit_zero (S := S128x2560) off0, View.ld_unit_zero (S := S2560x320) off0, View.ld_unit_zero (S := S128x320) off0, View.ld_unit_zero (S := S64x1) off0])
    iexists _; isplitr
    swap; · iexact HS
    ipureintro
    sl_unfold_words
    rw [View.read_writes_eq_canon _ _ _ (View.cover_of_tiledL _ S128x320.size (by sl_kernel_rfl))]
    first | rw [View.canon_cons_unit_zero (S := S128x320) off0] | rw [View.canon_unit_zero off0]
    simp only [View.readAt_eq_ld, Memref.IsWhole.read_unread, View.readCov_unit_zero (S := S128x320) _ off0, View.ld_unit_zero (S := S128x2560) off0, View.ld_unit_zero (S := S2560x320) off0, View.ld_unit_zero (S := S128x320) off0]

end Cert.Kernel.R0

end
-- ==== Proof.KbR0Dat.lean ====
import proofs.«409415_j7344394076371_2_alg».proof.Proof.KbR0Run

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x320 .f32
  | 0 => if hn : 0 < cfg0.N then k0_pay2 (blk V c 0 ⟨0, hn⟩) (blk V c 1 ⟨0, hn⟩) (k0_pay1 (F := F)) else k0_pay1 (F := F)
  | n + 1 =>
    if hn : n + 1 < cfg0.N then
      k0_pay2 (blk V c 0 ⟨n + 1, hn⟩) (blk V c 1 ⟨n + 1, hn⟩) (if (n + 1) % 25 = 0 then k0_pay1 (F := F) else accN c n)
    else k0_pay1 (F := F)

/-- The output block after the point at position `n` (read at last tiles only). -/
def outN (c : Dev nD) (n : ℕ) : Vec F S64x128 .f32 :=
  if hn : n < cfg0.N then k0_pay3 (blk V c 2 ⟨n, hn⟩) (accN V c n) else outV.read (Elt F) outV.junk

theorem accN_first_eq (c : Dev nD) (t : Fin cfg0.N) (h0 : t.val % 25 = 0) :
    accN V c t.val = k0_pay2 (blk V c 0 t) (blk V c 1 t) (k0_pay1 (F := F)) := by
  obtain ⟨n, hn⟩ := t
  cases n with
  | zero => simp only [accN, dif_pos hn]
  | succ n => simp only [accN, dif_pos hn, if_pos h0]

theorem accN_step_eq (c : Dev nD) (t : Fin cfg0.N) (h0 : ¬t.val % 25 = 0) :
    accN V c t.val = k0_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg0.N) : outN V c t.val = k0_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec0 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec0 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg0.N) (xs : Vec F S128x320 .f32) (hx : t.val ≠ 0 → xs = accN V c (t.val - 1)) :
    accAfter (grid0.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg0.W) : (dat V c).A w = V c (Pipeline.arrRef spec0 w) := rfl
theorem after_out (c : Dev nD) (t : Fin cfg0.N) : (dat V c).after 3 t = outN V c t.val := rfl

theorem leaves_in (c : Dev nD) (t : Fin cfg0.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg0.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid0.coords t) ∧ isLast (grid0.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid0.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W0, bigSep_W0]
  exact sound_body V c t

theorem inv_in (c : Dev nD) : Pipeline.ΦA spec0 c ⊢ (dat V c).Φ 0 := Idealize.SL.BI.Entails.refl _

/-- After the last point the accumulator's contents are forgotten. -/
theorem inv_out (c : Dev nD) : (dat V c).Φ (Fin.last cfg0.N) ⊢ Pipeline.ΦA spec0 c := by
  rw [entryInv_eq]
  refine (inv_open V c cfg0.N).trans ?_
  iintro ⟨%xs, -, ⟨HS, Hoth⟩, Hg⟩
  iframe Hoth Hg
  iexists _; iexact HS

end Cert.Kernel.R0

end
-- ==== Proof.KbR1Base.lean ====
import proofs.«409415_j7344394076371_2_alg».proof.Proof.Gen.Kernel.Launch
import proofs.«409415_j7344394076371_2_alg».proof.Proof.Gen.Kernel.Skeleton
import proofs.«409415_j7344394076371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in {c : Dev nD} (dat : Dat τ (Elt F) Unit ℕ (UR sig nD τ) ℕ cfg1 c) (hA : ∀ w, dat.A w = V c (Pipeline.arrRef spec1 w))
    (h0 : ∀ t, dat.after 0 t = blk V c 0 t) (h1 : ∀ t, dat.after 1 t = blk V c 1 t) (h2 : ∀ t, dat.after 2 t = blk V c 2 t) (t : Fin cfg1.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid1.Coords) : Prop :=
  (Scalar.cmpi .ne (Scalar.extui (Scalar.cmpi .eq (BitVec.ofNat 32 (i 1).val) 0#32)) 0#32) = 1#1

theorem isFirst_iff : ∀ t : Fin cfg1.N, isFirst (grid1.coords t) ↔ t.val % 25 = 0 :=
  (by decide +kernel : ∀ t : Fin grid1.N, isFirst (grid1.coords t) ↔ t.val % 25 = 0)

abbrev isLast (i : grid1.Coords) : Prop := k1_cond2 i = 1#1

theorem isLast_iff : ∀ t : Fin cfg1.N, isLast (grid1.coords t) ↔ t.val % 25 = 24 :=
  (by decide +kernel : ∀ t : Fin grid1.N, isLast (grid1.coords t) ↔ t.val % 25 = 24)

theorem live_in : ∀ t : Fin cfg1.N, cfg1.idle 0 (grid1.coords t) = false ∧ cfg1.idle 1 (grid1.coords t) = false ∧ cfg1.idle 2 (grid1.coords t) = false := by
  decide +kernel

theorem idle_out : ∀ t : Fin cfg1.N, ¬isLast (grid1.coords t) → cfg1.idle 3 (grid1.coords t) = true := by decide +kernel

theorem noflush_out : ∀ t : Fin cfg1.N, ¬isLast (grid1.coords t) → (cfg1.win 3).flush t = false := by decide +kernel

theorem live_out : ∀ t : Fin cfg1.N, isLast (grid1.coords t) → cfg1.idle 3 (grid1.coords t) = false := by decide +kernel

abbrev msSel (t : Fin cfg1.N) : Memref sig .tc .vmem S128x2560 .bf16 := win1_0.stage (cfg1.slots t 0)
abbrev msWts (t : Fin cfg1.N) : Memref sig .tc .vmem S2560x640 .f32 := win1_1.stage (cfg1.slots t 1)
abbrev msBias (t : Fin cfg1.N) : Memref sig .tc .vmem S64x1 .f32 := win1_2.stage (cfg1.slots t 2)
abbrev msOut (t : Fin cfg1.N) : Memref sig .tc .vmem S64x128 .f32 := win1_3.stage (cfg1.slots t 3)

abbrev accM : Memref sig .tc .vmem S128x640 .f32 := Memref.whole cc1_scratch0

abbrev accV : View sig .tc .vmem S128x640 .f32 := accM.view
abbrev outV : View sig .tc .vmem S64x128 .f32 := (Memref.whole cc1_stg3_0 : Memref sig .tc .vmem S64x128 .f32).view

abbrev others (c : Dev nD) : sProp 𝕄 :=
  Pipeline.scopedRestBut (Ix := Unit) (Name := ℕ) (U := UR sig nD τ) (Lvl := ℕ) (Val := Elt F) spec1 c [cc1_scratch0]

theorem entryInv_eq (c : Dev nD) :
    (Pipeline.ΦA spec1 c : sProp 𝕄)
      = iprop(iprop((∃ d, owns (c : Thread nD τ) accM fullShare d) ∗ others c) ∗ (∃ r, prngReg c r)) := by
  unfold Pipeline.ΦA
  rw [Pipeline.scopedRest_split_of_list spec1 c [cc1_scratch0] (by decide) (by decide)]
  simp only [bigSepL, accM, owns_whole]
  rfl

end Cert.Kernel.R1

end
-- ==== Proof.KbR1Run.lean ====
import proofs.«409415_j7344394076371_2_alg».proof.Proof.KbR1Base
import Idealize.ShloMosaic.Lib.Pipeline.Value

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid1.Coords) (arg2 : Memref sig .tc .vmem S128x2560 .bf16) (harg2 : arg2.IsWhole) (arg3 : Memref sig .tc .vmem S2560x640 .f32) (harg3 : arg3.IsWhole) (arg4 : Memref sig .tc .vmem S64x1 .f32) (harg4 : arg4.IsWhole) (arg5 : Memref sig .tc .vmem S64x128 .f32) (harg5 : arg5.IsWhole) (arg6 : Memref sig .tc .vmem S128x640 .f32) (harg6 : arg6.IsWhole)
  (x0 : Vec F S128x2560 .bf16) (x1 : Vec F S2560x640 .f32) (x2 : Vec F S64x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x640 .f32) : Vec F S128x640 .f32 :=
  k1_pay2 x0 x1 (if isFirst i then k1_pay1 (F := F) else xs)

set_option maxHeartbeats 1000000 in
/-- One run of the body, whichever tile: at a last tile the accumulated sum also fills the output block. -/
theorem run (h : ¬(isFirst i ∧ isLast i)) (xs : Vec F S128x640 .f32) (xo : Vec F S64x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k1_pay3 x2 (accAfter i x0 x1 xs) else xo)
            ∗ owns (c : Thread nD τ) arg6 fullShare (accAfter i x0 x1 xs)) -∗ K ⟨⟩))
      ⊢ wp frame (wpE (defs₀ (F := F)) Variants.none c none) E (cc1__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc1__branch_kernel_eq_skeleton]; unfold cc1__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S64x128.size (by sl_kernel_rfl)), View.canon_unit_zero off0]
           simp only [View.readAt_eq_ld, Memref.IsWhole.read_unread, View.readCov_unit_zero (S := S128x640) _ off0, View.ld_unit_zero (S := S128x2560) off0, View.ld_unit_zero (S := S2560x640) off0, View.ld_unit_zero (S := S128x640) off0, View.ld_unit_zero (S := S64x1) off0])
    iexists _; isplitr
    swap; · iexact HS
    ipureintro
    sl_unfold_words
    rw [View.read_writes_eq_canon _ _ _ (View.cover_of_tiledL _ S128x640.size (by sl_kernel_rfl))]
    first | rw [View.canon_cons_unit_zero (S := S128x640) off0] | rw [View.canon_unit_zero off0]
    simp only [View.readAt_eq_ld, Memref.IsWhole.read_unread, View.readCov_unit_zero (S := S128x640) _ off0, View.ld_unit_zero (S := S128x2560) off0, View.ld_unit_zero (S := S2560x640) off0, View.ld_unit_zero (S := S128x640) off0]

end Cert.Kernel.R1

end
-- ==== Proof.KbR1Dat.lean ====
import proofs.«409415_j7344394076371_2_alg».proof.Proof.KbR1Run

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x640 .f32
  | 0 => if hn : 0 < cfg1.N then k1_pay2 (blk V c 0 ⟨0, hn⟩) (blk V c 1 ⟨0, hn⟩) (k1_pay1 (F := F)) else k1_pay1 (F := F)
  | n + 1 =>
    if hn : n + 1 < cfg1.N then
      k1_pay2 (blk V c 0 ⟨n + 1, hn⟩) (blk V c 1 ⟨n + 1, hn⟩) (if (n + 1) % 25 = 0 then k1_pay1 (F := F) else accN c n)
    else k1_pay1 (F := F)

/-- The output block after the point at position `n` (read at last tiles only). -/
def outN (c : Dev nD) (n : ℕ) : Vec F S64x128 .f32 :=
  if hn : n < cfg1.N then k1_pay3 (blk V c 2 ⟨n, hn⟩) (accN V c n) else outV.read (Elt F) outV.junk

theorem accN_first_eq (c : Dev nD) (t : Fin cfg1.N) (h0 : t.val % 25 = 0) :
    accN V c t.val = k1_pay2 (blk V c 0 t) (blk V c 1 t) (k1_pay1 (F := F)) := by
  obtain ⟨n, hn⟩ := t
  cases n with
  | zero => simp only [accN, dif_pos hn]
  | succ n => simp only [accN, dif_pos hn, if_pos h0]

theorem accN_step_eq (c : Dev nD) (t : Fin cfg1.N) (h0 : ¬t.val % 25 = 0) :
    accN V c t.val = k1_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg1.N) : outN V c t.val = k1_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec1 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec1 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg1.N) (xs : Vec F S128x640 .f32) (hx : t.val ≠ 0 → xs = accN V c (t.val - 1)) :
    accAfter (grid1.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg1.W) : (dat V c).A w = V c (Pipeline.arrRef spec1 w) := rfl
theorem after_out (c : Dev nD) (t : Fin cfg1.N) : (dat V c).after 3 t = outN V c t.val := rfl

theorem leaves_in (c : Dev nD) (t : Fin cfg1.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg1.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid1.coords t) ∧ isLast (grid1.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid1.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W1, bigSep_W1]
  exact sound_body V c t

theorem inv_in (c : Dev nD) : Pipeline.ΦA spec1 c ⊢ (dat V c).Φ 0 := Idealize.SL.BI.Entails.refl _

/-- After the last point the accumulator's contents are forgotten. -/
theorem inv_out (c : Dev nD) : (dat V c).Φ (Fin.last cfg1.N) ⊢ Pipeline.ΦA spec1 c := by
  rw [entryInv_eq]
  refine (inv_open V c cfg1.N).trans ?_
  iintro ⟨%xs, -, ⟨HS, Hoth⟩, Hg⟩
  iframe Hoth Hg
  iexists _; iexact HS

end Cert.Kernel.R1

end
-- ==== Proof.KbR2Base.lean ====
import proofs.«409415_j7344394076371_2_alg».proof.Proof.Gen.Kernel.Launch
import proofs.«409415_j7344394076371_2_alg».proof.Proof.Gen.Kernel.Skeleton
import proofs.«409415_j7344394076371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in {c : Dev nD} (dat : Dat τ (Elt F) Unit ℕ (UR sig nD τ) ℕ cfg2 c) (hA : ∀ w, dat.A w = V c (Pipeline.arrRef spec2 w))
    (h0 : ∀ t, dat.after 0 t = blk V c 0 t) (h1 : ∀ t, dat.after 1 t = blk V c 1 t) (h2 : ∀ t, dat.after 2 t = blk V c 2 t) (t : Fin cfg2.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid2.Coords) : Prop :=
  (Scalar.cmpi .ne (Scalar.extui (Scalar.cmpi .eq (BitVec.ofNat 32 (i 1).val) 0#32)) 0#32) = 1#1

theorem isFirst_iff : ∀ t : Fin cfg2.N, isFirst (grid2.coords t) ↔ t.val % 25 = 0 :=
  (by decide +kernel : ∀ t : Fin grid2.N, isFirst (grid2.coords t) ↔ t.val % 25 = 0)

abbrev isLast (i : grid2.Coords) : Prop := k2_cond2 i = 1#1

theorem isLast_iff : ∀ t : Fin cfg2.N, isLast (grid2.coords t) ↔ t.val % 25 = 24 :=
  (by decide +kernel : ∀ t : Fin grid2.N, isLast (grid2.coords t) ↔ t.val % 25 = 24)

theorem live_in : ∀ t : Fin cfg2.N, cfg2.idle 0 (grid2.coords t) = false ∧ cfg2.idle 1 (grid2.coords t) = false ∧ cfg2.idle 2 (grid2.coords t) = false := by
  decide +kernel

theorem idle_out : ∀ t : Fin cfg2.N, ¬isLast (grid2.coords t) → cfg2.idle 3 (grid2.coords t) = true := by decide +kernel

theorem noflush_out : ∀ t : Fin cfg2.N, ¬isLast (grid2.coords t) → (cfg2.win 3).flush t = false := by decide +kernel

theorem live_out : ∀ t : Fin cfg2.N, isLast (grid2.coords t) → cfg2.idle 3 (grid2.coords t) = false := by decide +kernel

abbrev msSel (t : Fin cfg2.N) : Memref sig .tc .vmem S128x2560 .bf16 := win2_0.stage (cfg2.slots t 0)
abbrev msWts (t : Fin cfg2.N) : Memref sig .tc .vmem S2560x960 .f32 := win2_1.stage (cfg2.slots t 1)
abbrev msBias (t : Fin cfg2.N) : Memref sig .tc .vmem S64x1 .f32 := win2_2.stage (cfg2.slots t 2)
abbrev msOut (t : Fin cfg2.N) : Memref sig .tc .vmem S64x128 .f32 := win2_3.stage (cfg2.slots t 3)

abbrev accM : Memref sig .tc .vmem S128x960 .f32 := Memref.whole cc2_scratch0

abbrev accV : View sig .tc .vmem S128x960 .f32 := accM.view
abbrev outV : View sig .tc .vmem S64x128 .f32 := (Memref.whole cc2_stg3_0 : Memref sig .tc .vmem S64x128 .f32).view

abbrev others (c : Dev nD) : sProp 𝕄 :=
  Pipeline.scopedRestBut (Ix := Unit) (Name := ℕ) (U := UR sig nD τ) (Lvl := ℕ) (Val := Elt F) spec2 c [cc2_scratch0]

theorem entryInv_eq (c : Dev nD) :
    (Pipeline.ΦA spec2 c : sProp 𝕄)
      = iprop(iprop((∃ d, owns (c : Thread nD τ) accM fullShare d) ∗ others c) ∗ (∃ r, prngReg c r)) := by
  unfold Pipeline.ΦA
  rw [Pipeline.scopedRest_split_of_list spec2 c [cc2_scratch0] (by decide) (by decide)]
  simp only [bigSepL, accM, owns_whole]
  rfl

end Cert.Kernel.R2

end
-- ==== Proof.KbR2Run.lean ====
import proofs.«409415_j7344394076371_2_alg».proof.Proof.KbR2Base
import Idealize.ShloMosaic.Lib.Pipeline.Value

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid2.Coords) (arg2 : Memref sig .tc .vmem S128x2560 .bf16) (harg2 : arg2.IsWhole) (arg3 : Memref sig .tc .vmem S2560x960 .f32) (harg3 : arg3.IsWhole) (arg4 : Memref sig .tc .vmem S64x1 .f32) (harg4 : arg4.IsWhole) (arg5 : Memref sig .tc .vmem S64x128 .f32) (harg5 : arg5.IsWhole) (arg6 : Memref sig .tc .vmem S128x960 .f32) (harg6 : arg6.IsWhole)
  (x0 : Vec F S128x2560 .bf16) (x1 : Vec F S2560x960 .f32) (x2 : Vec F S64x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x960 .f32) : Vec F S128x960 .f32 :=
  k2_pay2 x0 x1 (if isFirst i then k2_pay1 (F := F) else xs)

set_option maxHeartbeats 1000000 in
/-- One run of the body, whichever tile: at a last tile the accumulated sum also fills the output block. -/
theorem run (h : ¬(isFirst i ∧ isLast i)) (xs : Vec F S128x960 .f32) (xo : Vec F S64x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k2_pay3 x2 (accAfter i x0 x1 xs) else xo)
            ∗ owns (c : Thread nD τ) arg6 fullShare (accAfter i x0 x1 xs)) -∗ K ⟨⟩))
      ⊢ wp frame (wpE (defs₀ (F := F)) Variants.none c none) E (cc2__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc2__branch_kernel_eq_skeleton]; unfold cc2__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S64x128.size (by sl_kernel_rfl)), View.canon_unit_zero off0]
           simp only [View.readAt_eq_ld, Memref.IsWhole.read_unread, View.readCov_unit_zero (S := S128x960) _ off0, View.ld_unit_zero (S := S128x2560) off0, View.ld_unit_zero (S := S2560x960) off0, View.ld_unit_zero (S := S128x960) off0, View.ld_unit_zero (S := S64x1) off0])
    iexists _; isplitr
    swap; · iexact HS
    ipureintro
    sl_unfold_words
    rw [View.read_writes_eq_canon _ _ _ (View.cover_of_tiledL _ S128x960.size (by sl_kernel_rfl))]
    first | rw [View.canon_cons_unit_zero (S := S128x960) off0] | rw [View.canon_unit_zero off0]
    simp only [View.readAt_eq_ld, Memref.IsWhole.read_unread, View.readCov_unit_zero (S := S128x960) _ off0, View.ld_unit_zero (S := S128x2560) off0, View.ld_unit_zero (S := S2560x960) off0, View.ld_unit_zero (S := S128x960) off0]

end Cert.Kernel.R2

end
-- ==== Proof.KbR2Dat.lean ====
import proofs.«409415_j7344394076371_2_alg».proof.Proof.KbR2Run

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x960 .f32
  | 0 => if hn : 0 < cfg2.N then k2_pay2 (blk V c 0 ⟨0, hn⟩) (blk V c 1 ⟨0, hn⟩) (k2_pay1 (F := F)) else k2_pay1 (F := F)
  | n + 1 =>
    if hn : n + 1 < cfg2.N then
      k2_pay2 (blk V c 0 ⟨n + 1, hn⟩) (blk V c 1 ⟨n + 1, hn⟩) (if (n + 1) % 25 = 0 then k2_pay1 (F := F) else accN c n)
    else k2_pay1 (F := F)

/-- The output block after the point at position `n` (read at last tiles only). -/
def outN (c : Dev nD) (n : ℕ) : Vec F S64x128 .f32 :=
  if hn : n < cfg2.N then k2_pay3 (blk V c 2 ⟨n, hn⟩) (accN V c n) else outV.read (Elt F) outV.junk

theorem accN_first_eq (c : Dev nD) (t : Fin cfg2.N) (h0 : t.val % 25 = 0) :
    accN V c t.val = k2_pay2 (blk V c 0 t) (blk V c 1 t) (k2_pay1 (F := F)) := by
  obtain ⟨n, hn⟩ := t
  cases n with
  | zero => simp only [accN, dif_pos hn]
  | succ n => simp only [accN, dif_pos hn, if_pos h0]

theorem accN_step_eq (c : Dev nD) (t : Fin cfg2.N) (h0 : ¬t.val % 25 = 0) :
    accN V c t.val = k2_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg2.N) : outN V c t.val = k2_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec2 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec2 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg2.N) (xs : Vec F S128x960 .f32) (hx : t.val ≠ 0 → xs = accN V c (t.val - 1)) :
    accAfter (grid2.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg2.W) : (dat V c).A w = V c (Pipeline.arrRef spec2 w) := rfl
theorem after_out (c : Dev nD) (t : Fin cfg2.N) : (dat V c).after 3 t = outN V c t.val := rfl

theorem leaves_in (c : Dev nD) (t : Fin cfg2.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg2.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid2.coords t) ∧ isLast (grid2.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid2.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W2, bigSep_W2]
  exact sound_body V c t

theorem inv_in (c : Dev nD) : Pipeline.ΦA spec2 c ⊢ (dat V c).Φ 0 := Idealize.SL.BI.Entails.refl _

/-- After the last point the accumulator's contents are forgotten. -/
theorem inv_out (c : Dev nD) : (dat V c).Φ (Fin.last cfg2.N) ⊢ Pipeline.ΦA spec2 c := by
  rw [entryInv_eq]
  refine (inv_open V c cfg2.N).trans ?_
  iintro ⟨%xs, -, ⟨HS, Hoth⟩, Hg⟩
  iframe Hoth Hg
  iexists _; iexact HS

end Cert.Kernel.R2

end
-- ==== Proof.KbR3Base.lean ====
import proofs.«409415_j7344394076371_2_alg».proof.Proof.Gen.Kernel.Launch
import proofs.«409415_j7344394076371_2_alg».proof.Proof.Gen.Kernel.Skeleton
import proofs.«409415_j7344394076371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_in {c : Dev nD} (dat : Dat τ (Elt F) Unit ℕ (UR sig nD τ) ℕ cfg3 c) (hA : ∀ w, dat.A w = V c (Pipeline.arrRef spec3 w))
    (h0 : ∀ t, dat.after 0 t = blk V c 0 t) (h1 : ∀ t, dat.after 1 t = blk V c 1 t) (h2 : ∀ t, dat.after 2 t = blk V c 2 t) (t : Fin cfg3.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid3.Coords) : Prop :=
  (Scalar.cmpi .ne (Scalar.extui (Scalar.cmpi .eq (BitVec.ofNat 32 (i 1).val) 0#32)) 0#32) = 1#1

theorem isFirst_iff : ∀ t : Fin cfg3.N, isFirst (grid3.coords t) ↔ t.val % 25 = 0 :=
  (by decide +kernel : ∀ t : Fin grid3.N, isFirst (grid3.coords t) ↔ t.val % 25 = 0)

abbrev isLast (i : grid3.Coords) : Prop := k3_cond2 i = 1#1

theorem isLast_iff : ∀ t : Fin cfg3.N, isLast (grid3.coords t) ↔ t.val % 25 = 24 :=
  (by decide +kernel : ∀ t : Fin grid3.N, isLast (grid3.coords t) ↔ t.val % 25 = 24)

theorem live_in : ∀ t : Fin cfg3.N, cfg3.idle 0 (grid3.coords t) = false ∧ cfg3.idle 1 (grid3.coords t) = false ∧ cfg3.idle 2 (grid3.coords t) = false := by
  decide +kernel

theorem idle_out : ∀ t : Fin cfg3.N, ¬isLast (grid3.coords t) → cfg3.idle 3 (grid3.coords t) = true := by decide +kernel

theorem noflush_out : ∀ t : Fin cfg3.N, ¬isLast (grid3.coords t) → (cfg3.win 3).flush t = false := by decide +kernel

theorem live_out : ∀ t : Fin cfg3.N, isLast (grid3.coords t) → cfg3.idle 3 (grid3.coords t) = false := by decide +kernel

abbrev msSel (t : Fin cfg3.N) : Memref sig .tc .vmem S128x2560 .bf16 := win3_0.stage (cfg3.slots t 0)
abbrev msWts (t : Fin cfg3.N) : Memref sig .tc .vmem S2560x640 .f32 := win3_1.stage (cfg3.slots t 1)
abbrev msBias (t : Fin cfg3.N) : Memref sig .tc .vmem S32x1 .f32 := win3_2.stage (cfg3.slots t 2)
abbrev msOut (t : Fin cfg3.N) : Memref sig .tc .vmem S32x128 .f32 := win3_3.stage (cfg3.slots t 3)

abbrev accM : Memref sig .tc .vmem S128x640 .f32 := Memref.whole cc3_scratch0

abbrev accV : View sig .tc .vmem S128x640 .f32 := accM.view
abbrev outV : View sig .tc .vmem S32x128 .f32 := (Memref.whole cc3_stg3_0 : Memref sig .tc .vmem S32x128 .f32).view

abbrev others (c : Dev nD) : sProp 𝕄 :=
  Pipeline.scopedRestBut (Ix := Unit) (Name := ℕ) (U := UR sig nD τ) (Lvl := ℕ) (Val := Elt F) spec3 c [cc3_scratch0]

theorem entryInv_eq (c : Dev nD) :
    (Pipeline.ΦA spec3 c : sProp 𝕄)
      = iprop(iprop((∃ d, owns (c : Thread nD τ) accM fullShare d) ∗ others c) ∗ (∃ r, prngReg c r)) := by
  unfold Pipeline.ΦA
  rw [Pipeline.scopedRest_split_of_list spec3 c [cc3_scratch0] (by decide) (by decide)]
  simp only [bigSepL, accM, owns_whole]
  rfl

end Cert.Kernel.R3

end
-- ==== Proof.KbR3Run.lean ====
import proofs.«409415_j7344394076371_2_alg».proof.Proof.KbR3Base
import Idealize.ShloMosaic.Lib.Pipeline.Value

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid3.Coords) (arg2 : Memref sig .tc .vmem S128x2560 .bf16) (harg2 : arg2.IsWhole) (arg3 : Memref sig .tc .vmem S2560x640 .f32) (harg3 : arg3.IsWhole) (arg4 : Memref sig .tc .vmem S32x1 .f32) (harg4 : arg4.IsWhole) (arg5 : Memref sig .tc .vmem S32x128 .f32) (harg5 : arg5.IsWhole) (arg6 : Memref sig .tc .vmem S128x640 .f32) (harg6 : arg6.IsWhole)
  (x0 : Vec F S128x2560 .bf16) (x1 : Vec F S2560x640 .f32) (x2 : Vec F S32x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x640 .f32) : Vec F S128x640 .f32 :=
  k3_pay2 x0 x1 (if isFirst i then k3_pay1 (F := F) else xs)

set_option maxHeartbeats 1000000 in
/-- One run of the body, whichever tile: at a last tile the accumulated sum also fills the output block. -/
theorem run (h : ¬(isFirst i ∧ isLast i)) (xs : Vec F S128x640 .f32) (xo : Vec F S32x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k3_pay3 x2 (accAfter i x0 x1 xs) else xo)
            ∗ owns (c : Thread nD τ) arg6 fullShare (accAfter i x0 x1 xs)) -∗ K ⟨⟩))
      ⊢ wp frame (wpE (defs₀ (F := F)) Variants.none c none) E (cc3__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc3__branch_kernel_eq_skeleton]; unfold cc3__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S32x128.size (by sl_kernel_rfl)), View.canon_unit_zero off0]
           simp only [View.readAt_eq_ld, Memref.IsWhole.read_unread, View.readCov_unit_zero (S := S128x640) _ off0, View.ld_unit_zero (S := S128x2560) off0, View.ld_unit_zero (S := S2560x640) off0, View.ld_unit_zero (S := S128x640) off0, View.ld_unit_zero (S := S32x1) off0])
    iexists _; isplitr
    swap; · iexact HS
    ipureintro
    sl_unfold_words
    rw [View.read_writes_eq_canon _ _ _ (View.cover_of_tiledL _ S128x640.size (by sl_kernel_rfl))]
    first | rw [View.canon_cons_unit_zero (S := S128x640) off0] | rw [View.canon_unit_zero off0]
    simp only [View.readAt_eq_ld, Memref.IsWhole.read_unread, View.readCov_unit_zero (S := S128x640) _ off0, View.ld_unit_zero (S := S128x2560) off0, View.ld_unit_zero (S := S2560x640) off0, View.ld_unit_zero (S := S128x640) off0]

end Cert.Kernel.R3

end
-- ==== Proof.KbR3Dat.lean ====
import proofs.«409415_j7344394076371_2_alg».proof.Proof.KbR3Run

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x640 .f32
  | 0 => if hn : 0 < cfg3.N then k3_pay2 (blk V c 0 ⟨0, hn⟩) (blk V c 1 ⟨0, hn⟩) (k3_pay1 (F := F)) else k3_pay1 (F := F)
  | n + 1 =>
    if hn : n + 1 < cfg3.N then
      k3_pay2 (blk V c 0 ⟨n + 1, hn⟩) (blk V c 1 ⟨n + 1, hn⟩) (if (n + 1) % 25 = 0 then k3_pay1 (F := F) else accN c n)
    else k3_pay1 (F := F)

/-- The output block after the point at position `n` (read at last tiles only). -/
def outN (c : Dev nD) (n : ℕ) : Vec F S32x128 .f32 :=
  if hn : n < cfg3.N then k3_pay3 (blk V c 2 ⟨n, hn⟩) (accN V c n) else outV.read (Elt F) outV.junk

theorem accN_first_eq (c : Dev nD) (t : Fin cfg3.N) (h0 : t.val % 25 = 0) :
    accN V c t.val = k3_pay2 (blk V c 0 t) (blk V c 1 t) (k3_pay1 (F := F)) := by
  obtain ⟨n, hn⟩ := t
  cases n with
  | zero => simp only [accN, dif_pos hn]
  | succ n => simp only [accN, dif_pos hn, if_pos h0]

theorem accN_step_eq (c : Dev nD) (t : Fin cfg3.N) (h0 : ¬t.val % 25 = 0) :
    accN V c t.val = k3_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg3.N) : outN V c t.val = k3_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec3 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec3 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg3.N) (xs : Vec F S128x640 .f32) (hx : t.val ≠ 0 → xs = accN V c (t.val - 1)) :
    accAfter (grid3.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg3.W) : (dat V c).A w = V c (Pipeline.arrRef spec3 w) := rfl
theorem after_out (c : Dev nD) (t : Fin cfg3.N) : (dat V c).after 3 t = outN V c t.val := rfl

theorem leaves_in (c : Dev nD) (t : Fin cfg3.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg3.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid3.coords t) ∧ isLast (grid3.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid3.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W3, bigSep_W3]
  exact sound_body V c t

theorem inv_in (c : Dev nD) : Pipeline.ΦA spec3 c ⊢ (dat V c).Φ 0 := Idealize.SL.BI.Entails.refl _

/-- After the last point the accumulator's contents are forgotten. -/
theorem inv_out (c : Dev nD) : (dat V c).Φ (Fin.last cfg3.N) ⊢ Pipeline.ΦA spec3 c := by
  rw [entryInv_eq]
  refine (inv_open V c cfg3.N).trans ?_
  iintro ⟨%xs, -, ⟨HS, Hoth⟩, Hg⟩
  iframe Hoth Hg
  iexists _; iexact HS

end Cert.Kernel.R3

end
-- ==== Proof.KbInst.lean ====
import proofs.«409415_j7344394076371_2_alg».proof.Proof.KbRegs
import proofs.«409415_j7344394076371_2_alg».proof.Proof.KbR0Dat
import proofs.«409415_j7344394076371_2_alg».proof.Proof.KbR1Dat
import proofs.«409415_j7344394076371_2_alg».proof.Proof.KbR2Dat
import proofs.«409415_j7344394076371_2_alg».proof.Proof.KbR3Dat

set_option maxRecDepth 16384

noncomputable section

namespace Cert.Kernel.RunAll

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

abbrev ent0 (c : Dev nD) (b : Ref sig .tc) : Buf (Elt F) ((c : Thread nD τ).loc b) := V1 m c b

def out0 (c : Dev nD) : Buf (Elt F) ((c : Thread nD τ).loc main_v11) := (R0.dat (ent0 m) c).arrAt 3 cfg0.N

def outsA : Outs (F := F) := fun _ r c =>
  if h : r = main_v11 then h ▸ out0 m c else m ((c : Thread nD τ).loc r)

theorem outsA_at2 (c : Dev nD) : outsA m 2 main_v11 c = out0 m c := by
  unfold outsA; rw [dif_pos rfl]

theorem V3_congr (o o' : Outs (F := F)) (c : Dev nD) (h2 : o 2 main_v11 c = o' 2 main_v11 c) : V3 m o c = V3 m o' c := by
  show StableHlo.after hostOps1 (Function.update (V1 m c) _ (o 2 main_v11 c))
    = StableHlo.after hostOps1 (Function.update (V1 m c) _ (o' 2 main_v11 c))
  rw [h2]

abbrev ent1 (c : Dev nD) (b : Ref sig .tc) : Buf (Elt F) ((c : Thread nD τ).loc b) := V3 m (outsA m) c b

def out1 (c : Dev nD) : Buf (Elt F) ((c : Thread nD τ).loc main_v16) := (R1.dat (ent1 m) c).arrAt 3 cfg1.N

def outsB : Outs (F := F) := fun _ r c =>
  if h : r = main_v11 then h ▸ out0 m c
  else if h : r = main_v16 then h ▸ out1 m c
  else m ((c : Thread nD τ).loc r)

theorem outsB_at2 (c : Dev nD) : outsB m 2 main_v11 c = out0 m c := by
  unfold outsB; rw [dif_pos rfl]
theorem outsB_at4 (c : Dev nD) : outsB m 4 main_v16 c = out1 m c := by
  unfold outsB; rw [dif_neg (by decide), dif_pos rfl]

theorem V5_congr (o o' : Outs (F := F)) (c : Dev nD) (h2 : o 2 main_v11 c = o' 2 main_v11 c)
    (h4 : o 4 main_v16 c = o' 4 main_v16 c) : V5 m o c = V5 m o' c := by
  show StableHlo.after hostOps2 (Function.update (V3 m o c) _ (o 4 main_v16 c))
    = StableHlo.after hostOps2 (Function.update (V3 m o' c) _ (o' 4 main_v16 c))
  rw [V3_congr m o o' c h2, h4]

abbrev ent2 (c : Dev nD) (b : Ref sig .tc) : Buf (Elt F) ((c : Thread nD τ).loc b) := V5 m (outsB m) c b

def out2 (c : Dev nD) : Buf (Elt F) ((c : Thread nD τ).loc main_v21) := (R2.dat (ent2 m) c).arrAt 3 cfg2.N

def outsC : Outs (F := F) := fun _ r c =>
  if h : r = main_v11 then h ▸ out0 m c
  else if h : r = main_v16 then h ▸ out1 m c
  else if h : r = main_v21 then h ▸ out2 m c
  else m ((c : Thread nD τ).loc r)

theorem outsC_at2 (c : Dev nD) : outsC m 2 main_v11 c = out0 m c := by
  unfold outsC; rw [dif_pos rfl]
theorem outsC_at4 (c : Dev nD) : outsC m 4 main_v16 c = out1 m c := by
  unfold outsC; rw [dif_neg (by decide), dif_pos rfl]
theorem outsC_at6 (c : Dev nD) : outsC m 6 main_v21 c = out2 m c := by
  unfold outsC; rw [dif_neg (by decide), dif_neg (by decide), dif_pos rfl]

theorem V7_congr (o o' : Outs (F := F)) (c : Dev nD) (h2 : o 2 main_v11 c = o' 2 main_v11 c)
    (h4 : o 4 main_v16 c = o' 4 main_v16 c) (h6 : o 6 main_v21 c = o' 6 main_v21 c) : V7 m o c = V7 m o' c := by
  show StableHlo.after hostOps3 (Function.update (V5 m o c) _ (o 6 main_v21 c))
    = StableHlo.after hostOps3 (Function.update (V5 m o' c) _ (o' 6 main_v21 c))
  rw [V5_congr m o o' c h2 h4, h6]

abbrev ent3 (c : Dev nD) (b : Ref sig .tc) : Buf (Elt F) ((c : Thread nD τ).loc b) := V7 m (outsC m) c b

def out3 (c : Dev nD) : Buf (Elt F) ((c : Thread nD τ).loc main_v26) := (R3.dat (ent3 m) c).arrAt 3 cfg3.N

def outs : Outs (F := F) := fun _ r c =>
  if h : r = main_v11 then h ▸ out0 m c
  else if h : r = main_v16 then h ▸ out1 m c
  else if h : r = main_v21 then h ▸ out2 m c
  else if h : r = main_v26 then h ▸ out3 m c
  else m ((c : Thread nD τ).loc r)

theorem outs_at2 (c : Dev nD) : outs m 2 main_v11 c = out0 m c := by
  unfold outs; rw [dif_pos rfl]
theorem outs_at4 (c : Dev nD) : outs m 4 main_v16 c = out1 m c := by
  unfold outs; rw [dif_neg (by decide), dif_pos rfl]
theorem outs_at6 (c : Dev nD) : outs m 6 main_v21 c = out2 m c := by
  unfold outs; rw [dif_neg (by decide), dif_neg (by decide), dif_pos rfl]
theorem outs_at8 (c : Dev nD) : outs m 8 main_v26 c = out3 m c := by
  unfold outs; rw [dif_neg (by decide), dif_neg (by decide), dif_neg (by decide), dif_pos rfl]

theorem V3_outs (c : Dev nD) (b : Ref sig .tc) : V3 m (outs m) c b = ent1 m c b :=
  congrFun (V3_congr m (outs m) (outsA m) c ((outs_at2 m c).trans (outsA_at2 m c).symm)) b

theorem V5_outs (c : Dev nD) (b : Ref sig .tc) : V5 m (outs m) c b = ent2 m c b :=
  congrFun (V5_congr m (outs m) (outsB m) c ((outs_at2 m c).trans (outsB_at2 m c).symm)
    ((outs_at4 m c).trans (outsB_at4 m c).symm)) b

theorem V7_outs (c : Dev nD) (b : Ref sig .tc) : V7 m (outs m) c b = ent3 m c b :=
  congrFun (V7_congr m (outs m) (outsC m) c ((outs_at2 m c).trans (outsC_at2 m c).symm)
    ((outs_at4 m c).trans (outsC_at4 m c).symm) ((outs_at6 m c).trans (outsC_at6 m c).symm)) b

def pdats : (p : Fin 4) → (c : Dev nD) → Dat τ (Elt F) Unit ℕ (UR sig nD τ) ℕ (cfgs p) c
  | ⟨0, _⟩ => fun c => R0.dat (ent0 m) c
  | ⟨1, _⟩ => fun c => R1.dat (ent1 m) c
  | ⟨2, _⟩ => fun c => R2.dat (ent2 m) c
  | ⟨3, _⟩ => fun c => R3.dat (ent3 m) c
  | ⟨_ + 4, h⟩ => absurd h (Nat.not_lt.2 (Nat.le_add_left _ _))

theorem ok0 : RegionOk0 m (outs m) (pdats m) where
  A := fun c w => R0.A_eq (ent0 m) c w
  body := fun c => R0.body_obligation (ent0 m) c
  share := fun _ _ => rfl
  owed := fun _ _ => rfl
  recorded := fun _ _ => rfl
  inv_in := R0.inv_in (ent0 m)
  inv_out := R0.inv_out (ent0 m)
  out := outs_at2 m

theorem ok1 : RegionOk1 m (outs m) (pdats m) where
  A := fun c w => (R1.A_eq (ent1 m) c w).trans (V3_outs m c _).symm
  body := fun c => R1.body_obligation (ent1 m) c
  share := fun _ _ => rfl
  owed := fun _ _ => rfl
  recorded := fun _ _ => rfl
  inv_in := R1.inv_in (ent1 m)
  inv_out := R1.inv_out (ent1 m)
  out := outs_at4 m

theorem ok2 : RegionOk2 m (outs m) (pdats m) where
  A := fun c w => (R2.A_eq (ent2 m) c w).trans (V5_outs m c _).symm
  body := fun c => R2.body_obligation (ent2 m) c
  share := fun _ _ => rfl
  owed := fun _ _ => rfl
  recorded := fun _ _ => rfl
  inv_in := R2.inv_in (ent2 m)
  inv_out := R2.inv_out (ent2 m)
  out := outs_at6 m

theorem ok3 : RegionOk3 m (outs m) (pdats m) where
  A := fun c w => (R3.A_eq (ent3 m) c w).trans (V7_outs m c _).symm
  body := fun c => R3.body_obligation (ent3 m) c
  share := fun _ _ => rfl
  owed := fun _ _ => rfl
  recorded := fun _ _ => rfl
  inv_in := R3.inv_in (ent3 m)
  inv_out := R3.inv_out (ent3 m)
  out := outs_at8 m

end Cert.Kernel.RunAll

end
-- ==== Proof.KiRegs.lean ====
import proofs.«409415_j7344394076371_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))
variable (pdats : (p : Fin 4) → (c : Dev nD) → Dat τ (Elt F) Unit ℕ (UR sig nD τ) ℕ (cfgs p) c)

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

variable (p : Fin 4) (wo : Fin (cfgs p).W) (V : Dev nD → Valuation τ sig (Elt F))
  (o : (c : Dev nD) → Buf (Elt F) ((c : Thread nD τ).loc (Pipeline.arrRef (cfgs p).spec wo)))

/-- What region `p`, entered at `V` and leaving `o` in the array of its window `wo`, asks of its proof data. -/
structure RegionOk : Prop where
  A : ∀ c w, (pdats p c).A w = V c (Pipeline.arrRef (cfgs p).spec w)
  body : ∀ c, BodyObligation (pdats p c) (defs₀ (F := F)) Variants.none () Set.univ
  share : ∀ c w, (pdats p c).q w = fullShare
  owed : ∀ c t, (pdats p c).owed t = 0
  recorded : ∀ c t, (pdats p c).recorded t = Set.univ
  inv_in : ∀ c, (Pipeline.ΦA (cfgs p).spec c : sProp 𝕄) ⊢ (pdats p c).Φ 0
  inv_out : ∀ c, (pdats p c).Φ (Fin.last _) ⊢ (Pipeline.ΦA (cfgs p).spec c : sProp 𝕄)
  out : ∀ c, o c = (pdats p c).arrAt wo (cfgs p).N

/-- The buffers after the region: `V` with the output array at `o`. -/
abbrev exitV (c : Dev nD) : Valuation τ sig (Elt F) := Function.update (V c) (Pipeline.arrRef (cfgs p).spec wo) (o c)

variable {m outs pdats p wo V o}

/-- Only window `wo` is written, and distinct windows have distinct arrays. -/
theorem RegionOk.hF (h : RegionOk pdats p wo V o) (win : Pipeline.WinFacts (cfgs p).spec)
    (hio : ∀ w, w ≠ wo → ((cfgs p).win w).isOut = false) (c : Dev nD) (w : Fin (cfgs p).W) :
    (pdats p c).arrAt w (cfgs p).N = exitV p wo V o c (Pipeline.arrRef (cfgs p).spec w) := by
  rcases eq_or_ne w wo with rfl | hw
  · rw [exitV, Function.update_self, h.out c]
  · exact ((pdats p c).arrAt_in w (hio w hw) _).trans ((h.A c w).trans
      (Function.update_of_ne (StableHlo.devRef_ne_of_ne (win.arr_inj.ne hw)) ..).symm)

set_option backward.isDefEq.respectTransparency.types false in
/-- Region `p` as a segment of the run, from the buffers at `V` to the buffers at `exitV`. -/
def reg (lf : Pipeline.LaunchFacts (nD := nD) (τ := τ) cfgs p) (hio : ∀ w, w ≠ wo → ((cfgs p).win w).isOut = false)
    (h : RegionOk pdats p wo V o) : RegionSeg (pcfgs (F := F)) adm pdats () defs₀ Variants.none L lv p where
  win := lf.win.to₀
  block_pos := lf.block_pos
  stage_whole := lf.stage_whole
  K := PEmpty
  osem k := k.elim
  ho := Pipeline.OwnSemFacts.none _
  hbody c := (h.body c).loose
  hwaits := Pipeline.hwaits_of_owed_zero _ _ _ _ L lv p h.owed
  pre c := iprop(StableHlo.held (c : Thread nD τ) (Pipeline.ucRefs τ sig) (V c) ∗ R c)
  post c := iprop(StableHlo.held (c : Thread nD τ) (Pipeline.ucRefs τ sig) (exitV p wo V o c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pdats lf.win lf.arr_whole c
      ((pdats p c).share_full (h.share c)) (fun b => V c b) (h.A c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.owed c 0]
      icases HO with ⟨%W, HO⟩; iexists W; isplitr; · ipureintro; exact fun _ _ => Or.inl (by rw [h.recorded c 0]; trivial)
      iexact HO
    isplitl [Hp]; · iexact Hp
    iexact Hrest
  hin c := by
    refine BIBase.Entails.trans ?_ (h.inv_in c)
    unfold Pipeline.ΦA
    iintro ⟨Hp, -, Hr⟩
    isplitl [Hr]; · iexact Hr
    iexact Hp
  hout c := by
    rw [Pipeline.ownSems0_none]
    refine (h.inv_out c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (h.share c))
      (fun b => V c b) (fun b => exitV p wo V o c b) ((pdats p c).arrAt · (cfgs p).N) (h.hF lf.win hio c)
      (fun b hb => Function.update_of_ne (StableHlo.devRef_ne_of_ne fun e =>
        hb (Finset.mem_image.mpr ⟨wo, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h.owed c (Fin.last _)]
    icases HO with ⟨%W, -, HO⟩; iexists W; iexact HO

variable (m outs pdats)

abbrev RegionOk0 := RegionOk pdats 0 3 (V1 m) (outs 2 main_v11)
abbrev RegionOk1 := RegionOk pdats 1 3 (V3 m outs) (outs 4 main_v16)
abbrev RegionOk2 := RegionOk pdats 2 3 (V5 m outs) (outs 6 main_v21)
abbrev RegionOk3 := RegionOk pdats 3 3 (V7 m outs) (outs 8 main_v26)

variable {m outs pdats}

def reg0 (h : RegionOk0 m outs pdats) := reg launch0 (by decide) h
def reg1 (h : RegionOk1 m outs pdats) := reg launch1 (by decide) h
def reg2 (h : RegionOk2 m outs pdats) := reg launch2 (by decide) h
def reg3 (h : RegionOk3 m outs pdats) := reg launch3 (by decide) h

variable (m outs pdats)

set_option backward.isDefEq.respectTransparency.types false in
theorem run_all (h0 : RegionOk0 m outs pdats) (h1 : RegionOk1 m outs pdats) (h2 : RegionOk2 m outs pdats) (h3 : RegionOk3 m outs pdats) :
    θ_run defs (onTc (τ := τ) (main (F := F))) ⟨m, fun _ => 0, ρ⟩
      (fun r => ∀ c : Dev nD, ∀ b ∈ Pipeline.ucRefs τ sig, r.2.mem ((c : Thread nD τ).1, b) = V9 m outs c b) := by
  refine Pipeline.θ_run_regions_kit_dev (pcfgs (F := F)) adm pdats () cellOf_inj emb₁ defs₀ Variants.none L lv m ρ main
    (segs m outs Variants.none L lv (fun _ c => R c) () pdats (reg0 h0) (reg1 h1) (reg2 h2) (reg3 h3))
    (fun c Q => by
      rewrite [main_chain c, Seg.run_eq_chain,
        show (segs m outs Variants.none L lv (fun _ c => R c) () pdats (reg0 h0) (reg1 h1) (reg2 h2) (reg3 h3) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V9 m outs c))
    (hch := fun c => ⟨.rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V9 m outs c b)
    (hfin := fun c s' => by
      iintro ⟨Hh, HSI⟩
      unfold StableHlo.held
      imodintro
      iapply (pointsTo_read_all (Pipeline.ucRefs τ sig) (fun b => ((c : Thread nD τ).1, b)) (V9 m outs c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_all (h0 : RegionOk0 m outs pdats) (h1 : RegionOk1 m outs pdats) (h2 : RegionOk2 m outs pdats) (h3 : RegionOk3 m outs pdats) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c (Proc.devRef .tc main_arg0) (mem_uc main_arg0 (by decide))).trans (V9_main_arg0 m outs c),
      (h c (Proc.devRef .tc main_arg1) (mem_uc main_arg1 (by decide))).trans (V9_main_arg1 m outs c),
      (h c (Proc.devRef .tc main_arg2) (mem_uc main_arg2 (by decide))).trans (V9_main_arg2 m outs c),
      (h c (Proc.devRef .tc main_arg3) (mem_uc main_arg3 (by decide))).trans (V9_main_arg3 m outs c),
      (h c (Proc.devRef .tc main_arg4) (mem_uc main_arg4 (by decide))).trans (V9_main_arg4 m outs c),
      (h c (Proc.devRef .tc main_arg5) (mem_uc main_arg5 (by decide))).trans (V9_main_arg5 m outs c),
      (h c (Proc.devRef .tc main_arg6) (mem_uc main_arg6 (by decide))).trans (V9_main_arg6 m outs c),
      (h c (Proc.devRef .tc main_arg7) (mem_uc main_arg7 (by decide))).trans (V9_main_arg7 m outs c),
      (h c (Proc.devRef .tc main_arg8) (mem_uc main_arg8 (by decide))).trans (V9_main_arg8 m outs c),
      (h c (Proc.devRef .tc main_arg9) (mem_uc main_arg9 (by decide))).trans (V9_main_arg9 m outs c),
      (h c (Proc.devRef .tc main_arg10) (mem_uc main_arg10 (by decide))).trans (V9_main_arg10 m outs c)⟩)
    (run_all m ρ outs pdats h0 h1 h2 h3)

end Cert.KernelIdeal.RunAll

end
-- ==== Proof.KiR0Base.lean ====
import proofs.«409415_j7344394076371_2_alg».proof.Proof.Gen.KernelIdeal.Launch
import proofs.«409415_j7344394076371_2_alg».proof.Proof.Gen.KernelIdeal.Skeleton
import proofs.«409415_j7344394076371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in {c : Dev nD} (dat : Dat τ (Elt F) Unit ℕ (UR sig nD τ) ℕ cfg0 c) (hA : ∀ w, dat.A w = V c (Pipeline.arrRef spec0 w))
    (h0 : ∀ t, dat.after 0 t = blk V c 0 t) (h1 : ∀ t, dat.after 1 t = blk V c 1 t) (h2 : ∀ t, dat.after 2 t = blk V c 2 t) (t : Fin cfg0.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid0.Coords) : Prop :=
  (Scalar.cmpi .ne (Scalar.extui (Scalar.cmpi .eq (BitVec.ofNat 32 (i 1).val) 0#32)) 0#32) = 1#1

theorem isFirst_iff : ∀ t : Fin cfg0.N, isFirst (grid0.coords t) ↔ t.val % 25 = 0 :=
  (by decide +kernel : ∀ t : Fin grid0.N, isFirst (grid0.coords t) ↔ t.val % 25 = 0)

abbrev isLast (i : grid0.Coords) : Prop := k0_cond2 i = 1#1

theorem isLast_iff : ∀ t : Fin cfg0.N, isLast (grid0.coords t) ↔ t.val % 25 = 24 :=
  (by decide +kernel : ∀ t : Fin grid0.N, isLast (grid0.coords t) ↔ t.val % 25 = 24)

theorem live_in : ∀ t : Fin cfg0.N, cfg0.idle 0 (grid0.coords t) = false ∧ cfg0.idle 1 (grid0.coords t) = false ∧ cfg0.idle 2 (grid0.coords t) = false := by
  decide +kernel

theorem idle_out : ∀ t : Fin cfg0.N, ¬isLast (grid0.coords t) → cfg0.idle 3 (grid0.coords t) = true := by decide +kernel

theorem noflush_out : ∀ t : Fin cfg0.N, ¬isLast (grid0.coords t) → (cfg0.win 3).flush t = false := by decide +kernel

theorem live_out : ∀ t : Fin cfg0.N, isLast (grid0.coords t) → cfg0.idle 3 (grid0.coords t) = false := by decide +kernel

abbrev msSel (t : Fin cfg0.N) : Memref sig .tc .vmem S128x2560 .bf16 := win0_0.stage (cfg0.slots t 0)
abbrev msWts (t : Fin cfg0.N) : Memref sig .tc .vmem S2560x320 .f32 := win0_1.stage (cfg0.slots t 1)
abbrev msBias (t : Fin cfg0.N) : Memref sig .tc .vmem S64x1 .f32 := win0_2.stage (cfg0.slots t 2)
abbrev msOut (t : Fin cfg0.N) : Memref sig .tc .vmem S64x128 .f32 := win0_3.stage (cfg0.slots t 3)

abbrev accM : Memref sig .tc .vmem S128x320 .f32 := Memref.whole cc0_scratch0

abbrev accV : View sig .tc .vmem S128x320 .f32 := accM.view
abbrev outV : View sig .tc .vmem S64x128 .f32 := (Memref.whole cc0_stg3_0 : Memref sig .tc .vmem S64x128 .f32).view

abbrev others (c : Dev nD) : sProp 𝕄 :=
  Pipeline.scopedRestBut (Ix := Unit) (Name := ℕ) (U := UR sig nD τ) (Lvl := ℕ) (Val := Elt F) spec0 c [cc0_scratch0]

theorem entryInv_eq (c : Dev nD) :
    (Pipeline.ΦA spec0 c : sProp 𝕄)
      = iprop(iprop((∃ d, owns (c : Thread nD τ) accM fullShare d) ∗ others c) ∗ (∃ r, prngReg c r)) := by
  unfold Pipeline.ΦA
  rw [Pipeline.scopedRest_split_of_list spec0 c [cc0_scratch0] (by decide) (by decide)]
  simp only [bigSepL, accM, owns_whole]
  rfl

end Cert.KernelIdeal.R0

end
-- ==== Proof.KiR0Run.lean ====
import proofs.«409415_j7344394076371_2_alg».proof.Proof.KiR0Base
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid0.Coords) (arg2 : Memref sig .tc .vmem S128x2560 .bf16) (harg2 : arg2.IsWhole) (arg3 : Memref sig .tc .vmem S2560x320 .f32) (harg3 : arg3.IsWhole) (arg4 : Memref sig .tc .vmem S64x1 .f32) (harg4 : arg4.IsWhole) (arg5 : Memref sig .tc .vmem S64x128 .f32) (harg5 : arg5.IsWhole) (arg6 : Memref sig .tc .vmem S128x320 .f32) (harg6 : arg6.IsWhole)
  (x0 : Vec F S128x2560 .bf16) (x1 : Vec F S2560x320 .f32) (x2 : Vec F S64x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x320 .f32) : Vec F S128x320 .f32 :=
  k0_pay2 x0 x1 (if isFirst i then k0_pay1 (F := F) else xs)

set_option maxHeartbeats 1000000 in
/-- One run of the body, whichever tile: at a last tile the accumulated sum also fills the output block. -/
theorem run (h : ¬(isFirst i ∧ isLast i)) (xs : Vec F S128x320 .f32) (xo : Vec F S64x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k0_pay3 x2 (accAfter i x0 x1 xs) else xo)
            ∗ owns (c : Thread nD τ) arg6 fullShare (accAfter i x0 x1 xs)) -∗ K ⟨⟩))
      ⊢ wp frame (wpE (defs₀ (F := F)) Variants.none c none) E (cc0__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc0__branch_kernel_eq_skeleton]; unfold cc0__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S64x128.size (by sl_kernel_rfl)), View.canon_unit_zero off0]
           simp only [View.readAt_eq_ld, Memref.IsWhole.read_unread, View.readCov_unit_zero (S := S128x320) _ off0, View.ld_unit_zero (S := S128x2560) off0, View.ld_unit_zero (S := S2560x320) off0, View.ld_unit_zero (S := S128x320) off0, View.ld_unit_zero (S := S64x1) off0])
    iexists _; isplitr
    swap; · iexact HS
    ipureintro
    sl_unfold_words
    rw [View.read_writes_eq_canon _ _ _ (View.cover_of_tiledL _ S128x320.size (by sl_kernel_rfl))]
    first | rw [View.canon_cons_unit_zero (S := S128x320) off0] | rw [View.canon_unit_zero off0]
    simp only [View.readAt_eq_ld, Memref.IsWhole.read_unread, View.readCov_unit_zero (S := S128x320) _ off0, View.ld_unit_zero (S := S128x2560) off0, View.ld_unit_zero (S := S2560x320) off0, View.ld_unit_zero (S := S128x320) off0]

end Cert.KernelIdeal.R0

end
-- ==== Proof.KiR0Dat.lean ====
import proofs.«409415_j7344394076371_2_alg».proof.Proof.KiR0Run

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x320 .f32
  | 0 => if hn : 0 < cfg0.N then k0_pay2 (blk V c 0 ⟨0, hn⟩) (blk V c 1 ⟨0, hn⟩) (k0_pay1 (F := F)) else k0_pay1 (F := F)
  | n + 1 =>
    if hn : n + 1 < cfg0.N then
      k0_pay2 (blk V c 0 ⟨n + 1, hn⟩) (blk V c 1 ⟨n + 1, hn⟩) (if (n + 1) % 25 = 0 then k0_pay1 (F := F) else accN c n)
    else k0_pay1 (F := F)

/-- The output block after the point at position `n` (read at last tiles only). -/
def outN (c : Dev nD) (n : ℕ) : Vec F S64x128 .f32 :=
  if hn : n < cfg0.N then k0_pay3 (blk V c 2 ⟨n, hn⟩) (accN V c n) else outV.read (Elt F) outV.junk

theorem accN_first_eq (c : Dev nD) (t : Fin cfg0.N) (h0 : t.val % 25 = 0) :
    accN V c t.val = k0_pay2 (blk V c 0 t) (blk V c 1 t) (k0_pay1 (F := F)) := by
  obtain ⟨n, hn⟩ := t
  cases n with
  | zero => simp only [accN, dif_pos hn]
  | succ n => simp only [accN, dif_pos hn, if_pos h0]

theorem accN_step_eq (c : Dev nD) (t : Fin cfg0.N) (h0 : ¬t.val % 25 = 0) :
    accN V c t.val = k0_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg0.N) : outN V c t.val = k0_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec0 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec0 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg0.N) (xs : Vec F S128x320 .f32) (hx : t.val ≠ 0 → xs = accN V c (t.val - 1)) :
    accAfter (grid0.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg0.W) : (dat V c).A w = V c (Pipeline.arrRef spec0 w) := rfl
theorem after_out (c : Dev nD) (t : Fin cfg0.N) : (dat V c).after 3 t = outN V c t.val := rfl

theorem leaves_in (c : Dev nD) (t : Fin cfg0.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg0.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid0.coords t) ∧ isLast (grid0.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid0.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W0, bigSep_W0]
  exact sound_body V c t

theorem inv_in (c : Dev nD) : Pipeline.ΦA spec0 c ⊢ (dat V c).Φ 0 := Idealize.SL.BI.Entails.refl _

/-- After the last point the accumulator's contents are forgotten. -/
theorem inv_out (c : Dev nD) : (dat V c).Φ (Fin.last cfg0.N) ⊢ Pipeline.ΦA spec0 c := by
  rw [entryInv_eq]
  refine (inv_open V c cfg0.N).trans ?_
  iintro ⟨%xs, -, ⟨HS, Hoth⟩, Hg⟩
  iframe Hoth Hg
  iexists _; iexact HS

end Cert.KernelIdeal.R0

end
-- ==== Proof.KiR1Base.lean ====
import proofs.«409415_j7344394076371_2_alg».proof.Proof.Gen.KernelIdeal.Launch
import proofs.«409415_j7344394076371_2_alg».proof.Proof.Gen.KernelIdeal.Skeleton
import proofs.«409415_j7344394076371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in {c : Dev nD} (dat : Dat τ (Elt F) Unit ℕ (UR sig nD τ) ℕ cfg1 c) (hA : ∀ w, dat.A w = V c (Pipeline.arrRef spec1 w))
    (h0 : ∀ t, dat.after 0 t = blk V c 0 t) (h1 : ∀ t, dat.after 1 t = blk V c 1 t) (h2 : ∀ t, dat.after 2 t = blk V c 2 t) (t : Fin cfg1.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid1.Coords) : Prop :=
  (Scalar.cmpi .ne (Scalar.extui (Scalar.cmpi .eq (BitVec.ofNat 32 (i 1).val) 0#32)) 0#32) = 1#1

theorem isFirst_iff : ∀ t : Fin cfg1.N, isFirst (grid1.coords t) ↔ t.val % 25 = 0 :=
  (by decide +kernel : ∀ t : Fin grid1.N, isFirst (grid1.coords t) ↔ t.val % 25 = 0)

abbrev isLast (i : grid1.Coords) : Prop := k1_cond2 i = 1#1

theorem isLast_iff : ∀ t : Fin cfg1.N, isLast (grid1.coords t) ↔ t.val % 25 = 24 :=
  (by decide +kernel : ∀ t : Fin grid1.N, isLast (grid1.coords t) ↔ t.val % 25 = 24)

theorem live_in : ∀ t : Fin cfg1.N, cfg1.idle 0 (grid1.coords t) = false ∧ cfg1.idle 1 (grid1.coords t) = false ∧ cfg1.idle 2 (grid1.coords t) = false := by
  decide +kernel

theorem idle_out : ∀ t : Fin cfg1.N, ¬isLast (grid1.coords t) → cfg1.idle 3 (grid1.coords t) = true := by decide +kernel

theorem noflush_out : ∀ t : Fin cfg1.N, ¬isLast (grid1.coords t) → (cfg1.win 3).flush t = false := by decide +kernel

theorem live_out : ∀ t : Fin cfg1.N, isLast (grid1.coords t) → cfg1.idle 3 (grid1.coords t) = false := by decide +kernel

abbrev msSel (t : Fin cfg1.N) : Memref sig .tc .vmem S128x2560 .bf16 := win1_0.stage (cfg1.slots t 0)
abbrev msWts (t : Fin cfg1.N) : Memref sig .tc .vmem S2560x640 .f32 := win1_1.stage (cfg1.slots t 1)
abbrev msBias (t : Fin cfg1.N) : Memref sig .tc .vmem S64x1 .f32 := win1_2.stage (cfg1.slots t 2)
abbrev msOut (t : Fin cfg1.N) : Memref sig .tc .vmem S64x128 .f32 := win1_3.stage (cfg1.slots t 3)

abbrev accM : Memref sig .tc .vmem S128x640 .f32 := Memref.whole cc1_scratch0

abbrev accV : View sig .tc .vmem S128x640 .f32 := accM.view
abbrev outV : View sig .tc .vmem S64x128 .f32 := (Memref.whole cc1_stg3_0 : Memref sig .tc .vmem S64x128 .f32).view

abbrev others (c : Dev nD) : sProp 𝕄 :=
  Pipeline.scopedRestBut (Ix := Unit) (Name := ℕ) (U := UR sig nD τ) (Lvl := ℕ) (Val := Elt F) spec1 c [cc1_scratch0]

theorem entryInv_eq (c : Dev nD) :
    (Pipeline.ΦA spec1 c : sProp 𝕄)
      = iprop(iprop((∃ d, owns (c : Thread nD τ) accM fullShare d) ∗ others c) ∗ (∃ r, prngReg c r)) := by
  unfold Pipeline.ΦA
  rw [Pipeline.scopedRest_split_of_list spec1 c [cc1_scratch0] (by decide) (by decide)]
  simp only [bigSepL, accM, owns_whole]
  rfl

end Cert.KernelIdeal.R1

end
-- ==== Proof.KiR1Run.lean ====
import proofs.«409415_j7344394076371_2_alg».proof.Proof.KiR1Base
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid1.Coords) (arg2 : Memref sig .tc .vmem S128x2560 .bf16) (harg2 : arg2.IsWhole) (arg3 : Memref sig .tc .vmem S2560x640 .f32) (harg3 : arg3.IsWhole) (arg4 : Memref sig .tc .vmem S64x1 .f32) (harg4 : arg4.IsWhole) (arg5 : Memref sig .tc .vmem S64x128 .f32) (harg5 : arg5.IsWhole) (arg6 : Memref sig .tc .vmem S128x640 .f32) (harg6 : arg6.IsWhole)
  (x0 : Vec F S128x2560 .bf16) (x1 : Vec F S2560x640 .f32) (x2 : Vec F S64x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x640 .f32) : Vec F S128x640 .f32 :=
  k1_pay2 x0 x1 (if isFirst i then k1_pay1 (F := F) else xs)

set_option maxHeartbeats 1000000 in
/-- One run of the body, whichever tile: at a last tile the accumulated sum also fills the output block. -/
theorem run (h : ¬(isFirst i ∧ isLast i)) (xs : Vec F S128x640 .f32) (xo : Vec F S64x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k1_pay3 x2 (accAfter i x0 x1 xs) else xo)
            ∗ owns (c : Thread nD τ) arg6 fullShare (accAfter i x0 x1 xs)) -∗ K ⟨⟩))
      ⊢ wp frame (wpE (defs₀ (F := F)) Variants.none c none) E (cc1__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc1__branch_kernel_eq_skeleton]; unfold cc1__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S64x128.size (by sl_kernel_rfl)), View.canon_unit_zero off0]
           simp only [View.readAt_eq_ld, Memref.IsWhole.read_unread, View.readCov_unit_zero (S := S128x640) _ off0, View.ld_unit_zero (S := S128x2560) off0, View.ld_unit_zero (S := S2560x640) off0, View.ld_unit_zero (S := S128x640) off0, View.ld_unit_zero (S := S64x1) off0])
    iexists _; isplitr
    swap; · iexact HS
    ipureintro
    sl_unfold_words
    rw [View.read_writes_eq_canon _ _ _ (View.cover_of_tiledL _ S128x640.size (by sl_kernel_rfl))]
    first | rw [View.canon_cons_unit_zero (S := S128x640) off0] | rw [View.canon_unit_zero off0]
    simp only [View.readAt_eq_ld, Memref.IsWhole.read_unread, View.readCov_unit_zero (S := S128x640) _ off0, View.ld_unit_zero (S := S128x2560) off0, View.ld_unit_zero (S := S2560x640) off0, View.ld_unit_zero (S := S128x640) off0]

end Cert.KernelIdeal.R1

end
-- ==== Proof.KiR1Dat.lean ====
import proofs.«409415_j7344394076371_2_alg».proof.Proof.KiR1Run

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x640 .f32
  | 0 => if hn : 0 < cfg1.N then k1_pay2 (blk V c 0 ⟨0, hn⟩) (blk V c 1 ⟨0, hn⟩) (k1_pay1 (F := F)) else k1_pay1 (F := F)
  | n + 1 =>
    if hn : n + 1 < cfg1.N then
      k1_pay2 (blk V c 0 ⟨n + 1, hn⟩) (blk V c 1 ⟨n + 1, hn⟩) (if (n + 1) % 25 = 0 then k1_pay1 (F := F) else accN c n)
    else k1_pay1 (F := F)

/-- The output block after the point at position `n` (read at last tiles only). -/
def outN (c : Dev nD) (n : ℕ) : Vec F S64x128 .f32 :=
  if hn : n < cfg1.N then k1_pay3 (blk V c 2 ⟨n, hn⟩) (accN V c n) else outV.read (Elt F) outV.junk

theorem accN_first_eq (c : Dev nD) (t : Fin cfg1.N) (h0 : t.val % 25 = 0) :
    accN V c t.val = k1_pay2 (blk V c 0 t) (blk V c 1 t) (k1_pay1 (F := F)) := by
  obtain ⟨n, hn⟩ := t
  cases n with
  | zero => simp only [accN, dif_pos hn]
  | succ n => simp only [accN, dif_pos hn, if_pos h0]

theorem accN_step_eq (c : Dev nD) (t : Fin cfg1.N) (h0 : ¬t.val % 25 = 0) :
    accN V c t.val = k1_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg1.N) : outN V c t.val = k1_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec1 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec1 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg1.N) (xs : Vec F S128x640 .f32) (hx : t.val ≠ 0 → xs = accN V c (t.val - 1)) :
    accAfter (grid1.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg1.W) : (dat V c).A w = V c (Pipeline.arrRef spec1 w) := rfl
theorem after_out (c : Dev nD) (t : Fin cfg1.N) : (dat V c).after 3 t = outN V c t.val := rfl

theorem leaves_in (c : Dev nD) (t : Fin cfg1.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg1.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid1.coords t) ∧ isLast (grid1.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid1.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W1, bigSep_W1]
  exact sound_body V c t

theorem inv_in (c : Dev nD) : Pipeline.ΦA spec1 c ⊢ (dat V c).Φ 0 := Idealize.SL.BI.Entails.refl _

/-- After the last point the accumulator's contents are forgotten. -/
theorem inv_out (c : Dev nD) : (dat V c).Φ (Fin.last cfg1.N) ⊢ Pipeline.ΦA spec1 c := by
  rw [entryInv_eq]
  refine (inv_open V c cfg1.N).trans ?_
  iintro ⟨%xs, -, ⟨HS, Hoth⟩, Hg⟩
  iframe Hoth Hg
  iexists _; iexact HS

end Cert.KernelIdeal.R1

end
-- ==== Proof.KiR2Base.lean ====
import proofs.«409415_j7344394076371_2_alg».proof.Proof.Gen.KernelIdeal.Launch
import proofs.«409415_j7344394076371_2_alg».proof.Proof.Gen.KernelIdeal.Skeleton
import proofs.«409415_j7344394076371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_in {c : Dev nD} (dat : Dat τ (Elt F) Unit ℕ (UR sig nD τ) ℕ cfg2 c) (hA : ∀ w, dat.A w = V c (Pipeline.arrRef spec2 w))
    (h0 : ∀ t, dat.after 0 t = blk V c 0 t) (h1 : ∀ t, dat.after 1 t = blk V c 1 t) (h2 : ∀ t, dat.after 2 t = blk V c 2 t) (t : Fin cfg2.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid2.Coords) : Prop :=
  (Scalar.cmpi .ne (Scalar.extui (Scalar.cmpi .eq (BitVec.ofNat 32 (i 1).val) 0#32)) 0#32) = 1#1

theorem isFirst_iff : ∀ t : Fin cfg2.N, isFirst (grid2.coords t) ↔ t.val % 25 = 0 :=
  (by decide +kernel : ∀ t : Fin grid2.N, isFirst (grid2.coords t) ↔ t.val % 25 = 0)

abbrev isLast (i : grid2.Coords) : Prop := k2_cond2 i = 1#1

theorem isLast_iff : ∀ t : Fin cfg2.N, isLast (grid2.coords t) ↔ t.val % 25 = 24 :=
  (by decide +kernel : ∀ t : Fin grid2.N, isLast (grid2.coords t) ↔ t.val % 25 = 24)

theorem live_in : ∀ t : Fin cfg2.N, cfg2.idle 0 (grid2.coords t) = false ∧ cfg2.idle 1 (grid2.coords t) = false ∧ cfg2.idle 2 (grid2.coords t) = false := by
  decide +kernel

theorem idle_out : ∀ t : Fin cfg2.N, ¬isLast (grid2.coords t) → cfg2.idle 3 (grid2.coords t) = true := by decide +kernel

theorem noflush_out : ∀ t : Fin cfg2.N, ¬isLast (grid2.coords t) → (cfg2.win 3).flush t = false := by decide +kernel

theorem live_out : ∀ t : Fin cfg2.N, isLast (grid2.coords t) → cfg2.idle 3 (grid2.coords t) = false := by decide +kernel

abbrev msSel (t : Fin cfg2.N) : Memref sig .tc .vmem S128x2560 .bf16 := win2_0.stage (cfg2.slots t 0)
abbrev msWts (t : Fin cfg2.N) : Memref sig .tc .vmem S2560x960 .f32 := win2_1.stage (cfg2.slots t 1)
abbrev msBias (t : Fin cfg2.N) : Memref sig .tc .vmem S64x1 .f32 := win2_2.stage (cfg2.slots t 2)
abbrev msOut (t : Fin cfg2.N) : Memref sig .tc .vmem S64x128 .f32 := win2_3.stage (cfg2.slots t 3)

abbrev accM : Memref sig .tc .vmem S128x960 .f32 := Memref.whole cc2_scratch0

abbrev accV : View sig .tc .vmem S128x960 .f32 := accM.view
abbrev outV : View sig .tc .vmem S64x128 .f32 := (Memref.whole cc2_stg3_0 : Memref sig .tc .vmem S64x128 .f32).view

abbrev others (c : Dev nD) : sProp 𝕄 :=
  Pipeline.scopedRestBut (Ix := Unit) (Name := ℕ) (U := UR sig nD τ) (Lvl := ℕ) (Val := Elt F) spec2 c [cc2_scratch0]

theorem entryInv_eq (c : Dev nD) :
    (Pipeline.ΦA spec2 c : sProp 𝕄)
      = iprop(iprop((∃ d, owns (c : Thread nD τ) accM fullShare d) ∗ others c) ∗ (∃ r, prngReg c r)) := by
  unfold Pipeline.ΦA
  rw [Pipeline.scopedRest_split_of_list spec2 c [cc2_scratch0] (by decide) (by decide)]
  simp only [bigSepL, accM, owns_whole]
  rfl

end Cert.KernelIdeal.R2

end
-- ==== Proof.KiR2Run.lean ====
import proofs.«409415_j7344394076371_2_alg».proof.Proof.KiR2Base
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid2.Coords) (arg2 : Memref sig .tc .vmem S128x2560 .bf16) (harg2 : arg2.IsWhole) (arg3 : Memref sig .tc .vmem S2560x960 .f32) (harg3 : arg3.IsWhole) (arg4 : Memref sig .tc .vmem S64x1 .f32) (harg4 : arg4.IsWhole) (arg5 : Memref sig .tc .vmem S64x128 .f32) (harg5 : arg5.IsWhole) (arg6 : Memref sig .tc .vmem S128x960 .f32) (harg6 : arg6.IsWhole)
  (x0 : Vec F S128x2560 .bf16) (x1 : Vec F S2560x960 .f32) (x2 : Vec F S64x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x960 .f32) : Vec F S128x960 .f32 :=
  k2_pay2 x0 x1 (if isFirst i then k2_pay1 (F := F) else xs)

set_option maxHeartbeats 1000000 in
/-- One run of the body, whichever tile: at a last tile the accumulated sum also fills the output block. -/
theorem run (h : ¬(isFirst i ∧ isLast i)) (xs : Vec F S128x960 .f32) (xo : Vec F S64x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k2_pay3 x2 (accAfter i x0 x1 xs) else xo)
            ∗ owns (c : Thread nD τ) arg6 fullShare (accAfter i x0 x1 xs)) -∗ K ⟨⟩))
      ⊢ wp frame (wpE (defs₀ (F := F)) Variants.none c none) E (cc2__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc2__branch_kernel_eq_skeleton]; unfold cc2__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S64x128.size (by sl_kernel_rfl)), View.canon_unit_zero off0]
           simp only [View.readAt_eq_ld, Memref.IsWhole.read_unread, View.readCov_unit_zero (S := S128x960) _ off0, View.ld_unit_zero (S := S128x2560) off0, View.ld_unit_zero (S := S2560x960) off0, View.ld_unit_zero (S := S128x960) off0, View.ld_unit_zero (S := S64x1) off0])
    iexists _; isplitr
    swap; · iexact HS
    ipureintro
    sl_unfold_words
    rw [View.read_writes_eq_canon _ _ _ (View.cover_of_tiledL _ S128x960.size (by sl_kernel_rfl))]
    first | rw [View.canon_cons_unit_zero (S := S128x960) off0] | rw [View.canon_unit_zero off0]
    simp only [View.readAt_eq_ld, Memref.IsWhole.read_unread, View.readCov_unit_zero (S := S128x960) _ off0, View.ld_unit_zero (S := S128x2560) off0, View.ld_unit_zero (S := S2560x960) off0, View.ld_unit_zero (S := S128x960) off0]

end Cert.KernelIdeal.R2

end
-- ==== Proof.KiR2Dat.lean ====
import proofs.«409415_j7344394076371_2_alg».proof.Proof.KiR2Run

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x960 .f32
  | 0 => if hn : 0 < cfg2.N then k2_pay2 (blk V c 0 ⟨0, hn⟩) (blk V c 1 ⟨0, hn⟩) (k2_pay1 (F := F)) else k2_pay1 (F := F)
  | n + 1 =>
    if hn : n + 1 < cfg2.N then
      k2_pay2 (blk V c 0 ⟨n + 1, hn⟩) (blk V c 1 ⟨n + 1, hn⟩) (if (n + 1) % 25 = 0 then k2_pay1 (F := F) else accN c n)
    else k2_pay1 (F := F)

/-- The output block after the point at position `n` (read at last tiles only). -/
def outN (c : Dev nD) (n : ℕ) : Vec F S64x128 .f32 :=
  if hn : n < cfg2.N then k2_pay3 (blk V c 2 ⟨n, hn⟩) (accN V c n) else outV.read (Elt F) outV.junk

theorem accN_first_eq (c : Dev nD) (t : Fin cfg2.N) (h0 : t.val % 25 = 0) :
    accN V c t.val = k2_pay2 (blk V c 0 t) (blk V c 1 t) (k2_pay1 (F := F)) := by
  obtain ⟨n, hn⟩ := t
  cases n with
  | zero => simp only [accN, dif_pos hn]
  | succ n => simp only [accN, dif_pos hn, if_pos h0]

theorem accN_step_eq (c : Dev nD) (t : Fin cfg2.N) (h0 : ¬t.val % 25 = 0) :
    accN V c t.val = k2_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg2.N) : outN V c t.val = k2_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec2 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec2 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg2.N) (xs : Vec F S128x960 .f32) (hx : t.val ≠ 0 → xs = accN V c (t.val - 1)) :
    accAfter (grid2.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg2.W) : (dat V c).A w = V c (Pipeline.arrRef spec2 w) := rfl
theorem after_out (c : Dev nD) (t : Fin cfg2.N) : (dat V c).after 3 t = outN V c t.val := rfl

theorem leaves_in (c : Dev nD) (t : Fin cfg2.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg2.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid2.coords t) ∧ isLast (grid2.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid2.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W2, bigSep_W2]
  exact sound_body V c t

theorem inv_in (c : Dev nD) : Pipeline.ΦA spec2 c ⊢ (dat V c).Φ 0 := Idealize.SL.BI.Entails.refl _

/-- After the last point the accumulator's contents are forgotten. -/
theorem inv_out (c : Dev nD) : (dat V c).Φ (Fin.last cfg2.N) ⊢ Pipeline.ΦA spec2 c := by
  rw [entryInv_eq]
  refine (inv_open V c cfg2.N).trans ?_
  iintro ⟨%xs, -, ⟨HS, Hoth⟩, Hg⟩
  iframe Hoth Hg
  iexists _; iexact HS

end Cert.KernelIdeal.R2

end
-- ==== Proof.KiR3Base.lean ====
import proofs.«409415_j7344394076371_2_alg».proof.Proof.Gen.KernelIdeal.Launch
import proofs.«409415_j7344394076371_2_alg».proof.Proof.Gen.KernelIdeal.Skeleton
import proofs.«409415_j7344394076371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_in {c : Dev nD} (dat : Dat τ (Elt F) Unit ℕ (UR sig nD τ) ℕ cfg3 c) (hA : ∀ w, dat.A w = V c (Pipeline.arrRef spec3 w))
    (h0 : ∀ t, dat.after 0 t = blk V c 0 t) (h1 : ∀ t, dat.after 1 t = blk V c 1 t) (h2 : ∀ t, dat.after 2 t = blk V c 2 t) (t : Fin cfg3.N) :
    (∀ d, dat.before 0 t d = blk V c 0 t) ∧ (∀ d, dat.before 1 t d = blk V c 1 t) ∧ (∀ d, dat.before 2 t d = blk V c 2 t) := by
  refine ⟨fun d => ?_, fun d => ?_, fun d => ?_⟩ <;>
    exact (dat.before_in_eq_fetched _ rfl (fun _ => rfl) (fun _ _ _ => rfl)
      (fun t => by (first | rw [h0] | rw [h1] | rw [h2]); unfold Dat.blockOf blk; rw [hA]; try rfl) t d).trans
      (by unfold Dat.fetched Dat.blockOf blk; rw [hA]; try rfl)

abbrev isFirst (i : grid3.Coords) : Prop :=
  (Scalar.cmpi .ne (Scalar.extui (Scalar.cmpi .eq (BitVec.ofNat 32 (i 1).val) 0#32)) 0#32) = 1#1

theorem isFirst_iff : ∀ t : Fin cfg3.N, isFirst (grid3.coords t) ↔ t.val % 25 = 0 :=
  (by decide +kernel : ∀ t : Fin grid3.N, isFirst (grid3.coords t) ↔ t.val % 25 = 0)

abbrev isLast (i : grid3.Coords) : Prop := k3_cond2 i = 1#1

theorem isLast_iff : ∀ t : Fin cfg3.N, isLast (grid3.coords t) ↔ t.val % 25 = 24 :=
  (by decide +kernel : ∀ t : Fin grid3.N, isLast (grid3.coords t) ↔ t.val % 25 = 24)

theorem live_in : ∀ t : Fin cfg3.N, cfg3.idle 0 (grid3.coords t) = false ∧ cfg3.idle 1 (grid3.coords t) = false ∧ cfg3.idle 2 (grid3.coords t) = false := by
  decide +kernel

theorem idle_out : ∀ t : Fin cfg3.N, ¬isLast (grid3.coords t) → cfg3.idle 3 (grid3.coords t) = true := by decide +kernel

theorem noflush_out : ∀ t : Fin cfg3.N, ¬isLast (grid3.coords t) → (cfg3.win 3).flush t = false := by decide +kernel

theorem live_out : ∀ t : Fin cfg3.N, isLast (grid3.coords t) → cfg3.idle 3 (grid3.coords t) = false := by decide +kernel

abbrev msSel (t : Fin cfg3.N) : Memref sig .tc .vmem S128x2560 .bf16 := win3_0.stage (cfg3.slots t 0)
abbrev msWts (t : Fin cfg3.N) : Memref sig .tc .vmem S2560x640 .f32 := win3_1.stage (cfg3.slots t 1)
abbrev msBias (t : Fin cfg3.N) : Memref sig .tc .vmem S32x1 .f32 := win3_2.stage (cfg3.slots t 2)
abbrev msOut (t : Fin cfg3.N) : Memref sig .tc .vmem S32x128 .f32 := win3_3.stage (cfg3.slots t 3)

abbrev accM : Memref sig .tc .vmem S128x640 .f32 := Memref.whole cc3_scratch0

abbrev accV : View sig .tc .vmem S128x640 .f32 := accM.view
abbrev outV : View sig .tc .vmem S32x128 .f32 := (Memref.whole cc3_stg3_0 : Memref sig .tc .vmem S32x128 .f32).view

abbrev others (c : Dev nD) : sProp 𝕄 :=
  Pipeline.scopedRestBut (Ix := Unit) (Name := ℕ) (U := UR sig nD τ) (Lvl := ℕ) (Val := Elt F) spec3 c [cc3_scratch0]

theorem entryInv_eq (c : Dev nD) :
    (Pipeline.ΦA spec3 c : sProp 𝕄)
      = iprop(iprop((∃ d, owns (c : Thread nD τ) accM fullShare d) ∗ others c) ∗ (∃ r, prngReg c r)) := by
  unfold Pipeline.ΦA
  rw [Pipeline.scopedRest_split_of_list spec3 c [cc3_scratch0] (by decide) (by decide)]
  simp only [bigSepL, accM, owns_whole]
  rfl

end Cert.KernelIdeal.R3

end
-- ==== Proof.KiR3Run.lean ====
import proofs.«409415_j7344394076371_2_alg».proof.Proof.KiR3Base
import Idealize.ShloMosaic.Lib.Pipeline.Value

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → Nat) = fun _ => 0 := funext fun a => by fin_cases a <;> rfl

variable (c : Dev nD) (i : grid3.Coords) (arg2 : Memref sig .tc .vmem S128x2560 .bf16) (harg2 : arg2.IsWhole) (arg3 : Memref sig .tc .vmem S2560x640 .f32) (harg3 : arg3.IsWhole) (arg4 : Memref sig .tc .vmem S32x1 .f32) (harg4 : arg4.IsWhole) (arg5 : Memref sig .tc .vmem S32x128 .f32) (harg5 : arg5.IsWhole) (arg6 : Memref sig .tc .vmem S128x640 .f32) (harg6 : arg6.IsWhole)
  (x0 : Vec F S128x2560 .bf16) (x1 : Vec F S2560x640 .f32) (x2 : Vec F S32x1 .f32)

/-- The three input blocks, held whole at their contents. -/
abbrev ins : sProp 𝕄 :=
  iprop(owns (c : Thread nD τ) arg2 fullShare x0 ∗ owns (c : Thread nD τ) arg3 fullShare x1 ∗ owns (c : Thread nD τ) arg4 fullShare x2)

/-- What a point leaves in the accumulator: the tile's product added to zero at a first tile, else to what was there. -/
abbrev accAfter (xs : Vec F S128x640 .f32) : Vec F S128x640 .f32 :=
  k3_pay2 x0 x1 (if isFirst i then k3_pay1 (F := F) else xs)

set_option maxHeartbeats 1000000 in
/-- One run of the body, whichever tile: at a last tile the accumulated sum also fills the output block. -/
theorem run (h : ¬(isFirst i ∧ isLast i)) (xs : Vec F S128x640 .f32) (xo : Vec F S32x128 .f32) (E : Set ℕ) (K : PUnit → sProp 𝕄) :
    iprop(ins c arg2 arg3 arg4 x0 x1 x2 ∗ owns (c : Thread nD τ) arg5 fullShare xo ∗ owns (c : Thread nD τ) arg6 fullShare xs
        ∗ (iprop(ins c arg2 arg3 arg4 x0 x1 x2
            ∗ owns (c : Thread nD τ) arg5 fullShare (if isLast i then k3_pay3 x2 (accAfter i x0 x1 xs) else xo)
            ∗ owns (c : Thread nD τ) arg6 fullShare (accAfter i x0 x1 xs)) -∗ K ⟨⟩))
      ⊢ wp frame (wpE (defs₀ (F := F)) Variants.none c none) E (cc3__branch_kernel i arg2 harg2 arg3 harg3 arg4 harg4 arg5 harg5 arg6 harg6) K := by
  by_cases hc0 : isFirst i <;> by_cases hc1 : isLast i
  · exact absurd ⟨hc0, hc1⟩ h
  all_goals
    unfold accAfter
    (first | rw [if_pos hc0] | rw [if_neg hc0]); (first | rw [if_pos hc1] | rw [if_neg hc1])
    simp only [cc3__branch_kernel_eq_skeleton]; unfold cc3__branch_kernel_skel
    unfold ins owns
    iintro ⟨⟨⟨%f0, %hf0, H0⟩, ⟨%f1, %hf1, H1⟩, ⟨%f2, %hf2, H2⟩⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0 H1 H2]
    · isplitl [H0]; · iexists _; isplitr; · ipureintro; exact hf0
                      iexact H0
      isplitl [H1]; · iexists _; isplitr; · ipureintro; exact hf1
                      iexact H1
      iexists _; isplitr; · ipureintro; exact hf2
      iexact H2
    isplitl [H3]
    · iexists _; isplitr
      swap; · iexact H3
      ipureintro
      first
        | exact hf3
        | (sl_unfold_words
           rw [View.read_writes_eq_canon _ _ _ (View.cover_of_tiledL _ S32x128.size (by sl_kernel_rfl)), View.canon_unit_zero off0]
           simp only [View.readAt_eq_ld, Memref.IsWhole.read_unread, View.readCov_unit_zero (S := S128x640) _ off0, View.ld_unit_zero (S := S128x2560) off0, View.ld_unit_zero (S := S2560x640) off0, View.ld_unit_zero (S := S128x640) off0, View.ld_unit_zero (S := S32x1) off0])
    iexists _; isplitr
    swap; · iexact HS
    ipureintro
    sl_unfold_words
    rw [View.read_writes_eq_canon _ _ _ (View.cover_of_tiledL _ S128x640.size (by sl_kernel_rfl))]
    first | rw [View.canon_cons_unit_zero (S := S128x640) off0] | rw [View.canon_unit_zero off0]
    simp only [View.readAt_eq_ld, Memref.IsWhole.read_unread, View.readCov_unit_zero (S := S128x640) _ off0, View.ld_unit_zero (S := S128x2560) off0, View.ld_unit_zero (S := S2560x640) off0, View.ld_unit_zero (S := S128x640) off0]

end Cert.KernelIdeal.R3

end
-- ==== Proof.KiR3Dat.lean ====
import proofs.«409415_j7344394076371_2_alg».proof.Proof.KiR3Run

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the tile's product added to zero at a first tile, else to what position `n − 1` left. -/
def accN (c : Dev nD) : ℕ → Vec F S128x640 .f32
  | 0 => if hn : 0 < cfg3.N then k3_pay2 (blk V c 0 ⟨0, hn⟩) (blk V c 1 ⟨0, hn⟩) (k3_pay1 (F := F)) else k3_pay1 (F := F)
  | n + 1 =>
    if hn : n + 1 < cfg3.N then
      k3_pay2 (blk V c 0 ⟨n + 1, hn⟩) (blk V c 1 ⟨n + 1, hn⟩) (if (n + 1) % 25 = 0 then k3_pay1 (F := F) else accN c n)
    else k3_pay1 (F := F)

/-- The output block after the point at position `n` (read at last tiles only). -/
def outN (c : Dev nD) (n : ℕ) : Vec F S32x128 .f32 :=
  if hn : n < cfg3.N then k3_pay3 (blk V c 2 ⟨n, hn⟩) (accN V c n) else outV.read (Elt F) outV.junk

theorem accN_first_eq (c : Dev nD) (t : Fin cfg3.N) (h0 : t.val % 25 = 0) :
    accN V c t.val = k3_pay2 (blk V c 0 t) (blk V c 1 t) (k3_pay1 (F := F)) := by
  obtain ⟨n, hn⟩ := t
  cases n with
  | zero => simp only [accN, dif_pos hn]
  | succ n => simp only [accN, dif_pos hn, if_pos h0]

theorem accN_step_eq (c : Dev nD) (t : Fin cfg3.N) (h0 : ¬t.val % 25 = 0) :
    accN V c t.val = k3_pay2 (blk V c 0 t) (blk V c 1 t) (accN V c (t.val - 1)) := by
  obtain ⟨n, hn⟩ := t
  cases n with
  | zero => exact absurd (Nat.zero_mod _) h0
  | succ n => simp only [accN, dif_pos hn, if_neg h0, Nat.add_sub_cancel]

theorem outN_eq (c : Dev nD) (t : Fin cfg3.N) : outN V c t.val = k3_pay3 (blk V c 2 t) (accN V c t.val) := by
  simp only [outN, dif_pos t.isLt]

/-- Before position `n`: at the start the entry invariant; afterwards the accumulator at what position `n − 1` left. -/
def inv (c : Dev nD) : ℕ → sProp 𝕄
  | 0 => Pipeline.ΦA spec3 c
  | n + 1 => iprop(iprop(owns (c : Thread nD τ) accM fullShare (accN V c n) ∗ others c) ∗ (∃ r, prngReg c r))

theorem inv_pos (c : Dev nD) (n : ℕ) (hz : n ≠ 0) :
    inv V c n = iprop(iprop(owns (c : Thread nD τ) accM fullShare (accN V c (n - 1)) ∗ others c) ∗ (∃ r, prngReg c r)) := by
  cases n with
  | zero => exact absurd rfl hz
  | succ n => rfl

/-- At any position the invariant holds the accumulator: at what the position before left, or at anything at the start. -/
theorem inv_open (c : Dev nD) (n : ℕ) :
    inv V c n ⊢ iprop(∃ xs, ⌜n ≠ 0 → xs = accN V c (n - 1)⌝
      ∗ iprop(iprop(owns (c : Thread nD τ) accM fullShare xs ∗ others c) ∗ (∃ r, prngReg c r))) := by
  cases n with
  | zero =>
    rw [show inv V c 0 = Pipeline.ΦA spec3 c from rfl, entryInv_eq]
    iintro ⟨⟨⟨%d, HS⟩, Hoth⟩, Hg⟩
    iexists d; isplitr; · ipureintro; exact fun h => absurd rfl h
    iframe
  | succ n =>
    rw [inv_pos V c _ (Nat.succ_ne_zero n)]
    iintro H
    iexists _; isplitr; · ipureintro; exact fun _ => rfl
    iexact H

/-- What a run leaves is the accumulator after its point, whatever was there before a first tile. -/
theorem accAfter_eq (c : Dev nD) (t : Fin cfg3.N) (xs : Vec F S128x640 .f32) (hx : t.val ≠ 0 → xs = accN V c (t.val - 1)) :
    accAfter (grid3.coords t) (blk V c 0 t) (blk V c 1 t) xs = accN V c t.val := by
  unfold accAfter
  by_cases h0 : t.val % 25 = 0
  · rw [if_pos ((isFirst_iff t).mpr h0), accN_first_eq V c t h0]
  · rw [if_neg (fun h => h0 ((isFirst_iff t).mp h)), accN_step_eq V c t h0, hx (fun h => h0 (by rw [h]))]

def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => outN V c t.val
  Φ t := inv V c t.val
  q _ := fullShare
  owed _ := 0

theorem A_eq (c : Dev nD) (w : Fin cfg3.W) : (dat V c).A w = V c (Pipeline.arrRef spec3 w) := rfl
theorem after_out (c : Dev nD) (t : Fin cfg3.N) : (dat V c).after 3 t = outN V c t.val := rfl

theorem leaves_in (c : Dev nD) (t : Fin cfg3.N) :
    (dat V c).leavesExact 0 t = owns (c : Thread nD τ) (msSel t) fullShare (blk V c 0 t)
      ∧ (dat V c).leavesExact 1 t = owns (c : Thread nD τ) (msWts t) fullShare (blk V c 1 t)
      ∧ (dat V c).leavesExact 2 t = owns (c : Thread nD τ) (msBias t) fullShare (blk V c 2 t) := by
  obtain ⟨e0, e1, e2⟩ := live_in t
  refine ⟨?_, ?_, ?_⟩ <;> unfold Dat.leavesExact <;> (first | rw [e0] | rw [e1] | rw [e2]) <;> rfl

def bodyPre (c : Dev nD) (t : Fin cfg3.N) : sProp 𝕄 :=
  iprop((dat V c).Φ t.castSucc ∗ (dat V c).owesAt () t.castSucc
    ∗ (∃ d, owns (c : Thread nD τ) (msSel t) fullShare ((dat V c).before 0 t d))
    ∗ (∃ d, owns (c : Thread nD τ) (msWts t) fullShare ((dat V c).before 1 t d))
    ∗ (∃ d, owns (c : Thread nD τ) (msBias t) fullShare ((dat V c).before 2 t d))
    ∗ (∃ d, owns (c : Thread nD τ) (msOut t) fullShare ((dat V c).before 3 t d)))

def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point is one run; before the last tile the output block passes through untouched. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  have hb := before_in V (dat V c) (fun _ => rfl) (fun _ => rfl) (fun _ => rfl) (fun _ => rfl) t
  simp only [hb.1, hb.2.1, hb.2.2]
  rw [show (dat V c).owesAt () t.succ = (dat V c).owesAt () t.castSucc from rfl,
    show (dat V c).Φ t.succ = iprop(iprop(owns (c : Thread nD τ) accM fullShare (accN V c t.val) ∗ others c) ∗ (∃ r, prngReg c r)) from rfl,
    show (dat V c).Φ t.castSucc = inv V c t.val from rfl, (leaves_in V c t).1, (leaves_in V c t).2.1, (leaves_in V c t).2.2]
  have h3 : ¬(isFirst (grid3.coords t) ∧ isLast (grid3.coords t)) := fun ⟨a, b⟩ => by
    have := (isFirst_iff t).mp a; have := (isLast_iff t).mp b; omega
  iintro ⟨Hinv, Ho, ⟨%d0, H0⟩, ⟨%d1, H1⟩, ⟨%d2, H2⟩, ⟨%d3, H3⟩⟩
  ihave Hinv := (inv_open V c t.val) $$ Hinv
  icases Hinv with ⟨%xs, %hx, ⟨HS, Hoth⟩, Hg⟩
  iapply (run c (grid3.coords t) _ _ _ _ _ _ _ _ accM (Memref.isWhole_whole _) (blk V c 0 t) (blk V c 1 t) (blk V c 2 t) h3 xs _ Set.univ _)
  unfold ins
  iframe H0 H1 H2 H3 HS
  iintro ⟨⟨H0, H1, H2⟩, H3, HS⟩
  rw [accAfter_eq V c t xs hx]
  by_cases h1 : t.val % 25 = 24
  · rw [if_pos ((isLast_iff t).mpr h1), ← outN_eq, show (dat V c).leavesExact 3 t = owns (c : Thread nD τ) (msOut t) fullShare (outN V c t.val) from by
      unfold Dat.leavesExact; rw [live_out t ((isLast_iff t).mpr h1)]; rfl]
    iframe
  · have hl := fun h => h1 ((isLast_iff t).mp h)
    rw [if_neg hl, Dat.leavesExact_idle (dat V c) 3 t (idle_out t hl) (noflush_out t hl)]
    iframe H0 H1 H2 HS Hoth Hg Ho
    iexists _; iexact H3

theorem body_obligation (c : Dev nD) : BodyObligation (dat (F := F) V c) (defs₀ (F := F)) Variants.none () Set.univ := fun t => by
  rw [bigSep_W3, bigSep_W3]
  exact sound_body V c t

theorem inv_in (c : Dev nD) : Pipeline.ΦA spec3 c ⊢ (dat V c).Φ 0 := Idealize.SL.BI.Entails.refl _

/-- After the last point the accumulator's contents are forgotten. -/
theorem inv_out (c : Dev nD) : (dat V c).Φ (Fin.last cfg3.N) ⊢ Pipeline.ΦA spec3 c := by
  rw [entryInv_eq]
  refine (inv_open V c cfg3.N).trans ?_
  iintro ⟨%xs, -, ⟨HS, Hoth⟩, Hg⟩
  iframe Hoth Hg
  iexists _; iexact HS

end Cert.KernelIdeal.R3

end
-- ==== Proof.KiInst.lean ====
import proofs.«409415_j7344394076371_2_alg».proof.Proof.KiRegs
import proofs.«409415_j7344394076371_2_alg».proof.Proof.KiR0Dat
import proofs.«409415_j7344394076371_2_alg».proof.Proof.KiR1Dat
import proofs.«409415_j7344394076371_2_alg».proof.Proof.KiR2Dat
import proofs.«409415_j7344394076371_2_alg».proof.Proof.KiR3Dat

set_option maxRecDepth 16384

noncomputable section

namespace Cert.KernelIdeal.RunAll

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

abbrev ent0 (c : Dev nD) (b : Ref sig .tc) : Buf (Elt F) ((c : Thread nD τ).loc b) := V1 m c b

def out0 (c : Dev nD) : Buf (Elt F) ((c : Thread nD τ).loc main_v11) := (R0.dat (ent0 m) c).arrAt 3 cfg0.N

def outsA : Outs (F := F) := fun _ r c =>
  if h : r = main_v11 then h ▸ out0 m c else m ((c : Thread nD τ).loc r)

theorem outsA_at2 (c : Dev nD) : outsA m 2 main_v11 c = out0 m c := by
  unfold outsA; rw [dif_pos rfl]

theorem V3_congr (o o' : Outs (F := F)) (c : Dev nD) (h2 : o 2 main_v11 c = o' 2 main_v11 c) : V3 m o c = V3 m o' c := by
  show StableHlo.after hostOps1 (Function.update (V1 m c) _ (o 2 main_v11 c))
    = StableHlo.after hostOps1 (Function.update (V1 m c) _ (o' 2 main_v11 c))
  rw [h2]

abbrev ent1 (c : Dev nD) (b : Ref sig .tc) : Buf (Elt F) ((c : Thread nD τ).loc b) := V3 m (outsA m) c b

def out1 (c : Dev nD) : Buf (Elt F) ((c : Thread nD τ).loc main_v16) := (R1.dat (ent1 m) c).arrAt 3 cfg1.N

def outsB : Outs (F := F) := fun _ r c =>
  if h : r = main_v11 then h ▸ out0 m c
  else if h : r = main_v16 then h ▸ out1 m c
  else m ((c : Thread nD τ).loc r)

theorem outsB_at2 (c : Dev nD) : outsB m 2 main_v11 c = out0 m c := by
  unfold outsB; rw [dif_pos rfl]
theorem outsB_at4 (c : Dev nD) : outsB m 4 main_v16 c = out1 m c := by
  unfold outsB; rw [dif_neg (by decide), dif_pos rfl]

theorem V5_congr (o o' : Outs (F := F)) (c : Dev nD) (h2 : o 2 main_v11 c = o' 2 main_v11 c)
    (h4 : o 4 main_v16 c = o' 4 main_v16 c) : V5 m o c = V5 m o' c := by
  show StableHlo.after hostOps2 (Function.update (V3 m o c) _ (o 4 main_v16 c))
    = StableHlo.after hostOps2 (Function.update (V3 m o' c) _ (o' 4 main_v16 c))
  rw [V3_congr m o o' c h2, h4]

abbrev ent2 (c : Dev nD) (b : Ref sig .tc) : Buf (Elt F) ((c : Thread nD τ).loc b) := V5 m (outsB m) c b

def out2 (c : Dev nD) : Buf (Elt F) ((c : Thread nD τ).loc main_v21) := (R2.dat (ent2 m) c).arrAt 3 cfg2.N

def outsC : Outs (F := F) := fun _ r c =>
  if h : r = main_v11 then h ▸ out0 m c
  else if h : r = main_v16 then h ▸ out1 m c
  else if h : r = main_v21 then h ▸ out2 m c
  else m ((c : Thread nD τ).loc r)

theorem outsC_at2 (c : Dev nD) : outsC m 2 main_v11 c = out0 m c := by
  unfold outsC; rw [dif_pos rfl]
theorem outsC_at4 (c : Dev nD) : outsC m 4 main_v16 c = out1 m c := by
  unfold outsC; rw [dif_neg (by decide), dif_pos rfl]
theorem outsC_at6 (c : Dev nD) : outsC m 6 main_v21 c = out2 m c := by
  unfold outsC; rw [dif_neg (by decide), dif_neg (by decide), dif_pos rfl]

theorem V7_congr (o o' : Outs (F := F)) (c : Dev nD) (h2 : o 2 main_v11 c = o' 2 main_v11 c)
    (h4 : o 4 main_v16 c = o' 4 main_v16 c) (h6 : o 6 main_v21 c = o' 6 main_v21 c) : V7 m o c = V7 m o' c := by
  show StableHlo.after hostOps3 (Function.update (V5 m o c) _ (o 6 main_v21 c))
    = StableHlo.after hostOps3 (Function.update (V5 m o' c) _ (o' 6 main_v21 c))
  rw [V5_congr m o o' c h2 h4, h6]

abbrev ent3 (c : Dev nD) (b : Ref sig .tc) : Buf (Elt F) ((c : Thread nD τ).loc b) := V7 m (outsC m) c b

def out3 (c : Dev nD) : Buf (Elt F) ((c : Thread nD τ).loc main_v26) := (R3.dat (ent3 m) c).arrAt 3 cfg3.N

def outs : Outs (F := F) := fun _ r c =>
  if h : r = main_v11 then h ▸ out0 m c
  else if h : r = main_v16 then h ▸ out1 m c
  else if h : r = main_v21 then h ▸ out2 m c
  else if h : r = main_v26 then h ▸ out3 m c
  else m ((c : Thread nD τ).loc r)

theorem outs_at2 (c : Dev nD) : outs m 2 main_v11 c = out0 m c := by
  unfold outs; rw [dif_pos rfl]
theorem outs_at4 (c : Dev nD) : outs m 4 main_v16 c = out1 m c := by
  unfold outs; rw [dif_neg (by decide), dif_pos rfl]
theorem outs_at6 (c : Dev nD) : outs m 6 main_v21 c = out2 m c := by
  unfold outs; rw [dif_neg (by decide), dif_neg (by decide), dif_pos rfl]
theorem outs_at8 (c : Dev nD) : outs m 8 main_v26 c = out3 m c := by
  unfold outs; rw [dif_neg (by decide), dif_neg (by decide), dif_neg (by decide), dif_pos rfl]

theorem V3_outs (c : Dev nD) (b : Ref sig .tc) : V3 m (outs m) c b = ent1 m c b :=
  congrFun (V3_congr m (outs m) (outsA m) c ((outs_at2 m c).trans (outsA_at2 m c).symm)) b

theorem V5_outs (c : Dev nD) (b : Ref sig .tc) : V5 m (outs m) c b = ent2 m c b :=
  congrFun (V5_congr m (outs m) (outsB m) c ((outs_at2 m c).trans (outsB_at2 m c).symm)
    ((outs_at4 m c).trans (outsB_at4 m c).symm)) b

theorem V7_outs (c : Dev nD) (b : Ref sig .tc) : V7 m (outs m) c b = ent3 m c b :=
  congrFun (V7_congr m (outs m) (outsC m) c ((outs_at2 m c).trans (outsC_at2 m c).symm)
    ((outs_at4 m c).trans (outsC_at4 m c).symm) ((outs_at6 m c).trans (outsC_at6 m c).symm)) b

def pdats : (p : Fin 4) → (c : Dev nD) → Dat τ (Elt F) Unit ℕ (UR sig nD τ) ℕ (cfgs p) c
  | ⟨0, _⟩ => fun c => R0.dat (ent0 m) c
  | ⟨1, _⟩ => fun c => R1.dat (ent1 m) c
  | ⟨2, _⟩ => fun c => R2.dat (ent2 m) c
  | ⟨3, _⟩ => fun c => R3.dat (ent3 m) c
  | ⟨_ + 4, h⟩ => absurd h (Nat.not_lt.2 (Nat.le_add_left _ _))

theorem ok0 : RegionOk0 m (outs m) (pdats m) where
  A := fun c w => R0.A_eq (ent0 m) c w
  body := fun c => R0.body_obligation (ent0 m) c
  share := fun _ _ => rfl
  owed := fun _ _ => rfl
  recorded := fun _ _ => rfl
  inv_in := R0.inv_in (ent0 m)
  inv_out := R0.inv_out (ent0 m)
  out := outs_at2 m

theorem ok1 : RegionOk1 m (outs m) (pdats m) where
  A := fun c w => (R1.A_eq (ent1 m) c w).trans (V3_outs m c _).symm
  body := fun c => R1.body_obligation (ent1 m) c
  share := fun _ _ => rfl
  owed := fun _ _ => rfl
  recorded := fun _ _ => rfl
  inv_in := R1.inv_in (ent1 m)
  inv_out := R1.inv_out (ent1 m)
  out := outs_at4 m

theorem ok2 : RegionOk2 m (outs m) (pdats m) where
  A := fun c w => (R2.A_eq (ent2 m) c w).trans (V5_outs m c _).symm
  body := fun c => R2.body_obligation (ent2 m) c
  share := fun _ _ => rfl
  owed := fun _ _ => rfl
  recorded := fun _ _ => rfl
  inv_in := R2.inv_in (ent2 m)
  inv_out := R2.inv_out (ent2 m)
  out := outs_at6 m

theorem ok3 : RegionOk3 m (outs m) (pdats m) where
  A := fun c w => (R3.A_eq (ent3 m) c w).trans (V7_outs m c _).symm
  body := fun c => R3.body_obligation (ent3 m) c
  share := fun _ _ => rfl
  owed := fun _ _ => rfl
  recorded := fun _ _ => rfl
  inv_in := R3.inv_in (ent3 m)
  inv_out := R3.inv_out (ent3 m)
  out := outs_at8 m

end Cert.KernelIdeal.RunAll

end
-- ==== Proof.Spec.lean ====
import Idealize.ShloMosaic.PureOps.Ideal
import Idealize.ShloMosaic.Lib.ValueIdx

noncomputable section

namespace Cert.Spec

open Idealize.ShloMosaic

def sel (x : BitVec 32) (v : Fin 1000) : EReal := if x = BitVec.ofNat 32 v.val then 1 else 0

def tokIx (x : BitVec 32) : Fin 1000 := ⟨x.toNat % 1000, Nat.mod_lt _ (by norm_num)⟩

def InVocab (tok : Fin 128 → Fin 64 → BitVec 32) : Prop := ∀ b l, (tok b l).toNat < 1000

variable {n : ℕ}

def preSel (tok : Fin 128 → Fin 64 → BitVec 32) (W : Fin 64 → Fin 1000 → Fin n → Fin 64 → EReal)
    (b : Fin 128) (o : Fin 64) (f : Fin n) : EReal :=
  ∑ v : Fin 1000, ∑ l : Fin 64, sel (tok b l) v * W o v f l

def preGat (tok : Fin 128 → Fin 64 → BitVec 32) (W : Fin 64 → Fin 1000 → Fin n → Fin 64 → EReal)
    (b : Fin 128) (o : Fin 64) (f : Fin n) : EReal :=
  ∑ l : Fin 64, W o (tokIx (tok b l)) f l

def pool (s : Fin n → EReal) : EReal := Finset.univ.sup fun f => max (s f) 0

def lrnMul (m : EReal) : EReal := m * Ideal.rsqrt (1 + m * m)

def lrnDiv (m : EReal) : EReal := Ideal.div m (Ideal.sqrt (1 + m * m))

def featSel (tok : Fin 128 → Fin 64 → BitVec 32) (W : Fin 64 → Fin 1000 → Fin n → Fin 64 → EReal) (bias : Fin 64 → EReal)
    (b : Fin 128) (o : Fin 64) : EReal :=
  lrnMul (pool fun f => preSel tok W b o f + bias o)

def featGat (tok : Fin 128 → Fin 64 → BitVec 32) (W : Fin 64 → Fin 1000 → Fin n → Fin 64 → EReal) (bias : Fin 64 → EReal)
    (b : Fin 128) (o : Fin 64) : EReal :=
  lrnDiv (pool fun f => preGat tok W b o (Fin.rev f) + bias o)

def lin (feats : Fin 128 → Fin 256 → EReal) (Wl : Fin 2 → Fin 256 → EReal) (bl : Fin 2 → EReal) (b : Fin 128) (j : Fin 2) : EReal :=
  (∑ k : Fin 256, feats b k * Wl j k) + bl j

def cat4 (f0 f1 f2 f3 : Fin 128 → Fin 64 → EReal) (b : Fin 128) (k : Fin 256) : EReal :=
  if h0 : k.val < 64 then f0 b ⟨k.val, h0⟩
  else if h1 : k.val < 128 then f1 b ⟨k.val - 64, by omega⟩
  else if h2 : k.val < 192 then f2 b ⟨k.val - 128, by omega⟩
  else f3 b ⟨k.val - 192, by omega⟩

def tokOf (x : (⟨2, ![128, 64]⟩ : Shape).Idx → BitVec 32) : Fin 128 → Fin 64 → BitVec 32 :=
  fun b l => x (ValueIdx.ix2 b l)

def wOf {n : ℕ} (x : (⟨4, ![64, 1000, n, 64]⟩ : Shape).Idx → EReal) : Fin 64 → Fin 1000 → Fin n → Fin 64 → EReal :=
  fun o v f l => x (ValueIdx.ix4 o v f l)

def bOf (x : (⟨1, ![64]⟩ : Shape).Idx → EReal) : Fin 64 → EReal := fun o => x (ValueIdx.ix1 o)

def m2Of {a b : ℕ} (x : (⟨2, ![a, b]⟩ : Shape).Idx → EReal) : Fin a → Fin b → EReal := fun i j => x (ValueIdx.ix2 i j)

def v1Of {a : ℕ} (x : (⟨1, ![a]⟩ : Shape).Idx → EReal) : Fin a → EReal := fun i => x (ValueIdx.ix1 i)

def Fin4 (W : Fin 64 → Fin 1000 → Fin n → Fin 64 → EReal) : Prop := ∀ o v f l, W o v f l ≠ ⊤ ∧ W o v f l ≠ ⊥
def Fin1 (bias : Fin 64 → EReal) : Prop := ∀ o, bias o ≠ ⊤ ∧ bias o ≠ ⊥

end Cert.Spec

end
-- ==== Proof.KiTail.lean ====
import proofs.«409415_j7344394076371_2_alg».proof.Proof.Gen.KernelIdeal.Regions
import proofs.«409415_j7344394076371_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TailValue

open Cert.KernelIdeal Cert.KernelIdeal.Gen Idealize.ShloMosaic Idealize.ShloMosaic.TcCoe Idealize.ShloMosaic.ValueIdx

variable (m : (ℓ : Loc nD τ sig) → Buf (Elt Ideal) ℓ) (outs : Outs (F := Ideal)) (c : Dev nD)

def tr (q : FVec Ideal S64x128 .f32) : FVec Ideal S128x64 .f32 :=
  transpose S128x64 [1, 0] q transposes_S64x128_S128x64_1_0

def tailTerm (p0 p1 p2 p3 : FVec Ideal S128x64 .f32) (w : FVec Ideal S2x256 .f32) (bl : FVec Ideal S2 .f32) :
    FVec Ideal S128x2 .f32 :=
  addf
    (Host.dotGeneral (F := Ideal) dot_S128x256_S256x2_S128x2_1_0_0_1_n_n none
      (concatenate S128x256 1 [⟨S128x64, p0⟩, ⟨S128x64, p1⟩, ⟨S128x64, p2⟩, ⟨S128x64, p3⟩]
        concatenates_S128x64_S128x64_S128x64_S128x64_S128x256_d1 : FVec Ideal S128x256 .f32)
      (transpose S256x2 [1, 0] w transposes_S2x256_S256x2_1_0 : FVec Ideal S256x2 .f32))
    (broadcastInDim S128x2 ![0, 1] bcast_S1x2_S128x2_0_1
      (broadcastInDim S1x2 ![1] bcast_S2_S1x2_1 bl : FVec Ideal S1x2 .f32) : FVec Ideal S128x2 .f32)

theorem v33_eq : V9 m outs c main_v33
    = tailTerm (V8 m outs c main_v12) (V8 m outs c main_v17) (V8 m outs c main_v22) (tr (V8 m outs c main_v26))
        (V8 m outs c main_arg9) (V8 m outs c main_arg10) := by
  dsimp only [V9]
  after_results
  rfl

theorem v12_eq : V3 m outs c main_v12 = tr (V2 m outs c main_v11) := by
  dsimp only [V3]
  after_results
  rfl
theorem v17_eq : V5 m outs c main_v17 = tr (V4 m outs c main_v16) := by
  dsimp only [V5]
  after_results
  rfl
theorem v22_eq : V7 m outs c main_v22 = tr (V6 m outs c main_v21) := by
  dsimp only [V7]
  after_results
  rfl

theorem v11_at2 : V2 m outs c main_v11 = outs 2 main_v11 c := by
  dsimp only [V2]; exact Function.update_self ..
theorem v16_at4 : V4 m outs c main_v16 = outs 4 main_v16 c := by
  dsimp only [V4]; exact Function.update_self ..
theorem v21_at6 : V6 m outs c main_v21 = outs 6 main_v21 c := by
  dsimp only [V6]; exact Function.update_self ..
theorem v26_at8 : V8 m outs c main_v26 = outs 8 main_v26 c := by
  dsimp only [V8]; exact Function.update_self ..

theorem v12_at8 : V8 m outs c main_v12 = tr (outs 2 main_v11 c) := by
  rw [V8_of m outs c main_v12 (by decide), V7_of m outs c main_v12 (by decide), V6_of m outs c main_v12 (by decide),
    V5_of m outs c main_v12 (by decide), V4_of m outs c main_v12 (by decide), v12_eq, v11_at2]
theorem v17_at8 : V8 m outs c main_v17 = tr (outs 4 main_v16 c) := by
  rw [V8_of m outs c main_v17 (by decide), V7_of m outs c main_v17 (by decide), V6_of m outs c main_v17 (by decide),
    v17_eq, v16_at4]
theorem v22_at8 : V8 m outs c main_v22 = tr (outs 6 main_v21 c) := by
  rw [V8_of m outs c main_v22 (by decide), v22_eq, v21_at6]
theorem arg9_at8 : V8 m outs c main_arg9 = m ((c : Thread nD τ).loc main_arg9) :=
  (V9_of m outs c main_arg9 (by decide)).symm.trans (V9_main_arg9 m outs c)
theorem arg10_at8 : V8 m outs c main_arg10 = m ((c : Thread nD τ).loc main_arg10) :=
  (V9_of m outs c main_arg10 (by decide)).symm.trans (V9_main_arg10 m outs c)

theorem v33_outs : V9 m outs c main_v33
    = tailTerm (tr (outs 2 main_v11 c)) (tr (outs 4 main_v16 c)) (tr (outs 6 main_v21 c)) (tr (outs 8 main_v26 c))
        (m ((c : Thread nD τ).loc main_arg9)) (m ((c : Thread nD τ).loc main_arg10)) := by
  rw [v33_eq, v12_at8, v17_at8, v22_at8, v26_at8, arg9_at8, arg10_at8]

theorem tr_apply (q : FVec Ideal S64x128 .f32) (b : Fin 128) (o : Fin 64) : tr q (ix2 b o) = q (ix2 o b) := by
  unfold tr
  exact transpose_apply [1, 0] q transposes_S64x128_S128x64_1_0 (ix2 b o) (ix2 o b) (fun a => match a with
    | ⟨0, _⟩ => rfl
    | ⟨1, _⟩ => rfl)

theorem wT_apply (w : FVec Ideal S2x256 .f32) (k : Fin 256) (j : Fin 2) :
    (transpose S256x2 [1, 0] w transposes_S2x256_S256x2_1_0 : FVec Ideal S256x2 .f32) (ix2 k j) = w (ix2 j k) :=
  transpose_apply [1, 0] w transposes_S2x256_S256x2_1_0 (ix2 k j) (ix2 j k) (fun a => match a with
    | ⟨0, _⟩ => rfl
    | ⟨1, _⟩ => rfl)

theorem bias_apply (bl : FVec Ideal S2 .f32) (b : Fin 128) (j : Fin 2) :
    (broadcastInDim S128x2 ![0, 1] bcast_S1x2_S128x2_0_1
      (broadcastInDim S1x2 ![1] bcast_S2_S1x2_1 bl : FVec Ideal S1x2 .f32) : FVec Ideal S128x2 .f32) (ix2 b j)
      = bl (ix1 j) := by
  rw [broadcastInDim_apply _ bcast_S1x2_S128x2_0_1 _ (ix2 b j) (ix2 (0 : Fin 1) j) (fun a => match a with
    | ⟨0, _⟩ => by show 0 = if (1 : Nat) = 1 then 0 else b.val; rw [if_pos rfl]
    | ⟨1, _⟩ => by show j.val = if (2 : Nat) = 1 then 0 else j.val; rw [if_neg (by decide)])]
  exact broadcastInDim_apply _ bcast_S2_S1x2_1 bl (ix2 (0 : Fin 1) j) (ix1 j) (fun a => match a with
    | ⟨0, _⟩ => by show j.val = if (2 : Nat) = 1 then 0 else j.val; rw [if_neg (by decide)])

theorem lhs_ax0 (i : S128x2.Idx) (q : dot_S128x256_S256x2_S128x2_1_0_0_1_n_n.contr.Idx) :
    (dot_S128x256_S256x2_S128x2_1_0_0_1_n_n.lhsIdx i q 0).val = (i 0).val := by
  unfold DotDims.lhsIdx
  rw [dif_neg (show ¬(0 : Fin S128x256.rank) ∈ dot_S128x256_S256x2_S128x2_1_0_0_1_n_n.lhsBatch by decide),
    dif_pos (show (0 : Fin S128x256.rank) ∈ dot_S128x256_S256x2_S128x2_1_0_0_1_n_n.lhsNonContracting by decide)]
  rfl
theorem lhs_ax1 (i : S128x2.Idx) (q : dot_S128x256_S256x2_S128x2_1_0_0_1_n_n.contr.Idx) :
    (dot_S128x256_S256x2_S128x2_1_0_0_1_n_n.lhsIdx i q 1).val = (q ⟨0, by decide⟩).val :=
  dot_S128x256_S256x2_S128x2_1_0_0_1_n_n.lhsIdx_val_of_single rfl i q
theorem rhs_ax0 (i : S128x2.Idx) (q : dot_S128x256_S256x2_S128x2_1_0_0_1_n_n.contr.Idx) :
    (dot_S128x256_S256x2_S128x2_1_0_0_1_n_n.rhsIdx i q 0).val = (q ⟨0, by decide⟩).val :=
  dot_S128x256_S256x2_S128x2_1_0_0_1_n_n.rhsIdx_val_of_single rfl i q
theorem rhs_ax1 (i : S128x2.Idx) (q : dot_S128x256_S256x2_S128x2_1_0_0_1_n_n.contr.Idx) :
    (dot_S128x256_S256x2_S128x2_1_0_0_1_n_n.rhsIdx i q 1).val = (i 1).val := by
  unfold DotDims.rhsIdx
  rw [dif_neg (show ¬(1 : Fin S256x2.rank) ∈ dot_S128x256_S256x2_S128x2_1_0_0_1_n_n.rhsBatch by decide),
    dif_pos (show (1 : Fin S256x2.rank) ∈ dot_S128x256_S256x2_S128x2_1_0_0_1_n_n.rhsNonContracting by decide)]
  rfl

theorem dot_apply (y0 : FVec Ideal S128x256 .f32) (y1 : FVec Ideal S256x2 .f32) (b : Fin 128) (j : Fin 2) :
    Host.dotGeneral (F := Ideal) dot_S128x256_S256x2_S128x2_1_0_0_1_n_n none y0 y1 (ix2 b j)
      = ∑ k : Fin 256, y0 (ix2 b k) * y1 (ix2 k j) := by
  simp only [Host.dotGeneral]
  rw [Ideal.dotGeneral_apply, ← Equiv.sum_comp (ValueIdx.contrEquiv1 dot_S128x256_S256x2_S128x2_1_0_0_1_n_n 256 rfl rfl).symm]
  refine Finset.sum_congr rfl fun k _ => ?_
  have hk := ValueIdx.contrEquiv1_symm_val dot_S128x256_S256x2_S128x2_1_0_0_1_n_n 256 rfl rfl k
  have el : dot_S128x256_S256x2_S128x2_1_0_0_1_n_n.lhsIdx (ix2 b j)
      ((ValueIdx.contrEquiv1 dot_S128x256_S256x2_S128x2_1_0_0_1_n_n 256 rfl rfl).symm k) = ix2 b k :=
    funext fun a => Fin.ext (by
      match a with
      | ⟨0, _⟩ => exact lhs_ax0 _ _
      | ⟨1, _⟩ => exact (lhs_ax1 _ _).trans hk)
  have er : dot_S128x256_S256x2_S128x2_1_0_0_1_n_n.rhsIdx (ix2 b j)
      ((ValueIdx.contrEquiv1 dot_S128x256_S256x2_S128x2_1_0_0_1_n_n 256 rfl rfl).symm k) = ix2 k j :=
    funext fun a => Fin.ext (by
      match a with
      | ⟨0, _⟩ => exact (rhs_ax0 _ _).trans hk
      | ⟨1, _⟩ => exact rhs_ax1 _ _)
  rw [el, er]

theorem cat_apply (p0 p1 p2 p3 : FVec Ideal S128x64 .f32) (b : Fin 128) (k : Fin 256) :
    (concatenate S128x256 1 [⟨S128x64, p0⟩, ⟨S128x64, p1⟩, ⟨S128x64, p2⟩, ⟨S128x64, p3⟩]
        concatenates_S128x64_S128x64_S128x64_S128x64_S128x256_d1 : FVec Ideal S128x256 .f32) (ix2 b k)
      = Cert.Spec.cat4 (fun b o => p0 (ix2 b o)) (fun b o => p1 (ix2 b o)) (fun b o => p2 (ix2 b o))
          (fun b o => p3 (ix2 b o)) b k := by
  have hk := k.isLt
  unfold Cert.Spec.cat4
  by_cases h0 : k.val < 64
  · rw [dif_pos h0]
    exact concatenate_apply_piece (α := Ideal .f32) (t := S128x256) 1
              [⟨S128x64, p0⟩, ⟨S128x64, p1⟩, ⟨S128x64, p2⟩, ⟨S128x64, p3⟩]
              concatenates_S128x64_S128x64_S128x64_S128x64_S128x256_d1 (ix2 b k)
              0 (by show 0 < 4; decide) S128x64 p0 rfl rfl 0 rfl (ix2 b ⟨k.val, h0⟩)
              (fun a => match a with
                | ⟨0, _⟩ => fun _ => rfl
                | ⟨1, _⟩ => fun h => absurd rfl h)
              (by show 0 + k.val = k.val; omega)
  · rw [dif_neg h0]
    by_cases h1 : k.val < 128
    · rw [dif_pos h1]
      exact concatenate_apply_piece (α := Ideal .f32) (t := S128x256) 1
              [⟨S128x64, p0⟩, ⟨S128x64, p1⟩, ⟨S128x64, p2⟩, ⟨S128x64, p3⟩]
              concatenates_S128x64_S128x64_S128x64_S128x64_S128x256_d1 (ix2 b k)
              1 (by show 1 < 4; decide) S128x64 p1 rfl rfl 64 rfl (ix2 b ⟨k.val - 64, by omega⟩)
              (fun a => match a with
                | ⟨0, _⟩ => fun _ => rfl
                | ⟨1, _⟩ => fun h => absurd rfl h)
              (by show 64 + (k.val - 64) = k.val; omega)
    · rw [dif_neg h1]
      by_cases h2 : k.val < 192
      · rw [dif_pos h2]
        exact concatenate_apply_piece (α := Ideal .f32) (t := S128x256) 1
              [⟨S128x64, p0⟩, ⟨S128x64, p1⟩, ⟨S128x64, p2⟩, ⟨S128x64, p3⟩]
              concatenates_S128x64_S128x64_S128x64_S128x64_S128x256_d1 (ix2 b k)
              2 (by show 2 < 4; decide) S128x64 p2 rfl rfl 128 rfl (ix2 b ⟨k.val - 128, by omega⟩)
              (fun a => match a with
                | ⟨0, _⟩ => fun _ => rfl
                | ⟨1, _⟩ => fun h => absurd rfl h)
              (by show 128 + (k.val - 128) = k.val; omega)
      · rw [dif_neg h2]
        exact concatenate_apply_piece (α := Ideal .f32) (t := S128x256) 1
              [⟨S128x64, p0⟩, ⟨S128x64, p1⟩, ⟨S128x64, p2⟩, ⟨S128x64, p3⟩]
              concatenates_S128x64_S128x64_S128x64_S128x64_S128x256_d1 (ix2 b k)
              3 (by show 3 < 4; decide) S128x64 p3 rfl rfl 192 rfl (ix2 b ⟨k.val - 192, by omega⟩)
              (fun a => match a with
                | ⟨0, _⟩ => fun _ => rfl
                | ⟨1, _⟩ => fun h => absurd rfl h)
              (by show 192 + (k.val - 192) = k.val; omega)

theorem tailTerm_apply (p0 p1 p2 p3 : FVec Ideal S128x64 .f32) (w : FVec Ideal S2x256 .f32) (bl : FVec Ideal S2 .f32)
    (b : Fin 128) (j : Fin 2) :
    tailTerm p0 p1 p2 p3 w bl (ix2 b j)
      = Cert.Spec.lin (Cert.Spec.cat4 (fun b o => p0 (ix2 b o)) (fun b o => p1 (ix2 b o)) (fun b o => p2 (ix2 b o))
          (fun b o => p3 (ix2 b o))) (Cert.Spec.m2Of w) (Cert.Spec.v1Of bl) b j := by
  unfold tailTerm Cert.Spec.lin Cert.Spec.m2Of Cert.Spec.v1Of
  rw [addf_apply, dot_apply, bias_apply]
  congr 1
  exact Finset.sum_congr rfl fun k _ => by rw [cat_apply, wT_apply]

theorem tail_apply (b : Fin 128) (j : Fin 2) :
    V9 m outs c main_v33 (ix2 b j)
      = Cert.Spec.lin (Cert.Spec.cat4 (fun b o => outs 2 main_v11 c (ix2 o b)) (fun b o => outs 4 main_v16 c (ix2 o b))
            (fun b o => outs 6 main_v21 c (ix2 o b)) (fun b o => outs 8 main_v26 c (ix2 o b)))
          (Cert.Spec.m2Of (m ((c : Thread nD τ).loc main_arg9))) (Cert.Spec.v1Of (m ((c : Thread nD τ).loc main_arg10))) b j := by
  rw [v33_outs, tailTerm_apply]
  simp only [tr_apply]

end Cert.KernelIdeal.TailValue

end
-- ==== Proof.KiHost.lean ====
import proofs.«409415_j7344394076371_2_alg».proof.Proof.Gen.KernelIdeal.Regions
import proofs.«409415_j7344394076371_2_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.HostValue

open Cert.KernelIdeal Cert.KernelIdeal.Gen Idealize.ShloMosaic Idealize.ShloMosaic.TcCoe Idealize.ShloMosaic.ValueIdx

variable (m : (ℓ : Loc nD τ sig) → Buf (Elt Ideal) ℓ) (outs : Outs (F := Ideal)) (c : Dev nD)

theorem V2_launch (r : Ref sig .tc) (h0 : r ∉ hostOps0_W) (h1 : r ∉ ([main_v11] : List (Ref sig .tc))) :
    V2 m outs c r = m ((c : Thread nD τ).loc r) :=
  (V2_of m outs c r h1).trans ((V1_of m c r h0).trans rfl)

theorem V4_launch (r : Ref sig .tc) (h0 : r ∉ hostOps0_W) (h1 : r ∉ ([main_v11] : List (Ref sig .tc)))
    (h2 : r ∉ hostOps1_W) (h3 : r ∉ ([main_v16] : List (Ref sig .tc))) :
    V4 m outs c r = m ((c : Thread nD τ).loc r) :=
  (V4_of m outs c r h3).trans ((V3_of m outs c r h2).trans (V2_launch m outs c r h0 h1))

theorem V6_launch (r : Ref sig .tc) (h0 : r ∉ hostOps0_W) (h1 : r ∉ ([main_v11] : List (Ref sig .tc)))
    (h2 : r ∉ hostOps1_W) (h3 : r ∉ ([main_v16] : List (Ref sig .tc)))
    (h4 : r ∉ hostOps2_W) (h5 : r ∉ ([main_v21] : List (Ref sig .tc))) :
    V6 m outs c r = m ((c : Thread nD τ).loc r) :=
  (V6_of m outs c r h5).trans ((V5_of m outs c r h4).trans (V4_launch m outs c r h0 h1 h2 h3))

theorem uitofp_cmpi_eq (x y : BitVec 32) :
    (FloatOps.uitofp (F := Ideal) .bf16 (IntOp.cmpi .eq x y) : EReal) = if x = y then 1 else 0 := by
  show (((IntOp.cmpi .eq x y).toNat : ℝ) : EReal) = _
  by_cases h : x = y
  · rw [if_pos h]; subst h; simp [IntOp.cmpi]
  · rw [if_neg h]; simp [IntOp.cmpi, h]

theorem onehot_apply (b : Fin 128) (v : Fin 1000) (l : Fin 64) :
    V1 m c main_v7 (ix2 b (⟨v.val * 64 + l.val, by omega⟩ : Fin 64000))
      = Cert.Spec.sel (m ((c : Thread nD τ).loc main_arg0) (ix2 b l)) v := by
  have e : (V1 m c main_v7 : S128x64000.Idx → EReal)
      = shapeCast S128x64000
          (uitofp (F := Ideal) .bf16
            (cmpi .eq
              (broadcastInDim S128x1000x64 ![0, 1, 2] bcast_S128x1x64_S128x1000x64_0_1_2
                (broadcastInDim S128x1x64 ![0, 2] bcast_S128x64_S128x1x64_0_2 (m ((c : Thread nD τ).loc main_arg0) : S128x64.Idx → BitVec 32)))
              (broadcastInDim S128x1000x64 ![0, 1, 2] bcast_S1x1000x1_S128x1000x64_0_1_2
                (broadcastInDim S1x1000x1 ![1] bcast_S1000_S1x1000x1_1 (iotaInDim S1000 32 0)))))
          shapeCasts_S128x1000x64_S128x64000 := by
    dsimp only [V1, V0]; after_results; rfl

  have h1 : broadcastInDim S128x1000x64 ![0, 1, 2] bcast_S128x1x64_S128x1000x64_0_1_2
        (broadcastInDim S128x1x64 ![0, 2] bcast_S128x64_S128x1x64_0_2 (m ((c : Thread nD τ).loc main_arg0) : S128x64.Idx → BitVec 32)) (ix3 b v l)
      = m ((c : Thread nD τ).loc main_arg0) (ix2 b l) := by
    refine (broadcastInDim_apply ![0, 1, 2] bcast_S128x1x64_S128x1000x64_0_1_2 _ (ix3 b v l) (ix3 b (0 : Fin 1) l) ?_).trans
      (broadcastInDim_apply ![0, 2] bcast_S128x64_S128x1x64_0_2 _ (ix3 b (0 : Fin 1) l) (ix2 b l) ?_)
    · intro a
      match a with
      | ⟨0, _⟩ => rfl
      | ⟨1, _⟩ => rfl
      | ⟨2, _⟩ => rfl
    · intro a
      match a with
      | ⟨0, _⟩ => rfl
      | ⟨1, _⟩ => rfl

  have h2 : broadcastInDim S128x1000x64 ![0, 1, 2] bcast_S1x1000x1_S128x1000x64_0_1_2
        (broadcastInDim S1x1000x1 ![1] bcast_S1000_S1x1000x1_1 (iotaInDim S1000 32 0)) (ix3 b v l)
      = BitVec.ofNat 32 v.val := by
    refine (broadcastInDim_apply ![0, 1, 2] bcast_S1x1000x1_S128x1000x64_0_1_2 _ (ix3 b v l) (ix3 (0 : Fin 1) v (0 : Fin 1)) ?_).trans
      ((broadcastInDim_apply ![1] bcast_S1000_S1x1000x1_1 _ (ix3 (0 : Fin 1) v (0 : Fin 1)) (ix1 v) ?_).trans rfl)
    · intro a
      match a with
      | ⟨0, _⟩ => rfl
      | ⟨1, _⟩ => rfl
      | ⟨2, _⟩ => rfl
    · intro a
      match a with
      | ⟨0, _⟩ => rfl
  refine (congrFun e _).trans ?_

  refine (shapeCast_apply _ shapeCasts_S128x1000x64_S128x64000 _ (ix3 b v l) ?_).trans ?_
  · rw [Shape.rowMajor_val_two, Shape.rowMajor_val_three]
    show (b.val * 1000 + v.val) * 64 + l.val = b.val * 64000 + (v.val * 64 + l.val)
    omega
  · show FloatOps.uitofp (F := Ideal) .bf16 (IntOp.cmpi .eq _ _) = _
    rw [h1, h2]
    exact uitofp_cmpi_eq _ _

theorem onehot_V3 : V3 m outs c main_v7 = V1 m c main_v7 :=
  (V3_of m outs c main_v7 (by decide)).trans (V2_of m outs c main_v7 (by decide))
theorem onehot_V5 : V5 m outs c main_v7 = V1 m c main_v7 :=
  (V5_of m outs c main_v7 (by decide)).trans ((V4_of m outs c main_v7 (by decide)).trans (onehot_V3 m outs c))
theorem onehot_V7 : V7 m outs c main_v7 = V1 m c main_v7 :=
  (V7_of m outs c main_v7 (by decide)).trans ((V6_of m outs c main_v7 (by decide)).trans (onehot_V5 m outs c))

theorem wr0_apply (v : Fin 1000) (l : Fin 64) (o : Fin 64) (f : Fin 5) :
    V1 m c main_v10 (ix2 (⟨v.val * 64 + l.val, by omega⟩ : Fin 64000) (⟨o.val * 5 + f.val, by omega⟩ : Fin 320))
      = m ((c : Thread nD τ).loc main_arg1) (ix4 o v f l) := by
  have e : (V1 m c main_v10 : S64000x320.Idx → EReal)
      = shapeCast S64000x320 (transpose S1000x64x64x5 [1, 3, 0, 2] (m ((c : Thread nD τ).loc main_arg1) : S64x1000x5x64.Idx → EReal)
          transposes_S64x1000x5x64_S1000x64x64x5_1_3_0_2) shapeCasts_S1000x64x64x5_S64000x320 := by
    dsimp only [V1, V0]; after_results; rfl
  refine (congrFun e _).trans ?_

  refine (shapeCast_apply _ shapeCasts_S1000x64x64x5_S64000x320 _ (ix4 v l o f) ?_).trans ?_
  · rw [Shape.rowMajor_val_two, Shape.rowMajor_val_four]
    show ((v.val * 64 + l.val) * 64 + o.val) * 5 + f.val = (v.val * 64 + l.val) * 320 + (o.val * 5 + f.val)
    omega

  · refine transpose_apply _ _ transposes_S64x1000x5x64_S1000x64x64x5_1_3_0_2 (ix4 v l o f) (ix4 o v f l) ?_
    intro a
    match a with
    | ⟨0, _⟩ => rfl
    | ⟨1, _⟩ => rfl
    | ⟨2, _⟩ => rfl
    | ⟨3, _⟩ => rfl

theorem wr1_apply (v : Fin 1000) (l : Fin 64) (o : Fin 64) (f : Fin 10) :
    V3 m outs c main_v15 (ix2 (⟨v.val * 64 + l.val, by omega⟩ : Fin 64000) (⟨o.val * 10 + f.val, by omega⟩ : Fin 640))
      = m ((c : Thread nD τ).loc main_arg3) (ix4 o v f l) := by
  have e : (V3 m outs c main_v15 : S64000x640.Idx → EReal)
      = shapeCast S64000x640 (transpose S1000x64x64x10 [1, 3, 0, 2] (m ((c : Thread nD τ).loc main_arg3) : S64x1000x10x64.Idx → EReal)
          transposes_S64x1000x10x64_S1000x64x64x10_1_3_0_2) shapeCasts_S1000x64x64x10_S64000x640 := by
    dsimp only [V3]; after_results; rw [V2_launch m outs c main_arg3 (by decide) (by decide)]; rfl
  refine (congrFun e _).trans ?_

  refine (shapeCast_apply _ shapeCasts_S1000x64x64x10_S64000x640 _ (ix4 v l o f) ?_).trans ?_
  · rw [Shape.rowMajor_val_two, Shape.rowMajor_val_four]
    show ((v.val * 64 + l.val) * 64 + o.val) * 10 + f.val = (v.val * 64 + l.val) * 640 + (o.val * 10 + f.val)
    omega

  · refine transpose_apply _ _ transposes_S64x1000x10x64_S1000x64x64x10_1_3_0_2 (ix4 v l o f) (ix4 o v f l) ?_
    intro a
    match a with
    | ⟨0, _⟩ => rfl
    | ⟨1, _⟩ => rfl
    | ⟨2, _⟩ => rfl
    | ⟨3, _⟩ => rfl

theorem wr2_apply (v : Fin 1000) (l : Fin 64) (o : Fin 64) (f : Fin 15) :
    V5 m outs c main_v20 (ix2 (⟨v.val * 64 + l.val, by omega⟩ : Fin 64000) (⟨o.val * 15 + f.val, by omega⟩ : Fin 960))
      = m ((c : Thread nD τ).loc main_arg5) (ix4 o v f l) := by
  have e : (V5 m outs c main_v20 : S64000x960.Idx → EReal)
      = shapeCast S64000x960 (transpose S1000x64x64x15 [1, 3, 0, 2] (m ((c : Thread nD τ).loc main_arg5) : S64x1000x15x64.Idx → EReal)
          transposes_S64x1000x15x64_S1000x64x64x15_1_3_0_2) shapeCasts_S1000x64x64x15_S64000x960 := by
    dsimp only [V5]; after_results; rw [V4_launch m outs c main_arg5 (by decide) (by decide) (by decide) (by decide)]; rfl
  refine (congrFun e _).trans ?_

  refine (shapeCast_apply _ shapeCasts_S1000x64x64x15_S64000x960 _ (ix4 v l o f) ?_).trans ?_
  · rw [Shape.rowMajor_val_two, Shape.rowMajor_val_four]
    show ((v.val * 64 + l.val) * 64 + o.val) * 15 + f.val = (v.val * 64 + l.val) * 960 + (o.val * 15 + f.val)
    omega

  · refine transpose_apply _ _ transposes_S64x1000x15x64_S1000x64x64x15_1_3_0_2 (ix4 v l o f) (ix4 o v f l) ?_
    intro a
    match a with
    | ⟨0, _⟩ => rfl
    | ⟨1, _⟩ => rfl
    | ⟨2, _⟩ => rfl
    | ⟨3, _⟩ => rfl

theorem wr3_apply (v : Fin 1000) (l : Fin 64) (o : Fin 64) (f : Fin 20) :
    V7 m outs c main_v25 (ix2 (⟨v.val * 64 + l.val, by omega⟩ : Fin 64000) (⟨o.val * 20 + f.val, by omega⟩ : Fin 1280))
      = m ((c : Thread nD τ).loc main_arg7) (ix4 o v f l) := by
  have e : (V7 m outs c main_v25 : S64000x1280.Idx → EReal)
      = shapeCast S64000x1280 (transpose S1000x64x64x20 [1, 3, 0, 2] (m ((c : Thread nD τ).loc main_arg7) : S64x1000x20x64.Idx → EReal)
          transposes_S64x1000x20x64_S1000x64x64x20_1_3_0_2) shapeCasts_S1000x64x64x20_S64000x1280 := by
    dsimp only [V7]; after_results; rw [V6_launch m outs c main_arg7 (by decide) (by decide) (by decide) (by decide) (by decide) (by decide)]; rfl
  refine (congrFun e _).trans ?_

  refine (shapeCast_apply _ shapeCasts_S1000x64x64x20_S64000x1280 _ (ix4 v l o f) ?_).trans ?_
  · rw [Shape.rowMajor_val_two, Shape.rowMajor_val_four]
    show ((v.val * 64 + l.val) * 64 + o.val) * 20 + f.val = (v.val * 64 + l.val) * 1280 + (o.val * 20 + f.val)
    omega

  · refine transpose_apply _ _ transposes_S64x1000x20x64_S1000x64x64x20_1_3_0_2 (ix4 v l o f) (ix4 o v f l) ?_
    intro a
    match a with
    | ⟨0, _⟩ => rfl
    | ⟨1, _⟩ => rfl
    | ⟨2, _⟩ => rfl
    | ⟨3, _⟩ => rfl

theorem bias0_apply (o : Fin 64) :
    V1 m c main_v8 (ix2 o (0 : Fin 1)) = m ((c : Thread nD τ).loc main_arg2) (ix1 o) := by
  have e : (V1 m c main_v8 : S64x1.Idx → EReal)
      = shapeCast S64x1 (m ((c : Thread nD τ).loc main_arg2) : S64.Idx → EReal) shapeCasts_S64_S64x1 := by
    dsimp only [V1, V0]; after_results; rfl
  refine (congrFun e _).trans ?_
  refine shapeCast_apply _ shapeCasts_S64_S64x1 (ix2 o (0 : Fin 1)) (ix1 o) ?_
  rw [Shape.rowMajor_val_two, Shape.rowMajor_val_one]
  show o.val = o.val * 1 + 0
  omega

theorem bias1_apply (o : Fin 64) :
    V3 m outs c main_v13 (ix2 o (0 : Fin 1)) = m ((c : Thread nD τ).loc main_arg4) (ix1 o) := by
  have e : (V3 m outs c main_v13 : S64x1.Idx → EReal)
      = shapeCast S64x1 (m ((c : Thread nD τ).loc main_arg4) : S64.Idx → EReal) shapeCasts_S64_S64x1 := by
    dsimp only [V3]; after_results; rw [V2_launch m outs c main_arg4 (by decide) (by decide)]; rfl
  refine (congrFun e _).trans ?_
  refine shapeCast_apply _ shapeCasts_S64_S64x1 (ix2 o (0 : Fin 1)) (ix1 o) ?_
  rw [Shape.rowMajor_val_two, Shape.rowMajor_val_one]
  show o.val = o.val * 1 + 0
  omega

theorem bias2_apply (o : Fin 64) :
    V5 m outs c main_v18 (ix2 o (0 : Fin 1)) = m ((c : Thread nD τ).loc main_arg6) (ix1 o) := by
  have e : (V5 m outs c main_v18 : S64x1.Idx → EReal)
      = shapeCast S64x1 (m ((c : Thread nD τ).loc main_arg6) : S64.Idx → EReal) shapeCasts_S64_S64x1 := by
    dsimp only [V5]; after_results; rw [V4_launch m outs c main_arg6 (by decide) (by decide) (by decide) (by decide)]; rfl
  refine (congrFun e _).trans ?_
  refine shapeCast_apply _ shapeCasts_S64_S64x1 (ix2 o (0 : Fin 1)) (ix1 o) ?_
  rw [Shape.rowMajor_val_two, Shape.rowMajor_val_one]
  show o.val = o.val * 1 + 0
  omega

theorem bias3_apply (o : Fin 64) :
    V7 m outs c main_v23 (ix2 o (0 : Fin 1)) = m ((c : Thread nD τ).loc main_arg8) (ix1 o) := by
  have e : (V7 m outs c main_v23 : S64x1.Idx → EReal)
      = shapeCast S64x1 (m ((c : Thread nD τ).loc main_arg8) : S64.Idx → EReal) shapeCasts_S64_S64x1 := by
    dsimp only [V7]; after_results; rw [V6_launch m outs c main_arg8 (by decide) (by decide) (by decide) (by decide) (by decide) (by decide)]; rfl
  refine (congrFun e _).trans ?_
  refine shapeCast_apply _ shapeCasts_S64_S64x1 (ix2 o (0 : Fin 1)) (ix1 o) ?_
  rw [Shape.rowMajor_val_two, Shape.rowMajor_val_one]
  show o.val = o.val * 1 + 0
  omega

end Cert.KernelIdeal.HostValue

end
-- ==== Proof.KiR0Blk.lean ====
import proofs.«409415_j7344394076371_2_alg».proof.Proof.KiR0Base
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

theorem idx_sel : ∀ t : Fin cfg0.N, win0_0.index t (0 : Fin 2) = 0 ∧ win0_0.index t (1 : Fin 2) = t.val % 25 :=
  (by decide +kernel : ∀ t : Fin grid0.N, _)

theorem idx_wts : ∀ t : Fin cfg0.N, win0_1.index t (0 : Fin 2) = t.val % 25 ∧ win0_1.index t (1 : Fin 2) = t.val / 25 :=
  (by decide +kernel : ∀ t : Fin grid0.N, _)

theorem idx_bias : ∀ t : Fin cfg0.N, win0_2.index t (0 : Fin 2) = t.val / 25 ∧ win0_2.index t (1 : Fin 2) = 0 :=
  (by decide +kernel : ∀ t : Fin grid0.N, _)

theorem blk_sel (c : Dev nD) (t : Fin cfg0.N) (b : Fin 128) (k : Fin 2560) :
    blk V c 0 t (ix2 b k) = V c main_v7 (ix2 b ⟨(t.val % 25) * 2560 + k.val, by omega⟩) := by
  obtain ⟨e0, e1⟩ := idx_sel t
  unfold blk
  rw [View.read_apply]
  show V c main_v7 _ = V c main_v7 _
  congr 1
  funext a
  apply Fin.ext
  match a with
  | ⟨0, _⟩ => show win0_0.index t (0 : Fin 2) * 128 + 1 * b.val = b.val; rw [e0]; omega
  | ⟨1, _⟩ => show win0_0.index t (1 : Fin 2) * 2560 + 1 * k.val = (t.val % 25) * 2560 + k.val; rw [e1]; omega

theorem blk_wts (c : Dev nD) (t : Fin cfg0.N) (k : Fin 2560) (n : Fin 320) :
    blk V c 1 t (ix2 k n) = V c main_v10 (ix2 ⟨(t.val % 25) * 2560 + k.val, by omega⟩
      ⟨(t.val / 25) * 320 + n.val, by have := t.isLt; have : cfg0.N = 25 := N_0; omega⟩) := by
  obtain ⟨e0, e1⟩ := idx_wts t
  unfold blk
  rw [View.read_apply]
  show V c main_v10 _ = V c main_v10 _
  congr 1
  funext a
  apply Fin.ext
  match a with
  | ⟨0, _⟩ => show win0_1.index t (0 : Fin 2) * 2560 + 1 * k.val = (t.val % 25) * 2560 + k.val; rw [e0]; omega
  | ⟨1, _⟩ => show win0_1.index t (1 : Fin 2) * 320 + 1 * n.val = (t.val / 25) * 320 + n.val; rw [e1]; omega

theorem blk_bias (c : Dev nD) (t : Fin cfg0.N) (o : Fin 64) :
    blk V c 2 t (ix2 o 0) = V c main_v8 (ix2 ⟨(t.val / 25) * 64 + o.val, by have := t.isLt; have : cfg0.N = 25 := N_0; omega⟩ 0) := by
  obtain ⟨e0, e1⟩ := idx_bias t
  unfold blk
  rw [View.read_apply]
  show V c main_v8 _ = V c main_v8 _
  congr 1
  funext a
  apply Fin.ext
  match a with
  | ⟨0, _⟩ => show win0_2.index t (0 : Fin 2) * 64 + 1 * o.val = (t.val / 25) * 64 + o.val; rw [e0]; omega
  | ⟨1, _⟩ => show win0_2.index t (1 : Fin 2) * 1 + 1 * (0 : Fin 1).val = (0 : Fin 1).val; rw [e1]; rfl

theorem idx_out : ∀ t : Fin cfg0.N, win0_3.index t (0 : Fin 2) = t.val / 25 ∧ win0_3.index t (1 : Fin 2) = 0 :=
  (by decide +kernel : ∀ t : Fin grid0.N, _)

end Cert.KernelIdeal.R0

end
-- ==== Proof.KiPay.lean ====
import proofs.«409415_j7344394076371_2_alg».proof.Proof.Gen.KernelIdeal.Skeleton
import proofs.«409415_j7344394076371_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

theorem lit_one : Ideal.ofBits .f32 0x3F800000#32 = 1 := by
  simp [Ideal.ofBits, Ideal.ieee, -EReal.coe_mul]; norm_num

theorem lit_negInf : Ideal.ofBits .f32 0xFF800000#32 = ⊥ := by
  simp [Ideal.ofBits, Ideal.ieee]

theorem fold_max_bot {ι : Type} [DecidableEq ι] (s : Finset ι) (g : ι → EReal) : s.fold max ⊥ g = s.sup g := by
  induction s using Finset.induction_on with
  | empty => rfl
  | insert a s ha ih => rw [Finset.fold_insert ha, Finset.sup_insert, ih]

theorem lrn_at {s : Shape} (M : FVec Ideal s .f32) (i : s.Idx) :
    mulf M (rsqrt (addf (broadcast s (FloatOps.ofBits (F := Ideal) .f32 0x3F800000#32)) (mulf M M))) i
      = Cert.Spec.lrnMul (M i) := by
  show M i * Ideal.rsqrt (Ideal.ofBits .f32 0x3F800000#32 + M i * M i) = _
  rw [lit_one]; rfl

theorem pay1_0 (b : Fin 128) (n : Fin 320) : k0_pay1 (F := Ideal) (ix2 b n) = 0 := by
  unfold k0_pay1
  rw [shapeCast_self]
  exact Ideal.ofBits_zero_f32

theorem lhs0_0 (i : S128x320.Idx) (q : dot_S128x2560_S2560x320_S128x320_1_0_0_1_n_n.contr.Idx) :
    (dot_S128x2560_S2560x320_S128x320_1_0_0_1_n_n.lhsIdx i q 0).val = (i 0).val := by
  unfold DotDims.lhsIdx
  rw [dif_neg (show ¬(0 : Fin S128x2560.rank) ∈ dot_S128x2560_S2560x320_S128x320_1_0_0_1_n_n.lhsBatch by decide), dif_pos (show (0 : Fin S128x2560.rank) ∈ dot_S128x2560_S2560x320_S128x320_1_0_0_1_n_n.lhsNonContracting by decide)]
  rfl

theorem lhs0_1 (i : S128x320.Idx) (q : dot_S128x2560_S2560x320_S128x320_1_0_0_1_n_n.contr.Idx) :
    (dot_S128x2560_S2560x320_S128x320_1_0_0_1_n_n.lhsIdx i q 1).val = (q ⟨0, by decide⟩).val :=
  dot_S128x2560_S2560x320_S128x320_1_0_0_1_n_n.lhsIdx_val_of_single rfl i q

theorem rhs0_0 (i : S128x320.Idx) (q : dot_S128x2560_S2560x320_S128x320_1_0_0_1_n_n.contr.Idx) :
    (dot_S128x2560_S2560x320_S128x320_1_0_0_1_n_n.rhsIdx i q 0).val = (q ⟨0, by decide⟩).val :=
  dot_S128x2560_S2560x320_S128x320_1_0_0_1_n_n.rhsIdx_val_of_single rfl i q

theorem rhs0_1 (i : S128x320.Idx) (q : dot_S128x2560_S2560x320_S128x320_1_0_0_1_n_n.contr.Idx) :
    (dot_S128x2560_S2560x320_S128x320_1_0_0_1_n_n.rhsIdx i q 1).val = (i 1).val := by
  unfold DotDims.rhsIdx
  rw [dif_neg (show ¬(1 : Fin S2560x320.rank) ∈ dot_S128x2560_S2560x320_S128x320_1_0_0_1_n_n.rhsBatch by decide), dif_pos (show (1 : Fin S2560x320.rank) ∈ dot_S128x2560_S2560x320_S128x320_1_0_0_1_n_n.rhsNonContracting by decide)]
  rfl

theorem mm_0 (x : FVec Ideal S128x2560 .bf16) (y : FVec Ideal S2560x320 .bf16) (b : Fin 128) (n : Fin 320) :
    matmul dot_S128x2560_S2560x320_S128x320_1_0_0_1_n_n none x y (constant (F := Ideal) S128x320 .f32 0x00000000#32) (ix2 b n)
      = ∑ k : Fin 2560, x (ix2 b k) * y (ix2 k n) := by
  simp only [matmul]
  rw [Ideal.matmul_constant_zero_apply, ← Equiv.sum_comp (ValueIdx.contrEquiv1 dot_S128x2560_S2560x320_S128x320_1_0_0_1_n_n 2560 rfl rfl).symm]
  refine Finset.sum_congr rfl fun k _ => ?_
  have hk := ValueIdx.contrEquiv1_symm_val dot_S128x2560_S2560x320_S128x320_1_0_0_1_n_n 2560 rfl rfl k
  have el : dot_S128x2560_S2560x320_S128x320_1_0_0_1_n_n.lhsIdx (ix2 b n) ((ValueIdx.contrEquiv1 dot_S128x2560_S2560x320_S128x320_1_0_0_1_n_n 2560 rfl rfl).symm k) = ix2 b k := funext fun a => Fin.ext (by
    match a with
    | ⟨0, _⟩ => exact lhs0_0 _ _
    | ⟨1, _⟩ => exact (lhs0_1 _ _).trans hk)
  have er : dot_S128x2560_S2560x320_S128x320_1_0_0_1_n_n.rhsIdx (ix2 b n) ((ValueIdx.contrEquiv1 dot_S128x2560_S2560x320_S128x320_1_0_0_1_n_n 2560 rfl rfl).symm k) = ix2 k n := funext fun a => Fin.ext (by
    match a with
    | ⟨0, _⟩ => exact (rhs0_0 _ _).trans hk
    | ⟨1, _⟩ => exact rhs0_1 _ _)
  rw [el, er]

theorem pay2_0 (oh : Vec Ideal S128x2560 .bf16) (w : Vec Ideal S2560x320 .f32) (acc : Vec Ideal S128x320 .f32) (b : Fin 128) (n : Fin 320) :
    k0_pay2 oh w acc (ix2 b n) = acc (ix2 b n) + ∑ k : Fin 2560, oh (ix2 b k) * w (ix2 k n) := by
  unfold k0_pay2
  simp only [shapeCast_self]
  refine (addf_apply _ _ _).trans ?_
  refine congrArg (acc (ix2 b n) + ·) ?_
  exact mm_0 _ _ b n

theorem cast3_0 {α : Type} (x : S128x320.Idx → α) (b : Fin 128) (o : Fin 64) (f : Fin 5) :
    shapeCast S128x64x5 x shapeCasts_S128x320_S128x64x5 (ix3 b o f) = x (ix2 b ⟨o.val * 5 + f.val, by omega⟩) :=
  shapeCast_apply x _ _ _ (by
    rw [Shape.rowMajor_val_three, Shape.rowMajor_val_two]
    show b.val * 320 + (o.val * 5 + f.val) = (b.val * 64 + o.val) * 5 + f.val
    omega)

theorem castB_64 {α : Type} (x : S64x1.Idx → α) (u : Fin 1) (o : Fin 64) (z : Fin 1) :
    shapeCast S1x64x1 x shapeCasts_S64x1_S1x64x1 (ix3 u o z) = x (ix2 o 0) :=
  shapeCast_apply x _ _ _ (by
    rw [Shape.rowMajor_val_three, Shape.rowMajor_val_two]
    show o.val * 1 + (0 : Fin 1).val = (u.val * 64 + o.val) * 1 + z.val
    have hu : u.val = 0 := by omega
    have hz : z.val = 0 := by omega
    rw [hu, hz]; simp)

theorem bcast_0 {α : Type} (x : S1x64x1.Idx → α) (b : Fin 128) (o : Fin 64) (f : Fin 5) :
    broadcastTo S128x64x5 x broadcasts_S1x64x1_S128x64x5 (ix3 b o f) = x (ix3 (0 : Fin 1) o (0 : Fin 1)) := by
  refine broadcastTo_apply x _ (ix3 b o f) (ix3 (0 : Fin 1) o (0 : Fin 1)) fun ax => ?_
  match ax with
  | ⟨0, _⟩ => rfl
  | ⟨1, _⟩ => rfl
  | ⟨2, _⟩ => rfl

theorem rmax_0 (x : FVec Ideal S128x64x5 .f32) (b : Fin 128) (o : Fin 64) :
    multiReduction (F := Ideal) .maximumf [2] S128x64 x 0xFF800000#32 reduces_S128x64x5_S128x64 (.inl rfl) rfl (ix2 b o)
      = Finset.univ.sup fun f : Fin 5 => x (ix3 b o f) := by
  refine (Ideal.multiReduction_maximumf_single x 0xFF800000#32 reduces_S128x64x5_S128x64 (.inl rfl) rfl (ix2 b o)).trans ?_
  show (Finset.univ : Finset (Fin 5)).fold max (Ideal.ofBits .f32 0xFF800000#32)
      (fun f => x (reduces_S128x64x5_S128x64.lift (ix2 b o) f)) = _
  rw [lit_negInf]
  refine (fold_max_bot (Finset.univ : Finset (Fin 5)) _).trans ?_
  refine Finset.sup_congr rfl fun f _ => congrArg x (funext fun c => Fin.ext ?_)
  match c with
  | ⟨0, _⟩ => rfl
  | ⟨1, _⟩ => rfl
  | ⟨2, _⟩ => rfl

theorem pay3_0 (bias : Vec Ideal S64x1 .f32) (acc : Vec Ideal S128x320 .f32) (o : Fin 64) (b : Fin 128) :
    k0_pay3 bias acc (ix2 o b)
      = Cert.Spec.lrnMul (Cert.Spec.pool fun f : Fin 5 => acc (ix2 b ⟨o.val * 5 + f.val, by omega⟩) + bias (ix2 o 0)) := by
  unfold k0_pay3
  simp only [shapeCast_self]
  refine (transpose_ix2_apply _ _ o b).trans ?_
  refine (lrn_at _ (ix2 b o)).trans (congrArg Cert.Spec.lrnMul ?_)
  refine (rmax_0 _ b o).trans ?_
  unfold Cert.Spec.pool
  refine Finset.sup_congr rfl fun f _ => ?_
  show max (shapeCast S128x64x5 acc shapeCasts_S128x320_S128x64x5 (ix3 b o f)
      + broadcastTo S128x64x5 (shapeCast S1x64x1 bias shapeCasts_S64x1_S1x64x1) broadcasts_S1x64x1_S128x64x5 (ix3 b o f))
      (Ideal.ofBits .f32 0x00000000#32) = _
  rw [cast3_0, bcast_0, castB_64, Ideal.ofBits_zero_f32]

theorem pay1_1 (b : Fin 128) (n : Fin 640) : k1_pay1 (F := Ideal) (ix2 b n) = 0 := by
  unfold k1_pay1
  rw [shapeCast_self]
  exact Ideal.ofBits_zero_f32

theorem lhs1_0 (i : S128x640.Idx) (q : dot_S128x2560_S2560x640_S128x640_1_0_0_1_n_n.contr.Idx) :
    (dot_S128x2560_S2560x640_S128x640_1_0_0_1_n_n.lhsIdx i q 0).val = (i 0).val := by
  unfold DotDims.lhsIdx
  rw [dif_neg (show ¬(0 : Fin S128x2560.rank) ∈ dot_S128x2560_S2560x640_S128x640_1_0_0_1_n_n.lhsBatch by decide), dif_pos (show (0 : Fin S128x2560.rank) ∈ dot_S128x2560_S2560x640_S128x640_1_0_0_1_n_n.lhsNonContracting by decide)]
  rfl

theorem lhs1_1 (i : S128x640.Idx) (q : dot_S128x2560_S2560x640_S128x640_1_0_0_1_n_n.contr.Idx) :
    (dot_S128x2560_S2560x640_S128x640_1_0_0_1_n_n.lhsIdx i q 1).val = (q ⟨0, by decide⟩).val :=
  dot_S128x2560_S2560x640_S128x640_1_0_0_1_n_n.lhsIdx_val_of_single rfl i q

theorem rhs1_0 (i : S128x640.Idx) (q : dot_S128x2560_S2560x640_S128x640_1_0_0_1_n_n.contr.Idx) :
    (dot_S128x2560_S2560x640_S128x640_1_0_0_1_n_n.rhsIdx i q 0).val = (q ⟨0, by decide⟩).val :=
  dot_S128x2560_S2560x640_S128x640_1_0_0_1_n_n.rhsIdx_val_of_single rfl i q

theorem rhs1_1 (i : S128x640.Idx) (q : dot_S128x2560_S2560x640_S128x640_1_0_0_1_n_n.contr.Idx) :
    (dot_S128x2560_S2560x640_S128x640_1_0_0_1_n_n.rhsIdx i q 1).val = (i 1).val := by
  unfold DotDims.rhsIdx
  rw [dif_neg (show ¬(1 : Fin S2560x640.rank) ∈ dot_S128x2560_S2560x640_S128x640_1_0_0_1_n_n.rhsBatch by decide), dif_pos (show (1 : Fin S2560x640.rank) ∈ dot_S128x2560_S2560x640_S128x640_1_0_0_1_n_n.rhsNonContracting by decide)]
  rfl

theorem mm_1 (x : FVec Ideal S128x2560 .bf16) (y : FVec Ideal S2560x640 .bf16) (b : Fin 128) (n : Fin 640) :
    matmul dot_S128x2560_S2560x640_S128x640_1_0_0_1_n_n none x y (constant (F := Ideal) S128x640 .f32 0x00000000#32) (ix2 b n)
      = ∑ k : Fin 2560, x (ix2 b k) * y (ix2 k n) := by
  simp only [matmul]
  rw [Ideal.matmul_constant_zero_apply, ← Equiv.sum_comp (ValueIdx.contrEquiv1 dot_S128x2560_S2560x640_S128x640_1_0_0_1_n_n 2560 rfl rfl).symm]
  refine Finset.sum_congr rfl fun k _ => ?_
  have hk := ValueIdx.contrEquiv1_symm_val dot_S128x2560_S2560x640_S128x640_1_0_0_1_n_n 2560 rfl rfl k
  have el : dot_S128x2560_S2560x640_S128x640_1_0_0_1_n_n.lhsIdx (ix2 b n) ((ValueIdx.contrEquiv1 dot_S128x2560_S2560x640_S128x640_1_0_0_1_n_n 2560 rfl rfl).symm k) = ix2 b k := funext fun a => Fin.ext (by
    match a with
    | ⟨0, _⟩ => exact lhs1_0 _ _
    | ⟨1, _⟩ => exact (lhs1_1 _ _).trans hk)
  have er : dot_S128x2560_S2560x640_S128x640_1_0_0_1_n_n.rhsIdx (ix2 b n) ((ValueIdx.contrEquiv1 dot_S128x2560_S2560x640_S128x640_1_0_0_1_n_n 2560 rfl rfl).symm k) = ix2 k n := funext fun a => Fin.ext (by
    match a with
    | ⟨0, _⟩ => exact (rhs1_0 _ _).trans hk
    | ⟨1, _⟩ => exact rhs1_1 _ _)
  rw [el, er]

theorem pay2_1 (oh : Vec Ideal S128x2560 .bf16) (w : Vec Ideal S2560x640 .f32) (acc : Vec Ideal S128x640 .f32) (b : Fin 128) (n : Fin 640) :
    k1_pay2 oh w acc (ix2 b n) = acc (ix2 b n) + ∑ k : Fin 2560, oh (ix2 b k) * w (ix2 k n) := by
  unfold k1_pay2
  simp only [shapeCast_self]
  refine (addf_apply _ _ _).trans ?_
  refine congrArg (acc (ix2 b n) + ·) ?_
  exact mm_1 _ _ b n

theorem cast3_1 {α : Type} (x : S128x640.Idx → α) (b : Fin 128) (o : Fin 64) (f : Fin 10) :
    shapeCast S128x64x10 x shapeCasts_S128x640_S128x64x10 (ix3 b o f) = x (ix2 b ⟨o.val * 10 + f.val, by omega⟩) :=
  shapeCast_apply x _ _ _ (by
    rw [Shape.rowMajor_val_three, Shape.rowMajor_val_two]
    show b.val * 640 + (o.val * 10 + f.val) = (b.val * 64 + o.val) * 10 + f.val
    omega)

theorem bcast_1 {α : Type} (x : S1x64x1.Idx → α) (b : Fin 128) (o : Fin 64) (f : Fin 10) :
    broadcastTo S128x64x10 x broadcasts_S1x64x1_S128x64x10 (ix3 b o f) = x (ix3 (0 : Fin 1) o (0 : Fin 1)) := by
  refine broadcastTo_apply x _ (ix3 b o f) (ix3 (0 : Fin 1) o (0 : Fin 1)) fun ax => ?_
  match ax with
  | ⟨0, _⟩ => rfl
  | ⟨1, _⟩ => rfl
  | ⟨2, _⟩ => rfl

theorem rmax_1 (x : FVec Ideal S128x64x10 .f32) (b : Fin 128) (o : Fin 64) :
    multiReduction (F := Ideal) .maximumf [2] S128x64 x 0xFF800000#32 reduces_S128x64x10_S128x64 (.inl rfl) rfl (ix2 b o)
      = Finset.univ.sup fun f : Fin 10 => x (ix3 b o f) := by
  refine (Ideal.multiReduction_maximumf_single x 0xFF800000#32 reduces_S128x64x10_S128x64 (.inl rfl) rfl (ix2 b o)).trans ?_
  show (Finset.univ : Finset (Fin 10)).fold max (Ideal.ofBits .f32 0xFF800000#32)
      (fun f => x (reduces_S128x64x10_S128x64.lift (ix2 b o) f)) = _
  rw [lit_negInf]
  refine (fold_max_bot (Finset.univ : Finset (Fin 10)) _).trans ?_
  refine Finset.sup_congr rfl fun f _ => congrArg x (funext fun c => Fin.ext ?_)
  match c with
  | ⟨0, _⟩ => rfl
  | ⟨1, _⟩ => rfl
  | ⟨2, _⟩ => rfl

theorem pay3_1 (bias : Vec Ideal S64x1 .f32) (acc : Vec Ideal S128x640 .f32) (o : Fin 64) (b : Fin 128) :
    k1_pay3 bias acc (ix2 o b)
      = Cert.Spec.lrnMul (Cert.Spec.pool fun f : Fin 10 => acc (ix2 b ⟨o.val * 10 + f.val, by omega⟩) + bias (ix2 o 0)) := by
  unfold k1_pay3
  simp only [shapeCast_self]
  refine (transpose_ix2_apply _ _ o b).trans ?_
  refine (lrn_at _ (ix2 b o)).trans (congrArg Cert.Spec.lrnMul ?_)
  refine (rmax_1 _ b o).trans ?_
  unfold Cert.Spec.pool
  refine Finset.sup_congr rfl fun f _ => ?_
  show max (shapeCast S128x64x10 acc shapeCasts_S128x640_S128x64x10 (ix3 b o f)
      + broadcastTo S128x64x10 (shapeCast S1x64x1 bias shapeCasts_S64x1_S1x64x1) broadcasts_S1x64x1_S128x64x10 (ix3 b o f))
      (Ideal.ofBits .f32 0x00000000#32) = _
  rw [cast3_1, bcast_1, castB_64, Ideal.ofBits_zero_f32]

theorem pay1_2 (b : Fin 128) (n : Fin 960) : k2_pay1 (F := Ideal) (ix2 b n) = 0 := by
  unfold k2_pay1
  rw [shapeCast_self]
  exact Ideal.ofBits_zero_f32

theorem lhs2_0 (i : S128x960.Idx) (q : dot_S128x2560_S2560x960_S128x960_1_0_0_1_n_n.contr.Idx) :
    (dot_S128x2560_S2560x960_S128x960_1_0_0_1_n_n.lhsIdx i q 0).val = (i 0).val := by
  unfold DotDims.lhsIdx
  rw [dif_neg (show ¬(0 : Fin S128x2560.rank) ∈ dot_S128x2560_S2560x960_S128x960_1_0_0_1_n_n.lhsBatch by decide), dif_pos (show (0 : Fin S128x2560.rank) ∈ dot_S128x2560_S2560x960_S128x960_1_0_0_1_n_n.lhsNonContracting by decide)]
  rfl

theorem lhs2_1 (i : S128x960.Idx) (q : dot_S128x2560_S2560x960_S128x960_1_0_0_1_n_n.contr.Idx) :
    (dot_S128x2560_S2560x960_S128x960_1_0_0_1_n_n.lhsIdx i q 1).val = (q ⟨0, by decide⟩).val :=
  dot_S128x2560_S2560x960_S128x960_1_0_0_1_n_n.lhsIdx_val_of_single rfl i q

theorem rhs2_0 (i : S128x960.Idx) (q : dot_S128x2560_S2560x960_S128x960_1_0_0_1_n_n.contr.Idx) :
    (dot_S128x2560_S2560x960_S128x960_1_0_0_1_n_n.rhsIdx i q 0).val = (q ⟨0, by decide⟩).val :=
  dot_S128x2560_S2560x960_S128x960_1_0_0_1_n_n.rhsIdx_val_of_single rfl i q

theorem rhs2_1 (i : S128x960.Idx) (q : dot_S128x2560_S2560x960_S128x960_1_0_0_1_n_n.contr.Idx) :
    (dot_S128x2560_S2560x960_S128x960_1_0_0_1_n_n.rhsIdx i q 1).val = (i 1).val := by
  unfold DotDims.rhsIdx
  rw [dif_neg (show ¬(1 : Fin S2560x960.rank) ∈ dot_S128x2560_S2560x960_S128x960_1_0_0_1_n_n.rhsBatch by decide), dif_pos (show (1 : Fin S2560x960.rank) ∈ dot_S128x2560_S2560x960_S128x960_1_0_0_1_n_n.rhsNonContracting by decide)]
  rfl

theorem mm_2 (x : FVec Ideal S128x2560 .bf16) (y : FVec Ideal S2560x960 .bf16) (b : Fin 128) (n : Fin 960) :
    matmul dot_S128x2560_S2560x960_S128x960_1_0_0_1_n_n none x y (constant (F := Ideal) S128x960 .f32 0x00000000#32) (ix2 b n)
      = ∑ k : Fin 2560, x (ix2 b k) * y (ix2 k n) := by
  simp only [matmul]
  rw [Ideal.matmul_constant_zero_apply, ← Equiv.sum_comp (ValueIdx.contrEquiv1 dot_S128x2560_S2560x960_S128x960_1_0_0_1_n_n 2560 rfl rfl).symm]
  refine Finset.sum_congr rfl fun k _ => ?_
  have hk := ValueIdx.contrEquiv1_symm_val dot_S128x2560_S2560x960_S128x960_1_0_0_1_n_n 2560 rfl rfl k
  have el : dot_S128x2560_S2560x960_S128x960_1_0_0_1_n_n.lhsIdx (ix2 b n) ((ValueIdx.contrEquiv1 dot_S128x2560_S2560x960_S128x960_1_0_0_1_n_n 2560 rfl rfl).symm k) = ix2 b k := funext fun a => Fin.ext (by
    match a with
    | ⟨0, _⟩ => exact lhs2_0 _ _
    | ⟨1, _⟩ => exact (lhs2_1 _ _).trans hk)
  have er : dot_S128x2560_S2560x960_S128x960_1_0_0_1_n_n.rhsIdx (ix2 b n) ((ValueIdx.contrEquiv1 dot_S128x2560_S2560x960_S128x960_1_0_0_1_n_n 2560 rfl rfl).symm k) = ix2 k n := funext fun a => Fin.ext (by
    match a with
    | ⟨0, _⟩ => exact (rhs2_0 _ _).trans hk
    | ⟨1, _⟩ => exact rhs2_1 _ _)
  rw [el, er]

theorem pay2_2 (oh : Vec Ideal S128x2560 .bf16) (w : Vec Ideal S2560x960 .f32) (acc : Vec Ideal S128x960 .f32) (b : Fin 128) (n : Fin 960) :
    k2_pay2 oh w acc (ix2 b n) = acc (ix2 b n) + ∑ k : Fin 2560, oh (ix2 b k) * w (ix2 k n) := by
  unfold k2_pay2
  simp only [shapeCast_self]
  refine (addf_apply _ _ _).trans ?_
  refine congrArg (acc (ix2 b n) + ·) ?_
  exact mm_2 _ _ b n

theorem cast3_2 {α : Type} (x : S128x960.Idx → α) (b : Fin 128) (o : Fin 64) (f : Fin 15) :
    shapeCast S128x64x15 x shapeCasts_S128x960_S128x64x15 (ix3 b o f) = x (ix2 b ⟨o.val * 15 + f.val, by omega⟩) :=
  shapeCast_apply x _ _ _ (by
    rw [Shape.rowMajor_val_three, Shape.rowMajor_val_two]
    show b.val * 960 + (o.val * 15 + f.val) = (b.val * 64 + o.val) * 15 + f.val
    omega)

theorem bcast_2 {α : Type} (x : S1x64x1.Idx → α) (b : Fin 128) (o : Fin 64) (f : Fin 15) :
    broadcastTo S128x64x15 x broadcasts_S1x64x1_S128x64x15 (ix3 b o f) = x (ix3 (0 : Fin 1) o (0 : Fin 1)) := by
  refine broadcastTo_apply x _ (ix3 b o f) (ix3 (0 : Fin 1) o (0 : Fin 1)) fun ax => ?_
  match ax with
  | ⟨0, _⟩ => rfl
  | ⟨1, _⟩ => rfl
  | ⟨2, _⟩ => rfl

theorem rmax_2 (x : FVec Ideal S128x64x15 .f32) (b : Fin 128) (o : Fin 64) :
    multiReduction (F := Ideal) .maximumf [2] S128x64 x 0xFF800000#32 reduces_S128x64x15_S128x64 (.inl rfl) rfl (ix2 b o)
      = Finset.univ.sup fun f : Fin 15 => x (ix3 b o f) := by
  refine (Ideal.multiReduction_maximumf_single x 0xFF800000#32 reduces_S128x64x15_S128x64 (.inl rfl) rfl (ix2 b o)).trans ?_
  show (Finset.univ : Finset (Fin 15)).fold max (Ideal.ofBits .f32 0xFF800000#32)
      (fun f => x (reduces_S128x64x15_S128x64.lift (ix2 b o) f)) = _
  rw [lit_negInf]
  refine (fold_max_bot (Finset.univ : Finset (Fin 15)) _).trans ?_
  refine Finset.sup_congr rfl fun f _ => congrArg x (funext fun c => Fin.ext ?_)
  match c with
  | ⟨0, _⟩ => rfl
  | ⟨1, _⟩ => rfl
  | ⟨2, _⟩ => rfl

theorem pay3_2 (bias : Vec Ideal S64x1 .f32) (acc : Vec Ideal S128x960 .f32) (o : Fin 64) (b : Fin 128) :
    k2_pay3 bias acc (ix2 o b)
      = Cert.Spec.lrnMul (Cert.Spec.pool fun f : Fin 15 => acc (ix2 b ⟨o.val * 15 + f.val, by omega⟩) + bias (ix2 o 0)) := by
  unfold k2_pay3
  simp only [shapeCast_self]
  refine (transpose_ix2_apply _ _ o b).trans ?_
  refine (lrn_at _ (ix2 b o)).trans (congrArg Cert.Spec.lrnMul ?_)
  refine (rmax_2 _ b o).trans ?_
  unfold Cert.Spec.pool
  refine Finset.sup_congr rfl fun f _ => ?_
  show max (shapeCast S128x64x15 acc shapeCasts_S128x960_S128x64x15 (ix3 b o f)
      + broadcastTo S128x64x15 (shapeCast S1x64x1 bias shapeCasts_S64x1_S1x64x1) broadcasts_S1x64x1_S128x64x15 (ix3 b o f))
      (Ideal.ofBits .f32 0x00000000#32) = _
  rw [cast3_2, bcast_2, castB_64, Ideal.ofBits_zero_f32]

theorem pay1_3 (b : Fin 128) (n : Fin 640) : k3_pay1 (F := Ideal) (ix2 b n) = 0 := by
  unfold k3_pay1
  rw [shapeCast_self]
  exact Ideal.ofBits_zero_f32

theorem pay2_3 (oh : Vec Ideal S128x2560 .bf16) (w : Vec Ideal S2560x640 .f32) (acc : Vec Ideal S128x640 .f32) (b : Fin 128) (n : Fin 640) :
    k3_pay2 oh w acc (ix2 b n) = acc (ix2 b n) + ∑ k : Fin 2560, oh (ix2 b k) * w (ix2 k n) := by
  unfold k3_pay2
  simp only [shapeCast_self]
  refine (addf_apply _ _ _).trans ?_
  refine congrArg (acc (ix2 b n) + ·) ?_
  exact mm_1 _ _ b n

theorem cast3_3 {α : Type} (x : S128x640.Idx → α) (b : Fin 128) (o : Fin 32) (f : Fin 20) :
    shapeCast S128x32x20 x shapeCasts_S128x640_S128x32x20 (ix3 b o f) = x (ix2 b ⟨o.val * 20 + f.val, by omega⟩) :=
  shapeCast_apply x _ _ _ (by
    rw [Shape.rowMajor_val_three, Shape.rowMajor_val_two]
    show b.val * 640 + (o.val * 20 + f.val) = (b.val * 32 + o.val) * 20 + f.val
    omega)

theorem castB_32 {α : Type} (x : S32x1.Idx → α) (u : Fin 1) (o : Fin 32) (z : Fin 1) :
    shapeCast S1x32x1 x shapeCasts_S32x1_S1x32x1 (ix3 u o z) = x (ix2 o 0) :=
  shapeCast_apply x _ _ _ (by
    rw [Shape.rowMajor_val_three, Shape.rowMajor_val_two]
    show o.val * 1 + (0 : Fin 1).val = (u.val * 32 + o.val) * 1 + z.val
    have hu : u.val = 0 := by omega
    have hz : z.val = 0 := by omega
    rw [hu, hz]; simp)

theorem bcast_3 {α : Type} (x : S1x32x1.Idx → α) (b : Fin 128) (o : Fin 32) (f : Fin 20) :
    broadcastTo S128x32x20 x broadcasts_S1x32x1_S128x32x20 (ix3 b o f) = x (ix3 (0 : Fin 1) o (0 : Fin 1)) := by
  refine broadcastTo_apply x _ (ix3 b o f) (ix3 (0 : Fin 1) o (0 : Fin 1)) fun ax => ?_
  match ax with
  | ⟨0, _⟩ => rfl
  | ⟨1, _⟩ => rfl
  | ⟨2, _⟩ => rfl

theorem rmax_3 (x : FVec Ideal S128x32x20 .f32) (b : Fin 128) (o : Fin 32) :
    multiReduction (F := Ideal) .maximumf [2] S128x32 x 0xFF800000#32 reduces_S128x32x20_S128x32 (.inl rfl) rfl (ix2 b o)
      = Finset.univ.sup fun f : Fin 20 => x (ix3 b o f) := by
  refine (Ideal.multiReduction_maximumf_single x 0xFF800000#32 reduces_S128x32x20_S128x32 (.inl rfl) rfl (ix2 b o)).trans ?_
  show (Finset.univ : Finset (Fin 20)).fold max (Ideal.ofBits .f32 0xFF800000#32)
      (fun f => x (reduces_S128x32x20_S128x32.lift (ix2 b o) f)) = _
  rw [lit_negInf]
  refine (fold_max_bot (Finset.univ : Finset (Fin 20)) _).trans ?_
  refine Finset.sup_congr rfl fun f _ => congrArg x (funext fun c => Fin.ext ?_)
  match c with
  | ⟨0, _⟩ => rfl
  | ⟨1, _⟩ => rfl
  | ⟨2, _⟩ => rfl

theorem pay3_3 (bias : Vec Ideal S32x1 .f32) (acc : Vec Ideal S128x640 .f32) (o : Fin 32) (b : Fin 128) :
    k3_pay3 bias acc (ix2 o b)
      = Cert.Spec.lrnMul (Cert.Spec.pool fun f : Fin 20 => acc (ix2 b ⟨o.val * 20 + f.val, by omega⟩) + bias (ix2 o 0)) := by
  unfold k3_pay3
  simp only [shapeCast_self]
  refine (transpose_ix2_apply _ _ o b).trans ?_
  refine (lrn_at _ (ix2 b o)).trans (congrArg Cert.Spec.lrnMul ?_)
  refine (rmax_3 _ b o).trans ?_
  unfold Cert.Spec.pool
  refine Finset.sup_congr rfl fun f _ => ?_
  show max (shapeCast S128x32x20 acc shapeCasts_S128x640_S128x32x20 (ix3 b o f)
      + broadcastTo S128x32x20 (shapeCast S1x32x1 bias shapeCasts_S32x1_S1x32x1) broadcasts_S1x32x1_S128x32x20 (ix3 b o f))
      (Ideal.ofBits .f32 0x00000000#32) = _
  rw [cast3_3, bcast_3, castB_32, Ideal.ofBits_zero_f32]

end Cert.KernelIdeal.PayValue

end
-- ==== Proof.SpecLaws.lean ====
import proofs.«409415_j7344394076371_2_alg».proof.Proof.Spec
import Mathlib.Data.EReal.Inv
import Mathlib.Data.Fintype.Basic
import Mathlib.Data.Fintype.BigOperators
import Mathlib.Data.Finset.Lattice.Fold
import Mathlib.Algebra.BigOperators.Group.Finset.Basic

noncomputable section

namespace Cert.Spec

open Idealize.ShloMosaic

variable {n : ℕ}

def tileEquiv : Fin 25 × Fin 2560 ≃ Fin 1000 × Fin 64 where
  toFun p := (⟨p.1.val * 40 + p.2.val / 64, by omega⟩, ⟨p.2.val % 64, Nat.mod_lt _ (by norm_num)⟩)
  invFun q := (⟨q.1.val / 40, by omega⟩, ⟨(q.1.val % 40) * 64 + q.2.val, by omega⟩)
  left_inv := by
    rintro ⟨t, k⟩
    ext <;> simp <;> omega
  right_inv := by
    rintro ⟨v, l⟩
    ext <;> simp <;> omega

theorem sum_tiles (g : Fin 1000 → Fin 64 → EReal) :
    (∑ t : Fin 25, ∑ k : Fin 2560, g ⟨t.val * 40 + k.val / 64, by omega⟩ ⟨k.val % 64, Nat.mod_lt _ (by norm_num)⟩)
      = ∑ v : Fin 1000, ∑ l : Fin 64, g v l := by

  rw [← Fintype.sum_prod_type' (fun (t : Fin 25) (k : Fin 2560) =>
        g ⟨t.val * 40 + k.val / 64, by omega⟩ ⟨k.val % 64, Nat.mod_lt _ (by norm_num)⟩),
      ← Fintype.sum_prod_type' (fun v l => g v l)]
  exact Fintype.sum_equiv tileEquiv _ _ (fun _ => rfl)

theorem eq_ofNat_iff (x : BitVec 32) (hx : x.toNat < 1000) (v : Fin 1000) :
    x = BitVec.ofNat 32 v.val ↔ v = tokIx x := by
  have hv : v.val < 1000 := v.isLt
  constructor
  · intro h
    apply Fin.ext
    have : x.toNat = v.val := by
      rw [h, BitVec.toNat_ofNat]; exact Nat.mod_eq_of_lt (by omega)
    simp only [tokIx]
    omega
  · intro h
    apply BitVec.eq_of_toNat_eq
    rw [BitVec.toNat_ofNat, h]
    simp only [tokIx]
    rw [Nat.mod_eq_of_lt hx]; exact (Nat.mod_eq_of_lt (by omega)).symm

theorem sum_sel_mul (x : BitVec 32) (hx : x.toNat < 1000) (w : Fin 1000 → EReal) :
    (∑ v : Fin 1000, sel x v * w v) = w (tokIx x) := by
  rw [Finset.sum_eq_single (tokIx x)]
  · rw [sel, if_pos ((eq_ofNat_iff x hx _).mpr rfl), one_mul]
  · intro v _ hv
    rw [sel, if_neg (fun h => hv ((eq_ofNat_iff x hx v).mp h)), zero_mul]
  · intro h; exact absurd (Finset.mem_univ _) h

theorem preSel_eq_preGat (tok : Fin 128 → Fin 64 → BitVec 32) (W : Fin 64 → Fin 1000 → Fin n → Fin 64 → EReal)
    (htok : InVocab tok) (b : Fin 128) (o : Fin 64) (f : Fin n) :
    preSel tok W b o f = preGat tok W b o f := by
  unfold preSel preGat
  rw [Finset.sum_comm]
  exact Finset.sum_congr rfl fun l _ => sum_sel_mul (tok b l) (htok b l) (fun v => W o v f l)

theorem pool_rev (s : Fin n → EReal) : pool (fun f => s (Fin.rev f)) = pool s := by
  unfold pool
  have h := Finset.sup_map (Finset.univ : Finset (Fin n)) (Fin.revPerm : Fin n ≃ Fin n).toEmbedding
    (fun f => max (s f) 0)
  rw [Finset.map_univ_equiv] at h
  rw [h]
  rfl

theorem lrn_mul_eq_div_of_real (m : ℝ) : lrnMul (m : EReal) = lrnDiv (m : EReal) := by
  have hr : (0 : ℝ) < 1 + m * m := by nlinarith [mul_self_nonneg m]
  have hs : Real.sqrt (1 + m * m) ≠ 0 := (Real.sqrt_pos.mpr hr).ne'
  have hc : (1 : EReal) + (m : EReal) * (m : EReal) = ((1 + m * m : ℝ) : EReal) := by
    rw [EReal.coe_add, EReal.coe_mul, EReal.coe_one]
  unfold lrnMul lrnDiv
  rw [hc, Ideal.rsqrt_coe, Ideal.sqrt_coe, if_neg (not_lt.mpr hr.le), if_neg hr.ne', if_neg (not_lt.mpr hr.le),
    Ideal.div_coe hs, one_div]

theorem one_add_top : (1 : EReal) + ⊤ = ⊤ := EReal.add_top_of_ne_bot (EReal.coe_ne_bot 1)

theorem lrn_mul_eq_div_bot : lrnMul ⊥ = lrnDiv ⊥ := by
  unfold lrnMul lrnDiv
  simp [Ideal.div, one_add_top]

theorem lrn_mul_eq_div_top : lrnMul ⊤ = lrnDiv ⊤ := by
  unfold lrnMul lrnDiv
  simp [Ideal.div, one_add_top]

theorem lrn_mul_eq_div (m : EReal) : lrnMul m = lrnDiv m := by
  induction m using EReal.rec with
  | bot => exact lrn_mul_eq_div_bot
  | coe r => exact lrn_mul_eq_div_of_real r
  | top => exact lrn_mul_eq_div_top

theorem feat_sel_eq_gat (tok : Fin 128 → Fin 64 → BitVec 32) (W : Fin 64 → Fin 1000 → Fin n → Fin 64 → EReal) (bias : Fin 64 → EReal)
    (htok : InVocab tok) (b : Fin 128) (o : Fin 64) :
    featSel tok W bias b o = featGat tok W bias b o := by
  unfold featSel featGat

  have hp : (pool fun f => preSel tok W b o f + bias o) = pool fun f => preGat tok W b o (Fin.rev f) + bias o := by
    rw [pool_rev (fun f => preGat tok W b o f + bias o)]
    exact congrArg pool (funext fun f => by rw [preSel_eq_preGat tok W htok b o f])
  rw [hp]
  exact lrn_mul_eq_div _

end Cert.Spec

end
-- ==== Proof.KiFold.lean ====
import proofs.«409415_j7344394076371_2_alg».proof.Proof.KiPay
import proofs.«409415_j7344394076371_2_alg».proof.Proof.SpecLaws
import Mathlib.Algebra.BigOperators.Fin

noncomputable section

namespace Cert.KernelIdeal.FoldValue

open Cert.KernelIdeal Cert.KernelIdeal.Gen Cert.KernelIdeal.PayValue Idealize.ShloMosaic Idealize.ShloMosaic.ValueIdx

theorem fold_upto0 (a : ℕ → Vec Ideal S128x320 .f32) (oh : ℕ → Vec Ideal S128x2560 .bf16) (w : ℕ → Vec Ideal S2560x320 .f32)
    (h0 : a 0 = k0_pay2 (oh 0) (w 0) (k0_pay1 (F := Ideal)))
    (hs : ∀ n, n + 1 < 25 → a (n + 1) = k0_pay2 (oh (n + 1)) (w (n + 1)) (a n)) (b : Fin 128) (n : Fin 320)
    (m : ℕ) (hm : m < 25) :
    a m (ix2 b n) = ∑ t ∈ Finset.range (m + 1), ∑ k : Fin 2560, oh t (ix2 b k) * w t (ix2 k n) := by
  induction m with
  | zero => rw [h0, pay2_0, pay1_0, zero_add, Finset.sum_range_succ, Finset.sum_range_zero, zero_add]
  | succ m ih => rw [hs m hm, pay2_0, ih (by omega), Finset.sum_range_succ (n := m + 1)]

theorem fold0 (a : ℕ → Vec Ideal S128x320 .f32) (oh : ℕ → Vec Ideal S128x2560 .bf16) (w : ℕ → Vec Ideal S2560x320 .f32)
    (h0 : a 0 = k0_pay2 (oh 0) (w 0) (k0_pay1 (F := Ideal)))
    (hs : ∀ n, n + 1 < 25 → a (n + 1) = k0_pay2 (oh (n + 1)) (w (n + 1)) (a n)) (b : Fin 128) (n : Fin 320) :
    a 24 (ix2 b n) = ∑ t : Fin 25, ∑ k : Fin 2560, oh t.val (ix2 b k) * w t.val (ix2 k n) := by
  rw [fold_upto0 a oh w h0 hs b n 24 (by norm_num)]
  exact Finset.sum_range (fun t => ∑ k : Fin 2560, oh t (ix2 b k) * w t (ix2 k n))

theorem feat0 (a : ℕ → Vec Ideal S128x320 .f32) (oh : ℕ → Vec Ideal S128x2560 .bf16) (w : ℕ → Vec Ideal S2560x320 .f32) (bias : Vec Ideal S64x1 .f32)
    (tok : Fin 128 → Fin 64 → BitVec 32) (W : Fin 64 → Fin 1000 → Fin 5 → Fin 64 → EReal) (bs : Fin 64 → EReal)
    (h0 : a 0 = k0_pay2 (oh 0) (w 0) (k0_pay1 (F := Ideal)))
    (hs : ∀ n, n + 1 < 25 → a (n + 1) = k0_pay2 (oh (n + 1)) (w (n + 1)) (a n))
    (hoh : ∀ (t : Fin 25) (b : Fin 128) (k : Fin 2560), oh t.val (ix2 b k) = Cert.Spec.sel (tok b ⟨k.val % 64, Nat.mod_lt _ (by norm_num)⟩) ⟨t.val * 40 + k.val / 64, by omega⟩)
    (hw : ∀ (t : Fin 25) (k : Fin 2560) (o : Fin 64) (f : Fin 5), w t.val (ix2 k ⟨o.val * 5 + f.val, by omega⟩) = W o ⟨t.val * 40 + k.val / 64, by omega⟩ f ⟨k.val % 64, Nat.mod_lt _ (by norm_num)⟩)
    (hb : ∀ o : Fin 64, bias (ix2 o 0) = bs o) (o : Fin 64) (b : Fin 128) :
    k0_pay3 bias (a 24) (ix2 o b) = Cert.Spec.featSel tok W bs b o := by
  rw [pay3_0]
  unfold Cert.Spec.featSel
  refine congrArg Cert.Spec.lrnMul (congrArg Cert.Spec.pool (funext fun f => ?_))
  rw [fold0 a oh w h0 hs b _, hb o]
  refine congrArg (· + bs o) ?_
  unfold Cert.Spec.preSel
  refine Eq.trans (Finset.sum_congr rfl fun t _ => Finset.sum_congr rfl fun k _ => ?_)
    (Cert.Spec.sum_tiles (fun v l => Cert.Spec.sel (tok b l) v * W o v f l))
  rw [hoh t b k, hw t k o f]

theorem fold_upto1 (a : ℕ → Vec Ideal S128x640 .f32) (oh : ℕ → Vec Ideal S128x2560 .bf16) (w : ℕ → Vec Ideal S2560x640 .f32)
    (h0 : a 0 = k1_pay2 (oh 0) (w 0) (k1_pay1 (F := Ideal)))
    (hs : ∀ n, n + 1 < 25 → a (n + 1) = k1_pay2 (oh (n + 1)) (w (n + 1)) (a n)) (b : Fin 128) (n : Fin 640)
    (m : ℕ) (hm : m < 25) :
    a m (ix2 b n) = ∑ t ∈ Finset.range (m + 1), ∑ k : Fin 2560, oh t (ix2 b k) * w t (ix2 k n) := by
  induction m with
  | zero => rw [h0, pay2_1, pay1_1, zero_add, Finset.sum_range_succ, Finset.sum_range_zero, zero_add]
  | succ m ih => rw [hs m hm, pay2_1, ih (by omega), Finset.sum_range_succ (n := m + 1)]

theorem fold1 (a : ℕ → Vec Ideal S128x640 .f32) (oh : ℕ → Vec Ideal S128x2560 .bf16) (w : ℕ → Vec Ideal S2560x640 .f32)
    (h0 : a 0 = k1_pay2 (oh 0) (w 0) (k1_pay1 (F := Ideal)))
    (hs : ∀ n, n + 1 < 25 → a (n + 1) = k1_pay2 (oh (n + 1)) (w (n + 1)) (a n)) (b : Fin 128) (n : Fin 640) :
    a 24 (ix2 b n) = ∑ t : Fin 25, ∑ k : Fin 2560, oh t.val (ix2 b k) * w t.val (ix2 k n) := by
  rw [fold_upto1 a oh w h0 hs b n 24 (by norm_num)]
  exact Finset.sum_range (fun t => ∑ k : Fin 2560, oh t (ix2 b k) * w t (ix2 k n))

theorem feat1 (a : ℕ → Vec Ideal S128x640 .f32) (oh : ℕ → Vec Ideal S128x2560 .bf16) (w : ℕ → Vec Ideal S2560x640 .f32) (bias : Vec Ideal S64x1 .f32)
    (tok : Fin 128 → Fin 64 → BitVec 32) (W : Fin 64 → Fin 1000 → Fin 10 → Fin 64 → EReal) (bs : Fin 64 → EReal)
    (h0 : a 0 = k1_pay2 (oh 0) (w 0) (k1_pay1 (F := Ideal)))
    (hs : ∀ n, n + 1 < 25 → a (n + 1) = k1_pay2 (oh (n + 1)) (w (n + 1)) (a n))
    (hoh : ∀ (t : Fin 25) (b : Fin 128) (k : Fin 2560), oh t.val (ix2 b k) = Cert.Spec.sel (tok b ⟨k.val % 64, Nat.mod_lt _ (by norm_num)⟩) ⟨t.val * 40 + k.val / 64, by omega⟩)
    (hw : ∀ (t : Fin 25) (k : Fin 2560) (o : Fin 64) (f : Fin 10), w t.val (ix2 k ⟨o.val * 10 + f.val, by omega⟩) = W o ⟨t.val * 40 + k.val / 64, by omega⟩ f ⟨k.val % 64, Nat.mod_lt _ (by norm_num)⟩)
    (hb : ∀ o : Fin 64, bias (ix2 o 0) = bs o) (o : Fin 64) (b : Fin 128) :
    k1_pay3 bias (a 24) (ix2 o b) = Cert.Spec.featSel tok W bs b o := by
  rw [pay3_1]
  unfold Cert.Spec.featSel
  refine congrArg Cert.Spec.lrnMul (congrArg Cert.Spec.pool (funext fun f => ?_))
  rw [fold1 a oh w h0 hs b _, hb o]
  refine congrArg (· + bs o) ?_
  unfold Cert.Spec.preSel
  refine Eq.trans (Finset.sum_congr rfl fun t _ => Finset.sum_congr rfl fun k _ => ?_)
    (Cert.Spec.sum_tiles (fun v l => Cert.Spec.sel (tok b l) v * W o v f l))
  rw [hoh t b k, hw t k o f]

theorem fold_upto2 (a : ℕ → Vec Ideal S128x960 .f32) (oh : ℕ → Vec Ideal S128x2560 .bf16) (w : ℕ → Vec Ideal S2560x960 .f32)
    (h0 : a 0 = k2_pay2 (oh 0) (w 0) (k2_pay1 (F := Ideal)))
    (hs : ∀ n, n + 1 < 25 → a (n + 1) = k2_pay2 (oh (n + 1)) (w (n + 1)) (a n)) (b : Fin 128) (n : Fin 960)
    (m : ℕ) (hm : m < 25) :
    a m (ix2 b n) = ∑ t ∈ Finset.range (m + 1), ∑ k : Fin 2560, oh t (ix2 b k) * w t (ix2 k n) := by
  induction m with
  | zero => rw [h0, pay2_2, pay1_2, zero_add, Finset.sum_range_succ, Finset.sum_range_zero, zero_add]
  | succ m ih => rw [hs m hm, pay2_2, ih (by omega), Finset.sum_range_succ (n := m + 1)]

theorem fold2 (a : ℕ → Vec Ideal S128x960 .f32) (oh : ℕ → Vec Ideal S128x2560 .bf16) (w : ℕ → Vec Ideal S2560x960 .f32)
    (h0 : a 0 = k2_pay2 (oh 0) (w 0) (k2_pay1 (F := Ideal)))
    (hs : ∀ n, n + 1 < 25 → a (n + 1) = k2_pay2 (oh (n + 1)) (w (n + 1)) (a n)) (b : Fin 128) (n : Fin 960) :
    a 24 (ix2 b n) = ∑ t : Fin 25, ∑ k : Fin 2560, oh t.val (ix2 b k) * w t.val (ix2 k n) := by
  rw [fold_upto2 a oh w h0 hs b n 24 (by norm_num)]
  exact Finset.sum_range (fun t => ∑ k : Fin 2560, oh t (ix2 b k) * w t (ix2 k n))

theorem feat2 (a : ℕ → Vec Ideal S128x960 .f32) (oh : ℕ → Vec Ideal S128x2560 .bf16) (w : ℕ → Vec Ideal S2560x960 .f32) (bias : Vec Ideal S64x1 .f32)
    (tok : Fin 128 → Fin 64 → BitVec 32) (W : Fin 64 → Fin 1000 → Fin 15 → Fin 64 → EReal) (bs : Fin 64 → EReal)
    (h0 : a 0 = k2_pay2 (oh 0) (w 0) (k2_pay1 (F := Ideal)))
    (hs : ∀ n, n + 1 < 25 → a (n + 1) = k2_pay2 (oh (n + 1)) (w (n + 1)) (a n))
    (hoh : ∀ (t : Fin 25) (b : Fin 128) (k : Fin 2560), oh t.val (ix2 b k) = Cert.Spec.sel (tok b ⟨k.val % 64, Nat.mod_lt _ (by norm_num)⟩) ⟨t.val * 40 + k.val / 64, by omega⟩)
    (hw : ∀ (t : Fin 25) (k : Fin 2560) (o : Fin 64) (f : Fin 15), w t.val (ix2 k ⟨o.val * 15 + f.val, by omega⟩) = W o ⟨t.val * 40 + k.val / 64, by omega⟩ f ⟨k.val % 64, Nat.mod_lt _ (by norm_num)⟩)
    (hb : ∀ o : Fin 64, bias (ix2 o 0) = bs o) (o : Fin 64) (b : Fin 128) :
    k2_pay3 bias (a 24) (ix2 o b) = Cert.Spec.featSel tok W bs b o := by
  rw [pay3_2]
  unfold Cert.Spec.featSel
  refine congrArg Cert.Spec.lrnMul (congrArg Cert.Spec.pool (funext fun f => ?_))
  rw [fold2 a oh w h0 hs b _, hb o]
  refine congrArg (· + bs o) ?_
  unfold Cert.Spec.preSel
  refine Eq.trans (Finset.sum_congr rfl fun t _ => Finset.sum_congr rfl fun k _ => ?_)
    (Cert.Spec.sum_tiles (fun v l => Cert.Spec.sel (tok b l) v * W o v f l))
  rw [hoh t b k, hw t k o f]

theorem fold_upto3 (a : ℕ → Vec Ideal S128x640 .f32) (oh : ℕ → Vec Ideal S128x2560 .bf16) (w : ℕ → Vec Ideal S2560x640 .f32)
    (h0 : a 0 = k3_pay2 (oh 0) (w 0) (k3_pay1 (F := Ideal)))
    (hs : ∀ n, n + 1 < 25 → a (n + 1) = k3_pay2 (oh (n + 1)) (w (n + 1)) (a n)) (b : Fin 128) (n : Fin 640)
    (m : ℕ) (hm : m < 25) :
    a m (ix2 b n) = ∑ t ∈ Finset.range (m + 1), ∑ k : Fin 2560, oh t (ix2 b k) * w t (ix2 k n) := by
  induction m with
  | zero => rw [h0, pay2_3, pay1_3, zero_add, Finset.sum_range_succ, Finset.sum_range_zero, zero_add]
  | succ m ih => rw [hs m hm, pay2_3, ih (by omega), Finset.sum_range_succ (n := m + 1)]

theorem fold3 (a : ℕ → Vec Ideal S128x640 .f32) (oh : ℕ → Vec Ideal S128x2560 .bf16) (w : ℕ → Vec Ideal S2560x640 .f32)
    (h0 : a 0 = k3_pay2 (oh 0) (w 0) (k3_pay1 (F := Ideal)))
    (hs : ∀ n, n + 1 < 25 → a (n + 1) = k3_pay2 (oh (n + 1)) (w (n + 1)) (a n)) (b : Fin 128) (n : Fin 640) :
    a 24 (ix2 b n) = ∑ t : Fin 25, ∑ k : Fin 2560, oh t.val (ix2 b k) * w t.val (ix2 k n) := by
  rw [fold_upto3 a oh w h0 hs b n 24 (by norm_num)]
  exact Finset.sum_range (fun t => ∑ k : Fin 2560, oh t (ix2 b k) * w t (ix2 k n))

theorem feat3 (io : Fin 2) (a : ℕ → Vec Ideal S128x640 .f32) (oh : ℕ → Vec Ideal S128x2560 .bf16) (w : ℕ → Vec Ideal S2560x640 .f32) (bias : Vec Ideal S32x1 .f32)
    (tok : Fin 128 → Fin 64 → BitVec 32) (W : Fin 64 → Fin 1000 → Fin 20 → Fin 64 → EReal) (bs : Fin 64 → EReal)
    (h0 : a 0 = k3_pay2 (oh 0) (w 0) (k3_pay1 (F := Ideal)))
    (hs : ∀ n, n + 1 < 25 → a (n + 1) = k3_pay2 (oh (n + 1)) (w (n + 1)) (a n))
    (hoh : ∀ (t : Fin 25) (b : Fin 128) (k : Fin 2560), oh t.val (ix2 b k) = Cert.Spec.sel (tok b ⟨k.val % 64, Nat.mod_lt _ (by norm_num)⟩) ⟨t.val * 40 + k.val / 64, by omega⟩)
    (hw : ∀ (t : Fin 25) (k : Fin 2560) (o' : Fin 32) (f : Fin 20), w t.val (ix2 k ⟨o'.val * 20 + f.val, by omega⟩) = W ⟨io.val * 32 + o'.val, by omega⟩ ⟨t.val * 40 + k.val / 64, by omega⟩ f ⟨k.val % 64, Nat.mod_lt _ (by norm_num)⟩)
    (hb : ∀ o' : Fin 32, bias (ix2 o' 0) = bs ⟨io.val * 32 + o'.val, by omega⟩) (o' : Fin 32) (b : Fin 128) :
    k3_pay3 bias (a 24) (ix2 o' b) = Cert.Spec.featSel tok W bs b ⟨io.val * 32 + o'.val, by omega⟩ := by
  rw [pay3_3]
  unfold Cert.Spec.featSel
  refine congrArg Cert.Spec.lrnMul (congrArg Cert.Spec.pool (funext fun f => ?_))
  rw [fold3 a oh w h0 hs b _, hb o']
  refine congrArg (· + bs ⟨io.val * 32 + o'.val, by omega⟩) ?_
  unfold Cert.Spec.preSel
  refine Eq.trans (Finset.sum_congr rfl fun t _ => Finset.sum_congr rfl fun k _ => ?_)
    (Cert.Spec.sum_tiles (fun v l => Cert.Spec.sel (tok b l) v * W ⟨io.val * 32 + o'.val, by omega⟩ v f l))
  rw [hoh t b k, hw t k o' f]

end Cert.KernelIdeal.FoldValue

end
-- ==== Proof.KiR0Val.lean ====
import proofs.«409415_j7344394076371_2_alg».proof.Proof.KiR0Dat
import proofs.«409415_j7344394076371_2_alg».proof.Proof.KiR0Blk
import proofs.«409415_j7344394076371_2_alg».proof.Proof.KiFold
import Idealize.ShloMosaic.Lib.ValueIdx
import Idealize.ShloMosaic.Lib.Pipeline.Value

set_option maxRecDepth 16384

noncomputable section

namespace Cert.KernelIdeal.R0

open Cert.KernelIdeal Cert.KernelIdeal.Gen Cert.KernelIdeal.PayValue Cert.KernelIdeal.FoldValue
open Idealize.ShloMosaic Idealize.ShloMosaic.TcCoe Idealize.ShloMosaic.ValueIdx
open Idealize.ShloMosaic.Pipeline (Dat)

section Value

variable (V : (c : Dev nD) → (b : Ref sig .tc) → Buf (Elt Ideal) ((c : Thread nD τ).loc b)) (c : Dev nD)
  (tok : Fin 128 → Fin 64 → BitVec 32) (W : Fin 64 → Fin 1000 → Fin 5 → Fin 64 → EReal) (bs : Fin 64 → EReal)

def accSeq (t : Fin cfg0.N) (n : ℕ) : Vec Ideal S128x320 .f32 := accN V c (t.val / 25 * 25 + n)

def selSeq (t : Fin cfg0.N) (n : ℕ) : Vec Ideal S128x2560 .bf16 :=
  if h : t.val / 25 * 25 + n < cfg0.N then blk V c 0 ⟨t.val / 25 * 25 + n, h⟩ else blk V c 0 t

def wtsSeq (t : Fin cfg0.N) (n : ℕ) : Vec Ideal S2560x320 .f32 :=
  if h : t.val / 25 * 25 + n < cfg0.N then blk V c 1 ⟨t.val / 25 * 25 + n, h⟩ else blk V c 1 t

theorem out_point
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 5), V c main_v10 (ix2 (⟨v.val * 64 + l.val, by omega⟩ : Fin 64000) (⟨o.val * 5 + f.val, by omega⟩ : Fin 320)) = W o v f l)
    (hb : ∀ o : Fin 64, V c main_v8 (ix2 o (0 : Fin 1)) = bs o)
    (t : Fin cfg0.N) (h1 : t.val % 25 = 24) (o : Fin 64) (b : Fin 128) :
    outN V c t.val (ix2 o b)
      = Cert.Spec.featSel tok W bs b ⟨(t.val / 25) * 64 + o.val, by have := t.isLt; have : cfg0.N = 25 := N_0; omega⟩ := by
  have hN : cfg0.N = 25 := N_0
  have htN := t.isLt

  have hpos : ∀ n, n < 25 → t.val / 25 * 25 + n < cfg0.N := fun n hn => by omega
  have h0 : accSeq V c t 0 = k0_pay2 (selSeq V c t 0) (wtsSeq V c t 0) (k0_pay1 (F := Ideal)) := by
    unfold accSeq selSeq wtsSeq
    rw [dif_pos (hpos 0 (by norm_num)), dif_pos (hpos 0 (by norm_num))]
    exact accN_first_eq V c ⟨t.val / 25 * 25 + 0, hpos 0 (by norm_num)⟩ (by show (t.val / 25 * 25 + 0) % 25 = 0; omega)
  have hs : ∀ n, n + 1 < 25 → accSeq V c t (n + 1) = k0_pay2 (selSeq V c t (n + 1)) (wtsSeq V c t (n + 1)) (accSeq V c t n) := by
    intro n hn
    unfold accSeq selSeq wtsSeq
    rw [dif_pos (hpos (n + 1) hn), dif_pos (hpos (n + 1) hn)]
    have hstep := accN_step_eq V c ⟨t.val / 25 * 25 + (n + 1), hpos (n + 1) hn⟩ (by show ¬(t.val / 25 * 25 + (n + 1)) % 25 = 0; omega)
    have hpred : (⟨t.val / 25 * 25 + (n + 1), hpos (n + 1) hn⟩ : Fin cfg0.N).val - 1 = t.val / 25 * 25 + n := by
      show t.val / 25 * 25 + (n + 1) - 1 = t.val / 25 * 25 + n; omega
    rw [hpred] at hstep
    exact hstep
  have hoh : ∀ (tt : Fin 25) (b : Fin 128) (k : Fin 2560), selSeq V c t tt.val (ix2 b k)
      = Cert.Spec.sel (tok b ⟨k.val % 64, Nat.mod_lt _ (by norm_num)⟩) ⟨tt.val * 40 + k.val / 64, by omega⟩ := by
    intro tt b k
    unfold selSeq
    rw [dif_pos (hpos tt.val tt.isLt), blk_sel, ← hsel b ⟨tt.val * 40 + k.val / 64, by omega⟩ ⟨k.val % 64, Nat.mod_lt _ (by norm_num)⟩]
    exact congrArg (fun z : Fin 64000 => V c main_v7 (ix2 b z)) (Fin.ext (by
      show ((t.val / 25 * 25 + tt.val) % 25) * 2560 + k.val = (tt.val * 40 + k.val / 64) * 64 + k.val % 64; omega))

  have hio : t.val / 25 = 0 := by omega
  have hwt : ∀ (tt : Fin 25) (k : Fin 2560) (o : Fin 64) (f : Fin 5), wtsSeq V c t tt.val (ix2 k ⟨o.val * 5 + f.val, by omega⟩)
      = W o ⟨tt.val * 40 + k.val / 64, by omega⟩ f ⟨k.val % 64, Nat.mod_lt _ (by norm_num)⟩ := by
    intro tt k o f
    unfold wtsSeq
    rw [dif_pos (hpos tt.val tt.isLt), blk_wts, ← hw ⟨tt.val * 40 + k.val / 64, by omega⟩ ⟨k.val % 64, Nat.mod_lt _ (by norm_num)⟩ o f]
    refine congrArg₂ (fun (y : Fin 64000) (z : Fin 320) => V c main_v10 (ix2 y z)) (Fin.ext ?_) (Fin.ext ?_)
    · show ((t.val / 25 * 25 + tt.val) % 25) * 2560 + k.val = (tt.val * 40 + k.val / 64) * 64 + k.val % 64; omega
    ·
      show ((t.val / 25 * 25 + tt.val) / 25) * 320 + (o.val * 5 + f.val) = o.val * 5 + f.val; omega
  have hbt : ∀ o : Fin 64, blk V c 2 t (ix2 o 0) = bs o := by
    intro o
    rw [blk_bias, ← hb o]

    exact congrArg (fun z : Fin 64 => V c main_v8 (ix2 z (0 : Fin 1))) (Fin.ext (by show (t.val / 25) * 64 + o.val = o.val; omega))
  have hlast : accN V c t.val = accSeq V c t 24 := by
    unfold accSeq
    exact congrArg (accN V c) (by omega)
  rw [outN_eq V c t, hlast,
    Cert.KernelIdeal.FoldValue.feat0 (accSeq V c t) (selSeq V c t) (wtsSeq V c t) (blk V c 2 t) tok W bs h0 hs hoh hwt hbt o b]

  exact congrArg (Cert.Spec.featSel tok W bs b) (Fin.ext (by show o.val = (t.val / 25) * 64 + o.val; omega))

def featArr : S64x128.Idx → Elt Ideal .f32 :=
  fun i => Cert.Spec.featSel tok W bs ⟨(i 1).val, (i 1).isLt⟩ ⟨(i 0).val, (i 0).isLt⟩

theorem flushed_out
    (hpt : ∀ (t : Fin cfg0.N), t.val % 25 = 24 → ∀ (o : Fin 64) (b : Fin 128),
      outN V c t.val (ix2 o b) = Cert.Spec.featSel tok W bs b ⟨(t.val / 25) * 64 + o.val, by have := t.isLt; have : cfg0.N = 25 := N_0; omega⟩)
    (t : Fin cfg0.N) (hf : (cfg0.win 3).flush t = true) :
    (dat V c).flushed 3 t = ((cfg0.win 3).blk t).view.read (Elt Ideal) (featArr tok W bs) := by
  have h1 := (flush0_3 t).mp hf
  have hN : cfg0.N = 25 := N_0
  have htN := t.isLt
  obtain ⟨e0, e1⟩ := idx_out t
  funext j
  show (cfg0.win 3).cut (grid0.coords t) ((dat V c).after 3 t) j = _
  rw [after_out, View.read_apply]
  have ho : (j 0).val < 64 := (j 0).isLt
  have hb : (j 1).val < 128 := (j 1).isLt
  have hx : (cfg0.win 3).xinj (grid0.coords t) j = ix2 (⟨(j 0).val, ho⟩ : Fin 64) (⟨(j 1).val, hb⟩ : Fin 128) :=
    funext fun a => match a with
      | ⟨0, _⟩ => rfl
      | ⟨1, _⟩ => rfl
  have hemb : ((cfg0.win 3).blk t).view.emb j
      = ix2 (⟨(t.val / 25) * 64 + (j 0).val, by omega⟩ : Fin 64) (⟨(j 1).val, hb⟩ : Fin 128) :=
    funext fun a => Fin.ext (by
      match a with
      | ⟨0, _⟩ => show win0_3.index t (0 : Fin 2) * 64 + 1 * (j 0).val = (t.val / 25) * 64 + (j 0).val; rw [e0]; omega
      | ⟨1, _⟩ => show win0_3.index t (1 : Fin 2) * 128 + 1 * (j 1).val = (j 1).val; rw [e1]; omega)
  refine ((congrArg (outN V c t.val) hx).trans (hpt t h1 _ _)).trans ?_
  show _ = featArr tok W bs (((cfg0.win 3).blk t).view.emb j)
  rw [hemb]
  rfl

theorem mem_blk_out (t : Fin cfg0.N) (i : S64x128.Idx) :
    i ∈ ((cfg0.win 3).blk t).view.set ↔ ∀ a : Fin 2, win0_3.index t a * S64x128.size a ≤ (i a).val
      ∧ (i a).val < win0_3.index t a * S64x128.size a + S64x128.size a := by
  show i ∈ ((View.whole main_v11).slice (win0_3.rect t)).set ↔ _
  rw [View.set_slice_whole, Rect.mem_set_unit]
  exact Iff.rfl

theorem arrAt_out
    (hpt : ∀ (t : Fin cfg0.N), t.val % 25 = 24 → ∀ (o : Fin 64) (b : Fin 128),
      outN V c t.val (ix2 o b) = Cert.Spec.featSel tok W bs b ⟨(t.val / 25) * 64 + o.val, by have := t.isLt; have : cfg0.N = 25 := N_0; omega⟩)
    (o : Fin 64) (b : Fin 128) :
    (dat V c).arrAt 3 cfg0.N (ix2 o b) = Cert.Spec.featSel tok W bs b o := by
  have hN : cfg0.N = 25 := N_0

  let t : Fin cfg0.N := ⟨(o.val / 64) * 25 + 24, by omega⟩
  have h1 : t.val % 25 = 24 := by show ((o.val / 64) * 25 + 24) % 25 = 24; omega
  have hq : t.val / 25 = o.val / 64 := by show ((o.val / 64) * 25 + 24) / 25 = o.val / 64; omega
  have hf : (cfg0.win 3).flush t = true := (flush0_3 t).mpr h1
  obtain ⟨e0, e1⟩ := idx_out t
  have hmem : (ix2 o b : S64x128.Idx) ∈ ((cfg0.win 3).blk t).view.set := by
    rw [mem_blk_out]
    intro a
    match a with
    | ⟨0, _⟩ => show win0_3.index t (0 : Fin 2) * 64 ≤ o.val ∧ o.val < win0_3.index t (0 : Fin 2) * 64 + 64; rw [e0, hq]; omega
    | ⟨1, _⟩ => show win0_3.index t (1 : Fin 2) * 128 ≤ b.val ∧ b.val < win0_3.index t (1 : Fin 2) * 128 + 128; rw [e1]; omega
  exact (dat V c).arrAt_apply_of_mem 3 (featArr tok W bs) (flushed_out V c tok W bs hpt) cfg0.N t (ix2 o b) t.isLt hf hmem

end Value

theorem out_value (V : (c : Dev nD) → (b : Ref sig .tc) → Buf (Elt Ideal) ((c : Thread nD τ).loc b)) (c : Dev nD)
    (tok : Fin 128 → Fin 64 → BitVec 32) (W : Fin 64 → Fin 1000 → Fin 5 → Fin 64 → EReal) (bs : Fin 64 → EReal)
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 5), V c main_v10 (ix2 (⟨v.val * 64 + l.val, by omega⟩ : Fin 64000) (⟨o.val * 5 + f.val, by omega⟩ : Fin 320)) = W o v f l)
    (hb : ∀ o : Fin 64, V c main_v8 (ix2 o (0 : Fin 1)) = bs o) (o : Fin 64) (b : Fin 128) :
    (dat V c).arrAt 3 cfg0.N (ix2 o b) = Cert.Spec.featSel tok W bs b o :=
  arrAt_out V c tok W bs (fun t h1 o b => out_point V c tok W bs hsel hw hb t h1 o b) o b

end Cert.KernelIdeal.R0

end
-- ==== Proof.KiR1Blk.lean ====
import proofs.«409415_j7344394076371_2_alg».proof.Proof.KiR1Base
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

theorem idx_sel : ∀ t : Fin cfg1.N, win1_0.index t (0 : Fin 2) = 0 ∧ win1_0.index t (1 : Fin 2) = t.val % 25 :=
  (by decide +kernel : ∀ t : Fin grid1.N, _)

theorem idx_wts : ∀ t : Fin cfg1.N, win1_1.index t (0 : Fin 2) = t.val % 25 ∧ win1_1.index t (1 : Fin 2) = t.val / 25 :=
  (by decide +kernel : ∀ t : Fin grid1.N, _)

theorem idx_bias : ∀ t : Fin cfg1.N, win1_2.index t (0 : Fin 2) = t.val / 25 ∧ win1_2.index t (1 : Fin 2) = 0 :=
  (by decide +kernel : ∀ t : Fin grid1.N, _)

theorem blk_sel (c : Dev nD) (t : Fin cfg1.N) (b : Fin 128) (k : Fin 2560) :
    blk V c 0 t (ix2 b k) = V c main_v7 (ix2 b ⟨(t.val % 25) * 2560 + k.val, by omega⟩) := by
  obtain ⟨e0, e1⟩ := idx_sel t
  unfold blk
  rw [View.read_apply]
  show V c main_v7 _ = V c main_v7 _
  congr 1
  funext a
  apply Fin.ext
  match a with
  | ⟨0, _⟩ => show win1_0.index t (0 : Fin 2) * 128 + 1 * b.val = b.val; rw [e0]; omega
  | ⟨1, _⟩ => show win1_0.index t (1 : Fin 2) * 2560 + 1 * k.val = (t.val % 25) * 2560 + k.val; rw [e1]; omega

theorem blk_wts (c : Dev nD) (t : Fin cfg1.N) (k : Fin 2560) (n : Fin 640) :
    blk V c 1 t (ix2 k n) = V c main_v15 (ix2 ⟨(t.val % 25) * 2560 + k.val, by omega⟩
      ⟨(t.val / 25) * 640 + n.val, by have := t.isLt; have : cfg1.N = 25 := N_1; omega⟩) := by
  obtain ⟨e0, e1⟩ := idx_wts t
  unfold blk
  rw [View.read_apply]
  show V c main_v15 _ = V c main_v15 _
  congr 1
  funext a
  apply Fin.ext
  match a with
  | ⟨0, _⟩ => show win1_1.index t (0 : Fin 2) * 2560 + 1 * k.val = (t.val % 25) * 2560 + k.val; rw [e0]; omega
  | ⟨1, _⟩ => show win1_1.index t (1 : Fin 2) * 640 + 1 * n.val = (t.val / 25) * 640 + n.val; rw [e1]; omega

theorem blk_bias (c : Dev nD) (t : Fin cfg1.N) (o : Fin 64) :
    blk V c 2 t (ix2 o 0) = V c main_v13 (ix2 ⟨(t.val / 25) * 64 + o.val, by have := t.isLt; have : cfg1.N = 25 := N_1; omega⟩ 0) := by
  obtain ⟨e0, e1⟩ := idx_bias t
  unfold blk
  rw [View.read_apply]
  show V c main_v13 _ = V c main_v13 _
  congr 1
  funext a
  apply Fin.ext
  match a with
  | ⟨0, _⟩ => show win1_2.index t (0 : Fin 2) * 64 + 1 * o.val = (t.val / 25) * 64 + o.val; rw [e0]; omega
  | ⟨1, _⟩ => show win1_2.index t (1 : Fin 2) * 1 + 1 * (0 : Fin 1).val = (0 : Fin 1).val; rw [e1]; rfl

theorem idx_out : ∀ t : Fin cfg1.N, win1_3.index t (0 : Fin 2) = t.val / 25 ∧ win1_3.index t (1 : Fin 2) = 0 :=
  (by decide +kernel : ∀ t : Fin grid1.N, _)

end Cert.KernelIdeal.R1

end
-- ==== Proof.KiR1Val.lean ====
import proofs.«409415_j7344394076371_2_alg».proof.Proof.KiR1Dat
import proofs.«409415_j7344394076371_2_alg».proof.Proof.KiR1Blk
import proofs.«409415_j7344394076371_2_alg».proof.Proof.KiFold
import Idealize.ShloMosaic.Lib.ValueIdx
import Idealize.ShloMosaic.Lib.Pipeline.Value

set_option maxRecDepth 16384

noncomputable section

namespace Cert.KernelIdeal.R1

open Cert.KernelIdeal Cert.KernelIdeal.Gen Cert.KernelIdeal.PayValue Cert.KernelIdeal.FoldValue
open Idealize.ShloMosaic Idealize.ShloMosaic.TcCoe Idealize.ShloMosaic.ValueIdx
open Idealize.ShloMosaic.Pipeline (Dat)

section Value

variable (V : (c : Dev nD) → (b : Ref sig .tc) → Buf (Elt Ideal) ((c : Thread nD τ).loc b)) (c : Dev nD)
  (tok : Fin 128 → Fin 64 → BitVec 32) (W : Fin 64 → Fin 1000 → Fin 10 → Fin 64 → EReal) (bs : Fin 64 → EReal)

def accSeq (t : Fin cfg1.N) (n : ℕ) : Vec Ideal S128x640 .f32 := accN V c (t.val / 25 * 25 + n)

def selSeq (t : Fin cfg1.N) (n : ℕ) : Vec Ideal S128x2560 .bf16 :=
  if h : t.val / 25 * 25 + n < cfg1.N then blk V c 0 ⟨t.val / 25 * 25 + n, h⟩ else blk V c 0 t

def wtsSeq (t : Fin cfg1.N) (n : ℕ) : Vec Ideal S2560x640 .f32 :=
  if h : t.val / 25 * 25 + n < cfg1.N then blk V c 1 ⟨t.val / 25 * 25 + n, h⟩ else blk V c 1 t

theorem out_point
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 10), V c main_v15 (ix2 (⟨v.val * 64 + l.val, by omega⟩ : Fin 64000) (⟨o.val * 10 + f.val, by omega⟩ : Fin 640)) = W o v f l)
    (hb : ∀ o : Fin 64, V c main_v13 (ix2 o (0 : Fin 1)) = bs o)
    (t : Fin cfg1.N) (h1 : t.val % 25 = 24) (o : Fin 64) (b : Fin 128) :
    outN V c t.val (ix2 o b)
      = Cert.Spec.featSel tok W bs b ⟨(t.val / 25) * 64 + o.val, by have := t.isLt; have : cfg1.N = 25 := N_1; omega⟩ := by
  have hN : cfg1.N = 25 := N_1
  have htN := t.isLt

  have hpos : ∀ n, n < 25 → t.val / 25 * 25 + n < cfg1.N := fun n hn => by omega
  have h0 : accSeq V c t 0 = k1_pay2 (selSeq V c t 0) (wtsSeq V c t 0) (k1_pay1 (F := Ideal)) := by
    unfold accSeq selSeq wtsSeq
    rw [dif_pos (hpos 0 (by norm_num)), dif_pos (hpos 0 (by norm_num))]
    exact accN_first_eq V c ⟨t.val / 25 * 25 + 0, hpos 0 (by norm_num)⟩ (by show (t.val / 25 * 25 + 0) % 25 = 0; omega)
  have hs : ∀ n, n + 1 < 25 → accSeq V c t (n + 1) = k1_pay2 (selSeq V c t (n + 1)) (wtsSeq V c t (n + 1)) (accSeq V c t n) := by
    intro n hn
    unfold accSeq selSeq wtsSeq
    rw [dif_pos (hpos (n + 1) hn), dif_pos (hpos (n + 1) hn)]
    have hstep := accN_step_eq V c ⟨t.val / 25 * 25 + (n + 1), hpos (n + 1) hn⟩ (by show ¬(t.val / 25 * 25 + (n + 1)) % 25 = 0; omega)
    have hpred : (⟨t.val / 25 * 25 + (n + 1), hpos (n + 1) hn⟩ : Fin cfg1.N).val - 1 = t.val / 25 * 25 + n := by
      show t.val / 25 * 25 + (n + 1) - 1 = t.val / 25 * 25 + n; omega
    rw [hpred] at hstep
    exact hstep
  have hoh : ∀ (tt : Fin 25) (b : Fin 128) (k : Fin 2560), selSeq V c t tt.val (ix2 b k)
      = Cert.Spec.sel (tok b ⟨k.val % 64, Nat.mod_lt _ (by norm_num)⟩) ⟨tt.val * 40 + k.val / 64, by omega⟩ := by
    intro tt b k
    unfold selSeq
    rw [dif_pos (hpos tt.val tt.isLt), blk_sel, ← hsel b ⟨tt.val * 40 + k.val / 64, by omega⟩ ⟨k.val % 64, Nat.mod_lt _ (by norm_num)⟩]
    exact congrArg (fun z : Fin 64000 => V c main_v7 (ix2 b z)) (Fin.ext (by
      show ((t.val / 25 * 25 + tt.val) % 25) * 2560 + k.val = (tt.val * 40 + k.val / 64) * 64 + k.val % 64; omega))

  have hio : t.val / 25 = 0 := by omega
  have hwt : ∀ (tt : Fin 25) (k : Fin 2560) (o : Fin 64) (f : Fin 10), wtsSeq V c t tt.val (ix2 k ⟨o.val * 10 + f.val, by omega⟩)
      = W o ⟨tt.val * 40 + k.val / 64, by omega⟩ f ⟨k.val % 64, Nat.mod_lt _ (by norm_num)⟩ := by
    intro tt k o f
    unfold wtsSeq
    rw [dif_pos (hpos tt.val tt.isLt), blk_wts, ← hw ⟨tt.val * 40 + k.val / 64, by omega⟩ ⟨k.val % 64, Nat.mod_lt _ (by norm_num)⟩ o f]
    refine congrArg₂ (fun (y : Fin 64000) (z : Fin 640) => V c main_v15 (ix2 y z)) (Fin.ext ?_) (Fin.ext ?_)
    · show ((t.val / 25 * 25 + tt.val) % 25) * 2560 + k.val = (tt.val * 40 + k.val / 64) * 64 + k.val % 64; omega
    ·
      show ((t.val / 25 * 25 + tt.val) / 25) * 640 + (o.val * 10 + f.val) = o.val * 10 + f.val; omega
  have hbt : ∀ o : Fin 64, blk V c 2 t (ix2 o 0) = bs o := by
    intro o
    rw [blk_bias, ← hb o]

    exact congrArg (fun z : Fin 64 => V c main_v13 (ix2 z (0 : Fin 1))) (Fin.ext (by show (t.val / 25) * 64 + o.val = o.val; omega))
  have hlast : accN V c t.val = accSeq V c t 24 := by
    unfold accSeq
    exact congrArg (accN V c) (by omega)
  rw [outN_eq V c t, hlast,
    Cert.KernelIdeal.FoldValue.feat1 (accSeq V c t) (selSeq V c t) (wtsSeq V c t) (blk V c 2 t) tok W bs h0 hs hoh hwt hbt o b]

  exact congrArg (Cert.Spec.featSel tok W bs b) (Fin.ext (by show o.val = (t.val / 25) * 64 + o.val; omega))

def featArr : S64x128.Idx → Elt Ideal .f32 :=
  fun i => Cert.Spec.featSel tok W bs ⟨(i 1).val, (i 1).isLt⟩ ⟨(i 0).val, (i 0).isLt⟩

theorem flushed_out
    (hpt : ∀ (t : Fin cfg1.N), t.val % 25 = 24 → ∀ (o : Fin 64) (b : Fin 128),
      outN V c t.val (ix2 o b) = Cert.Spec.featSel tok W bs b ⟨(t.val / 25) * 64 + o.val, by have := t.isLt; have : cfg1.N = 25 := N_1; omega⟩)
    (t : Fin cfg1.N) (hf : (cfg1.win 3).flush t = true) :
    (dat V c).flushed 3 t = ((cfg1.win 3).blk t).view.read (Elt Ideal) (featArr tok W bs) := by
  have h1 := (flush1_3 t).mp hf
  have hN : cfg1.N = 25 := N_1
  have htN := t.isLt
  obtain ⟨e0, e1⟩ := idx_out t
  funext j
  show (cfg1.win 3).cut (grid1.coords t) ((dat V c).after 3 t) j = _
  rw [after_out, View.read_apply]
  have ho : (j 0).val < 64 := (j 0).isLt
  have hb : (j 1).val < 128 := (j 1).isLt
  have hx : (cfg1.win 3).xinj (grid1.coords t) j = ix2 (⟨(j 0).val, ho⟩ : Fin 64) (⟨(j 1).val, hb⟩ : Fin 128) :=
    funext fun a => match a with
      | ⟨0, _⟩ => rfl
      | ⟨1, _⟩ => rfl
  have hemb : ((cfg1.win 3).blk t).view.emb j
      = ix2 (⟨(t.val / 25) * 64 + (j 0).val, by omega⟩ : Fin 64) (⟨(j 1).val, hb⟩ : Fin 128) :=
    funext fun a => Fin.ext (by
      match a with
      | ⟨0, _⟩ => show win1_3.index t (0 : Fin 2) * 64 + 1 * (j 0).val = (t.val / 25) * 64 + (j 0).val; rw [e0]; omega
      | ⟨1, _⟩ => show win1_3.index t (1 : Fin 2) * 128 + 1 * (j 1).val = (j 1).val; rw [e1]; omega)
  refine ((congrArg (outN V c t.val) hx).trans (hpt t h1 _ _)).trans ?_
  show _ = featArr tok W bs (((cfg1.win 3).blk t).view.emb j)
  rw [hemb]
  rfl

theorem mem_blk_out (t : Fin cfg1.N) (i : S64x128.Idx) :
    i ∈ ((cfg1.win 3).blk t).view.set ↔ ∀ a : Fin 2, win1_3.index t a * S64x128.size a ≤ (i a).val
      ∧ (i a).val < win1_3.index t a * S64x128.size a + S64x128.size a := by
  show i ∈ ((View.whole main_v16).slice (win1_3.rect t)).set ↔ _
  rw [View.set_slice_whole, Rect.mem_set_unit]
  exact Iff.rfl

theorem arrAt_out
    (hpt : ∀ (t : Fin cfg1.N), t.val % 25 = 24 → ∀ (o : Fin 64) (b : Fin 128),
      outN V c t.val (ix2 o b) = Cert.Spec.featSel tok W bs b ⟨(t.val / 25) * 64 + o.val, by have := t.isLt; have : cfg1.N = 25 := N_1; omega⟩)
    (o : Fin 64) (b : Fin 128) :
    (dat V c).arrAt 3 cfg1.N (ix2 o b) = Cert.Spec.featSel tok W bs b o := by
  have hN : cfg1.N = 25 := N_1

  let t : Fin cfg1.N := ⟨(o.val / 64) * 25 + 24, by omega⟩
  have h1 : t.val % 25 = 24 := by show ((o.val / 64) * 25 + 24) % 25 = 24; omega
  have hq : t.val / 25 = o.val / 64 := by show ((o.val / 64) * 25 + 24) / 25 = o.val / 64; omega
  have hf : (cfg1.win 3).flush t = true := (flush1_3 t).mpr h1
  obtain ⟨e0, e1⟩ := idx_out t
  have hmem : (ix2 o b : S64x128.Idx) ∈ ((cfg1.win 3).blk t).view.set := by
    rw [mem_blk_out]
    intro a
    match a with
    | ⟨0, _⟩ => show win1_3.index t (0 : Fin 2) * 64 ≤ o.val ∧ o.val < win1_3.index t (0 : Fin 2) * 64 + 64; rw [e0, hq]; omega
    | ⟨1, _⟩ => show win1_3.index t (1 : Fin 2) * 128 ≤ b.val ∧ b.val < win1_3.index t (1 : Fin 2) * 128 + 128; rw [e1]; omega
  exact (dat V c).arrAt_apply_of_mem 3 (featArr tok W bs) (flushed_out V c tok W bs hpt) cfg1.N t (ix2 o b) t.isLt hf hmem

end Value

theorem out_value (V : (c : Dev nD) → (b : Ref sig .tc) → Buf (Elt Ideal) ((c : Thread nD τ).loc b)) (c : Dev nD)
    (tok : Fin 128 → Fin 64 → BitVec 32) (W : Fin 64 → Fin 1000 → Fin 10 → Fin 64 → EReal) (bs : Fin 64 → EReal)
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 10), V c main_v15 (ix2 (⟨v.val * 64 + l.val, by omega⟩ : Fin 64000) (⟨o.val * 10 + f.val, by omega⟩ : Fin 640)) = W o v f l)
    (hb : ∀ o : Fin 64, V c main_v13 (ix2 o (0 : Fin 1)) = bs o) (o : Fin 64) (b : Fin 128) :
    (dat V c).arrAt 3 cfg1.N (ix2 o b) = Cert.Spec.featSel tok W bs b o :=
  arrAt_out V c tok W bs (fun t h1 o b => out_point V c tok W bs hsel hw hb t h1 o b) o b

end Cert.KernelIdeal.R1

end
-- ==== Proof.KiR2Blk.lean ====
import proofs.«409415_j7344394076371_2_alg».proof.Proof.KiR2Base
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

theorem idx_sel : ∀ t : Fin cfg2.N, win2_0.index t (0 : Fin 2) = 0 ∧ win2_0.index t (1 : Fin 2) = t.val % 25 :=
  (by decide +kernel : ∀ t : Fin grid2.N, _)

theorem idx_wts : ∀ t : Fin cfg2.N, win2_1.index t (0 : Fin 2) = t.val % 25 ∧ win2_1.index t (1 : Fin 2) = t.val / 25 :=
  (by decide +kernel : ∀ t : Fin grid2.N, _)

theorem idx_bias : ∀ t : Fin cfg2.N, win2_2.index t (0 : Fin 2) = t.val / 25 ∧ win2_2.index t (1 : Fin 2) = 0 :=
  (by decide +kernel : ∀ t : Fin grid2.N, _)

theorem blk_sel (c : Dev nD) (t : Fin cfg2.N) (b : Fin 128) (k : Fin 2560) :
    blk V c 0 t (ix2 b k) = V c main_v7 (ix2 b ⟨(t.val % 25) * 2560 + k.val, by omega⟩) := by
  obtain ⟨e0, e1⟩ := idx_sel t
  unfold blk
  rw [View.read_apply]
  show V c main_v7 _ = V c main_v7 _
  congr 1
  funext a
  apply Fin.ext
  match a with
  | ⟨0, _⟩ => show win2_0.index t (0 : Fin 2) * 128 + 1 * b.val = b.val; rw [e0]; omega
  | ⟨1, _⟩ => show win2_0.index t (1 : Fin 2) * 2560 + 1 * k.val = (t.val % 25) * 2560 + k.val; rw [e1]; omega

theorem blk_wts (c : Dev nD) (t : Fin cfg2.N) (k : Fin 2560) (n : Fin 960) :
    blk V c 1 t (ix2 k n) = V c main_v20 (ix2 ⟨(t.val % 25) * 2560 + k.val, by omega⟩
      ⟨(t.val / 25) * 960 + n.val, by have := t.isLt; have : cfg2.N = 25 := N_2; omega⟩) := by
  obtain ⟨e0, e1⟩ := idx_wts t
  unfold blk
  rw [View.read_apply]
  show V c main_v20 _ = V c main_v20 _
  congr 1
  funext a
  apply Fin.ext
  match a with
  | ⟨0, _⟩ => show win2_1.index t (0 : Fin 2) * 2560 + 1 * k.val = (t.val % 25) * 2560 + k.val; rw [e0]; omega
  | ⟨1, _⟩ => show win2_1.index t (1 : Fin 2) * 960 + 1 * n.val = (t.val / 25) * 960 + n.val; rw [e1]; omega

theorem blk_bias (c : Dev nD) (t : Fin cfg2.N) (o : Fin 64) :
    blk V c 2 t (ix2 o 0) = V c main_v18 (ix2 ⟨(t.val / 25) * 64 + o.val, by have := t.isLt; have : cfg2.N = 25 := N_2; omega⟩ 0) := by
  obtain ⟨e0, e1⟩ := idx_bias t
  unfold blk
  rw [View.read_apply]
  show V c main_v18 _ = V c main_v18 _
  congr 1
  funext a
  apply Fin.ext
  match a with
  | ⟨0, _⟩ => show win2_2.index t (0 : Fin 2) * 64 + 1 * o.val = (t.val / 25) * 64 + o.val; rw [e0]; omega
  | ⟨1, _⟩ => show win2_2.index t (1 : Fin 2) * 1 + 1 * (0 : Fin 1).val = (0 : Fin 1).val; rw [e1]; rfl

theorem idx_out : ∀ t : Fin cfg2.N, win2_3.index t (0 : Fin 2) = t.val / 25 ∧ win2_3.index t (1 : Fin 2) = 0 :=
  (by decide +kernel : ∀ t : Fin grid2.N, _)

end Cert.KernelIdeal.R2

end
-- ==== Proof.KiR2Val.lean ====
import proofs.«409415_j7344394076371_2_alg».proof.Proof.KiR2Dat
import proofs.«409415_j7344394076371_2_alg».proof.Proof.KiR2Blk
import proofs.«409415_j7344394076371_2_alg».proof.Proof.KiFold
import Idealize.ShloMosaic.Lib.ValueIdx
import Idealize.ShloMosaic.Lib.Pipeline.Value

set_option maxRecDepth 16384

noncomputable section

namespace Cert.KernelIdeal.R2

open Cert.KernelIdeal Cert.KernelIdeal.Gen Cert.KernelIdeal.PayValue Cert.KernelIdeal.FoldValue
open Idealize.ShloMosaic Idealize.ShloMosaic.TcCoe Idealize.ShloMosaic.ValueIdx
open Idealize.ShloMosaic.Pipeline (Dat)

section Value

variable (V : (c : Dev nD) → (b : Ref sig .tc) → Buf (Elt Ideal) ((c : Thread nD τ).loc b)) (c : Dev nD)
  (tok : Fin 128 → Fin 64 → BitVec 32) (W : Fin 64 → Fin 1000 → Fin 15 → Fin 64 → EReal) (bs : Fin 64 → EReal)

def accSeq (t : Fin cfg2.N) (n : ℕ) : Vec Ideal S128x960 .f32 := accN V c (t.val / 25 * 25 + n)

def selSeq (t : Fin cfg2.N) (n : ℕ) : Vec Ideal S128x2560 .bf16 :=
  if h : t.val / 25 * 25 + n < cfg2.N then blk V c 0 ⟨t.val / 25 * 25 + n, h⟩ else blk V c 0 t

def wtsSeq (t : Fin cfg2.N) (n : ℕ) : Vec Ideal S2560x960 .f32 :=
  if h : t.val / 25 * 25 + n < cfg2.N then blk V c 1 ⟨t.val / 25 * 25 + n, h⟩ else blk V c 1 t

theorem out_point
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 15), V c main_v20 (ix2 (⟨v.val * 64 + l.val, by omega⟩ : Fin 64000) (⟨o.val * 15 + f.val, by omega⟩ : Fin 960)) = W o v f l)
    (hb : ∀ o : Fin 64, V c main_v18 (ix2 o (0 : Fin 1)) = bs o)
    (t : Fin cfg2.N) (h1 : t.val % 25 = 24) (o : Fin 64) (b : Fin 128) :
    outN V c t.val (ix2 o b)
      = Cert.Spec.featSel tok W bs b ⟨(t.val / 25) * 64 + o.val, by have := t.isLt; have : cfg2.N = 25 := N_2; omega⟩ := by
  have hN : cfg2.N = 25 := N_2
  have htN := t.isLt

  have hpos : ∀ n, n < 25 → t.val / 25 * 25 + n < cfg2.N := fun n hn => by omega
  have h0 : accSeq V c t 0 = k2_pay2 (selSeq V c t 0) (wtsSeq V c t 0) (k2_pay1 (F := Ideal)) := by
    unfold accSeq selSeq wtsSeq
    rw [dif_pos (hpos 0 (by norm_num)), dif_pos (hpos 0 (by norm_num))]
    exact accN_first_eq V c ⟨t.val / 25 * 25 + 0, hpos 0 (by norm_num)⟩ (by show (t.val / 25 * 25 + 0) % 25 = 0; omega)
  have hs : ∀ n, n + 1 < 25 → accSeq V c t (n + 1) = k2_pay2 (selSeq V c t (n + 1)) (wtsSeq V c t (n + 1)) (accSeq V c t n) := by
    intro n hn
    unfold accSeq selSeq wtsSeq
    rw [dif_pos (hpos (n + 1) hn), dif_pos (hpos (n + 1) hn)]
    have hstep := accN_step_eq V c ⟨t.val / 25 * 25 + (n + 1), hpos (n + 1) hn⟩ (by show ¬(t.val / 25 * 25 + (n + 1)) % 25 = 0; omega)
    have hpred : (⟨t.val / 25 * 25 + (n + 1), hpos (n + 1) hn⟩ : Fin cfg2.N).val - 1 = t.val / 25 * 25 + n := by
      show t.val / 25 * 25 + (n + 1) - 1 = t.val / 25 * 25 + n; omega
    rw [hpred] at hstep
    exact hstep
  have hoh : ∀ (tt : Fin 25) (b : Fin 128) (k : Fin 2560), selSeq V c t tt.val (ix2 b k)
      = Cert.Spec.sel (tok b ⟨k.val % 64, Nat.mod_lt _ (by norm_num)⟩) ⟨tt.val * 40 + k.val / 64, by omega⟩ := by
    intro tt b k
    unfold selSeq
    rw [dif_pos (hpos tt.val tt.isLt), blk_sel, ← hsel b ⟨tt.val * 40 + k.val / 64, by omega⟩ ⟨k.val % 64, Nat.mod_lt _ (by norm_num)⟩]
    exact congrArg (fun z : Fin 64000 => V c main_v7 (ix2 b z)) (Fin.ext (by
      show ((t.val / 25 * 25 + tt.val) % 25) * 2560 + k.val = (tt.val * 40 + k.val / 64) * 64 + k.val % 64; omega))

  have hio : t.val / 25 = 0 := by omega
  have hwt : ∀ (tt : Fin 25) (k : Fin 2560) (o : Fin 64) (f : Fin 15), wtsSeq V c t tt.val (ix2 k ⟨o.val * 15 + f.val, by omega⟩)
      = W o ⟨tt.val * 40 + k.val / 64, by omega⟩ f ⟨k.val % 64, Nat.mod_lt _ (by norm_num)⟩ := by
    intro tt k o f
    unfold wtsSeq
    rw [dif_pos (hpos tt.val tt.isLt), blk_wts, ← hw ⟨tt.val * 40 + k.val / 64, by omega⟩ ⟨k.val % 64, Nat.mod_lt _ (by norm_num)⟩ o f]
    refine congrArg₂ (fun (y : Fin 64000) (z : Fin 960) => V c main_v20 (ix2 y z)) (Fin.ext ?_) (Fin.ext ?_)
    · show ((t.val / 25 * 25 + tt.val) % 25) * 2560 + k.val = (tt.val * 40 + k.val / 64) * 64 + k.val % 64; omega
    ·
      show ((t.val / 25 * 25 + tt.val) / 25) * 960 + (o.val * 15 + f.val) = o.val * 15 + f.val; omega
  have hbt : ∀ o : Fin 64, blk V c 2 t (ix2 o 0) = bs o := by
    intro o
    rw [blk_bias, ← hb o]

    exact congrArg (fun z : Fin 64 => V c main_v18 (ix2 z (0 : Fin 1))) (Fin.ext (by show (t.val / 25) * 64 + o.val = o.val; omega))
  have hlast : accN V c t.val = accSeq V c t 24 := by
    unfold accSeq
    exact congrArg (accN V c) (by omega)
  rw [outN_eq V c t, hlast,
    Cert.KernelIdeal.FoldValue.feat2 (accSeq V c t) (selSeq V c t) (wtsSeq V c t) (blk V c 2 t) tok W bs h0 hs hoh hwt hbt o b]

  exact congrArg (Cert.Spec.featSel tok W bs b) (Fin.ext (by show o.val = (t.val / 25) * 64 + o.val; omega))

def featArr : S64x128.Idx → Elt Ideal .f32 :=
  fun i => Cert.Spec.featSel tok W bs ⟨(i 1).val, (i 1).isLt⟩ ⟨(i 0).val, (i 0).isLt⟩

theorem flushed_out
    (hpt : ∀ (t : Fin cfg2.N), t.val % 25 = 24 → ∀ (o : Fin 64) (b : Fin 128),
      outN V c t.val (ix2 o b) = Cert.Spec.featSel tok W bs b ⟨(t.val / 25) * 64 + o.val, by have := t.isLt; have : cfg2.N = 25 := N_2; omega⟩)
    (t : Fin cfg2.N) (hf : (cfg2.win 3).flush t = true) :
    (dat V c).flushed 3 t = ((cfg2.win 3).blk t).view.read (Elt Ideal) (featArr tok W bs) := by
  have h1 := (flush2_3 t).mp hf
  have hN : cfg2.N = 25 := N_2
  have htN := t.isLt
  obtain ⟨e0, e1⟩ := idx_out t
  funext j
  show (cfg2.win 3).cut (grid2.coords t) ((dat V c).after 3 t) j = _
  rw [after_out, View.read_apply]
  have ho : (j 0).val < 64 := (j 0).isLt
  have hb : (j 1).val < 128 := (j 1).isLt
  have hx : (cfg2.win 3).xinj (grid2.coords t) j = ix2 (⟨(j 0).val, ho⟩ : Fin 64) (⟨(j 1).val, hb⟩ : Fin 128) :=
    funext fun a => match a with
      | ⟨0, _⟩ => rfl
      | ⟨1, _⟩ => rfl
  have hemb : ((cfg2.win 3).blk t).view.emb j
      = ix2 (⟨(t.val / 25) * 64 + (j 0).val, by omega⟩ : Fin 64) (⟨(j 1).val, hb⟩ : Fin 128) :=
    funext fun a => Fin.ext (by
      match a with
      | ⟨0, _⟩ => show win2_3.index t (0 : Fin 2) * 64 + 1 * (j 0).val = (t.val / 25) * 64 + (j 0).val; rw [e0]; omega
      | ⟨1, _⟩ => show win2_3.index t (1 : Fin 2) * 128 + 1 * (j 1).val = (j 1).val; rw [e1]; omega)
  refine ((congrArg (outN V c t.val) hx).trans (hpt t h1 _ _)).trans ?_
  show _ = featArr tok W bs (((cfg2.win 3).blk t).view.emb j)
  rw [hemb]
  rfl

theorem mem_blk_out (t : Fin cfg2.N) (i : S64x128.Idx) :
    i ∈ ((cfg2.win 3).blk t).view.set ↔ ∀ a : Fin 2, win2_3.index t a * S64x128.size a ≤ (i a).val
      ∧ (i a).val < win2_3.index t a * S64x128.size a + S64x128.size a := by
  show i ∈ ((View.whole main_v21).slice (win2_3.rect t)).set ↔ _
  rw [View.set_slice_whole, Rect.mem_set_unit]
  exact Iff.rfl

theorem arrAt_out
    (hpt : ∀ (t : Fin cfg2.N), t.val % 25 = 24 → ∀ (o : Fin 64) (b : Fin 128),
      outN V c t.val (ix2 o b) = Cert.Spec.featSel tok W bs b ⟨(t.val / 25) * 64 + o.val, by have := t.isLt; have : cfg2.N = 25 := N_2; omega⟩)
    (o : Fin 64) (b : Fin 128) :
    (dat V c).arrAt 3 cfg2.N (ix2 o b) = Cert.Spec.featSel tok W bs b o := by
  have hN : cfg2.N = 25 := N_2

  let t : Fin cfg2.N := ⟨(o.val / 64) * 25 + 24, by omega⟩
  have h1 : t.val % 25 = 24 := by show ((o.val / 64) * 25 + 24) % 25 = 24; omega
  have hq : t.val / 25 = o.val / 64 := by show ((o.val / 64) * 25 + 24) / 25 = o.val / 64; omega
  have hf : (cfg2.win 3).flush t = true := (flush2_3 t).mpr h1
  obtain ⟨e0, e1⟩ := idx_out t
  have hmem : (ix2 o b : S64x128.Idx) ∈ ((cfg2.win 3).blk t).view.set := by
    rw [mem_blk_out]
    intro a
    match a with
    | ⟨0, _⟩ => show win2_3.index t (0 : Fin 2) * 64 ≤ o.val ∧ o.val < win2_3.index t (0 : Fin 2) * 64 + 64; rw [e0, hq]; omega
    | ⟨1, _⟩ => show win2_3.index t (1 : Fin 2) * 128 ≤ b.val ∧ b.val < win2_3.index t (1 : Fin 2) * 128 + 128; rw [e1]; omega
  exact (dat V c).arrAt_apply_of_mem 3 (featArr tok W bs) (flushed_out V c tok W bs hpt) cfg2.N t (ix2 o b) t.isLt hf hmem

end Value

theorem out_value (V : (c : Dev nD) → (b : Ref sig .tc) → Buf (Elt Ideal) ((c : Thread nD τ).loc b)) (c : Dev nD)
    (tok : Fin 128 → Fin 64 → BitVec 32) (W : Fin 64 → Fin 1000 → Fin 15 → Fin 64 → EReal) (bs : Fin 64 → EReal)
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 15), V c main_v20 (ix2 (⟨v.val * 64 + l.val, by omega⟩ : Fin 64000) (⟨o.val * 15 + f.val, by omega⟩ : Fin 960)) = W o v f l)
    (hb : ∀ o : Fin 64, V c main_v18 (ix2 o (0 : Fin 1)) = bs o) (o : Fin 64) (b : Fin 128) :
    (dat V c).arrAt 3 cfg2.N (ix2 o b) = Cert.Spec.featSel tok W bs b o :=
  arrAt_out V c tok W bs (fun t h1 o b => out_point V c tok W bs hsel hw hb t h1 o b) o b

end Cert.KernelIdeal.R2

end
-- ==== Proof.KiR3Blk.lean ====
import proofs.«409415_j7344394076371_2_alg».proof.Proof.KiR3Base
import Idealize.ShloMosaic.Lib.ValueIdx

set_option maxRecDepth 16384

noncomputable section

namespace Cert.KernelIdeal.R3

open Cert.KernelIdeal Cert.KernelIdeal.Gen
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

theorem idx_sel : ∀ t : Fin cfg3.N, win3_0.index t (0 : Fin 2) = 0 ∧ win3_0.index t (1 : Fin 2) = t.val % 25 :=
  (by decide +kernel : ∀ t : Fin grid3.N, _)

theorem idx_wts : ∀ t : Fin cfg3.N, win3_1.index t (0 : Fin 2) = t.val % 25 ∧ win3_1.index t (1 : Fin 2) = t.val / 25 :=
  (by decide +kernel : ∀ t : Fin grid3.N, _)

theorem idx_bias : ∀ t : Fin cfg3.N, win3_2.index t (0 : Fin 2) = t.val / 25 ∧ win3_2.index t (1 : Fin 2) = 0 :=
  (by decide +kernel : ∀ t : Fin grid3.N, _)

theorem idx_out : ∀ t : Fin cfg3.N, win3_3.index t (0 : Fin 2) = t.val / 25 ∧ win3_3.index t (1 : Fin 2) = 0 :=
  (by decide +kernel : ∀ t : Fin grid3.N, _)

theorem blk_sel (c : Dev nD) (t : Fin cfg3.N) (b : Fin 128) (k : Fin 2560) :
    blk V c 0 t (ix2 b k) = V c main_v7 (ix2 b ⟨(t.val % 25) * 2560 + k.val, by omega⟩) := by
  obtain ⟨e0, e1⟩ := idx_sel t
  unfold blk
  rw [View.read_apply]
  show V c main_v7 _ = V c main_v7 _
  congr 1
  funext a
  apply Fin.ext
  match a with
  | ⟨0, _⟩ => show win3_0.index t (0 : Fin 2) * 128 + 1 * b.val = b.val; rw [e0]; omega
  | ⟨1, _⟩ => show win3_0.index t (1 : Fin 2) * 2560 + 1 * k.val = (t.val % 25) * 2560 + k.val; rw [e1]; omega

theorem blk_wts (c : Dev nD) (t : Fin cfg3.N) (k : Fin 2560) (n : Fin 640) :
    blk V c 1 t (ix2 k n) = V c main_v25 (ix2 ⟨(t.val % 25) * 2560 + k.val, by omega⟩
      ⟨(t.val / 25) * 640 + n.val, by have := t.isLt; have : cfg3.N = 50 := N_3; omega⟩) := by
  obtain ⟨e0, e1⟩ := idx_wts t
  unfold blk
  rw [View.read_apply]
  show V c main_v25 _ = V c main_v25 _
  congr 1
  funext a
  apply Fin.ext
  match a with
  | ⟨0, _⟩ => show win3_1.index t (0 : Fin 2) * 2560 + 1 * k.val = (t.val % 25) * 2560 + k.val; rw [e0]; omega
  | ⟨1, _⟩ => show win3_1.index t (1 : Fin 2) * 640 + 1 * n.val = (t.val / 25) * 640 + n.val; rw [e1]; omega

theorem blk_bias (c : Dev nD) (t : Fin cfg3.N) (o : Fin 32) :
    blk V c 2 t (ix2 o 0) = V c main_v23 (ix2 ⟨(t.val / 25) * 32 + o.val, by have := t.isLt; have : cfg3.N = 50 := N_3; omega⟩ 0) := by
  obtain ⟨e0, e1⟩ := idx_bias t
  unfold blk
  rw [View.read_apply]
  show V c main_v23 _ = V c main_v23 _
  congr 1
  funext a
  apply Fin.ext
  match a with
  | ⟨0, _⟩ => show win3_2.index t (0 : Fin 2) * 32 + 1 * o.val = (t.val / 25) * 32 + o.val; rw [e0]; omega
  | ⟨1, _⟩ => show win3_2.index t (1 : Fin 2) * 1 + 1 * (0 : Fin 1).val = (0 : Fin 1).val; rw [e1]; rfl

end Cert.KernelIdeal.R3

end
-- ==== Proof.KiR3Val.lean ====
import proofs.«409415_j7344394076371_2_alg».proof.Proof.KiR3Dat
import proofs.«409415_j7344394076371_2_alg».proof.Proof.KiR3Blk
import proofs.«409415_j7344394076371_2_alg».proof.Proof.KiFold
import Idealize.ShloMosaic.Lib.ValueIdx
import Idealize.ShloMosaic.Lib.Pipeline.Value

set_option maxRecDepth 16384

noncomputable section

namespace Cert.KernelIdeal.R3

open Cert.KernelIdeal Cert.KernelIdeal.Gen Cert.KernelIdeal.PayValue Cert.KernelIdeal.FoldValue
open Idealize.ShloMosaic Idealize.ShloMosaic.TcCoe Idealize.ShloMosaic.ValueIdx
open Idealize.ShloMosaic.Pipeline (Dat)

section Value

variable (V : (c : Dev nD) → (b : Ref sig .tc) → Buf (Elt Ideal) ((c : Thread nD τ).loc b)) (c : Dev nD)
  (tok : Fin 128 → Fin 64 → BitVec 32) (W : Fin 64 → Fin 1000 → Fin 20 → Fin 64 → EReal) (bs : Fin 64 → EReal)

def tileOf (t : Fin cfg3.N) : Fin 2 := ⟨t.val / 25, by have := t.isLt; have : cfg3.N = 50 := N_3; omega⟩

def accSeq (t : Fin cfg3.N) (n : ℕ) : Vec Ideal S128x640 .f32 := accN V c (t.val / 25 * 25 + n)

def selSeq (t : Fin cfg3.N) (n : ℕ) : Vec Ideal S128x2560 .bf16 :=
  if h : t.val / 25 * 25 + n < cfg3.N then blk V c 0 ⟨t.val / 25 * 25 + n, h⟩ else blk V c 0 t

def wtsSeq (t : Fin cfg3.N) (n : ℕ) : Vec Ideal S2560x640 .f32 :=
  if h : t.val / 25 * 25 + n < cfg3.N then blk V c 1 ⟨t.val / 25 * 25 + n, h⟩ else blk V c 1 t

theorem out_point
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 20), V c main_v25 (ix2 (⟨v.val * 64 + l.val, by omega⟩ : Fin 64000) (⟨o.val * 20 + f.val, by omega⟩ : Fin 1280)) = W o v f l)
    (hb : ∀ o : Fin 64, V c main_v23 (ix2 o (0 : Fin 1)) = bs o)
    (t : Fin cfg3.N) (h1 : t.val % 25 = 24) (o' : Fin 32) (b : Fin 128) :
    outN V c t.val (ix2 o' b)
      = Cert.Spec.featSel tok W bs b ⟨(t.val / 25) * 32 + o'.val, by have := t.isLt; have : cfg3.N = 50 := N_3; omega⟩ := by
  have hN : cfg3.N = 50 := N_3
  have htN := t.isLt
  have hq : t.val / 25 < 2 := by omega

  have hpos : ∀ n, n < 25 → t.val / 25 * 25 + n < cfg3.N := fun n hn => by omega
  have h0 : accSeq V c t 0 = k3_pay2 (selSeq V c t 0) (wtsSeq V c t 0) (k3_pay1 (F := Ideal)) := by
    unfold accSeq selSeq wtsSeq
    rw [dif_pos (hpos 0 (by norm_num)), dif_pos (hpos 0 (by norm_num))]
    exact accN_first_eq V c ⟨t.val / 25 * 25 + 0, hpos 0 (by norm_num)⟩ (by show (t.val / 25 * 25 + 0) % 25 = 0; omega)
  have hs : ∀ n, n + 1 < 25 → accSeq V c t (n + 1) = k3_pay2 (selSeq V c t (n + 1)) (wtsSeq V c t (n + 1)) (accSeq V c t n) := by
    intro n hn
    unfold accSeq selSeq wtsSeq
    rw [dif_pos (hpos (n + 1) hn), dif_pos (hpos (n + 1) hn)]
    have hstep := accN_step_eq V c ⟨t.val / 25 * 25 + (n + 1), hpos (n + 1) hn⟩ (by show ¬(t.val / 25 * 25 + (n + 1)) % 25 = 0; omega)
    have hpred : (⟨t.val / 25 * 25 + (n + 1), hpos (n + 1) hn⟩ : Fin cfg3.N).val - 1 = t.val / 25 * 25 + n := by
      show t.val / 25 * 25 + (n + 1) - 1 = t.val / 25 * 25 + n; omega
    rw [hpred] at hstep
    exact hstep
  have hoh : ∀ (tt : Fin 25) (b : Fin 128) (k : Fin 2560), selSeq V c t tt.val (ix2 b k)
      = Cert.Spec.sel (tok b ⟨k.val % 64, Nat.mod_lt _ (by norm_num)⟩) ⟨tt.val * 40 + k.val / 64, by omega⟩ := by
    intro tt b k
    unfold selSeq
    rw [dif_pos (hpos tt.val tt.isLt), blk_sel, ← hsel b ⟨tt.val * 40 + k.val / 64, by omega⟩ ⟨k.val % 64, Nat.mod_lt _ (by norm_num)⟩]
    exact congrArg (fun z : Fin 64000 => V c main_v7 (ix2 b z)) (Fin.ext (by
      show ((t.val / 25 * 25 + tt.val) % 25) * 2560 + k.val = (tt.val * 40 + k.val / 64) * 64 + k.val % 64; omega))
  have hwt : ∀ (tt : Fin 25) (k : Fin 2560) (o' : Fin 32) (f : Fin 20), wtsSeq V c t tt.val (ix2 k ⟨o'.val * 20 + f.val, by omega⟩)
      = W ⟨(tileOf t).val * 32 + o'.val, by have := (tileOf t).isLt; omega⟩ ⟨tt.val * 40 + k.val / 64, by omega⟩ f ⟨k.val % 64, Nat.mod_lt _ (by norm_num)⟩ := by
    intro tt k o' f
    unfold wtsSeq
    rw [dif_pos (hpos tt.val tt.isLt), blk_wts,
      ← hw ⟨tt.val * 40 + k.val / 64, by omega⟩ ⟨k.val % 64, Nat.mod_lt _ (by norm_num)⟩
        ⟨(tileOf t).val * 32 + o'.val, by have := (tileOf t).isLt; omega⟩ f]
    refine congrArg₂ (fun (y : Fin 64000) (z : Fin 1280) => V c main_v25 (ix2 y z)) (Fin.ext ?_) (Fin.ext ?_)
    · show ((t.val / 25 * 25 + tt.val) % 25) * 2560 + k.val = (tt.val * 40 + k.val / 64) * 64 + k.val % 64; omega
    ·
      show ((t.val / 25 * 25 + tt.val) / 25) * 640 + (o'.val * 20 + f.val) = ((t.val / 25) * 32 + o'.val) * 20 + f.val; omega
  have hbt : ∀ o' : Fin 32, blk V c 2 t (ix2 o' 0) = bs ⟨(tileOf t).val * 32 + o'.val, by have := (tileOf t).isLt; omega⟩ := by
    intro o'
    rw [blk_bias]
    exact hb ⟨(t.val / 25) * 32 + o'.val, by omega⟩
  have hlast : accN V c t.val = accSeq V c t 24 := by
    unfold accSeq
    exact congrArg (accN V c) (by omega)
  rw [outN_eq V c t, hlast,
    Cert.KernelIdeal.FoldValue.feat3 (tileOf t) (accSeq V c t) (selSeq V c t) (wtsSeq V c t) (blk V c 2 t) tok W bs h0 hs hoh hwt hbt o' b]
  rfl

def featArr : S64x128.Idx → Elt Ideal .f32 :=
  fun i => Cert.Spec.featSel tok W bs ⟨(i 1).val, (i 1).isLt⟩ ⟨(i 0).val, (i 0).isLt⟩

theorem flushed_out
    (hpt : ∀ (t : Fin cfg3.N), t.val % 25 = 24 → ∀ (o' : Fin 32) (b : Fin 128),
      outN V c t.val (ix2 o' b) = Cert.Spec.featSel tok W bs b ⟨(t.val / 25) * 32 + o'.val, by have := t.isLt; have : cfg3.N = 50 := N_3; omega⟩)
    (t : Fin cfg3.N) (hf : (cfg3.win 3).flush t = true) :
    (dat V c).flushed 3 t = ((cfg3.win 3).blk t).view.read (Elt Ideal) (featArr tok W bs) := by
  have h1 := (flush3_3 t).mp hf
  have hN : cfg3.N = 50 := N_3
  have htN := t.isLt
  obtain ⟨e0, e1⟩ := idx_out t
  funext j
  show (cfg3.win 3).cut (grid3.coords t) ((dat V c).after 3 t) j = _
  rw [after_out, View.read_apply]
  have ho : (j 0).val < 32 := (j 0).isLt
  have hb : (j 1).val < 128 := (j 1).isLt
  have hx : (cfg3.win 3).xinj (grid3.coords t) j = ix2 (⟨(j 0).val, ho⟩ : Fin 32) (⟨(j 1).val, hb⟩ : Fin 128) :=
    funext fun a => match a with
      | ⟨0, _⟩ => rfl
      | ⟨1, _⟩ => rfl
  have hemb : ((cfg3.win 3).blk t).view.emb j
      = ix2 (⟨(t.val / 25) * 32 + (j 0).val, by omega⟩ : Fin 64) (⟨(j 1).val, hb⟩ : Fin 128) :=
    funext fun a => Fin.ext (by
      match a with
      | ⟨0, _⟩ => show win3_3.index t (0 : Fin 2) * 32 + 1 * (j 0).val = (t.val / 25) * 32 + (j 0).val; rw [e0]; omega
      | ⟨1, _⟩ => show win3_3.index t (1 : Fin 2) * 128 + 1 * (j 1).val = (j 1).val; rw [e1]; omega)
  refine ((congrArg (outN V c t.val) hx).trans (hpt t h1 _ _)).trans ?_
  show _ = featArr tok W bs (((cfg3.win 3).blk t).view.emb j)
  rw [hemb]
  rfl

theorem mem_blk_out (t : Fin cfg3.N) (i : S64x128.Idx) :
    i ∈ ((cfg3.win 3).blk t).view.set ↔ ∀ a : Fin 2, win3_3.index t a * S32x128.size a ≤ (i a).val
      ∧ (i a).val < win3_3.index t a * S32x128.size a + S32x128.size a := by
  show i ∈ ((View.whole main_v26).slice (win3_3.rect t)).set ↔ _
  rw [View.set_slice_whole, Rect.mem_set_unit]
  exact Iff.rfl

theorem arrAt_out
    (hpt : ∀ (t : Fin cfg3.N), t.val % 25 = 24 → ∀ (o' : Fin 32) (b : Fin 128),
      outN V c t.val (ix2 o' b) = Cert.Spec.featSel tok W bs b ⟨(t.val / 25) * 32 + o'.val, by have := t.isLt; have : cfg3.N = 50 := N_3; omega⟩)
    (o : Fin 64) (b : Fin 128) :
    (dat V c).arrAt 3 cfg3.N (ix2 o b) = Cert.Spec.featSel tok W bs b o := by
  have hN : cfg3.N = 50 := N_3
  let t : Fin cfg3.N := ⟨(o.val / 32) * 25 + 24, by omega⟩
  have h1 : t.val % 25 = 24 := by show ((o.val / 32) * 25 + 24) % 25 = 24; omega
  have hq : t.val / 25 = o.val / 32 := by show ((o.val / 32) * 25 + 24) / 25 = o.val / 32; omega
  have hf : (cfg3.win 3).flush t = true := (flush3_3 t).mpr h1
  obtain ⟨e0, e1⟩ := idx_out t
  have hmem : (ix2 o b : S64x128.Idx) ∈ ((cfg3.win 3).blk t).view.set := by
    rw [mem_blk_out]
    intro a
    match a with
    | ⟨0, _⟩ => show win3_3.index t (0 : Fin 2) * 32 ≤ o.val ∧ o.val < win3_3.index t (0 : Fin 2) * 32 + 32; rw [e0, hq]; omega
    | ⟨1, _⟩ => show win3_3.index t (1 : Fin 2) * 128 ≤ b.val ∧ b.val < win3_3.index t (1 : Fin 2) * 128 + 128; rw [e1]; omega
  exact (dat V c).arrAt_apply_of_mem 3 (featArr tok W bs) (flushed_out V c tok W bs hpt) cfg3.N t (ix2 o b) t.isLt hf hmem

end Value

theorem out_value (V : (c : Dev nD) → (b : Ref sig .tc) → Buf (Elt Ideal) ((c : Thread nD τ).loc b)) (c : Dev nD)
    (tok : Fin 128 → Fin 64 → BitVec 32) (W : Fin 64 → Fin 1000 → Fin 20 → Fin 64 → EReal) (bs : Fin 64 → EReal)
    (hsel : ∀ (b : Fin 128) (v : Fin 1000) (l : Fin 64), V c main_v7 (ix2 b (⟨v.val * 64 + l.val, by omega⟩ : Fin 64000)) = Cert.Spec.sel (tok b l) v)
    (hw : ∀ (v : Fin 1000) (l : Fin 64) (o : Fin 64) (f : Fin 20), V c main_v25 (ix2 (⟨v.val * 64 + l.val, by omega⟩ : Fin 64000) (⟨o.val * 20 + f.val, by omega⟩ : Fin 1280)) = W o v f l)
    (hb : ∀ o : Fin 64, V c main_v23 (ix2 o (0 : Fin 1)) = bs o) (o : Fin 64) (b : Fin 128) :
    (dat V c).arrAt 3 cfg3.N (ix2 o b) = Cert.Spec.featSel tok W bs b o :=
  arrAt_out V c tok W bs (fun t h1 o' b => out_point V c tok W bs hsel hw hb t h1 o' b) o b

end Cert.KernelIdeal.R3

end
-- ==== Proof.KiValue.lean ====
import proofs.«409415_j7344394076371_2_alg».proof.Proof.KiInst
import proofs.«409415_j7344394076371_2_alg».proof.Proof.KiTail
import proofs.«409415_j7344394076371_2_alg».proof.Proof.KiHost
import proofs.«409415_j7344394076371_2_alg».proof.Proof.KiR0Val
import proofs.«409415_j7344394076371_2_alg».proof.Proof.KiR1Val
import proofs.«409415_j7344394076371_2_alg».proof.Proof.KiR2Val
import proofs.«409415_j7344394076371_2_alg».proof.Proof.KiR3Val
import Idealize.ShloMosaic.Lib.ValueIdx

noncomputable section

namespace Cert.KernelIdeal.RunAll

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

theorem out0_value (o : Fin 64) (b : Fin 128) :
    out0 m c (ix2 o b)
      = Cert.Spec.featSel (Cert.Spec.tokOf (m ((c : Thread nD τ).loc main_arg0))) (Cert.Spec.wOf (m ((c : Thread nD τ).loc main_arg1))) (Cert.Spec.bOf (m ((c : Thread nD τ).loc main_arg2))) b o :=
  R0.out_value (ent0 m) c _ _ _ (fun b v l => HostValue.onehot_apply m c b v l)
    (fun v l o f => HostValue.wr0_apply m c v l o f)
    (fun o => HostValue.bias0_apply m c o) o b

theorem sel_ent1 (b : Fin 128) (v : Fin 1000) (l : Fin 64) :
    ent1 m c main_v7 (ix2 b (⟨v.val * 64 + l.val, by omega⟩ : Fin 64000))
      = Cert.Spec.sel (Cert.Spec.tokOf (m ((c : Thread nD τ).loc main_arg0)) b l) v := by
  rw [show ent1 m c main_v7 = V1 m c main_v7 from HostValue.onehot_V3 m (outsA m) c]
  exact HostValue.onehot_apply m c b v l

theorem out1_value (o : Fin 64) (b : Fin 128) :
    out1 m c (ix2 o b)
      = Cert.Spec.featSel (Cert.Spec.tokOf (m ((c : Thread nD τ).loc main_arg0))) (Cert.Spec.wOf (m ((c : Thread nD τ).loc main_arg3))) (Cert.Spec.bOf (m ((c : Thread nD τ).loc main_arg4))) b o :=
  R1.out_value (ent1 m) c _ _ _ (fun b v l => (sel_ent1 m c b v l))
    (fun v l o f => HostValue.wr1_apply m (outsA m) c v l o f)
    (fun o => HostValue.bias1_apply m (outsA m) c o) o b

theorem sel_ent2 (b : Fin 128) (v : Fin 1000) (l : Fin 64) :
    ent2 m c main_v7 (ix2 b (⟨v.val * 64 + l.val, by omega⟩ : Fin 64000))
      = Cert.Spec.sel (Cert.Spec.tokOf (m ((c : Thread nD τ).loc main_arg0)) b l) v := by
  rw [show ent2 m c main_v7 = V1 m c main_v7 from HostValue.onehot_V5 m (outsB m) c]
  exact HostValue.onehot_apply m c b v l

theorem out2_value (o : Fin 64) (b : Fin 128) :
    out2 m c (ix2 o b)
      = Cert.Spec.featSel (Cert.Spec.tokOf (m ((c : Thread nD τ).loc main_arg0))) (Cert.Spec.wOf (m ((c : Thread nD τ).loc main_arg5))) (Cert.Spec.bOf (m ((c : Thread nD τ).loc main_arg6))) b o :=
  R2.out_value (ent2 m) c _ _ _ (fun b v l => (sel_ent2 m c b v l))
    (fun v l o f => HostValue.wr2_apply m (outsB m) c v l o f)
    (fun o => HostValue.bias2_apply m (outsB m) c o) o b

theorem sel_ent3 (b : Fin 128) (v : Fin 1000) (l : Fin 64) :
    ent3 m c main_v7 (ix2 b (⟨v.val * 64 + l.val, by omega⟩ : Fin 64000))
      = Cert.Spec.sel (Cert.Spec.tokOf (m ((c : Thread nD τ).loc main_arg0)) b l) v := by
  rw [show ent3 m c main_v7 = V1 m c main_v7 from HostValue.onehot_V7 m (outsC m) c]
  exact HostValue.onehot_apply m c b v l

theorem out3_value (o : Fin 64) (b : Fin 128) :
    out3 m c (ix2 o b)
      = Cert.Spec.featSel (Cert.Spec.tokOf (m ((c : Thread nD τ).loc main_arg0))) (Cert.Spec.wOf (m ((c : Thread nD τ).loc main_arg7))) (Cert.Spec.bOf (m ((c : Thread nD τ).loc main_arg8))) b o :=
  R3.out_value (ent3 m) c _ _ _ (fun b v l => (sel_ent3 m c b v l))
    (fun v l o f => HostValue.wr3_apply m (outsC m) c v l o f)
    (fun o => HostValue.bias3_apply m (outsC m) c o) o b

theorem kernel_value (b : Fin 128) (j : Fin 2) :
    V9 m (outs m) c main_v33 (ix2 b j)
      = Cert.Spec.lin (Cert.Spec.cat4
            (Cert.Spec.featSel (Cert.Spec.tokOf (m ((c : Thread nD τ).loc main_arg0))) (Cert.Spec.wOf (m ((c : Thread nD τ).loc main_arg1))) (Cert.Spec.bOf (m ((c : Thread nD τ).loc main_arg2))))
            (Cert.Spec.featSel (Cert.Spec.tokOf (m ((c : Thread nD τ).loc main_arg0))) (Cert.Spec.wOf (m ((c : Thread nD τ).loc main_arg3))) (Cert.Spec.bOf (m ((c : Thread nD τ).loc main_arg4))))
            (Cert.Spec.featSel (Cert.Spec.tokOf (m ((c : Thread nD τ).loc main_arg0))) (Cert.Spec.wOf (m ((c : Thread nD τ).loc main_arg5))) (Cert.Spec.bOf (m ((c : Thread nD τ).loc main_arg6))))
            (Cert.Spec.featSel (Cert.Spec.tokOf (m ((c : Thread nD τ).loc main_arg0))) (Cert.Spec.wOf (m ((c : Thread nD τ).loc main_arg7))) (Cert.Spec.bOf (m ((c : Thread nD τ).loc main_arg8)))))
          (Cert.Spec.m2Of (m ((c : Thread nD τ).loc main_arg9))) (Cert.Spec.v1Of (m ((c : Thread nD τ).loc main_arg10))) b j := by
  rw [TailValue.tail_apply]
  have e0 : (fun (b : Fin 128) (o : Fin 64) => outs m 2 main_v11 c (ix2 o b))
      = Cert.Spec.featSel (Cert.Spec.tokOf (m ((c : Thread nD τ).loc main_arg0))) (Cert.Spec.wOf (m ((c : Thread nD τ).loc main_arg1))) (Cert.Spec.bOf (m ((c : Thread nD τ).loc main_arg2))) :=
    funext fun b => funext fun o => by rw [outs_at2]; exact out0_value m c o b
  have e1 : (fun (b : Fin 128) (o : Fin 64) => outs m 4 main_v16 c (ix2 o b))
      = Cert.Spec.featSel (Cert.Spec.tokOf (m ((c : Thread nD τ).loc main_arg0))) (Cert.Spec.wOf (m ((c : Thread nD τ).loc main_arg3))) (Cert.Spec.bOf (m ((c : Thread nD τ).loc main_arg4))) :=
    funext fun b => funext fun o => by rw [outs_at4]; exact out1_value m c o b
  have e2 : (fun (b : Fin 128) (o : Fin 64) => outs m 6 main_v21 c (ix2 o b))
      = Cert.Spec.featSel (Cert.Spec.tokOf (m ((c : Thread nD τ).loc main_arg0))) (Cert.Spec.wOf (m ((c : Thread nD τ).loc main_arg5))) (Cert.Spec.bOf (m ((c : Thread nD τ).loc main_arg6))) :=
    funext fun b => funext fun o => by rw [outs_at6]; exact out2_value m c o b
  have e3 : (fun (b : Fin 128) (o : Fin 64) => outs m 8 main_v26 c (ix2 o b))
      = Cert.Spec.featSel (Cert.Spec.tokOf (m ((c : Thread nD τ).loc main_arg0))) (Cert.Spec.wOf (m ((c : Thread nD τ).loc main_arg7))) (Cert.Spec.bOf (m ((c : Thread nD τ).loc main_arg8))) :=
    funext fun b => funext fun o => by rw [outs_at8]; exact out3_value m c o b
  rw [e0, e1, e2, e3]

end Cert.KernelIdeal.RunAll

end
-- ==== Proof.RefReadP.lean ====
import proofs.«409415_j7344394076371_2_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S64x1000x5x64, .f32⟩ : BufTy).Contents (Elt F)) : (⟨S64x1000x5x64, .f32⟩ : BufTy).Contents (Elt F) :=
  transpose S64x1000x5x64 [3, 1, 2, 0] (x1) transposes_S64x1000x5x64_S64x1000x5x64_3_1_2_0

abbrev idx_main_v0 (i : S64x1000x5x64.Idx) : S64x1000x5x64.Idx := fun a => match a with
  | ⟨0, _⟩ => ⟨(i 3).val, (i 3).isLt⟩
  | ⟨1, _⟩ => ⟨(i 1).val, (i 1).isLt⟩
  | ⟨2, _⟩ => ⟨(i 2).val, (i 2).isLt⟩
  | ⟨3, _⟩ => ⟨(i 0).val, (i 0).isLt⟩

theorem val_main_v0_apply (x1 : (⟨S64x1000x5x64, .f32⟩ : BufTy).Contents (Elt F)) (i : S64x1000x5x64.Idx) :
    val_main_v0 (F := F) x1 i = x1 (idx_main_v0 i) := by
  unfold val_main_v0
  exact transpose_apply [3, 1, 2, 0] x1 transposes_S64x1000x5x64_S64x1000x5x64_3_1_2_0 i (idx_main_v0 i) (fun b => match b with
    | ⟨0, _⟩ => rfl
    | ⟨1, _⟩ => rfl
    | ⟨2, _⟩ => rfl
    | ⟨3, _⟩ => rfl)

def val_main_v1 : (⟨S64, .i32⟩ : BufTy).Contents (Elt F) :=
  iotaInDim S64 32 0

theorem val_main_v1_apply (i : S64.Idx) :
    val_main_v1 (F := F) i = BitVec.ofNat 32 (i 0).val := rfl

def val_main_v2 : (⟨S1x64, .i32⟩ : BufTy).Contents (Elt F) :=
  broadcastInDim S1x64 ![1] bcast_S64_S1x64_1 (val_main_v1 (F := F))

abbrev idx_main_v2 (i : S1x64.Idx) : S64.Idx := fun a => match a with
  | ⟨0, _⟩ => ⟨(i 1).val, (i 1).isLt⟩

theorem val_main_v2_apply (i : S1x64.Idx) :
    val_main_v2 (F := F) i = val_main_v1 (F := F) (idx_main_v2 i) := by
  unfold val_main_v2
  generalize val_main_v1 (F := F) = y
  exact broadcastInDim_apply _ bcast_S64_S1x64_1 y i (idx_main_v2 i) (fun a => match a with
    | ⟨0, _⟩ => by show (i 1).val = if (64 : Nat) = 1 then 0 else (i 1).val; rw [if_neg (by decide)])

def val_main_c : (⟨S_, .i32⟩ : BufTy).Contents (Elt F) :=
  constantI S_ 32 0#32

theorem val_main_c_apply (i : S_.Idx) :
    val_main_c (F := F) i = 0#32 := rfl

def val_main_v3 : (⟨S1x64, .i32⟩ : BufTy).Contents (Elt F) :=
  broadcastInDim S1x64 ![] bcast_S_S1x64 (val_main_c (F := F))

abbrev idx_main_v3 (i : S1x64.Idx) : S_.Idx := fun a => a.elim0

theorem val_main_v3_apply (i : S1x64.Idx) :
    val_main_v3 (F := F) i = val_main_c (F := F) (idx_main_v3 i) := by
  unfold val_main_v3
  generalize val_main_c (F := F) = y
  exact broadcastInDim_apply _ bcast_S_S1x64 y i (idx_main_v3 i) (fun a => a.elim0)

def val_main_v4 : (⟨S1x64, .i1⟩ : BufTy).Contents (Elt F) :=
  cmpi .slt (val_main_v2 (F := F)) (val_main_v3 (F := F))

theorem val_main_v4_apply (i : S1x64.Idx) :
    val_main_v4 (F := F) i = IntOp.cmpi .slt (val_main_v2 (F := F) i) (val_main_v3 (F := F) i) := rfl

def val_main_c_0 : (⟨S_, .i32⟩ : BufTy).Contents (Elt F) :=
  constantI S_ 32 64#32

def val_main_v5 : (⟨S1x64, .i32⟩ : BufTy).Contents (Elt F) :=
  broadcastInDim S1x64 ![] bcast_S_S1x64 (val_main_c_0 (F := F))

def val_main_v6 : (⟨S1x64, .i32⟩ : BufTy).Contents (Elt F) :=
  addi (val_main_v2 (F := F)) (val_main_v5 (F := F))

theorem val_main_v6_apply (i : S1x64.Idx) :
    val_main_v6 (F := F) i = IntOp.addi (val_main_v2 (F := F) i) (val_main_v5 (F := F) i) := rfl

def val_main_v7 : (⟨S1x64, .i32⟩ : BufTy).Contents (Elt F) :=
  select (val_main_v4 (F := F)) (val_main_v6 (F := F)) (val_main_v2 (F := F))

theorem val_main_v7_apply (i : S1x64.Idx) :
    val_main_v7 (F := F) i = Scalar.select (val_main_v4 (F := F) i) (val_main_v6 (F := F) i) (val_main_v2 (F := F) i) := rfl

def val_main_c_1 : (⟨S_, .i32⟩ : BufTy).Contents (Elt F) :=
  constantI S_ 32 0#32

theorem val_main_c_1_apply (i : S_.Idx) :
    val_main_c_1 (F := F) i = 0#32 := rfl

def val_main_v8 : (⟨S128x64, .i32⟩ : BufTy).Contents (Elt F) :=
  broadcastInDim S128x64 ![] bcast_S_S128x64 (val_main_c_1 (F := F))

abbrev idx_main_v8 (i : S128x64.Idx) : S_.Idx := fun a => a.elim0

theorem val_main_v8_apply (i : S128x64.Idx) :
    val_main_v8 (F := F) i = val_main_c_1 (F := F) (idx_main_v8 i) := by
  unfold val_main_v8
  generalize val_main_c_1 (F := F) = y
  exact broadcastInDim_apply _ bcast_S_S128x64 y i (idx_main_v8 i) (fun a => a.elim0)

def val_main_v9 (x0 : (⟨S128x64, .i32⟩ : BufTy).Contents (Elt F)) : (⟨S128x64, .i1⟩ : BufTy).Contents (Elt F) :=
  cmpi .slt (x0) (val_main_v8 (F := F))

theorem val_main_v9_apply (x0 : (⟨S128x64, .i32⟩ : BufTy).Contents (Elt F)) (i : S128x64.Idx) :
    val_main_v9 (F := F) x0 i = IntOp.cmpi .slt (x0 i) (val_main_v8 (F := F) i) := rfl

def val_main_c_2 : (⟨S_, .i32⟩ : BufTy).Contents (Elt F) :=
  constantI S_ 32 1000#32

def val_main_v10 : (⟨S128x64, .i32⟩ : BufTy).Contents (Elt F) :=
  broadcastInDim S128x64 ![] bcast_S_S128x64 (val_main_c_2 (F := F))

def val_main_v11 (x0 : (⟨S128x64, .i32⟩ : BufTy).Contents (Elt F)) : (⟨S128x64, .i32⟩ : BufTy).Contents (Elt F) :=
  addi (x0) (val_main_v10 (F := F))

theorem val_main_v11_apply (x0 : (⟨S128x64, .i32⟩ : BufTy).Contents (Elt F)) (i : S128x64.Idx) :
    val_main_v11 (F := F) x0 i = IntOp.addi (x0 i) (val_main_v10 (F := F) i) := rfl

def val_main_v12 (x0 : (⟨S128x64, .i32⟩ : BufTy).Contents (Elt F)) : (⟨S128x64, .i32⟩ : BufTy).Contents (Elt F) :=
  select (val_main_v9 (F := F) x0) (val_main_v11 (F := F) x0) (x0)

theorem val_main_v12_apply (x0 : (⟨S128x64, .i32⟩ : BufTy).Contents (Elt F)) (i : S128x64.Idx) :
    val_main_v12 (F := F) x0 i = Scalar.select (val_main_v9 (F := F) x0 i) (val_main_v11 (F := F) x0 i) (x0 i) := rfl

def val_main_v13 : (⟨S128x64, .i32⟩ : BufTy).Contents (Elt F) :=
  broadcastInDim S128x64 ![0, 1] bcast_S1x64_S128x64_0_1 (val_main_v7 (F := F))

abbrev idx_main_v13 (i : S128x64.Idx) : S1x64.Idx := fun a => match a with
  | ⟨0, _⟩ => ⟨0, Nat.one_pos⟩
  | ⟨1, _⟩ => ⟨(i 1).val, (i 1).isLt⟩

theorem val_main_v13_apply (i : S128x64.Idx) :
    val_main_v13 (F := F) i = val_main_v7 (F := F) (idx_main_v13 i) := by
  unfold val_main_v13
  generalize val_main_v7 (F := F) = y
  exact broadcastInDim_apply _ bcast_S1x64_S128x64_0_1 y i (idx_main_v13 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v14 : (⟨S128x64x1, .i32⟩ : BufTy).Contents (Elt F) :=
  broadcastInDim S128x64x1 ![0, 1] bcast_S128x64_S128x64x1_0_1 (val_main_v13 (F := F))

abbrev idx_main_v14 (i : S128x64x1.Idx) : S128x64.Idx := fun a => match a with
  | ⟨0, _⟩ => ⟨(i 0).val, (i 0).isLt⟩
  | ⟨1, _⟩ => ⟨(i 1).val, (i 1).isLt⟩

theorem val_main_v14_apply (i : S128x64x1.Idx) :
    val_main_v14 (F := F) i = val_main_v13 (F := F) (idx_main_v14 i) := by
  unfold val_main_v14
  generalize val_main_v13 (F := F) = y
  exact broadcastInDim_apply _ bcast_S128x64_S128x64x1_0_1 y i (idx_main_v14 i) (fun a => match a with
    | ⟨0, _⟩ => by show (i 0).val = if (128 : Nat) = 1 then 0 else (i 0).val; rw [if_neg (by decide)]
    | ⟨1, _⟩ => by show (i 1).val = if (64 : Nat) = 1 then 0 else (i 1).val; rw [if_neg (by decide)])

def val_main_v15 (x0 : (⟨S128x64, .i32⟩ : BufTy).Contents (Elt F)) : (⟨S128x64x1, .i32⟩ : BufTy).Contents (Elt F) :=
  broadcastInDim S128x64x1 ![0, 1] bcast_S128x64_S128x64x1_0_1 (val_main_v12 (F := F) x0)

abbrev idx_main_v15 (i : S128x64x1.Idx) : S128x64.Idx := fun a => match a with
  | ⟨0, _⟩ => ⟨(i 0).val, (i 0).isLt⟩
  | ⟨1, _⟩ => ⟨(i 1).val, (i 1).isLt⟩

theorem val_main_v15_apply (x0 : (⟨S128x64, .i32⟩ : BufTy).Contents (Elt F)) (i : S128x64x1.Idx) :
    val_main_v15 (F := F) x0 i = val_main_v12 (F := F) x0 (idx_main_v15 i) := by
  unfold val_main_v15
  generalize val_main_v12 (F := F) x0 = y
  exact broadcastInDim_apply _ bcast_S128x64_S128x64x1_0_1 y i (idx_main_v15 i) (fun a => match a with
    | ⟨0, _⟩ => by show (i 0).val = if (128 : Nat) = 1 then 0 else (i 0).val; rw [if_neg (by decide)]
    | ⟨1, _⟩ => by show (i 1).val = if (64 : Nat) = 1 then 0 else (i 1).val; rw [if_neg (by decide)])

def val_main_v16 (x0 : (⟨S128x64, .i32⟩ : BufTy).Contents (Elt F)) : (⟨S128x64x2, .i32⟩ : BufTy).Contents (Elt F) :=
  concatenate S128x64x2 2 [⟨S128x64x1, (val_main_v14 (F := F))⟩, ⟨S128x64x1, (val_main_v15 (F := F) x0)⟩] concatenates_S128x64x1_S128x64x1_S128x64x2_d2

def val_main_v17 (x0 : (⟨S128x64, .i32⟩ : BufTy).Contents (Elt F)) (x1 : (⟨S64x1000x5x64, .f32⟩ : BufTy).Contents (Elt F)) : (⟨S128x64x5x64, .f32⟩ : BufTy).Contents (Elt F) :=
  Host.gather gather_S64x1000x5x64_S128x64x2_S128x64x5x64_23_01_n_n_01_2_11564 (val_main_v0 (F := F) x1) (val_main_v16 (F := F) x0)

def val_main_cst : (⟨S_, .f32⟩ : BufTy).Contents (Elt F) :=
  constant S_ .f32 0x00000000#32

theorem val_main_cst_apply (i : S_.Idx) :
    val_main_cst (F := F) i = FloatOps.ofBits .f32 0x00000000#32 := rfl

def val_main_v18 (x0 : (⟨S128x64, .i32⟩ : BufTy).Contents (Elt F)) (x1 : (⟨S64x1000x5x64, .f32⟩ : BufTy).Contents (Elt F)) : (⟨S128x5x64, .f32⟩ : BufTy).Contents (Elt F) :=
  Host.reduceAdd (val_main_v17 (F := F) x0 x1) (val_main_cst (F := F)) reducesTo_S128x64x5x64_S128x5x64_d1 h_S_

abbrev idx_main_v18 (i : S128x5x64.Idx) (k : Fin 64) : S128x64x5x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

theorem val_main_v18_apply (x0 : (⟨S128x64, .i32⟩ : BufTy).Contents (Elt Ideal)) (x1 : (⟨S64x1000x5x64, .f32⟩ : BufTy).Contents (Elt Ideal)) (i : S128x5x64.Idx) :
    val_main_v18 (F := Ideal) x0 x1 i = (val_main_cst (F := Ideal)) (Shape.Idx.first h_S_) + ∑ k : Fin 64, (val_main_v17 (F := Ideal) x0 x1) (idx_main_v18 i k) := by
  unfold val_main_v18
  generalize val_main_v17 (F := Ideal) x0 x1 = y0
  simp only [Host.reduceAdd, Ideal.hostReduceAdd_def]
  rw [Ideal.hostReduceAdd_single reducesTo_S128x64x5x64_S128x5x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v19 (x0 : (⟨S128x64, .i32⟩ : BufTy).Contents (Elt F)) (x1 : (⟨S64x1000x5x64, .f32⟩ : BufTy).Contents (Elt F)) : (⟨S128x5x64, .f32⟩ : BufTy).Contents (Elt F) :=
  Host.reverse [1] (val_main_v18 (F := F) x0 x1)

def val_main_v20 (x2 : (⟨S64, .f32⟩ : BufTy).Contents (Elt F)) : (⟨S1x1x64, .f32⟩ : BufTy).Contents (Elt F) :=
  broadcastInDim S1x1x64 ![2] bcast_S64_S1x1x64_2 (x2)

abbrev idx_main_v20 (i : S1x1x64.Idx) : S64.Idx := fun a => match a with
  | ⟨0, _⟩ => ⟨(i 2).val, (i 2).isLt⟩

theorem val_main_v20_apply (x2 : (⟨S64, .f32⟩ : BufTy).Contents (Elt F)) (i : S1x1x64.Idx) :
    val_main_v20 (F := F) x2 i = x2 (idx_main_v20 i) := by
  unfold val_main_v20
  exact broadcastInDim_apply _ bcast_S64_S1x1x64_2 x2 i (idx_main_v20 i) (fun a => match a with
    | ⟨0, _⟩ => by show (i 2).val = if (64 : Nat) = 1 then 0 else (i 2).val; rw [if_neg (by decide)])

def val_main_v21 (x2 : (⟨S64, .f32⟩ : BufTy).Contents (Elt F)) : (⟨S128x5x64, .f32⟩ : BufTy).Contents (Elt F) :=
  broadcastInDim S128x5x64 ![0, 1, 2] bcast_S1x1x64_S128x5x64_0_1_2 (val_main_v20 (F := F) x2)

abbrev idx_main_v21 (i : S128x5x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩

theorem val_main_v21_apply (x2 : (⟨S64, .f32⟩ : BufTy).Contents (Elt F)) (i : S128x5x64.Idx) :
    val_main_v21 (F := F) x2 i = val_main_v20 (F := F) x2 (idx_main_v21 i) := by
  unfold val_main_v21
  generalize val_main_v20 (F := F) x2 = y
  exact broadcastInDim_apply _ bcast_S1x1x64_S128x5x64_0_1_2 y i (idx_main_v21 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

def val_main_v22 (x0 : (⟨S128x64, .i32⟩ : BufTy).Contents (Elt F)) (x1 : (⟨S64x1000x5x64, .f32⟩ : BufTy).Contents (Elt F)) (x2 : (⟨S64, .f32⟩ : BufTy).Contents (Elt F)) : (⟨S128x5x64, .f32⟩ : BufTy).Contents (Elt F) :=
  addf (val_main_v19 (F := F) x0 x1) (val_main_v21 (F := F) x2)

theorem val_main_v22_apply (x0 : (⟨S128x64, .i32⟩ : BufTy).Contents (Elt F)) (x1 : (⟨S64x1000x5x64, .f32⟩ : BufTy).Contents (Elt F)) (x2 : (⟨S64, .f32⟩ : BufTy).Contents (Elt F)) (i : S128x5x64.Idx) :
    val_main_v22 (F := F) x0 x1 x2 i = FloatOps.addf (val_main_v19 (F := F) x0 x1 i) (val_main_v21 (F := F) x2 i) := rfl

def val_main_v23 (x0 : (⟨S128x64, .i32⟩ : BufTy).Contents (Elt F)) (x1 : (⟨S64x1000x5x64, .f32⟩ : BufTy).Contents (Elt F)) (x2 : (⟨S64, .f32⟩ : BufTy).Contents (Elt F)) : (⟨S128x64x5, .f32⟩ : BufTy).Contents (Elt F) :=
  transpose S128x64x5 [0, 2, 1] (val_main_v22 (F := F) x0 x1 x2) transposes_S128x5x64_S128x64x5_0_2_1

abbrev idx_main_v23 (i : S128x64x5.Idx) : S128x5x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v23_apply (x0 : (⟨S128x64, .i32⟩ : BufTy).Contents (Elt F)) (x1 : (⟨S64x1000x5x64, .f32⟩ : BufTy).Contents (Elt F)) (x2 : (⟨S64, .f32⟩ : BufTy).Contents (Elt F)) (i : S128x64x5.Idx) :
    val_main_v23 (F := F) x0 x1 x2 i = val_main_v22 (F := F) x0 x1 x2 (idx_main_v23 i) := by
  unfold val_main_v23
  generalize val_main_v22 (F := F) x0 x1 x2 = y
  exact transpose_apply [0, 2, 1] y transposes_S128x5x64_S128x64x5_0_2_1 i (idx_main_v23 i) (fun b => match b with
    | ⟨0, _⟩ => rfl
    | ⟨1, _⟩ => rfl
    | ⟨2, _⟩ => rfl)

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_call0_v0 : (⟨S128x64x5, .f32⟩ : BufTy).Contents (Elt F) :=
  broadcastInDim S128x64x5 ![] bcast_S_S128x64x5 (val_main_call0_cst (F := F))

abbrev idx_main_call0_v0 (i : S128x64x5.Idx) : S_.Idx := fun a => a.elim0

theorem val_main_call0_v0_apply (i : S128x64x5.Idx) :
    val_main_call0_v0 (F := F) i = val_main_call0_cst (F := F) (idx_main_call0_v0 i) := by
  unfold val_main_call0_v0
  generalize val_main_call0_cst (F := F) = y
  exact broadcastInDim_apply _ bcast_S_S128x64x5 y i (idx_main_call0_v0 i) (fun a => a.elim0)

def val_main_v24 (x0 : (⟨S128x64, .i32⟩ : BufTy).Contents (Elt F)) (x1 : (⟨S64x1000x5x64, .f32⟩ : BufTy).Contents (Elt F)) (x2 : (⟨S64, .f32⟩ : BufTy).Contents (Elt F)) : (⟨S128x64x5, .f32⟩ : BufTy).Contents (Elt F) :=
  maximumf (val_main_v23 (F := F) x0 x1 x2) (val_main_call0_v0 (F := F))

theorem val_main_v24_apply (x0 : (⟨S128x64, .i32⟩ : BufTy).Contents (Elt F)) (x1 : (⟨S64x1000x5x64, .f32⟩ : BufTy).Contents (Elt F)) (x2 : (⟨S64, .f32⟩ : BufTy).Contents (Elt F)) (i : S128x64x5.Idx) :
    val_main_v24 (F := F) x0 x1 x2 i = FloatOps.maximumf (val_main_v23 (F := F) x0 x1 x2 i) (val_main_call0_v0 (F := F) i) := rfl

def val_main_cst_3 : (⟨S_, .f32⟩ : BufTy).Contents (Elt F) :=
  constant S_ .f32 0xFF800000#32

def val_main_v25 (x0 : (⟨S128x64, .i32⟩ : BufTy).Contents (Elt F)) (x1 : (⟨S64x1000x5x64, .f32⟩ : BufTy).Contents (Elt F)) (x2 : (⟨S64, .f32⟩ : BufTy).Contents (Elt F)) : (⟨S128x64, .f32⟩ : BufTy).Contents (Elt F) :=
  Host.reduce FloatOps.maximumf (val_main_v24 (F := F) x0 x1 x2) (val_main_cst_3 (F := F)) reducesTo_S128x64x5_S128x64_d2 h_S_

def val_main_v26 (x0 : (⟨S128x64, .i32⟩ : BufTy).Contents (Elt F)) (x1 : (⟨S64x1000x5x64, .f32⟩ : BufTy).Contents (Elt F)) (x2 : (⟨S64, .f32⟩ : BufTy).Contents (Elt F)) : (⟨S128x64, .f32⟩ : BufTy).Contents (Elt F) :=
  mulf (val_main_v25 (F := F) x0 x1 x2) (val_main_v25 (F := F) x0 x1 x2)

theorem val_main_v26_apply (x0 : (⟨S128x64, .i32⟩ : BufTy).Contents (Elt F)) (x1 : (⟨S64x1000x5x64, .f32⟩ : BufTy).Contents (Elt F)) (x2 : (⟨S64, .f32⟩ : BufTy).Contents (Elt F)) (i : S128x64.Idx) :
    val_main_v26 (F := F) x0 x1 x2 i = FloatOps.mulf (val_main_v25 (F := F) x0 x1 x2 i) (val_main_v25 (F := F) x0 x1 x2 i) := rfl

def val_main_cst_4 : (⟨S_, .f32⟩ : BufTy).Contents (Elt F) :=
  constant S_ .f32 0x3F800000#32

theorem val_main_cst_4_apply (i : S_.Idx) :
    val_main_cst_4 (F := F) i = FloatOps.ofBits .f32 0x3F800000#32 := rfl

def val_main_v27 : (⟨S128x64, .f32⟩ : BufTy).Contents (Elt F) :=
  broadcastInDim S128x64 ![] bcast_S_S128x64 (val_main_cst_4 (F := F))

abbrev idx_main_v27 (i : S128x64.Idx) : S_.Idx := fun a => a.elim0

theorem val_main_v27_apply (i : S128x64.Idx) :
    val_main_v27 (F := F) i = val_main_cst_4 (F := F) (idx_main_v27 i) := by
  unfold val_main_v27
  generalize val_main_cst_4 (F := F) = y
  exact broadcastInDim_apply _ bcast_S_S128x64 y i (idx_main_v27 i) (fun a => a.elim0)

def val_main_v28 (x0 : (⟨S128x64, .i32⟩ : BufTy).Contents (Elt F)) (x1 : (⟨S64x1000x5x64, .f32⟩ : BufTy).Contents (Elt F)) (x2 : (⟨S64, .f32⟩ : BufTy).Contents (Elt F)) : (⟨S128x64, .f32⟩ : BufTy).Contents (Elt F) :=
  addf (val_main_v27 (F := F)) (val_main_v26 (F := F) x0 x1 x2)

theorem val_main_v28_apply (x0 : (⟨S128x64, .i32⟩ : BufTy).Contents (Elt F)) (x1 : (⟨S64x1000x5x64, .f32⟩ : BufTy).Contents (Elt F)) (x2 : (⟨S64, .f32⟩ : BufTy).Contents (Elt F)) (i : S128x64.Idx) :
    val_main_v28 (F := F) x0 x1 x2 i = FloatOps.addf (val_main_v27 (F := F) i) (val_main_v26 (F := F) x0 x1 x2 i) := rfl

def val_main_v29 (x0 : (⟨S128x64, .i32⟩ : BufTy).Contents (Elt F)) (x1 : (⟨S64x1000x5x64, .f32⟩ : BufTy).Contents (Elt F)) (x2 : (⟨S64, .f32⟩ : BufTy).Contents (Elt F)) : (⟨S128x64, .f32⟩ : BufTy).Contents (Elt F) :=
  Host.sqrt (val_main_v28 (F := F) x0 x1 x2)

theorem val_main_v29_apply (x0 : (⟨S128x64, .i32⟩ : BufTy).Contents (Elt F)) (x1 : (⟨S64x1000x5x64, .f32⟩ : BufTy).Contents (Elt F)) (x2 : (⟨S64, .f32⟩ : BufTy).Contents (Elt F)) (i : S128x64.Idx) :
    val_main_v29 (F := F) x0 x1 x2 i = FloatOps.hostUnary .sqrt (val_main_v28 (F := F) x0 x1 x2 i) := rfl

def val_main_v30 (x0 : (⟨S128x64, .i32⟩ : BufTy).Contents (Elt F)) (x1 : (⟨S64x1000x5x64, .f32⟩ : BufTy).Contents (Elt F)) (x2 : (⟨S64, .f32⟩ : BufTy).Contents (Elt F)) : (⟨S128x64, .f32⟩ : BufTy).Contents (Elt F) :=
  Host.divf (val_main_v25 (F := F) x0 x1 x2) (val_main_v29 (F := F) x0 x1 x2)

theorem val_main_v30_apply (x0 : (⟨S128x64, .i32⟩ : BufTy).Contents (Elt F)) (x1 : (⟨S64x1000x5x64, .f32⟩ : BufTy).Contents (Elt F)) (x2 : (⟨S64, .f32⟩ : BufTy).Contents (Elt F)) (i : S128x64.Idx) :
    val_main_v30 (F := F) x0 x1 x2 i = FloatOps.hostDivf (val_main_v25 (F := F) x0 x1 x2 i) (val_main_v29 (F := F) x0 x1 x2 i) := rfl

def val_main_v31 (x3 : (⟨S64x1000x10x64, .f32⟩ : BufTy).Contents (Elt F)) : (⟨S64x1000x10x64, .f32⟩ : BufTy).Contents (Elt F) :=
  transpose S64x1000x10x64 [3, 1, 2, 0] (x3) transposes_S64x1000x10x64_S64x1000x10x64_3_1_2_0

abbrev idx_main_v31 (i : S64x1000x10x64.Idx) : S64x1000x10x64.Idx := fun a => match a with
  | ⟨0, _⟩ => ⟨(i 3).val, (i 3).isLt⟩
  | ⟨1, _⟩ => ⟨(i 1).val, (i 1).isLt⟩
  | ⟨2, _⟩ => ⟨(i 2).val, (i 2).isLt⟩
  | ⟨3, _⟩ => ⟨(i 0).val, (i 0).isLt⟩

theorem val_main_v31_apply (x3 : (⟨S64x1000x10x64, .f32⟩ : BufTy).Contents (Elt F)) (i : S64x1000x10x64.Idx) :
    val_main_v31 (F := F) x3 i = x3 (idx_main_v31 i) := by
  unfold val_main_v31
  exact transpose_apply [3, 1, 2, 0] x3 transposes_S64x1000x10x64_S64x1000x10x64_3_1_2_0 i (idx_main_v31 i) (fun b => match b with
    | ⟨0, _⟩ => rfl
    | ⟨1, _⟩ => rfl
    | ⟨2, _⟩ => rfl
    | ⟨3, _⟩ => rfl)

def val_main_v32 : (⟨S64, .i32⟩ : BufTy).Contents (Elt F) :=
  iotaInDim S64 32 0

def val_main_v33 : (⟨S1x64, .i32⟩ : BufTy).Contents (Elt F) :=
  broadcastInDim S1x64 ![1] bcast_S64_S1x64_1 (val_main_v32 (F := F))

def val_main_c_5 : (⟨S_, .i32⟩ : BufTy).Contents (Elt F) :=
  constantI S_ 32 0#32

def val_main_v34 : (⟨S1x64, .i32⟩ : BufTy).Contents (Elt F) :=
  broadcastInDim S1x64 ![] bcast_S_S1x64 (val_main_c_5 (F := F))

def val_main_v35 : (⟨S1x64, .i1⟩ : BufTy).Contents (Elt F) :=
  cmpi .slt (val_main_v33 (F := F)) (val_main_v34 (F := F))

def val_main_c_6 : (⟨S_, .i32⟩ : BufTy).Contents (Elt F) :=
  constantI S_ 32 64#32

def val_main_v36 : (⟨S1x64, .i32⟩ : BufTy).Contents (Elt F) :=
  broadcastInDim S1x64 ![] bcast_S_S1x64 (val_main_c_6 (F := F))

def val_main_v37 : (⟨S1x64, .i32⟩ : BufTy).Contents (Elt F) :=
  addi (val_main_v33 (F := F)) (val_main_v36 (F := F))

def val_main_v38 : (⟨S1x64, .i32⟩ : BufTy).Contents (Elt F) :=
  select (val_main_v35 (F := F)) (val_main_v37 (F := F)) (val_main_v33 (F := F))

def val_main_c_7 : (⟨S_, .i32⟩ : BufTy).Contents (Elt F) :=
  constantI S_ 32 0#32

def val_main_v39 : (⟨S128x64, .i32⟩ : BufTy).Contents (Elt F) :=
  broadcastInDim S128x64 ![] bcast_S_S128x64 (val_main_c_7 (F := F))

def val_main_v40 (x0 : (⟨S128x64, .i32⟩ : BufTy).Contents (Elt F)) : (⟨S128x64, .i1⟩ : BufTy).Contents (Elt F) :=
  cmpi .slt (x0) (val_main_v39 (F := F))

def val_main_c_8 : (⟨S_, .i32⟩ : BufTy).Contents (Elt F) :=
  constantI S_ 32 1000#32

def val_main_v41 : (⟨S128x64, .i32⟩ : BufTy).Contents (Elt F) :=
  broadcastInDim S128x64 ![] bcast_S_S128x64 (val_main_c_8 (F := F))

def val_main_v42 (x0 : (⟨S128x64, .i32⟩ : BufTy).Contents (Elt F)) : (⟨S128x64, .i32⟩ : BufTy).Contents (Elt F) :=
  addi (x0) (val_main_v41 (F := F))

def val_main_v43 (x0 : (⟨S128x64, .i32⟩ : BufTy).Contents (Elt F)) : (⟨S128x64, .i32⟩ : BufTy).Contents (Elt F) :=
  select (val_main_v40 (F := F) x0) (val_main_v42 (F := F) x0) (x0)

def val_main_v44 : (⟨S128x64, .i32⟩ : BufTy).Contents (Elt F) :=
  broadcastInDim S128x64 ![0, 1] bcast_S1x64_S128x64_0_1 (val_main_v38 (F := F))

def val_main_v45 : (⟨S128x64x1, .i32⟩ : BufTy).Contents (Elt F) :=
  broadcastInDim S128x64x1 ![0, 1] bcast_S128x64_S128x64x1_0_1 (val_main_v44 (F := F))

def val_main_v46 (x0 : (⟨S128x64, .i32⟩ : BufTy).Contents (Elt F)) : (⟨S128x64x1, .i32⟩ : BufTy).Contents (Elt F) :=
  broadcastInDim S128x64x1 ![0, 1] bcast_S128x64_S128x64x1_0_1 (val_main_v43 (F := F) x0)

def val_main_v47 (x0 : (⟨S128x64, .i32⟩ : BufTy).Contents (Elt F)) : (⟨S128x64x2, .i32⟩ : BufTy).Contents (Elt F) :=
  concatenate S128x64x2 2 [⟨S128x64x1, (val_main_v45 (F := F))⟩, ⟨S128x64x1, (val_main_v46 (F := F) x0)⟩] concatenates_S128x64x1_S128x64x1_S128x64x2_d2

def val_main_v48 (x0 : (⟨S128x64, .i32⟩ : BufTy).Contents (Elt F)) (x3 : (⟨S64x1000x10x64, .f32⟩ : BufTy).Contents (Elt F)) : (⟨S128x64x10x64, .f32⟩ : BufTy).Contents (Elt F) :=
  Host.gather gather_S64x1000x10x64_S128x64x2_S128x64x10x64_23_01_n_n_01_2_111064 (val_main_v31 (F := F) x3) (val_main_v47 (F := F) x0)

def val_main_cst_9 : (⟨S_, .f32⟩ : BufTy).Contents (Elt F) :=
  constant S_ .f32 0x00000000#32

theorem val_main_cst_9_apply (i : S_.Idx) :
    val_main_cst_9 (F := F) i = FloatOps.ofBits .f32 0x00000000#32 := rfl

def val_main_v49 (x0 : (⟨S128x64, .i32⟩ : BufTy).Contents (Elt F)) (x3 : (⟨S64x1000x10x64, .f32⟩ : BufTy).Contents (Elt F)) : (⟨S128x10x64, .f32⟩ : BufTy).Contents (Elt F) :=
  Host.reduceAdd (val_main_v48 (F := F) x0 x3) (val_main_cst_9 (F := F)) reducesTo_S128x64x10x64_S128x10x64_d1 h_S_

abbrev idx_main_v49 (i : S128x10x64.Idx) (k : Fin 64) : S128x64x10x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

theorem val_main_v49_apply (x0 : (⟨S128x64, .i32⟩ : BufTy).Contents (Elt Ideal)) (x3 : (⟨S64x1000x10x64, .f32⟩ : BufTy).Contents (Elt Ideal)) (i : S128x10x64.Idx) :
    val_main_v49 (F := Ideal) x0 x3 i = (val_main_cst_9 (F := Ideal)) (Shape.Idx.first h_S_) + ∑ k : Fin 64, (val_main_v48 (F := Ideal) x0 x3) (idx_main_v49 i k) := by
  unfold val_main_v49
  generalize val_main_v48 (F := Ideal) x0 x3 = y0
  simp only [Host.reduceAdd, Ideal.hostReduceAdd_def]
  rw [Ideal.hostReduceAdd_single reducesTo_S128x64x10x64_S128x10x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v50 (x0 : (⟨S128x64, .i32⟩ : BufTy).Contents (Elt F)) (x3 : (⟨S64x1000x10x64, .f32⟩ : BufTy).Contents (Elt F)) : (⟨S128x10x64, .f32⟩ : BufTy).Contents (Elt F) :=
  Host.reverse [1] (val_main_v49 (F := F) x0 x3)

def val_main_v51 (x4 : (⟨S64, .f32⟩ : BufTy).Contents (Elt F)) : (⟨S1x1x64, .f32⟩ : BufTy).Contents (Elt F) :=
  broadcastInDim S1x1x64 ![2] bcast_S64_S1x1x64_2 (x4)

abbrev idx_main_v51 (i : S1x1x64.Idx) : S64.Idx := fun a => match a with
  | ⟨0, _⟩ => ⟨(i 2).val, (i 2).isLt⟩

theorem val_main_v51_apply (x4 : (⟨S64, .f32⟩ : BufTy).Contents (Elt F)) (i : S1x1x64.Idx) :
    val_main_v51 (F := F) x4 i = x4 (idx_main_v51 i) := by
  unfold val_main_v51
  exact broadcastInDim_apply _ bcast_S64_S1x1x64_2 x4 i (idx_main_v51 i) (fun a => match a with
    | ⟨0, _⟩ => by show (i 2).val = if (64 : Nat) = 1 then 0 else (i 2).val; rw [if_neg (by decide)])

def val_main_v52 (x4 : (⟨S64, .f32⟩ : BufTy).Contents (Elt F)) : (⟨S128x10x64, .f32⟩ : BufTy).Contents (Elt F) :=
  broadcastInDim S128x10x64 ![0, 1, 2] bcast_S1x1x64_S128x10x64_0_1_2 (val_main_v51 (F := F) x4)

abbrev idx_main_v52 (i : S128x10x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩

theorem val_main_v52_apply (x4 : (⟨S64, .f32⟩ : BufTy).Contents (Elt F)) (i : S128x10x64.Idx) :
    val_main_v52 (F := F) x4 i = val_main_v51 (F := F) x4 (idx_main_v52 i) := by
  unfold val_main_v52
  generalize val_main_v51 (F := F) x4 = y
  exact broadcastInDim_apply _ bcast_S1x1x64_S128x10x64_0_1_2 y i (idx_main_v52 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

def val_main_v53 (x0 : (⟨S128x64, .i32⟩ : BufTy).Contents (Elt F)) (x3 : (⟨S64x1000x10x64, .f32⟩ : BufTy).Contents (Elt F)) (x4 : (⟨S64, .f32⟩ : BufTy).Contents (Elt F)) : (⟨S128x10x64, .f32⟩ : BufTy).Contents (Elt F) :=
  addf (val_main_v50 (F := F) x0 x3) (val_main_v52 (F := F) x4)

theorem val_main_v53_apply (x0 : (⟨S128x64, .i32⟩ : BufTy).Contents (Elt F)) (x3 : (⟨S64x1000x10x64, .f32⟩ : BufTy).Contents (Elt F)) (x4 : (⟨S64, .f32⟩ : BufTy).Contents (Elt F)) (i : S128x10x64.Idx) :
    val_main_v53 (F := F) x0 x3 x4 i = FloatOps.addf (val_main_v50 (F := F) x0 x3 i) (val_main_v52 (F := F) x4 i) := rfl

def val_main_v54 (x0 : (⟨S128x64, .i32⟩ : BufTy).Contents (Elt F)) (x3 : (⟨S64x1000x10x64, .f32⟩ : BufTy).Contents (Elt F)) (x4 : (⟨S64, .f32⟩ : BufTy).Contents (Elt F)) : (⟨S128x64x10, .f32⟩ : BufTy).Contents (Elt F) :=
  transpose S128x64x10 [0, 2, 1] (val_main_v53 (F := F) x0 x3 x4) transposes_S128x10x64_S128x64x10_0_2_1

abbrev idx_main_v54 (i : S128x64x10.Idx) : S128x10x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v54_apply (x0 : (⟨S128x64, .i32⟩ : BufTy).Contents (Elt F)) (x3 : (⟨S64x1000x10x64, .f32⟩ : BufTy).Contents (Elt F)) (x4 : (⟨S64, .f32⟩ : BufTy).Contents (Elt F)) (i : S128x64x10.Idx) :
    val_main_v54 (F := F) x0 x3 x4 i = val_main_v53 (F := F) x0 x3 x4 (idx_main_v54 i) := by
  unfold val_main_v54
  generalize val_main_v53 (F := F) x0 x3 x4 = y
  exact transpose_apply [0, 2, 1] y transposes_S128x10x64_S128x64x10_0_2_1 i (idx_main_v54 i) (fun b => match b with
    | ⟨0, _⟩ => rfl
    | ⟨1, _⟩ => rfl
    | ⟨2, _⟩ => rfl)

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S128x64x10, .f32⟩ : BufTy).Contents (Elt F) :=
  broadcastInDim S128x64x10 ![] bcast_S_S128x64x10 (val_main_call1_cst (F := F))

abbrev idx_main_call1_v0 (i : S128x64x10.Idx) : S_.Idx := fun a => a.elim0

theorem val_main_call1_v0_apply (i : S128x64x10.Idx) :
    val_main_call1_v0 (F := F) i = val_main_call1_cst (F := F) (idx_main_call1_v0 i) := by
  unfold val_main_call1_v0
  generalize val_main_call1_cst (F := F) = y
  exact broadcastInDim_apply _ bcast_S_S128x64x10 y i (idx_main_call1_v0 i) (fun a => a.elim0)

def val_main_v55 (x0 : (⟨S128x64, .i32⟩ : BufTy).Contents (Elt F)) (x3 : (⟨S64x1000x10x64, .f32⟩ : BufTy).Contents (Elt F)) (x4 : (⟨S64, .f32⟩ : BufTy).Contents (Elt F)) : (⟨S128x64x10, .f32⟩ : BufTy).Contents (Elt F) :=
  maximumf (val_main_v54 (F := F) x0 x3 x4) (val_main_call1_v0 (F := F))

theorem val_main_v55_apply (x0 : (⟨S128x64, .i32⟩ : BufTy).Contents (Elt F)) (x3 : (⟨S64x1000x10x64, .f32⟩ : BufTy).Contents (Elt F)) (x4 : (⟨S64, .f32⟩ : BufTy).Contents (Elt F)) (i : S128x64x10.Idx) :
    val_main_v55 (F := F) x0 x3 x4 i = FloatOps.maximumf (val_main_v54 (F := F) x0 x3 x4 i) (val_main_call1_v0 (F := F) i) := rfl

def val_main_cst_10 : (⟨S_, .f32⟩ : BufTy).Contents (Elt F) :=
  constant S_ .f32 0xFF800000#32

def val_main_v56 (x0 : (⟨S128x64, .i32⟩ : BufTy).Contents (Elt F)) (x3 : (⟨S64x1000x10x64, .f32⟩ : BufTy).Contents (Elt F)) (x4 : (⟨S64, .f32⟩ : BufTy).Contents (Elt F)) : (⟨S128x64, .f32⟩ : BufTy).Contents (Elt F) :=
  Host.reduce FloatOps.maximumf (val_main_v55 (F := F) x0 x3 x4) (val_main_cst_10 (F := F)) reducesTo_S128x64x10_S128x64_d2 h_S_

def val_main_v57 (x0 : (⟨S128x64, .i32⟩ : BufTy).Contents (Elt F)) (x3 : (⟨S64x1000x10x64, .f32⟩ : BufTy).Contents (Elt F)) (x4 : (⟨S64, .f32⟩ : BufTy).Contents (Elt F)) : (⟨S128x64, .f32⟩ : BufTy).Contents (Elt F) :=
  mulf (val_main_v56 (F := F) x0 x3 x4) (val_main_v56 (F := F) x0 x3 x4)

theorem val_main_v57_apply (x0 : (⟨S128x64, .i32⟩ : BufTy).Contents (Elt F)) (x3 : (⟨S64x1000x10x64, .f32⟩ : BufTy).Contents (Elt F)) (x4 : (⟨S64, .f32⟩ : BufTy).Contents (Elt F)) (i : S128x64.Idx) :
    val_main_v57 (F := F) x0 x3 x4 i = FloatOps.mulf (val_main_v56 (F := F) x0 x3 x4 i) (val_main_v56 (F := F) x0 x3 x4 i) := rfl

def val_main_cst_11 : (⟨S_, .f32⟩ : BufTy).Contents (Elt F) :=
  constant S_ .f32 0x3F800000#32

theorem val_main_cst_11_apply (i : S_.Idx) :
    val_main_cst_11 (F := F) i = FloatOps.ofBits .f32 0x3F800000#32 := rfl

def val_main_v58 : (⟨S128x64, .f32⟩ : BufTy).Contents (Elt F) :=
  broadcastInDim S128x64 ![] bcast_S_S128x64 (val_main_cst_11 (F := F))

abbrev idx_main_v58 (i : S128x64.Idx) : S_.Idx := fun a => a.elim0

theorem val_main_v58_apply (i : S128x64.Idx) :
    val_main_v58 (F := F) i = val_main_cst_11 (F := F) (idx_main_v58 i) := by
  unfold val_main_v58
  generalize val_main_cst_11 (F := F) = y
  exact broadcastInDim_apply _ bcast_S_S128x64 y i (idx_main_v58 i) (fun a => a.elim0)

def val_main_v59 (x0 : (⟨S128x64, .i32⟩ : BufTy).Contents (Elt F)) (x3 : (⟨S64x1000x10x64, .f32⟩ : BufTy).Contents (Elt F)) (x4 : (⟨S64, .f32⟩ : BufTy).Contents (Elt F)) : (⟨S128x64, .f32⟩ : BufTy).Contents (Elt F) :=
  addf (val_main_v58 (F := F)) (val_main_v57 (F := F) x0 x3 x4)

theorem val_main_v59_apply (x0 : (⟨S128x64, .i32⟩ : BufTy).Contents (Elt F)) (x3 : (⟨S64x1000x10x64, .f32⟩ : BufTy).Contents (Elt F)) (x4 : (⟨S64, .f32⟩ : BufTy).Contents (Elt F)) (i : S128x64.Idx) :
    val_main_v59 (F := F) x0 x3 x4 i = FloatOps.addf (val_main_v58 (F := F) i) (val_main_v57 (F := F) x0 x3 x4 i) := rfl

def val_main_v60 (x0 : (⟨S128x64, .i32⟩ : BufTy).Contents (Elt F)) (x3 : (⟨S64x1000x10x64, .f32⟩ : BufTy).Contents (Elt F)) (x4 : (⟨S64, .f32⟩ : BufTy).Contents (Elt F)) : (⟨S128x64, .f32⟩ : BufTy).Contents (Elt F) :=
  Host.sqrt (val_main_v59 (F := F) x0 x3 x4)

theorem val_main_v60_apply (x0 : (⟨S128x64, .i32⟩ : BufTy).Contents (Elt F)) (x3 : (⟨S64x1000x10x64, .f32⟩ : BufTy).Contents (Elt F)) (x4 : (⟨S64, .f32⟩ : BufTy).Contents (Elt F)) (i : S128x64.Idx) :
    val_main_v60 (F := F) x0 x3 x4 i = FloatOps.hostUnary .sqrt (val_main_v59 (F := F) x0 x3 x4 i) := rfl

def val_main_v61 (x0 : (⟨S128x64, .i32⟩ : BufTy).Contents (Elt F)) (x3 : (⟨S64x1000x10x64, .f32⟩ : BufTy).Contents (Elt F)) (x4 : (⟨S64, .f32⟩ : BufTy).Contents (Elt F)) : (⟨S128x64, .f32⟩ : BufTy).Contents (Elt F) :=
  Host.divf (val_main_v56 (F := F) x0 x3 x4) (val_main_v60 (F := F) x0 x3 x4)

theorem val_main_v61_apply (x0 : (⟨S128x64, .i32⟩ : BufTy).Contents (Elt F)) (x3 : (⟨S64x1000x10x64, .f32⟩ : BufTy).Contents (Elt F)) (x4 : (⟨S64, .f32⟩ : BufTy).Contents (Elt F)) (i : S128x64.Idx) :
    val_main_v61 (F := F) x0 x3 x4 i = FloatOps.hostDivf (val_main_v56 (F := F) x0 x3 x4 i) (val_main_v60 (F := F) x0 x3 x4 i) := rfl

def val_main_v62 (x5 : (⟨S64x1000x15x64, .f32⟩ : BufTy).Contents (Elt F)) : (⟨S64x1000x15x64, .f32⟩ : BufTy).Contents (Elt F) :=
  transpose S64x1000x15x64 [3, 1, 2, 0] (x5) transposes_S64x1000x15x64_S64x1000x15x64_3_1_2_0

abbrev idx_main_v62 (i : S64x1000x15x64.Idx) : S64x1000x15x64.Idx := fun a => match a with
  | ⟨0, _⟩ => ⟨(i 3).val, (i 3).isLt⟩
  | ⟨1, _⟩ => ⟨(i 1).val, (i 1).isLt⟩
  | ⟨2, _⟩ => ⟨(i 2).val, (i 2).isLt⟩
  | ⟨3, _⟩ => ⟨(i 0).val, (i 0).isLt⟩

theorem val_main_v62_apply (x5 : (⟨S64x1000x15x64, .f32⟩ : BufTy).Contents (Elt F)) (i : S64x1000x15x64.Idx) :
    val_main_v62 (F := F) x5 i = x5 (idx_main_v62 i) := by
  unfold val_main_v62
  exact transpose_apply [3, 1, 2, 0] x5 transposes_S64x1000x15x64_S64x1000x15x64_3_1_2_0 i (idx_main_v62 i) (fun b => match b with
    | ⟨0, _⟩ => rfl
    | ⟨1, _⟩ => rfl
    | ⟨2, _⟩ => rfl
    | ⟨3, _⟩ => rfl)

def val_main_v63 : (⟨S64, .i32⟩ : BufTy).Contents (Elt F) :=
  iotaInDim S64 32 0

def val_main_v64 : (⟨S1x64, .i32⟩ : BufTy).Contents (Elt F) :=
  broadcastInDim S1x64 ![1] bcast_S64_S1x64_1 (val_main_v63 (F := F))

def val_main_c_12 : (⟨S_, .i32⟩ : BufTy).Contents (Elt F) :=
  constantI S_ 32 0#32

def val_main_v65 : (⟨S1x64, .i32⟩ : BufTy).Contents (Elt F) :=
  broadcastInDim S1x64 ![] bcast_S_S1x64 (val_main_c_12 (F := F))

def val_main_v66 : (⟨S1x64, .i1⟩ : BufTy).Contents (Elt F) :=
  cmpi .slt (val_main_v64 (F := F)) (val_main_v65 (F := F))

def val_main_c_13 : (⟨S_, .i32⟩ : BufTy).Contents (Elt F) :=
  constantI S_ 32 64#32

def val_main_v67 : (⟨S1x64, .i32⟩ : BufTy).Contents (Elt F) :=
  broadcastInDim S1x64 ![] bcast_S_S1x64 (val_main_c_13 (F := F))

def val_main_v68 : (⟨S1x64, .i32⟩ : BufTy).Contents (Elt F) :=
  addi (val_main_v64 (F := F)) (val_main_v67 (F := F))

def val_main_v69 : (⟨S1x64, .i32⟩ : BufTy).Contents (Elt F) :=
  select (val_main_v66 (F := F)) (val_main_v68 (F := F)) (val_main_v64 (F := F))

def val_main_c_14 : (⟨S_, .i32⟩ : BufTy).Contents (Elt F) :=
  constantI S_ 32 0#32

def val_main_v70 : (⟨S128x64, .i32⟩ : BufTy).Contents (Elt F) :=
  broadcastInDim S128x64 ![] bcast_S_S128x64 (val_main_c_14 (F := F))

def val_main_v71 (x0 : (⟨S128x64, .i32⟩ : BufTy).Contents (Elt F)) : (⟨S128x64, .i1⟩ : BufTy).Contents (Elt F) :=
  cmpi .slt (x0) (val_main_v70 (F := F))

def val_main_c_15 : (⟨S_, .i32⟩ : BufTy).Contents (Elt F) :=
  constantI S_ 32 1000#32

def val_main_v72 : (⟨S128x64, .i32⟩ : BufTy).Contents (Elt F) :=
  broadcastInDim S128x64 ![] bcast_S_S128x64 (val_main_c_15 (F := F))

def val_main_v73 (x0 : (⟨S128x64, .i32⟩ : BufTy).Contents (Elt F)) : (⟨S128x64, .i32⟩ : BufTy).Contents (Elt F) :=
  addi (x0) (val_main_v72 (F := F))

def val_main_v74 (x0 : (⟨S128x64, .i32⟩ : BufTy).Contents (Elt F)) : (⟨S128x64, .i32⟩ : BufTy).Contents (Elt F) :=
  select (val_main_v71 (F := F) x0) (val_main_v73 (F := F) x0) (x0)

def val_main_v75 : (⟨S128x64, .i32⟩ : BufTy).Contents (Elt F) :=
  broadcastInDim S128x64 ![0, 1] bcast_S1x64_S128x64_0_1 (val_main_v69 (F := F))

def val_main_v76 : (⟨S128x64x1, .i32⟩ : BufTy).Contents (Elt F) :=
  broadcastInDim S128x64x1 ![0, 1] bcast_S128x64_S128x64x1_0_1 (val_main_v75 (F := F))

def val_main_v77 (x0 : (⟨S128x64, .i32⟩ : BufTy).Contents (Elt F)) : (⟨S128x64x1, .i32⟩ : BufTy).Contents (Elt F) :=
  broadcastInDim S128x64x1 ![0, 1] bcast_S128x64_S128x64x1_0_1 (val_main_v74 (F := F) x0)

def val_main_v78 (x0 : (⟨S128x64, .i32⟩ : BufTy).Contents (Elt F)) : (⟨S128x64x2, .i32⟩ : BufTy).Contents (Elt F) :=
  concatenate S128x64x2 2 [⟨S128x64x1, (val_main_v76 (F := F))⟩, ⟨S128x64x1, (val_main_v77 (F := F) x0)⟩] concatenates_S128x64x1_S128x64x1_S128x64x2_d2

def val_main_v79 (x0 : (⟨S128x64, .i32⟩ : BufTy).Contents (Elt F)) (x5 : (⟨S64x1000x15x64, .f32⟩ : BufTy).Contents (Elt F)) : (⟨S128x64x15x64, .f32⟩ : BufTy).Contents (Elt F) :=
  Host.gather gather_S64x1000x15x64_S128x64x2_S128x64x15x64_23_01_n_n_01_2_111564 (val_main_v62 (F := F) x5) (val_main_v78 (F := F) x0)

def val_main_cst_16 : (⟨S_, .f32⟩ : BufTy).Contents (Elt F) :=
  constant S_ .f32 0x00000000#32

theorem val_main_cst_16_apply (i : S_.Idx) :
    val_main_cst_16 (F := F) i = FloatOps.ofBits .f32 0x00000000#32 := rfl

def val_main_v80 (x0 : (⟨S128x64, .i32⟩ : BufTy).Contents (Elt F)) (x5 : (⟨S64x1000x15x64, .f32⟩ : BufTy).Contents (Elt F)) : (⟨S128x15x64, .f32⟩ : BufTy).Contents (Elt F) :=
  Host.reduceAdd (val_main_v79 (F := F) x0 x5) (val_main_cst_16 (F := F)) reducesTo_S128x64x15x64_S128x15x64_d1 h_S_

abbrev idx_main_v80 (i : S128x15x64.Idx) (k : Fin 64) : S128x64x15x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

theorem val_main_v80_apply (x0 : (⟨S128x64, .i32⟩ : BufTy).Contents (Elt Ideal)) (x5 : (⟨S64x1000x15x64, .f32⟩ : BufTy).Contents (Elt Ideal)) (i : S128x15x64.Idx) :
    val_main_v80 (F := Ideal) x0 x5 i = (val_main_cst_16 (F := Ideal)) (Shape.Idx.first h_S_) + ∑ k : Fin 64, (val_main_v79 (F := Ideal) x0 x5) (idx_main_v80 i k) := by
  unfold val_main_v80
  generalize val_main_v79 (F := Ideal) x0 x5 = y0
  simp only [Host.reduceAdd, Ideal.hostReduceAdd_def]
  rw [Ideal.hostReduceAdd_single reducesTo_S128x64x15x64_S128x15x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v81 (x0 : (⟨S128x64, .i32⟩ : BufTy).Contents (Elt F)) (x5 : (⟨S64x1000x15x64, .f32⟩ : BufTy).Contents (Elt F)) : (⟨S128x15x64, .f32⟩ : BufTy).Contents (Elt F) :=
  Host.reverse [1] (val_main_v80 (F := F) x0 x5)

def val_main_v82 (x6 : (⟨S64, .f32⟩ : BufTy).Contents (Elt F)) : (⟨S1x1x64, .f32⟩ : BufTy).Contents (Elt F) :=
  broadcastInDim S1x1x64 ![2] bcast_S64_S1x1x64_2 (x6)

abbrev idx_main_v82 (i : S1x1x64.Idx) : S64.Idx := fun a => match a with
  | ⟨0, _⟩ => ⟨(i 2).val, (i 2).isLt⟩

theorem val_main_v82_apply (x6 : (⟨S64, .f32⟩ : BufTy).Contents (Elt F)) (i : S1x1x64.Idx) :
    val_main_v82 (F := F) x6 i = x6 (idx_main_v82 i) := by
  unfold val_main_v82
  exact broadcastInDim_apply _ bcast_S64_S1x1x64_2 x6 i (idx_main_v82 i) (fun a => match a with
    | ⟨0, _⟩ => by show (i 2).val = if (64 : Nat) = 1 then 0 else (i 2).val; rw [if_neg (by decide)])

def val_main_v83 (x6 : (⟨S64, .f32⟩ : BufTy).Contents (Elt F)) : (⟨S128x15x64, .f32⟩ : BufTy).Contents (Elt F) :=
  broadcastInDim S128x15x64 ![0, 1, 2] bcast_S1x1x64_S128x15x64_0_1_2 (val_main_v82 (F := F) x6)

abbrev idx_main_v83 (i : S128x15x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩

theorem val_main_v83_apply (x6 : (⟨S64, .f32⟩ : BufTy).Contents (Elt F)) (i : S128x15x64.Idx) :
    val_main_v83 (F := F) x6 i = val_main_v82 (F := F) x6 (idx_main_v83 i) := by
  unfold val_main_v83
  generalize val_main_v82 (F := F) x6 = y
  exact broadcastInDim_apply _ bcast_S1x1x64_S128x15x64_0_1_2 y i (idx_main_v83 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

def val_main_v84 (x0 : (⟨S128x64, .i32⟩ : BufTy).Contents (Elt F)) (x5 : (⟨S64x1000x15x64, .f32⟩ : BufTy).Contents (Elt F)) (x6 : (⟨S64, .f32⟩ : BufTy).Contents (Elt F)) : (⟨S128x15x64, .f32⟩ : BufTy).Contents (Elt F) :=
  addf (val_main_v81 (F := F) x0 x5) (val_main_v83 (F := F) x6)

theorem val_main_v84_apply (x0 : (⟨S128x64, .i32⟩ : BufTy).Contents (Elt F)) (x5 : (⟨S64x1000x15x64, .f32⟩ : BufTy).Contents (Elt F)) (x6 : (⟨S64, .f32⟩ : BufTy).Contents (Elt F)) (i : S128x15x64.Idx) :
    val_main_v84 (F := F) x0 x5 x6 i = FloatOps.addf (val_main_v81 (F := F) x0 x5 i) (val_main_v83 (F := F) x6 i) := rfl

def val_main_v85 (x0 : (⟨S128x64, .i32⟩ : BufTy).Contents (Elt F)) (x5 : (⟨S64x1000x15x64, .f32⟩ : BufTy).Contents (Elt F)) (x6 : (⟨S64, .f32⟩ : BufTy).Contents (Elt F)) : (⟨S128x64x15, .f32⟩ : BufTy).Contents (Elt F) :=
  transpose S128x64x15 [0, 2, 1] (val_main_v84 (F := F) x0 x5 x6) transposes_S128x15x64_S128x64x15_0_2_1

abbrev idx_main_v85 (i : S128x64x15.Idx) : S128x15x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v85_apply (x0 : (⟨S128x64, .i32⟩ : BufTy).Contents (Elt F)) (x5 : (⟨S64x1000x15x64, .f32⟩ : BufTy).Contents (Elt F)) (x6 : (⟨S64, .f32⟩ : BufTy).Contents (Elt F)) (i : S128x64x15.Idx) :
    val_main_v85 (F := F) x0 x5 x6 i = val_main_v84 (F := F) x0 x5 x6 (idx_main_v85 i) := by
  unfold val_main_v85
  generalize val_main_v84 (F := F) x0 x5 x6 = y
  exact transpose_apply [0, 2, 1] y transposes_S128x15x64_S128x64x15_0_2_1 i (idx_main_v85 i) (fun b => match b with
    | ⟨0, _⟩ => rfl
    | ⟨1, _⟩ => rfl
    | ⟨2, _⟩ => rfl)

def val_main_call2_cst : (⟨S_, .f32⟩ : BufTy).Contents (Elt F) :=
  constant S_ .f32 0x00000000#32

theorem val_main_call2_cst_apply (i : S_.Idx) :
    val_main_call2_cst (F := F) i = FloatOps.ofBits .f32 0x00000000#32 := rfl

def val_main_call2_v0 : (⟨S128x64x15, .f32⟩ : BufTy).Contents (Elt F) :=
  broadcastInDim S128x64x15 ![] bcast_S_S128x64x15 (val_main_call2_cst (F := F))

abbrev idx_main_call2_v0 (i : S128x64x15.Idx) : S_.Idx := fun a => a.elim0

theorem val_main_call2_v0_apply (i : S128x64x15.Idx) :
    val_main_call2_v0 (F := F) i = val_main_call2_cst (F := F) (idx_main_call2_v0 i) := by
  unfold val_main_call2_v0
  generalize val_main_call2_cst (F := F) = y
  exact broadcastInDim_apply _ bcast_S_S128x64x15 y i (idx_main_call2_v0 i) (fun a => a.elim0)

def val_main_v86 (x0 : (⟨S128x64, .i32⟩ : BufTy).Contents (Elt F)) (x5 : (⟨S64x1000x15x64, .f32⟩ : BufTy).Contents (Elt F)) (x6 : (⟨S64, .f32⟩ : BufTy).Contents (Elt F)) : (⟨S128x64x15, .f32⟩ : BufTy).Contents (Elt F) :=
  maximumf (val_main_v85 (F := F) x0 x5 x6) (val_main_call2_v0 (F := F))

theorem val_main_v86_apply (x0 : (⟨S128x64, .i32⟩ : BufTy).Contents (Elt F)) (x5 : (⟨S64x1000x15x64, .f32⟩ : BufTy).Contents (Elt F)) (x6 : (⟨S64, .f32⟩ : BufTy).Contents (Elt F)) (i : S128x64x15.Idx) :
    val_main_v86 (F := F) x0 x5 x6 i = FloatOps.maximumf (val_main_v85 (F := F) x0 x5 x6 i) (val_main_call2_v0 (F := F) i) := rfl

def val_main_cst_17 : (⟨S_, .f32⟩ : BufTy).Contents (Elt F) :=
  constant S_ .f32 0xFF800000#32

def val_main_v87 (x0 : (⟨S128x64, .i32⟩ : BufTy).Contents (Elt F)) (x5 : (⟨S64x1000x15x64, .f32⟩ : BufTy).Contents (Elt F)) (x6 : (⟨S64, .f32⟩ : BufTy).Contents (Elt F)) : (⟨S128x64, .f32⟩ : BufTy).Contents (Elt F) :=
  Host.reduce FloatOps.maximumf (val_main_v86 (F := F) x0 x5 x6) (val_main_cst_17 (F := F)) reducesTo_S128x64x15_S128x64_d2 h_S_

def val_main_v88 (x0 : (⟨S128x64, .i32⟩ : BufTy).Contents (Elt F)) (x5 : (⟨S64x1000x15x64, .f32⟩ : BufTy).Contents (Elt F)) (x6 : (⟨S64, .f32⟩ : BufTy).Contents (Elt F)) : (⟨S128x64, .f32⟩ : BufTy).Contents (Elt F) :=
  mulf (val_main_v87 (F := F) x0 x5 x6) (val_main_v87 (F := F) x0 x5 x6)

theorem val_main_v88_apply (x0 : (⟨S128x64, .i32⟩ : BufTy).Contents (Elt F)) (x5 : (⟨S64x1000x15x64, .f32⟩ : BufTy).Contents (Elt F)) (x6 : (⟨S64, .f32⟩ : BufTy).Contents (Elt F)) (i : S128x64.Idx) :
    val_main_v88 (F := F) x0 x5 x6 i = FloatOps.mulf (val_main_v87 (F := F) x0 x5 x6 i) (val_main_v87 (F := F) x0 x5 x6 i) := rfl

def val_main_cst_18 : (⟨S_, .f32⟩ : BufTy).Contents (Elt F) :=
  constant S_ .f32 0x3F800000#32

theorem val_main_cst_18_apply (i : S_.Idx) :
    val_main_cst_18 (F := F) i = FloatOps.ofBits .f32 0x3F800000#32 := rfl

def val_main_v89 : (⟨S128x64, .f32⟩ : BufTy).Contents (Elt F) :=
  broadcastInDim S128x64 ![] bcast_S_S128x64 (val_main_cst_18 (F := F))

abbrev idx_main_v89 (i : S128x64.Idx) : S_.Idx := fun a => a.elim0

theorem val_main_v89_apply (i : S128x64.Idx) :
    val_main_v89 (F := F) i = val_main_cst_18 (F := F) (idx_main_v89 i) := by
  unfold val_main_v89
  generalize val_main_cst_18 (F := F) = y
  exact broadcastInDim_apply _ bcast_S_S128x64 y i (idx_main_v89 i) (fun a => a.elim0)

def val_main_v90 (x0 : (⟨S128x64, .i32⟩ : BufTy).Contents (Elt F)) (x5 : (⟨S64x1000x15x64, .f32⟩ : BufTy).Contents (Elt F)) (x6 : (⟨S64, .f32⟩ : BufTy).Contents (Elt F)) : (⟨S128x64, .f32⟩ : BufTy).Contents (Elt F) :=
  addf (val_main_v89 (F := F)) (val_main_v88 (F := F) x0 x5 x6)

theorem val_main_v90_apply (x0 : (⟨S128x64, .i32⟩ : BufTy).Contents (Elt F)) (x5 : (⟨S64x1000x15x64, .f32⟩ : BufTy).Contents (Elt F)) (x6 : (⟨S64, .f32⟩ : BufTy).Contents (Elt F)) (i : S128x64.Idx) :
    val_main_v90 (F := F) x0 x5 x6 i = FloatOps.addf (val_main_v89 (F := F) i) (val_main_v88 (F := F) x0 x5 x6 i) := rfl

def val_main_v91 (x0 : (⟨S128x64, .i32⟩ : BufTy).Contents (Elt F)) (x5 : (⟨S64x1000x15x64, .f32⟩ : BufTy).Contents (Elt F)) (x6 : (⟨S64, .f32⟩ : BufTy).Contents (Elt F)) : (⟨S128x64, .f32⟩ : BufTy).Contents (Elt F) :=
  Host.sqrt (val_main_v90 (F := F) x0 x5 x6)

theorem val_main_v91_apply (x0 : (⟨S128x64, .i32⟩ : BufTy).Contents (Elt F)) (x5 : (⟨S64x1000x15x64, .f32⟩ : BufTy).Contents (Elt F)) (x6 : (⟨S64, .f32⟩ : BufTy).Contents (Elt F)) (i : S128x64.Idx) :
    val_main_v91 (F := F) x0 x5 x6 i = FloatOps.hostUnary .sqrt (val_main_v90 (F := F) x0 x5 x6 i) := rfl

def val_main_v92 (x0 : (⟨S128x64, .i32⟩ : BufTy).Contents (Elt F)) (x5 : (⟨S64x1000x15x64, .f32⟩ : BufTy).Contents (Elt F)) (x6 : (⟨S64, .f32⟩ : BufTy).Contents (Elt F)) : (⟨S128x64, .f32⟩ : BufTy).Contents (Elt F) :=
  Host.divf (val_main_v87 (F := F) x0 x5 x6) (val_main_v91 (F := F) x0 x5 x6)

theorem val_main_v92_apply (x0 : (⟨S128x64, .i32⟩ : BufTy).Contents (Elt F)) (x5 : (⟨S64x1000x15x64, .f32⟩ : BufTy).Contents (Elt F)) (x6 : (⟨S64, .f32⟩ : BufTy).Contents (Elt F)) (i : S128x64.Idx) :
    val_main_v92 (F := F) x0 x5 x6 i = FloatOps.hostDivf (val_main_v87 (F := F) x0 x5 x6 i) (val_main_v91 (F := F) x0 x5 x6 i) := rfl

def val_main_v93 (x7 : (⟨S64x1000x20x64, .f32⟩ : BufTy).Contents (Elt F)) : (⟨S64x1000x20x64, .f32⟩ : BufTy).Contents (Elt F) :=
  transpose S64x1000x20x64 [3, 1, 2, 0] (x7) transposes_S64x1000x20x64_S64x1000x20x64_3_1_2_0

abbrev idx_main_v93 (i : S64x1000x20x64.Idx) : S64x1000x20x64.Idx := fun a => match a with
  | ⟨0, _⟩ => ⟨(i 3).val, (i 3).isLt⟩
  | ⟨1, _⟩ => ⟨(i 1).val, (i 1).isLt⟩
  | ⟨2, _⟩ => ⟨(i 2).val, (i 2).isLt⟩
  | ⟨3, _⟩ => ⟨(i 0).val, (i 0).isLt⟩

theorem val_main_v93_apply (x7 : (⟨S64x1000x20x64, .f32⟩ : BufTy).Contents (Elt F)) (i : S64x1000x20x64.Idx) :
    val_main_v93 (F := F) x7 i = x7 (idx_main_v93 i) := by
  unfold val_main_v93
  exact transpose_apply [3, 1, 2, 0] x7 transposes_S64x1000x20x64_S64x1000x20x64_3_1_2_0 i (idx_main_v93 i) (fun b => match b with
    | ⟨0, _⟩ => rfl
    | ⟨1, _⟩ => rfl
    | ⟨2, _⟩ => rfl
    | ⟨3, _⟩ => rfl)

def val_main_v94 : (⟨S64, .i32⟩ : BufTy).Contents (Elt F) :=
  iotaInDim S64 32 0

def val_main_v95 : (⟨S1x64, .i32⟩ : BufTy).Contents (Elt F) :=
  broadcastInDim S1x64 ![1] bcast_S64_S1x64_1 (val_main_v94 (F := F))

def val_main_c_19 : (⟨S_, .i32⟩ : BufTy).Contents (Elt F) :=
  constantI S_ 32 0#32

def val_main_v96 : (⟨S1x64, .i32⟩ : BufTy).Contents (Elt F) :=
  broadcastInDim S1x64 ![] bcast_S_S1x64 (val_main_c_19 (F := F))

def val_main_v97 : (⟨S1x64, .i1⟩ : BufTy).Contents (Elt F) :=
  cmpi .slt (val_main_v95 (F := F)) (val_main_v96 (F := F))

def val_main_c_20 : (⟨S_, .i32⟩ : BufTy).Contents (Elt F) :=
  constantI S_ 32 64#32

def val_main_v98 : (⟨S1x64, .i32⟩ : BufTy).Contents (Elt F) :=
  broadcastInDim S1x64 ![] bcast_S_S1x64 (val_main_c_20 (F := F))

def val_main_v99 : (⟨S1x64, .i32⟩ : BufTy).Contents (Elt F) :=
  addi (val_main_v95 (F := F)) (val_main_v98 (F := F))

def val_main_v100 : (⟨S1x64, .i32⟩ : BufTy).Contents (Elt F) :=
  select (val_main_v97 (F := F)) (val_main_v99 (F := F)) (val_main_v95 (F := F))

def val_main_c_21 : (⟨S_, .i32⟩ : BufTy).Contents (Elt F) :=
  constantI S_ 32 0#32

def val_main_v101 : (⟨S128x64, .i32⟩ : BufTy).Contents (Elt F) :=
  broadcastInDim S128x64 ![] bcast_S_S128x64 (val_main_c_21 (F := F))

def val_main_v102 (x0 : (⟨S128x64, .i32⟩ : BufTy).Contents (Elt F)) : (⟨S128x64, .i1⟩ : BufTy).Contents (Elt F) :=
  cmpi .slt (x0) (val_main_v101 (F := F))

def val_main_c_22 : (⟨S_, .i32⟩ : BufTy).Contents (Elt F) :=
  constantI S_ 32 1000#32

def val_main_v103 : (⟨S128x64, .i32⟩ : BufTy).Contents (Elt F) :=
  broadcastInDim S128x64 ![] bcast_S_S128x64 (val_main_c_22 (F := F))

def val_main_v104 (x0 : (⟨S128x64, .i32⟩ : BufTy).Contents (Elt F)) : (⟨S128x64, .i32⟩ : BufTy).Contents (Elt F) :=
  addi (x0) (val_main_v103 (F := F))

def val_main_v105 (x0 : (⟨S128x64, .i32⟩ : BufTy).Contents (Elt F)) : (⟨S128x64, .i32⟩ : BufTy).Contents (Elt F) :=
  select (val_main_v102 (F := F) x0) (val_main_v104 (F := F) x0) (x0)

def val_main_v106 : (⟨S128x64, .i32⟩ : BufTy).Contents (Elt F) :=
  broadcastInDim S128x64 ![0, 1] bcast_S1x64_S128x64_0_1 (val_main_v100 (F := F))

def val_main_v107 : (⟨S128x64x1, .i32⟩ : BufTy).Contents (Elt F) :=
  broadcastInDim S128x64x1 ![0, 1] bcast_S128x64_S128x64x1_0_1 (val_main_v106 (F := F))

def val_main_v108 (x0 : (⟨S128x64, .i32⟩ : BufTy).Contents (Elt F)) : (⟨S128x64x1, .i32⟩ : BufTy).Contents (Elt F) :=
  broadcastInDim S128x64x1 ![0, 1] bcast_S128x64_S128x64x1_0_1 (val_main_v105 (F := F) x0)

def val_main_v109 (x0 : (⟨S128x64, .i32⟩ : BufTy).Contents (Elt F)) : (⟨S128x64x2, .i32⟩ : BufTy).Contents (Elt F) :=
  concatenate S128x64x2 2 [⟨S128x64x1, (val_main_v107 (F := F))⟩, ⟨S128x64x1, (val_main_v108 (F := F) x0)⟩] concatenates_S128x64x1_S128x64x1_S128x64x2_d2

def val_main_v110 (x0 : (⟨S128x64, .i32⟩ : BufTy).Contents (Elt F)) (x7 : (⟨S64x1000x20x64, .f32⟩ : BufTy).Contents (Elt F)) : (⟨S128x64x20x64, .f32⟩ : BufTy).Contents (Elt F) :=
  Host.gather gather_S64x1000x20x64_S128x64x2_S128x64x20x64_23_01_n_n_01_2_112064 (val_main_v93 (F := F) x7) (val_main_v109 (F := F) x0)

def val_main_cst_23 : (⟨S_, .f32⟩ : BufTy).Contents (Elt F) :=
  constant S_ .f32 0x00000000#32

theorem val_main_cst_23_apply (i : S_.Idx) :
    val_main_cst_23 (F := F) i = FloatOps.ofBits .f32 0x00000000#32 := rfl

def val_main_v111 (x0 : (⟨S128x64, .i32⟩ : BufTy).Contents (Elt F)) (x7 : (⟨S64x1000x20x64, .f32⟩ : BufTy).Contents (Elt F)) : (⟨S128x20x64, .f32⟩ : BufTy).Contents (Elt F) :=
  Host.reduceAdd (val_main_v110 (F := F) x0 x7) (val_main_cst_23 (F := F)) reducesTo_S128x64x20x64_S128x20x64_d1 h_S_

abbrev idx_main_v111 (i : S128x20x64.Idx) (k : Fin 64) : S128x64x20x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

theorem val_main_v111_apply (x0 : (⟨S128x64, .i32⟩ : BufTy).Contents (Elt Ideal)) (x7 : (⟨S64x1000x20x64, .f32⟩ : BufTy).Contents (Elt Ideal)) (i : S128x20x64.Idx) :
    val_main_v111 (F := Ideal) x0 x7 i = (val_main_cst_23 (F := Ideal)) (Shape.Idx.first h_S_) + ∑ k : Fin 64, (val_main_v110 (F := Ideal) x0 x7) (idx_main_v111 i k) := by
  unfold val_main_v111
  generalize val_main_v110 (F := Ideal) x0 x7 = y0
  simp only [Host.reduceAdd, Ideal.hostReduceAdd_def]
  rw [Ideal.hostReduceAdd_single reducesTo_S128x64x20x64_S128x20x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v112 (x0 : (⟨S128x64, .i32⟩ : BufTy).Contents (Elt F)) (x7 : (⟨S64x1000x20x64, .f32⟩ : BufTy).Contents (Elt F)) : (⟨S128x20x64, .f32⟩ : BufTy).Contents (Elt F) :=
  Host.reverse [1] (val_main_v111 (F := F) x0 x7)

def val_main_v113 (x8 : (⟨S64, .f32⟩ : BufTy).Contents (Elt F)) : (⟨S1x1x64, .f32⟩ : BufTy).Contents (Elt F) :=
  broadcastInDim S1x1x64 ![2] bcast_S64_S1x1x64_2 (x8)

abbrev idx_main_v113 (i : S1x1x64.Idx) : S64.Idx := fun a => match a with
  | ⟨0, _⟩ => ⟨(i 2).val, (i 2).isLt⟩

theorem val_main_v113_apply (x8 : (⟨S64, .f32⟩ : BufTy).Contents (Elt F)) (i : S1x1x64.Idx) :
    val_main_v113 (F := F) x8 i = x8 (idx_main_v113 i) := by
  unfold val_main_v113
  exact broadcastInDim_apply _ bcast_S64_S1x1x64_2 x8 i (idx_main_v113 i) (fun a => match a with
    | ⟨0, _⟩ => by show (i 2).val = if (64 : Nat) = 1 then 0 else (i 2).val; rw [if_neg (by decide)])

def val_main_v114 (x8 : (⟨S64, .f32⟩ : BufTy).Contents (Elt F)) : (⟨S128x20x64, .f32⟩ : BufTy).Contents (Elt F) :=
  broadcastInDim S128x20x64 ![0, 1, 2] bcast_S1x1x64_S128x20x64_0_1_2 (val_main_v113 (F := F) x8)

abbrev idx_main_v114 (i : S128x20x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩

theorem val_main_v114_apply (x8 : (⟨S64, .f32⟩ : BufTy).Contents (Elt F)) (i : S128x20x64.Idx) :
    val_main_v114 (F := F) x8 i = val_main_v113 (F := F) x8 (idx_main_v114 i) := by
  unfold val_main_v114
  generalize val_main_v113 (F := F) x8 = y
  exact broadcastInDim_apply _ bcast_S1x1x64_S128x20x64_0_1_2 y i (idx_main_v114 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

def val_main_v115 (x0 : (⟨S128x64, .i32⟩ : BufTy).Contents (Elt F)) (x7 : (⟨S64x1000x20x64, .f32⟩ : BufTy).Contents (Elt F)) (x8 : (⟨S64, .f32⟩ : BufTy).Contents (Elt F)) : (⟨S128x20x64, .f32⟩ : BufTy).Contents (Elt F) :=
  addf (val_main_v112 (F := F) x0 x7) (val_main_v114 (F := F) x8)

theorem val_main_v115_apply (x0 : (⟨S128x64, .i32⟩ : BufTy).Contents (Elt F)) (x7 : (⟨S64x1000x20x64, .f32⟩ : BufTy).Contents (Elt F)) (x8 : (⟨S64, .f32⟩ : BufTy).Contents (Elt F)) (i : S128x20x64.Idx) :
    val_main_v115 (F := F) x0 x7 x8 i = FloatOps.addf (val_main_v112 (F := F) x0 x7 i) (val_main_v114 (F := F) x8 i) := rfl

def val_main_v116 (x0 : (⟨S128x64, .i32⟩ : BufTy).Contents (Elt F)) (x7 : (⟨S64x1000x20x64, .f32⟩ : BufTy).Contents (Elt F)) (x8 : (⟨S64, .f32⟩ : BufTy).Contents (Elt F)) : (⟨S128x64x20, .f32⟩ : BufTy).Contents (Elt F) :=
  transpose S128x64x20 [0, 2, 1] (val_main_v115 (F := F) x0 x7 x8) transposes_S128x20x64_S128x64x20_0_2_1

abbrev idx_main_v116 (i : S128x64x20.Idx) : S128x20x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v116_apply (x0 : (⟨S128x64, .i32⟩ : BufTy).Contents (Elt F)) (x7 : (⟨S64x1000x20x64, .f32⟩ : BufTy).Contents (Elt F)) (x8 : (⟨S64, .f32⟩ : BufTy).Contents (Elt F)) (i : S128x64x20.Idx) :
    val_main_v116 (F := F) x0 x7 x8 i = val_main_v115 (F := F) x0 x7 x8 (idx_main_v116 i) := by
  unfold val_main_v116
  generalize val_main_v115 (F := F) x0 x7 x8 = y
  exact transpose_apply [0, 2, 1] y transposes_S128x20x64_S128x64x20_0_2_1 i (idx_main_v116 i) (fun b => match b with
    | ⟨0, _⟩ => rfl
    | ⟨1, _⟩ => rfl
    | ⟨2, _⟩ => rfl)

def val_main_call3_cst : (⟨S_, .f32⟩ : BufTy).Contents (Elt F) :=
  constant S_ .f32 0x00000000#32

theorem val_main_call3_cst_apply (i : S_.Idx) :
    val_main_call3_cst (F := F) i = FloatOps.ofBits .f32 0x00000000#32 := rfl

def val_main_call3_v0 : (⟨S128x64x20, .f32⟩ : BufTy).Contents (Elt F) :=
  broadcastInDim S128x64x20 ![] bcast_S_S128x64x20 (val_main_call3_cst (F := F))

abbrev idx_main_call3_v0 (i : S128x64x20.Idx) : S_.Idx := fun a => a.elim0

theorem val_main_call3_v0_apply (i : S128x64x20.Idx) :
    val_main_call3_v0 (F := F) i = val_main_call3_cst (F := F) (idx_main_call3_v0 i) := by
  unfold val_main_call3_v0
  generalize val_main_call3_cst (F := F) = y
  exact broadcastInDim_apply _ bcast_S_S128x64x20 y i (idx_main_call3_v0 i) (fun a => a.elim0)

def val_main_v117 (x0 : (⟨S128x64, .i32⟩ : BufTy).Contents (Elt F)) (x7 : (⟨S64x1000x20x64, .f32⟩ : BufTy).Contents (Elt F)) (x8 : (⟨S64, .f32⟩ : BufTy).Contents (Elt F)) : (⟨S128x64x20, .f32⟩ : BufTy).Contents (Elt F) :=
  maximumf (val_main_v116 (F := F) x0 x7 x8) (val_main_call3_v0 (F := F))

theorem val_main_v117_apply (x0 : (⟨S128x64, .i32⟩ : BufTy).Contents (Elt F)) (x7 : (⟨S64x1000x20x64, .f32⟩ : BufTy).Contents (Elt F)) (x8 : (⟨S64, .f32⟩ : BufTy).Contents (Elt F)) (i : S128x64x20.Idx) :
    val_main_v117 (F := F) x0 x7 x8 i = FloatOps.maximumf (val_main_v116 (F := F) x0 x7 x8 i) (val_main_call3_v0 (F := F) i) := rfl

def val_main_cst_24 : (⟨S_, .f32⟩ : BufTy).Contents (Elt F) :=
  constant S_ .f32 0xFF800000#32

def val_main_v118 (x0 : (⟨S128x64, .i32⟩ : BufTy).Contents (Elt F)) (x7 : (⟨S64x1000x20x64, .f32⟩ : BufTy).Contents (Elt F)) (x8 : (⟨S64, .f32⟩ : BufTy).Contents (Elt F)) : (⟨S128x64, .f32⟩ : BufTy).Contents (Elt F) :=
  Host.reduce FloatOps.maximumf (val_main_v117 (F := F) x0 x7 x8) (val_main_cst_24 (F := F)) reducesTo_S128x64x20_S128x64_d2 h_S_

def val_main_v119 (x0 : (⟨S128x64, .i32⟩ : BufTy).Contents (Elt F)) (x7 : (⟨S64x1000x20x64, .f32⟩ : BufTy).Contents (Elt F)) (x8 : (⟨S64, .f32⟩ : BufTy).Contents (Elt F)) : (⟨S128x64, .f32⟩ : BufTy).Contents (Elt F) :=
  mulf (val_main_v118 (F := F) x0 x7 x8) (val_main_v118 (F := F) x0 x7 x8)

theorem val_main_v119_apply (x0 : (⟨S128x64, .i32⟩ : BufTy).Contents (Elt F)) (x7 : (⟨S64x1000x20x64, .f32⟩ : BufTy).Contents (Elt F)) (x8 : (⟨S64, .f32⟩ : BufTy).Contents (Elt F)) (i : S128x64.Idx) :
    val_main_v119 (F := F) x0 x7 x8 i = FloatOps.mulf (val_main_v118 (F := F) x0 x7 x8 i) (val_main_v118 (F := F) x0 x7 x8 i) := rfl

def val_main_cst_25 : (⟨S_, .f32⟩ : BufTy).Contents (Elt F) :=
  constant S_ .f32 0x3F800000#32

theorem val_main_cst_25_apply (i : S_.Idx) :
    val_main_cst_25 (F := F) i = FloatOps.ofBits .f32 0x3F800000#32 := rfl

def val_main_v120 : (⟨S128x64, .f32⟩ : BufTy).Contents (Elt F) :=
  broadcastInDim S128x64 ![] bcast_S_S128x64 (val_main_cst_25 (F := F))

abbrev idx_main_v120 (i : S128x64.Idx) : S_.Idx := fun a => a.elim0

theorem val_main_v120_apply (i : S128x64.Idx) :
    val_main_v120 (F := F) i = val_main_cst_25 (F := F) (idx_main_v120 i) := by
  unfold val_main_v120
  generalize val_main_cst_25 (F := F) = y
  exact broadcastInDim_apply _ bcast_S_S128x64 y i (idx_main_v120 i) (fun a => a.elim0)

def val_main_v121 (x0 : (⟨S128x64, .i32⟩ : BufTy).Contents (Elt F)) (x7 : (⟨S64x1000x20x64, .f32⟩ : BufTy).Contents (Elt F)) (x8 : (⟨S64, .f32⟩ : BufTy).Contents (Elt F)) : (⟨S128x64, .f32⟩ : BufTy).Contents (Elt F) :=
  addf (val_main_v120 (F := F)) (val_main_v119 (F := F) x0 x7 x8)

theorem val_main_v121_apply (x0 : (⟨S128x64, .i32⟩ : BufTy).Contents (Elt F)) (x7 : (⟨S64x1000x20x64, .f32⟩ : BufTy).Contents (Elt F)) (x8 : (⟨S64, .f32⟩ : BufTy).Contents (Elt F)) (i : S128x64.Idx) :
    val_main_v121 (F := F) x0 x7 x8 i = FloatOps.addf (val_main_v120 (F := F) i) (val_main_v119 (F := F) x0 x7 x8 i) := rfl

def val_main_v122 (x0 : (⟨S128x64, .i32⟩ : BufTy).Contents (Elt F)) (x7 : (⟨S64x1000x20x64, .f32⟩ : BufTy).Contents (Elt F)) (x8 : (⟨S64, .f32⟩ : BufTy).Contents (Elt F)) : (⟨S128x64, .f32⟩ : BufTy).Contents (Elt F) :=
  Host.sqrt (val_main_v121 (F := F) x0 x7 x8)

theorem val_main_v122_apply (x0 : (⟨S128x64, .i32⟩ : BufTy).Contents (Elt F)) (x7 : (⟨S64x1000x20x64, .f32⟩ : BufTy).Contents (Elt F)) (x8 : (⟨S64, .f32⟩ : BufTy).Contents (Elt F)) (i : S128x64.Idx) :
    val_main_v122 (F := F) x0 x7 x8 i = FloatOps.hostUnary .sqrt (val_main_v121 (F := F) x0 x7 x8 i) := rfl

def val_main_v123 (x0 : (⟨S128x64, .i32⟩ : BufTy).Contents (Elt F)) (x7 : (⟨S64x1000x20x64, .f32⟩ : BufTy).Contents (Elt F)) (x8 : (⟨S64, .f32⟩ : BufTy).Contents (Elt F)) : (⟨S128x64, .f32⟩ : BufTy).Contents (Elt F) :=
  Host.divf (val_main_v118 (F := F) x0 x7 x8) (val_main_v122 (F := F) x0 x7 x8)

theorem val_main_v123_apply (x0 : (⟨S128x64, .i32⟩ : BufTy).Contents (Elt F)) (x7 : (⟨S64x1000x20x64, .f32⟩ : BufTy).Contents (Elt F)) (x8 : (⟨S64, .f32⟩ : BufTy).Contents (Elt F)) (i : S128x64.Idx) :
    val_main_v123 (F := F) x0 x7 x8 i = FloatOps.hostDivf (val_main_v118 (F := F) x0 x7 x8 i) (val_main_v122 (F := F) x0 x7 x8 i) := rfl

def val_main_v124 (x0 : (⟨S128x64, .i32⟩ : BufTy).Contents (Elt F)) (x1 : (⟨S64x1000x5x64, .f32⟩ : BufTy).Contents (Elt F)) (x2 : (⟨S64, .f32⟩ : BufTy).Contents (Elt F)) (x3 : (⟨S64x1000x10x64, .f32⟩ : BufTy).Contents (Elt F)) (x4 : (⟨S64, .f32⟩ : BufTy).Contents (Elt F)) (x5 : (⟨S64x1000x15x64, .f32⟩ : BufTy).Contents (Elt F)) (x6 : (⟨S64, .f32⟩ : BufTy).Contents (Elt F)) (x7 : (⟨S64x1000x20x64, .f32⟩ : BufTy).Contents (Elt F)) (x8 : (⟨S64, .f32⟩ : BufTy).Contents (Elt F)) : (⟨S128x256, .f32⟩ : BufTy).Contents (Elt F) :=
  concatenate S128x256 1 [⟨S128x64, (val_main_v30 (F := F) x0 x1 x2)⟩, ⟨S128x64, (val_main_v61 (F := F) x0 x3 x4)⟩, ⟨S128x64, (val_main_v92 (F := F) x0 x5 x6)⟩, ⟨S128x64, (val_main_v123 (F := F) x0 x7 x8)⟩] concatenates_S128x64_S128x64_S128x64_S128x64_S128x256_d1

def val_main_v125 (x9 : (⟨S2x256, .f32⟩ : BufTy).Contents (Elt F)) : (⟨S256x2, .f32⟩ : BufTy).Contents (Elt F) :=
  transpose S256x2 [1, 0] (x9) transposes_S2x256_S256x2_1_0

abbrev idx_main_v125 (i : S256x2.Idx) : S2x256.Idx := fun a => match a with
  | ⟨0, _⟩ => ⟨(i 1).val, (i 1).isLt⟩
  | ⟨1, _⟩ => ⟨(i 0).val, (i 0).isLt⟩

theorem val_main_v125_apply (x9 : (⟨S2x256, .f32⟩ : BufTy).Contents (Elt F)) (i : S256x2.Idx) :
    val_main_v125 (F := F) x9 i = x9 (idx_main_v125 i) := by
  unfold val_main_v125
  exact transpose_apply [1, 0] x9 transposes_S2x256_S256x2_1_0 i (idx_main_v125 i) (fun b => match b with
    | ⟨0, _⟩ => rfl
    | ⟨1, _⟩ => rfl)

def val_main_v126 (x0 : (⟨S128x64, .i32⟩ : BufTy).Contents (Elt F)) (x1 : (⟨S64x1000x5x64, .f32⟩ : BufTy).Contents (Elt F)) (x2 : (⟨S64, .f32⟩ : BufTy).Contents (Elt F)) (x3 : (⟨S64x1000x10x64, .f32⟩ : BufTy).Contents (Elt F)) (x4 : (⟨S64, .f32⟩ : BufTy).Contents (Elt F)) (x5 : (⟨S64x1000x15x64, .f32⟩ : BufTy).Contents (Elt F)) (x6 : (⟨S64, .f32⟩ : BufTy).Contents (Elt F)) (x7 : (⟨S64x1000x20x64, .f32⟩ : BufTy).Contents (Elt F)) (x8 : (⟨S64, .f32⟩ : BufTy).Contents (Elt F)) (x9 : (⟨S2x256, .f32⟩ : BufTy).Contents (Elt F)) : (⟨S128x2, .f32⟩ : BufTy).Contents (Elt F) :=
  Host.dotGeneral dot_S128x256_S256x2_S128x2_1_0_0_1_n_n none (val_main_v124 (F := F) x0 x1 x2 x3 x4 x5 x6 x7 x8) (val_main_v125 (F := F) x9)

theorem lhs_main_v126_0 (i : S128x2.Idx) (q : dot_S128x256_S256x2_S128x2_1_0_0_1_n_n.contr.Idx) :
    (dot_S128x256_S256x2_S128x2_1_0_0_1_n_n.lhsIdx i q 0).val = (i 0).val := by
  unfold DotDims.lhsIdx
  rw [dif_neg (show ¬(0 : Fin S128x256.rank) ∈ dot_S128x256_S256x2_S128x2_1_0_0_1_n_n.lhsBatch by decide), dif_pos (show (0 : Fin S128x256.rank) ∈ dot_S128x256_S256x2_S128x2_1_0_0_1_n_n.lhsNonContracting by decide)]
  rfl

theorem lhs_main_v126_1 (i : S128x2.Idx) (q : dot_S128x256_S256x2_S128x2_1_0_0_1_n_n.contr.Idx) :
    (dot_S128x256_S256x2_S128x2_1_0_0_1_n_n.lhsIdx i q 1).val = (q ⟨0, by decide⟩).val :=
  dot_S128x256_S256x2_S128x2_1_0_0_1_n_n.lhsIdx_val_of_single rfl i q

theorem rhs_main_v126_0 (i : S128x2.Idx) (q : dot_S128x256_S256x2_S128x2_1_0_0_1_n_n.contr.Idx) :
    (dot_S128x256_S256x2_S128x2_1_0_0_1_n_n.rhsIdx i q 0).val = (q ⟨0, by decide⟩).val :=
  dot_S128x256_S256x2_S128x2_1_0_0_1_n_n.rhsIdx_val_of_single rfl i q

theorem rhs_main_v126_1 (i : S128x2.Idx) (q : dot_S128x256_S256x2_S128x2_1_0_0_1_n_n.contr.Idx) :
    (dot_S128x256_S256x2_S128x2_1_0_0_1_n_n.rhsIdx i q 1).val = (i 1).val := by
  unfold DotDims.rhsIdx
  rw [dif_neg (show ¬(1 : Fin S256x2.rank) ∈ dot_S128x256_S256x2_S128x2_1_0_0_1_n_n.rhsBatch by decide), dif_pos (show (1 : Fin S256x2.rank) ∈ dot_S128x256_S256x2_S128x2_1_0_0_1_n_n.rhsNonContracting by decide)]
  rfl

abbrev lidx_main_v126 (i : S128x2.Idx) (k : Fin 256) : S128x256.Idx := fun a => match a with
  | ⟨0, _⟩ => ⟨(i 0).val, (i 0).isLt⟩
  | ⟨1, _⟩ => ⟨k.val, k.isLt⟩

abbrev ridx_main_v126 (i : S128x2.Idx) (k : Fin 256) : S256x2.Idx := fun a => match a with
  | ⟨0, _⟩ => ⟨k.val, k.isLt⟩
  | ⟨1, _⟩ => ⟨(i 1).val, (i 1).isLt⟩

theorem val_main_v126_apply (x0 : (⟨S128x64, .i32⟩ : BufTy).Contents (Elt Ideal)) (x1 : (⟨S64x1000x5x64, .f32⟩ : BufTy).Contents (Elt Ideal)) (x2 : (⟨S64, .f32⟩ : BufTy).Contents (Elt Ideal)) (x3 : (⟨S64x1000x10x64, .f32⟩ : BufTy).Contents (Elt Ideal)) (x4 : (⟨S64, .f32⟩ : BufTy).Contents (Elt Ideal)) (x5 : (⟨S64x1000x15x64, .f32⟩ : BufTy).Contents (Elt Ideal)) (x6 : (⟨S64, .f32⟩ : BufTy).Contents (Elt Ideal)) (x7 : (⟨S64x1000x20x64, .f32⟩ : BufTy).Contents (Elt Ideal)) (x8 : (⟨S64, .f32⟩ : BufTy).Contents (Elt Ideal)) (x9 : (⟨S2x256, .f32⟩ : BufTy).Contents (Elt Ideal)) (i : S128x2.Idx) :
    val_main_v126 (F := Ideal) x0 x1 x2 x3 x4 x5 x6 x7 x8 x9 i = ∑ k : Fin 256, (val_main_v124 (F := Ideal) x0 x1 x2 x3 x4 x5 x6 x7 x8) (lidx_main_v126 i k) * (val_main_v125 (F := Ideal) x9) (ridx_main_v126 i k) := by
  unfold val_main_v126
  generalize val_main_v124 (F := Ideal) x0 x1 x2 x3 x4 x5 x6 x7 x8 = y0
  generalize val_main_v125 (F := Ideal) x9 = y1
  simp only [Host.dotGeneral]
  rw [Ideal.dotGeneral_apply, ← Equiv.sum_comp (ValueIdx.contrEquiv1 dot_S128x256_S256x2_S128x2_1_0_0_1_n_n 256 rfl rfl).symm]
  refine Finset.sum_congr rfl fun k _ => ?_
  have hk := ValueIdx.contrEquiv1_symm_val dot_S128x256_S256x2_S128x2_1_0_0_1_n_n 256 rfl rfl k
  have el : dot_S128x256_S256x2_S128x2_1_0_0_1_n_n.lhsIdx i ((ValueIdx.contrEquiv1 dot_S128x256_S256x2_S128x2_1_0_0_1_n_n 256 rfl rfl).symm k) = lidx_main_v126 i k := funext fun a => Fin.ext (by
    match a with
    | ⟨0, _⟩ => exact lhs_main_v126_0 _ _
    | ⟨1, _⟩ => exact (lhs_main_v126_1 _ _).trans hk)
  have er : dot_S128x256_S256x2_S128x2_1_0_0_1_n_n.rhsIdx i ((ValueIdx.contrEquiv1 dot_S128x256_S256x2_S128x2_1_0_0_1_n_n 256 rfl rfl).symm k) = ridx_main_v126 i k := funext fun a => Fin.ext (by
    match a with
    | ⟨0, _⟩ => exact (rhs_main_v126_0 _ _).trans hk
    | ⟨1, _⟩ => exact rhs_main_v126_1 _ _)
  rw [el, er]

def val_main_v127 (x10 : (⟨S2, .f32⟩ : BufTy).Contents (Elt F)) : (⟨S1x2, .f32⟩ : BufTy).Contents (Elt F) :=
  broadcastInDim S1x2 ![1] bcast_S2_S1x2_1 (x10)

abbrev idx_main_v127 (i : S1x2.Idx) : S2.Idx := fun a => match a with
  | ⟨0, _⟩ => ⟨(i 1).val, (i 1).isLt⟩

theorem val_main_v127_apply (x10 : (⟨S2, .f32⟩ : BufTy).Contents (Elt F)) (i : S1x2.Idx) :
    val_main_v127 (F := F) x10 i = x10 (idx_main_v127 i) := by
  unfold val_main_v127
  exact broadcastInDim_apply _ bcast_S2_S1x2_1 x10 i (idx_main_v127 i) (fun a => match a with
    | ⟨0, _⟩ => by show (i 1).val = if (2 : Nat) = 1 then 0 else (i 1).val; rw [if_neg (by decide)])

def val_main_v128 (x10 : (⟨S2, .f32⟩ : BufTy).Contents (Elt F)) : (⟨S128x2, .f32⟩ : BufTy).Contents (Elt F) :=
  broadcastInDim S128x2 ![0, 1] bcast_S1x2_S128x2_0_1 (val_main_v127 (F := F) x10)

abbrev idx_main_v128 (i : S128x2.Idx) : S1x2.Idx := fun a => match a with
  | ⟨0, _⟩ => ⟨0, Nat.one_pos⟩
  | ⟨1, _⟩ => ⟨(i 1).val, (i 1).isLt⟩

theorem val_main_v128_apply (x10 : (⟨S2, .f32⟩ : BufTy).Contents (Elt F)) (i : S128x2.Idx) :
    val_main_v128 (F := F) x10 i = val_main_v127 (F := F) x10 (idx_main_v128 i) := by
  unfold val_main_v128
  generalize val_main_v127 (F := F) x10 = y
  exact broadcastInDim_apply _ bcast_S1x2_S128x2_0_1 y i (idx_main_v128 i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

def val_main_v129 (x0 : (⟨S128x64, .i32⟩ : BufTy).Contents (Elt F)) (x1 : (⟨S64x1000x5x64, .f32⟩ : BufTy).Contents (Elt F)) (x2 : (⟨S64, .f32⟩ : BufTy).Contents (Elt F)) (x3 : (⟨S64x1000x10x64, .f32⟩ : BufTy).Contents (Elt F)) (x4 : (⟨S64, .f32⟩ : BufTy).Contents (Elt F)) (x5 : (⟨S64x1000x15x64, .f32⟩ : BufTy).Contents (Elt F)) (x6 : (⟨S64, .f32⟩ : BufTy).Contents (Elt F)) (x7 : (⟨S64x1000x20x64, .f32⟩ : BufTy).Contents (Elt F)) (x8 : (⟨S64, .f32⟩ : BufTy).Contents (Elt F)) (x9 : (⟨S2x256, .f32⟩ : BufTy).Contents (Elt F)) (x10 : (⟨S2, .f32⟩ : BufTy).Contents (Elt F)) : (⟨S128x2, .f32⟩ : BufTy).Contents (Elt F) :=
  addf (val_main_v126 (F := F) x0 x1 x2 x3 x4 x5 x6 x7 x8 x9) (val_main_v128 (F := F) x10)

theorem val_main_v129_apply (x0 : (⟨S128x64, .i32⟩ : BufTy).Contents (Elt F)) (x1 : (⟨S64x1000x5x64, .f32⟩ : BufTy).Contents (Elt F)) (x2 : (⟨S64, .f32⟩ : BufTy).Contents (Elt F)) (x3 : (⟨S64x1000x10x64, .f32⟩ : BufTy).Contents (Elt F)) (x4 : (⟨S64, .f32⟩ : BufTy).Contents (Elt F)) (x5 : (⟨S64x1000x15x64, .f32⟩ : BufTy).Contents (Elt F)) (x6 : (⟨S64, .f32⟩ : BufTy).Contents (Elt F)) (x7 : (⟨S64x1000x20x64, .f32⟩ : BufTy).Contents (Elt F)) (x8 : (⟨S64, .f32⟩ : BufTy).Contents (Elt F)) (x9 : (⟨S2x256, .f32⟩ : BufTy).Contents (Elt F)) (x10 : (⟨S2, .f32⟩ : BufTy).Contents (Elt F)) (i : S128x2.Idx) :
    val_main_v129 (F := F) x0 x1 x2 x3 x4 x5 x6 x7 x8 x9 x10 i = FloatOps.addf (val_main_v126 (F := F) x0 x1 x2 x3 x4 x5 x6 x7 x8 x9 i) (val_main_v128 (F := F) x10 i) := rfl

theorem val_main_v129_eq (m : (ℓ : Loc nD τ sig) → Buf (Elt F) ℓ) (c : Dev nD) :
    Cert.ReferenceIdeal.ValueP.res_main_v129 m c = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v129; rfl

end Cert.ReferenceIdeal.ReadP

end
-- ==== Proof.RefSide.lean ====
import proofs.«409415_j7344394076371_2_alg».proof.Proof.RefRunP
import proofs.«409415_j7344394076371_2_alg».proof.Proof.RefReadP
import proofs.«409415_j7344394076371_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RefValue

open Idealize.ShloMosaic Idealize.ShloMosaic.ValueIdx Idealize.ShloMosaic.StableHlo.Predicate

theorem ofBits_one_f32 : Ideal.ofBits .f32 0x3F800000#32 = 1 := by
  simp [Ideal.ofBits, Ideal.ieee, -EReal.coe_mul]; norm_num

theorem ofBits_negInf_f32 : Ideal.ofBits .f32 0xFF800000#32 = ⊥ := by
  simp [Ideal.ofBits, Ideal.ieee]

theorem wrap_id (t c : BitVec 32) (ht : t.toNat < 2 ^ 31) :
    Scalar.select (IntOp.cmpi .slt t 0#32) (IntOp.addi t c) t = t := by
  have h : ¬ IntOp.cmpi .slt t 0#32 = 1#1 := by
    rw [slt_iff_toNat ht (by decide)]; simp
  rw [eq_zero_of_ne_one h, select_zero]

theorem clamp_id (t : BitVec 32) (k : ℕ) (ht : t.toNat ≤ k) (hk : k < 2 ^ 31) : min t.toInt.toNat k = t.toNat := by
  rw [toInt_eq_toNat_of_lt (by omega)]
  simp only [Int.toNat_natCast]
  omega

theorem pair_apply0 (a b : (⟨3, ![128, 64, 1]⟩ : Shape).Idx → BitVec 32)
    (h : Shape.Concatenates [(⟨3, ![128, 64, 1]⟩ : Shape), ⟨3, ![128, 64, 1]⟩] ⟨3, ![128, 64, 2]⟩ 2) (r : Fin 128) (l : Fin 64) :
    concatenate ⟨3, ![128, 64, 2]⟩ 2 [⟨⟨3, ![128, 64, 1]⟩, a⟩, ⟨⟨3, ![128, 64, 1]⟩, b⟩] h (ix3 r l (0 : Fin 2)) = a (ix3 r l (0 : Fin 1)) :=
  concatenate_pair_apply_left 2 a b h _ rfl _ (fun c => by match c with | ⟨0, _⟩ => rfl | ⟨1, _⟩ => rfl | ⟨2, _⟩ => rfl)

theorem pair_apply1 (a b : (⟨3, ![128, 64, 1]⟩ : Shape).Idx → BitVec 32)
    (h : Shape.Concatenates [(⟨3, ![128, 64, 1]⟩ : Shape), ⟨3, ![128, 64, 1]⟩] ⟨3, ![128, 64, 2]⟩ 2) (r : Fin 128) (l : Fin 64) :
    concatenate ⟨3, ![128, 64, 2]⟩ 2 [⟨⟨3, ![128, 64, 1]⟩, a⟩, ⟨⟨3, ![128, 64, 1]⟩, b⟩] h (ix3 r l (1 : Fin 2)) = b (ix3 r l (0 : Fin 1)) :=
  concatenate_pair_apply_right 2 a b h _ rfl rfl _
    (fun c hc => by match c with | ⟨0, _⟩ => rfl | ⟨1, _⟩ => rfl | ⟨2, _⟩ => exact absurd rfl hc) rfl

abbrev rowDims (n : ℕ)
    (wf : GatherDims.WF ⟨4, ![64, 1000, n, 64]⟩ ⟨3, ![128, 64, 2]⟩ ⟨4, ![128, 64, n, 64]⟩ [2, 3] [0, 1] [] [0, 1] [] 2 ![1, 1, n, 64]) :
    GatherDims ⟨4, ![64, 1000, n, 64]⟩ ⟨3, ![128, 64, 2]⟩ ⟨4, ![128, 64, n, 64]⟩ where
  offsetDims := [2, 3]
  collapsedSliceDims := [0, 1]
  operandBatchingDims := []
  startIndicesBatchingDims := []
  startIndexMap := [0, 1]
  indexVectorDim := 2
  sliceSizes := ![1, 1, n, 64]
  wf := wf

theorem gather_row_apply {α : Type} {n : ℕ}
    (wf : GatherDims.WF ⟨4, ![64, 1000, n, 64]⟩ ⟨3, ![128, 64, 2]⟩ ⟨4, ![128, 64, n, 64]⟩ [2, 3] [0, 1] [] [0, 1] [] 2 ![1, 1, n, 64])
    (x : (⟨4, ![64, 1000, n, 64]⟩ : Shape).Idx → α) (idx : IVec ⟨3, ![128, 64, 2]⟩ 32)
    (r : Fin 128) (l : Fin 64) (f : Fin n) (o : Fin 64) :
    Host.gather (rowDims n wf) x idx (ix4 r l f o)
      = x (ix4 (⟨min (idx (ix3 r l (0 : Fin 2))).toInt.toNat 63, by omega⟩ : Fin 64)
            (⟨min (idx (ix3 r l (1 : Fin 2))).toInt.toNat 999, by omega⟩ : Fin 1000) f o) := by
  unfold Host.gather
  congr 1
  funext a
  refine Fin.ext ?_
  show (rowDims n wf).start (ix4 r l f o) idx a + (rowDims n wf).batchCoord (ix4 r l f o) a + (rowDims n wf).offCoord (ix4 r l f o) a = _
  rw [GatherDims.batchCoord_eq_zero _ _ _ List.not_mem_nil, Nat.add_zero]
  match a with
  | ⟨0, _⟩ =>
    show (rowDims n wf).start (ix4 r l f o) idx (0 : Fin 4) + (rowDims n wf).offCoord (ix4 r l f o) (0 : Fin 4)
      = min (idx (ix3 r l (0 : Fin 2))).toInt.toNat 63
    have hsi : (rowDims n wf).siIdx (ix4 r l f o) ⟨0, Nat.zero_lt_two⟩ = ix3 r l (0 : Fin 2) := by
      funext c; refine Fin.ext ?_
      match c with
      | ⟨0, _⟩ => rfl
      | ⟨1, _⟩ => rfl
      | ⟨2, _⟩ => rfl
    rw [← hsi]; rfl
  | ⟨1, _⟩ =>
    show (rowDims n wf).start (ix4 r l f o) idx (1 : Fin 4) + (rowDims n wf).offCoord (ix4 r l f o) (1 : Fin 4)
      = min (idx (ix3 r l (1 : Fin 2))).toInt.toNat 999
    have hsi : (rowDims n wf).siIdx (ix4 r l f o) ⟨1, Nat.one_lt_two⟩ = ix3 r l (1 : Fin 2) := by
      funext c; refine Fin.ext ?_
      match c with
      | ⟨0, _⟩ => rfl
      | ⟨1, _⟩ => rfl
      | ⟨2, _⟩ => rfl
    rw [← hsi]; rfl
  | ⟨2, _⟩ =>
    show (rowDims n wf).start (ix4 r l f o) idx (2 : Fin 4) + (rowDims n wf).offCoord (ix4 r l f o) (2 : Fin 4) = f.val
    rw [show (rowDims n wf).start (ix4 r l f o) idx (2 : Fin 4) = 0 from rfl, Nat.zero_add]; rfl
  | ⟨3, _⟩ =>
    show (rowDims n wf).start (ix4 r l f o) idx (3 : Fin 4) + (rowDims n wf).offCoord (ix4 r l f o) (3 : Fin 4) = o.val
    rw [show (rowDims n wf).start (ix4 r l f o) idx (3 : Fin 4) = 0 from rfl, Nat.zero_add]; rfl

theorem reverse_mid_apply {α : Type} {n : ℕ} (x : (⟨3, ![128, n, 64]⟩ : Shape).Idx → α) (r : Fin 128) (f : Fin n) (o : Fin 64) :
    Host.reverse [1] x (ix3 r f o) = x (ix3 r f.rev o) := by
  unfold Host.reverse
  congr 1
  funext a
  match a with
  | ⟨0, _⟩ => rfl
  | ⟨1, _⟩ => rfl
  | ⟨2, _⟩ => rfl

theorem max_last_apply {n : ℕ} (x : (⟨3, ![128, 64, n]⟩ : Shape).Idx → EReal) (init : (⟨0, ![]⟩ : Shape).Idx → EReal)
    (h' : (⟨3, ![128, 64, n]⟩ : Shape).ReducesTo [2] ⟨2, ![128, 64]⟩) (hu : 0 < (⟨0, ![]⟩ : Shape).numel)
    (hinit : init (Shape.Idx.first hu) = ⊥) (r : Fin 128) (o : Fin 64) :
    Host.reduce (FloatOps.maximumf (F := Ideal) (φ := .f32)) x init h' hu (ix2 r o)
      = Finset.univ.sup fun f : Fin n => x (ix3 r o f) := by
  have h : (⟨3, ![128, 64, n]⟩ : Shape).Reduces [2] ⟨2, ![128, 64]⟩ :=
    ⟨rfl, by decide, fun c => by match c with | ⟨0, _⟩ => rfl | ⟨1, _⟩ => rfl⟩
  rw [Host.reduce_eq_fold_single _ x init h' h hu, hinit]
  have hl : (x ∘ h.lift (ix2 r o)) = fun f : Fin n => x (ix3 r o f) := by
    funext k
    exact congrArg x (funext fun c => Fin.ext (by match c with | ⟨0, _⟩ => rfl | ⟨1, _⟩ => rfl | ⟨2, _⟩ => rfl))
  rw [hl]
  rfl

theorem cat4_apply (f0 f1 f2 f3 : (⟨2, ![128, 64]⟩ : Shape).Idx → EReal)
    (h : Shape.Concatenates [(⟨2, ![128, 64]⟩ : Shape), ⟨2, ![128, 64]⟩, ⟨2, ![128, 64]⟩, ⟨2, ![128, 64]⟩] ⟨2, ![128, 256]⟩ 1)
    (r : Fin 128) (k : Fin 256) :
    concatenate ⟨2, ![128, 256]⟩ 1 [⟨⟨2, ![128, 64]⟩, f0⟩, ⟨⟨2, ![128, 64]⟩, f1⟩, ⟨⟨2, ![128, 64]⟩, f2⟩, ⟨⟨2, ![128, 64]⟩, f3⟩] h (ix2 r k)
      = Cert.Spec.cat4 (fun b o => f0 (ix2 b o)) (fun b o => f1 (ix2 b o)) (fun b o => f2 (ix2 b o)) (fun b o => f3 (ix2 b o)) r k := by
  unfold Cert.Spec.cat4
  by_cases h0 : k.val < 64
  · rw [dif_pos h0]
    exact concatenate_apply_piece 1 [⟨⟨2, ![128, 64]⟩, f0⟩, ⟨⟨2, ![128, 64]⟩, f1⟩, ⟨⟨2, ![128, 64]⟩, f2⟩, ⟨⟨2, ![128, 64]⟩, f3⟩] h
      (ix2 r k) 0 (by show (0 : ℕ) < 4; decide) _ f0 rfl rfl 0 rfl (ix2 r ⟨k.val, h0⟩)
      (fun c hc => by match c with | ⟨0, _⟩ => rfl | ⟨1, _⟩ => exact absurd rfl hc) (Nat.zero_add _)
  rw [dif_neg h0]
  by_cases h1 : k.val < 128
  · rw [dif_pos h1]
    exact concatenate_apply_piece 1 [⟨⟨2, ![128, 64]⟩, f0⟩, ⟨⟨2, ![128, 64]⟩, f1⟩, ⟨⟨2, ![128, 64]⟩, f2⟩, ⟨⟨2, ![128, 64]⟩, f3⟩] h
      (ix2 r k) 1 (by show (1 : ℕ) < 4; decide) _ f1 rfl rfl 64 rfl (ix2 r ⟨k.val - 64, by omega⟩)
      (fun c hc => by match c with | ⟨0, _⟩ => rfl | ⟨1, _⟩ => exact absurd rfl hc) (by show 64 + (k.val - 64) = k.val; omega)
  rw [dif_neg h1]
  by_cases h2 : k.val < 192
  · rw [dif_pos h2]
    exact concatenate_apply_piece 1 [⟨⟨2, ![128, 64]⟩, f0⟩, ⟨⟨2, ![128, 64]⟩, f1⟩, ⟨⟨2, ![128, 64]⟩, f2⟩, ⟨⟨2, ![128, 64]⟩, f3⟩] h
      (ix2 r k) 2 (by show (2 : ℕ) < 4; decide) _ f2 rfl rfl 128 rfl (ix2 r ⟨k.val - 128, by omega⟩)
      (fun c hc => by match c with | ⟨0, _⟩ => rfl | ⟨1, _⟩ => exact absurd rfl hc) (by show 128 + (k.val - 128) = k.val; omega)
  rw [dif_neg h2]
  exact concatenate_apply_piece 1 [⟨⟨2, ![128, 64]⟩, f0⟩, ⟨⟨2, ![128, 64]⟩, f1⟩, ⟨⟨2, ![128, 64]⟩, f2⟩, ⟨⟨2, ![128, 64]⟩, f3⟩] h
    (ix2 r k) 3 (by show (3 : ℕ) < 4; decide) _ f3 rfl rfl 192 rfl (ix2 r ⟨k.val - 192, by omega⟩)
    (fun c hc => by match c with | ⟨0, _⟩ => rfl | ⟨1, _⟩ => exact absurd rfl hc) (by show 192 + (k.val - 192) = k.val; omega)

theorem branch_core {n : ℕ}
    (x0 : (⟨2, ![128, 64]⟩ : Shape).Idx → BitVec 32) (xW : (⟨4, ![64, 1000, n, 64]⟩ : Shape).Idx → EReal)
    (xb : (⟨1, ![64]⟩ : Shape).Idx → EReal)
    (htok : Cert.Spec.InVocab (Cert.Spec.tokOf x0))
    (w' : (⟨4, ![64, 1000, n, 64]⟩ : Shape).Idx → EReal) (pairs : IVec ⟨3, ![128, 64, 2]⟩ 32)
    (wf : GatherDims.WF ⟨4, ![64, 1000, n, 64]⟩ ⟨3, ![128, 64, 2]⟩ ⟨4, ![128, 64, n, 64]⟩ [2, 3] [0, 1] [] [0, 1] [] 2 ![1, 1, n, 64])
    (g : (⟨4, ![128, 64, n, 64]⟩ : Shape).Idx → EReal) (s rv a : (⟨3, ![128, n, 64]⟩ : Shape).Idx → EReal)
    (m : (⟨3, ![128, 64, n]⟩ : Shape).Idx → EReal) (init : (⟨0, ![]⟩ : Shape).Idx → EReal)
    (h' : (⟨3, ![128, 64, n]⟩ : Shape).ReducesTo [2] ⟨2, ![128, 64]⟩) (hu : 0 < (⟨0, ![]⟩ : Shape).numel)
    (p q : (⟨2, ![128, 64]⟩ : Shape).Idx → EReal)
    (H0 : ∀ a b c d, w' (ix4 a b c d) = xW (ix4 d b c a))
    (Hp0 : ∀ r l, pairs (ix3 r l (0 : Fin 2)) = BitVec.ofNat 32 l.val)
    (Hp1 : ∀ r l, pairs (ix3 r l (1 : Fin 2)) = x0 (ix2 r l))
    (H17 : g = Host.gather (rowDims n wf) w' pairs)
    (H18 : ∀ r f o, s (ix3 r f o) = Ideal.ofBits .f32 0x00000000#32 + ∑ l : Fin 64, g (ix4 r l f o))
    (H19 : rv = Host.reverse [1] s)
    (H22 : ∀ r f o, a (ix3 r f o) = rv (ix3 r f o) + xb (ix1 o))
    (H24 : ∀ r o f, m (ix3 r o f) = max (a (ix3 r f o)) (Ideal.ofBits .f32 0x00000000#32))
    (Hinit : init (Shape.Idx.first hu) = Ideal.ofBits .f32 0xFF800000#32)
    (H25 : p = Host.reduce (FloatOps.maximumf (F := Ideal) (φ := .f32)) m init h' hu)
    (H30 : ∀ r o, q (ix2 r o)
      = Ideal.div (p (ix2 r o)) (Ideal.sqrt (Ideal.ofBits .f32 0x3F800000#32 + p (ix2 r o) * p (ix2 r o))))
    (r : Fin 128) (o : Fin 64) :
    q (ix2 r o) = Cert.Spec.featGat (Cert.Spec.tokOf x0) (Cert.Spec.wOf xW) (Cert.Spec.bOf xb) r o := by
  have hg : ∀ r l f o, g (ix4 r l f o) = xW (ix4 o (Cert.Spec.tokIx (x0 (ix2 r l))) f l) := by
    intro r l f o
    rw [H17, gather_row_apply, H0]
    have h1 : (x0 (ix2 r l)).toNat < 1000 := htok r l
    have h2 : (BitVec.ofNat 32 l.val).toNat = l.val := by
      rw [BitVec.toNat_ofNat]; exact Nat.mod_eq_of_lt (by have := l.isLt; omega)
    refine congrArg xW (funext fun e => Fin.ext ?_)
    match e with
    | ⟨0, _⟩ => rfl
    | ⟨1, _⟩ =>
      show min (pairs (ix3 r l (1 : Fin 2))).toInt.toNat 999 = (x0 (ix2 r l)).toNat % 1000
      rw [Hp1, clamp_id _ 999 (by omega) (by norm_num), Nat.mod_eq_of_lt h1]
    | ⟨2, _⟩ => rfl
    | ⟨3, _⟩ =>
      show min (pairs (ix3 r l (0 : Fin 2))).toInt.toNat 63 = l.val
      rw [Hp0, clamp_id _ 63 (by rw [h2]; have := l.isLt; omega) (by norm_num), h2]
  have hs : ∀ r f o, s (ix3 r f o) = Cert.Spec.preGat (Cert.Spec.tokOf x0) (Cert.Spec.wOf xW) r o f := by
    intro r f o
    rw [H18, Ideal.ofBits_zero_f32, zero_add]
    exact Finset.sum_congr rfl fun l _ => hg r l f o
  have hm : ∀ r o f, m (ix3 r o f)
      = max (Cert.Spec.preGat (Cert.Spec.tokOf x0) (Cert.Spec.wOf xW) r o (Fin.rev f) + Cert.Spec.bOf xb o) 0 := by
    intro r o f
    rw [H24, H22, H19, reverse_mid_apply, hs, Ideal.ofBits_zero_f32]
    rfl
  rw [H30, H25, max_last_apply m init h' hu (Hinit.trans ofBits_negInf_f32) r o, ofBits_one_f32]
  unfold Cert.Spec.featGat Cert.Spec.lrnDiv Cert.Spec.pool
  simp only [hm]

open Cert.ReferenceIdeal Cert.ReferenceIdeal.Gen Cert.ReferenceIdeal.ReadP Idealize.ShloMosaic.TcCoe Idealize.SL.Sem Idealize.ShloMosaic.StableHlo

theorem v7_at (i : S1x64.Idx) : val_main_v7 (F := Ideal) i = BitVec.ofNat 32 (i 1).val := by
  rw [val_main_v7_apply, val_main_v4_apply, val_main_v6_apply, val_main_v3_apply, val_main_c_apply, val_main_v2_apply,
    val_main_v1_apply]
  refine wrap_id _ _ ?_
  show (BitVec.ofNat 32 (i 1).val).toNat < 2 ^ 31
  have h : (i 1).val < 64 := (i 1).isLt
  rw [BitVec.toNat_ofNat]; omega

theorem v12_at (x0 : (⟨S128x64, .i32⟩ : BufTy).Contents (Elt Ideal)) (i : S128x64.Idx) (h : (x0 i).toNat < 2 ^ 31) :
    val_main_v12 (F := Ideal) x0 i = x0 i := by
  rw [val_main_v12_apply, val_main_v9_apply, val_main_v11_apply, val_main_v8_apply, val_main_c_1_apply]
  exact wrap_id _ _ h

theorem v16_at0 (x0 : (⟨S128x64, .i32⟩ : BufTy).Contents (Elt Ideal)) (r : Fin 128) (l : Fin 64) :
    val_main_v16 (F := Ideal) x0 (ix3 r l (0 : Fin 2)) = BitVec.ofNat 32 l.val := by
  unfold val_main_v16
  refine (pair_apply0 _ _ _ r l).trans ?_
  rw [val_main_v14_apply, val_main_v13_apply]
  exact v7_at _

theorem v16_at1 (x0 : (⟨S128x64, .i32⟩ : BufTy).Contents (Elt Ideal)) (r : Fin 128) (l : Fin 64) (h : (x0 (ix2 r l)).toNat < 2 ^ 31) :
    val_main_v16 (F := Ideal) x0 (ix3 r l (1 : Fin 2)) = x0 (ix2 r l) := by
  unfold val_main_v16
  refine (pair_apply1 _ _ _ r l).trans ?_
  rw [val_main_v15_apply]
  have e : idx_main_v15 (ix3 r l (0 : Fin 1)) = ix2 r l := (funext fun e => Fin.ext (by match e with | ⟨0, _⟩ => rfl | ⟨1, _⟩ => rfl))
  rw [e]
  exact v12_at x0 _ h

theorem pairs2_eq (x0 : (⟨S128x64, .i32⟩ : BufTy).Contents (Elt Ideal)) : val_main_v47 (F := Ideal) x0 = val_main_v16 (F := Ideal) x0 := rfl
theorem pairs3_eq (x0 : (⟨S128x64, .i32⟩ : BufTy).Contents (Elt Ideal)) : val_main_v78 (F := Ideal) x0 = val_main_v16 (F := Ideal) x0 := rfl
theorem pairs4_eq (x0 : (⟨S128x64, .i32⟩ : BufTy).Contents (Elt Ideal)) : val_main_v109 (F := Ideal) x0 = val_main_v16 (F := Ideal) x0 := rfl

theorem tok_small (x0 : (⟨S128x64, .i32⟩ : BufTy).Contents (Elt Ideal)) (htok : Cert.Spec.InVocab (Cert.Spec.tokOf x0)) (r : Fin 128) (l : Fin 64) :
    (x0 (ix2 r l)).toNat < 2 ^ 31 := by
  have h : (x0 (ix2 r l)).toNat < 1000 := htok r l
  omega

theorem branch1_apply (x0 : (⟨S128x64, .i32⟩ : BufTy).Contents (Elt Ideal)) (x1 : (⟨S64x1000x5x64, .f32⟩ : BufTy).Contents (Elt Ideal))
    (x2 : (⟨S64, .f32⟩ : BufTy).Contents (Elt Ideal))
    (htok : Cert.Spec.InVocab (Cert.Spec.tokOf x0)) (r : Fin 128) (o : Fin 64) :
    val_main_v30 (F := Ideal) x0 x1 x2 (ix2 r o)
      = Cert.Spec.featGat (Cert.Spec.tokOf x0) (Cert.Spec.wOf x1) (Cert.Spec.bOf x2) r o := by
  refine branch_core (n := 5) x0 x1 x2 htok (val_main_v0 (F := Ideal) x1) (val_main_v16 (F := Ideal) x0)
    gather_S64x1000x5x64_S128x64x2_S128x64x5x64_23_01_n_n_01_2_11564_wf
    (val_main_v17 (F := Ideal) x0 x1) (val_main_v18 (F := Ideal) x0 x1) (val_main_v19 (F := Ideal) x0 x1)
    (val_main_v22 (F := Ideal) x0 x1 x2) (val_main_v24 (F := Ideal) x0 x1 x2) (val_main_cst_3 (F := Ideal))
    reducesTo_S128x64x5_S128x64_d2 h_S_ (val_main_v25 (F := Ideal) x0 x1 x2) (val_main_v30 (F := Ideal) x0 x1 x2)
    ?H0 ?Hp0 ?Hp1 rfl ?H18 rfl ?H22 ?H24 rfl rfl ?H30 r o
  case H0 =>
    intro a b c d
    rw [val_main_v0_apply]
    exact congrArg x1 (funext fun e => Fin.ext (by match e with | ⟨0, _⟩ => rfl | ⟨1, _⟩ => rfl | ⟨2, _⟩ => rfl | ⟨3, _⟩ => rfl))
  case Hp0 => intro r l; exact v16_at0 x0 r l
  case Hp1 => intro r l; exact v16_at1 x0 r l (tok_small x0 htok r l)
  case H18 =>
    intro r f o
    rw [val_main_v18_apply, val_main_cst_apply]
    exact congrArg (_ + ·) (Finset.sum_congr rfl fun l _ => congrArg (val_main_v17 (F := Ideal) x0 x1)
      (funext fun e => Fin.ext (by match e with | ⟨0, _⟩ => rfl | ⟨1, _⟩ => rfl | ⟨2, _⟩ => rfl | ⟨3, _⟩ => rfl)))
  case H22 =>
    intro r f o
    rw [val_main_v22_apply, val_main_v21_apply, val_main_v20_apply]
    exact congrArg (fun z => val_main_v19 (F := Ideal) x0 x1 (ix3 r f o) + x2 z)
      (funext fun e => Fin.ext (by match e with | ⟨0, _⟩ => rfl))
  case H24 =>
    intro r o f
    rw [val_main_v24_apply, val_main_v23_apply, val_main_call0_v0_apply, val_main_call0_cst_apply]
    exact congrArg (fun z => max (val_main_v22 (F := Ideal) x0 x1 x2 z) (Ideal.ofBits .f32 0x00000000#32))
      (funext fun e => Fin.ext (by match e with | ⟨0, _⟩ => rfl | ⟨1, _⟩ => rfl | ⟨2, _⟩ => rfl))
  case H30 =>
    intro r o
    rw [val_main_v30_apply, val_main_v29_apply, val_main_v28_apply, val_main_v27_apply, val_main_cst_4_apply, val_main_v26_apply]
    simp only [Ideal.hostDivf_def, Ideal.hostUnary_sqrt_def, Ideal.addf_def, Ideal.mulf_def, Ideal.ofBits_def]

theorem branch2_apply (x0 : (⟨S128x64, .i32⟩ : BufTy).Contents (Elt Ideal)) (x3 : (⟨S64x1000x10x64, .f32⟩ : BufTy).Contents (Elt Ideal))
    (x4 : (⟨S64, .f32⟩ : BufTy).Contents (Elt Ideal))
    (htok : Cert.Spec.InVocab (Cert.Spec.tokOf x0)) (r : Fin 128) (o : Fin 64) :
    val_main_v61 (F := Ideal) x0 x3 x4 (ix2 r o)
      = Cert.Spec.featGat (Cert.Spec.tokOf x0) (Cert.Spec.wOf x3) (Cert.Spec.bOf x4) r o := by
  refine branch_core (n := 10) x0 x3 x4 htok (val_main_v31 (F := Ideal) x3) (val_main_v47 (F := Ideal) x0)
    gather_S64x1000x10x64_S128x64x2_S128x64x10x64_23_01_n_n_01_2_111064_wf
    (val_main_v48 (F := Ideal) x0 x3) (val_main_v49 (F := Ideal) x0 x3) (val_main_v50 (F := Ideal) x0 x3)
    (val_main_v53 (F := Ideal) x0 x3 x4) (val_main_v55 (F := Ideal) x0 x3 x4) (val_main_cst_10 (F := Ideal))
    reducesTo_S128x64x10_S128x64_d2 h_S_ (val_main_v56 (F := Ideal) x0 x3 x4) (val_main_v61 (F := Ideal) x0 x3 x4)
    ?H0 ?Hp0 ?Hp1 rfl ?H18 rfl ?H22 ?H24 rfl rfl ?H30 r o
  case H0 =>
    intro a b c d
    rw [val_main_v31_apply]
    exact congrArg x3 (funext fun e => Fin.ext (by match e with | ⟨0, _⟩ => rfl | ⟨1, _⟩ => rfl | ⟨2, _⟩ => rfl | ⟨3, _⟩ => rfl))
  case Hp0 => intro r l; rw [pairs2_eq x0]; exact v16_at0 x0 r l
  case Hp1 => intro r l; rw [pairs2_eq x0]; exact v16_at1 x0 r l (tok_small x0 htok r l)
  case H18 =>
    intro r f o
    rw [val_main_v49_apply, val_main_cst_9_apply]
    exact congrArg (_ + ·) (Finset.sum_congr rfl fun l _ => congrArg (val_main_v48 (F := Ideal) x0 x3)
      (funext fun e => Fin.ext (by match e with | ⟨0, _⟩ => rfl | ⟨1, _⟩ => rfl | ⟨2, _⟩ => rfl | ⟨3, _⟩ => rfl)))
  case H22 =>
    intro r f o
    rw [val_main_v53_apply, val_main_v52_apply, val_main_v51_apply]
    exact congrArg (fun z => val_main_v50 (F := Ideal) x0 x3 (ix3 r f o) + x4 z)
      (funext fun e => Fin.ext (by match e with | ⟨0, _⟩ => rfl))
  case H24 =>
    intro r o f
    rw [val_main_v55_apply, val_main_v54_apply, val_main_call1_v0_apply, val_main_call1_cst_apply]
    exact congrArg (fun z => max (val_main_v53 (F := Ideal) x0 x3 x4 z) (Ideal.ofBits .f32 0x00000000#32))
      (funext fun e => Fin.ext (by match e with | ⟨0, _⟩ => rfl | ⟨1, _⟩ => rfl | ⟨2, _⟩ => rfl))
  case H30 =>
    intro r o
    rw [val_main_v61_apply, val_main_v60_apply, val_main_v59_apply, val_main_v58_apply, val_main_cst_11_apply, val_main_v57_apply]
    simp only [Ideal.hostDivf_def, Ideal.hostUnary_sqrt_def, Ideal.addf_def, Ideal.mulf_def, Ideal.ofBits_def]

theorem branch3_apply (x0 : (⟨S128x64, .i32⟩ : BufTy).Contents (Elt Ideal)) (x5 : (⟨S64x1000x15x64, .f32⟩ : BufTy).Contents (Elt Ideal))
    (x6 : (⟨S64, .f32⟩ : BufTy).Contents (Elt Ideal))
    (htok : Cert.Spec.InVocab (Cert.Spec.tokOf x0)) (r : Fin 128) (o : Fin 64) :
    val_main_v92 (F := Ideal) x0 x5 x6 (ix2 r o)
      = Cert.Spec.featGat (Cert.Spec.tokOf x0) (Cert.Spec.wOf x5) (Cert.Spec.bOf x6) r o := by
  refine branch_core (n := 15) x0 x5 x6 htok (val_main_v62 (F := Ideal) x5) (val_main_v78 (F := Ideal) x0)
    gather_S64x1000x15x64_S128x64x2_S128x64x15x64_23_01_n_n_01_2_111564_wf
    (val_main_v79 (F := Ideal) x0 x5) (val_main_v80 (F := Ideal) x0 x5) (val_main_v81 (F := Ideal) x0 x5)
    (val_main_v84 (F := Ideal) x0 x5 x6) (val_main_v86 (F := Ideal) x0 x5 x6) (val_main_cst_17 (F := Ideal))
    reducesTo_S128x64x15_S128x64_d2 h_S_ (val_main_v87 (F := Ideal) x0 x5 x6) (val_main_v92 (F := Ideal) x0 x5 x6)
    ?H0 ?Hp0 ?Hp1 rfl ?H18 rfl ?H22 ?H24 rfl rfl ?H30 r o
  case H0 =>
    intro a b c d
    rw [val_main_v62_apply]
    exact congrArg x5 (funext fun e => Fin.ext (by match e with | ⟨0, _⟩ => rfl | ⟨1, _⟩ => rfl | ⟨2, _⟩ => rfl | ⟨3, _⟩ => rfl))
  case Hp0 => intro r l; rw [pairs3_eq x0]; exact v16_at0 x0 r l
  case Hp1 => intro r l; rw [pairs3_eq x0]; exact v16_at1 x0 r l (tok_small x0 htok r l)
  case H18 =>
    intro r f o
    rw [val_main_v80_apply, val_main_cst_16_apply]
    exact congrArg (_ + ·) (Finset.sum_congr rfl fun l _ => congrArg (val_main_v79 (F := Ideal) x0 x5)
      (funext fun e => Fin.ext (by match e with | ⟨0, _⟩ => rfl | ⟨1, _⟩ => rfl | ⟨2, _⟩ => rfl | ⟨3, _⟩ => rfl)))
  case H22 =>
    intro r f o
    rw [val_main_v84_apply, val_main_v83_apply, val_main_v82_apply]
    exact congrArg (fun z => val_main_v81 (F := Ideal) x0 x5 (ix3 r f o) + x6 z)
      (funext fun e => Fin.ext (by match e with | ⟨0, _⟩ => rfl))
  case H24 =>
    intro r o f
    rw [val_main_v86_apply, val_main_v85_apply, val_main_call2_v0_apply, val_main_call2_cst_apply]
    exact congrArg (fun z => max (val_main_v84 (F := Ideal) x0 x5 x6 z) (Ideal.ofBits .f32 0x00000000#32))
      (funext fun e => Fin.ext (by match e with | ⟨0, _⟩ => rfl | ⟨1, _⟩ => rfl | ⟨2, _⟩ => rfl))
  case H30 =>
    intro r o
    rw [val_main_v92_apply, val_main_v91_apply, val_main_v90_apply, val_main_v89_apply, val_main_cst_18_apply, val_main_v88_apply]
    simp only [Ideal.hostDivf_def, Ideal.hostUnary_sqrt_def, Ideal.addf_def, Ideal.mulf_def, Ideal.ofBits_def]

theorem branch4_apply (x0 : (⟨S128x64, .i32⟩ : BufTy).Contents (Elt Ideal)) (x7 : (⟨S64x1000x20x64, .f32⟩ : BufTy).Contents (Elt Ideal))
    (x8 : (⟨S64, .f32⟩ : BufTy).Contents (Elt Ideal))
    (htok : Cert.Spec.InVocab (Cert.Spec.tokOf x0)) (r : Fin 128) (o : Fin 64) :
    val_main_v123 (F := Ideal) x0 x7 x8 (ix2 r o)
      = Cert.Spec.featGat (Cert.Spec.tokOf x0) (Cert.Spec.wOf x7) (Cert.Spec.bOf x8) r o := by
  refine branch_core (n := 20) x0 x7 x8 htok (val_main_v93 (F := Ideal) x7) (val_main_v109 (F := Ideal) x0)
    gather_S64x1000x20x64_S128x64x2_S128x64x20x64_23_01_n_n_01_2_112064_wf
    (val_main_v110 (F := Ideal) x0 x7) (val_main_v111 (F := Ideal) x0 x7) (val_main_v112 (F := Ideal) x0 x7)
    (val_main_v115 (F := Ideal) x0 x7 x8) (val_main_v117 (F := Ideal) x0 x7 x8) (val_main_cst_24 (F := Ideal))
    reducesTo_S128x64x20_S128x64_d2 h_S_ (val_main_v118 (F := Ideal) x0 x7 x8) (val_main_v123 (F := Ideal) x0 x7 x8)
    ?H0 ?Hp0 ?Hp1 rfl ?H18 rfl ?H22 ?H24 rfl rfl ?H30 r o
  case H0 =>
    intro a b c d
    rw [val_main_v93_apply]
    exact congrArg x7 (funext fun e => Fin.ext (by match e with | ⟨0, _⟩ => rfl | ⟨1, _⟩ => rfl | ⟨2, _⟩ => rfl | ⟨3, _⟩ => rfl))
  case Hp0 => intro r l; rw [pairs4_eq x0]; exact v16_at0 x0 r l
  case Hp1 => intro r l; rw [pairs4_eq x0]; exact v16_at1 x0 r l (tok_small x0 htok r l)
  case H18 =>
    intro r f o
    rw [val_main_v111_apply, val_main_cst_23_apply]
    exact congrArg (_ + ·) (Finset.sum_congr rfl fun l _ => congrArg (val_main_v110 (F := Ideal) x0 x7)
      (funext fun e => Fin.ext (by match e with | ⟨0, _⟩ => rfl | ⟨1, _⟩ => rfl | ⟨2, _⟩ => rfl | ⟨3, _⟩ => rfl)))
  case H22 =>
    intro r f o
    rw [val_main_v115_apply, val_main_v114_apply, val_main_v113_apply]
    exact congrArg (fun z => val_main_v112 (F := Ideal) x0 x7 (ix3 r f o) + x8 z)
      (funext fun e => Fin.ext (by match e with | ⟨0, _⟩ => rfl))
  case H24 =>
    intro r o f
    rw [val_main_v117_apply, val_main_v116_apply, val_main_call3_v0_apply, val_main_call3_cst_apply]
    exact congrArg (fun z => max (val_main_v115 (F := Ideal) x0 x7 x8 z) (Ideal.ofBits .f32 0x00000000#32))
      (funext fun e => Fin.ext (by match e with | ⟨0, _⟩ => rfl | ⟨1, _⟩ => rfl | ⟨2, _⟩ => rfl))
  case H30 =>
    intro r o
    rw [val_main_v123_apply, val_main_v122_apply, val_main_v121_apply, val_main_v120_apply, val_main_cst_25_apply, val_main_v119_apply]
    simp only [Ideal.hostDivf_def, Ideal.hostUnary_sqrt_def, Ideal.addf_def, Ideal.mulf_def, Ideal.ofBits_def]

theorem ref_apply (x0 : (⟨S128x64, .i32⟩ : BufTy).Contents (Elt Ideal)) (x1 : (⟨S64x1000x5x64, .f32⟩ : BufTy).Contents (Elt Ideal))
    (x2 : (⟨S64, .f32⟩ : BufTy).Contents (Elt Ideal)) (x3 : (⟨S64x1000x10x64, .f32⟩ : BufTy).Contents (Elt Ideal))
    (x4 : (⟨S64, .f32⟩ : BufTy).Contents (Elt Ideal)) (x5 : (⟨S64x1000x15x64, .f32⟩ : BufTy).Contents (Elt Ideal))
    (x6 : (⟨S64, .f32⟩ : BufTy).Contents (Elt Ideal)) (x7 : (⟨S64x1000x20x64, .f32⟩ : BufTy).Contents (Elt Ideal))
    (x8 : (⟨S64, .f32⟩ : BufTy).Contents (Elt Ideal)) (x9 : (⟨S2x256, .f32⟩ : BufTy).Contents (Elt Ideal))
    (x10 : (⟨S2, .f32⟩ : BufTy).Contents (Elt Ideal))
    (htok : Cert.Spec.InVocab (Cert.Spec.tokOf x0)) (b : Fin 128) (j : Fin 2) :
    val_main_v129 (F := Ideal) x0 x1 x2 x3 x4 x5 x6 x7 x8 x9 x10 (ValueIdx.ix2 b j)
      = Cert.Spec.lin (Cert.Spec.cat4 (Cert.Spec.featGat (Cert.Spec.tokOf x0) (Cert.Spec.wOf x1) (Cert.Spec.bOf x2))
            (Cert.Spec.featGat (Cert.Spec.tokOf x0) (Cert.Spec.wOf x3) (Cert.Spec.bOf x4))
            (Cert.Spec.featGat (Cert.Spec.tokOf x0) (Cert.Spec.wOf x5) (Cert.Spec.bOf x6))
            (Cert.Spec.featGat (Cert.Spec.tokOf x0) (Cert.Spec.wOf x7) (Cert.Spec.bOf x8)))
          (Cert.Spec.m2Of x9) (Cert.Spec.v1Of x10) b j := by
  have e1 : (fun r o => val_main_v30 (F := Ideal) x0 x1 x2 (ix2 r o))
      = Cert.Spec.featGat (Cert.Spec.tokOf x0) (Cert.Spec.wOf x1) (Cert.Spec.bOf x2) :=
    funext fun r => funext fun o => branch1_apply x0 x1 x2 htok r o
  have e2 : (fun r o => val_main_v61 (F := Ideal) x0 x3 x4 (ix2 r o))
      = Cert.Spec.featGat (Cert.Spec.tokOf x0) (Cert.Spec.wOf x3) (Cert.Spec.bOf x4) :=
    funext fun r => funext fun o => branch2_apply x0 x3 x4 htok r o
  have e3 : (fun r o => val_main_v92 (F := Ideal) x0 x5 x6 (ix2 r o))
      = Cert.Spec.featGat (Cert.Spec.tokOf x0) (Cert.Spec.wOf x5) (Cert.Spec.bOf x6) :=
    funext fun r => funext fun o => branch3_apply x0 x5 x6 htok r o
  have e4 : (fun r o => val_main_v123 (F := Ideal) x0 x7 x8 (ix2 r o))
      = Cert.Spec.featGat (Cert.Spec.tokOf x0) (Cert.Spec.wOf x7) (Cert.Spec.bOf x8) :=
    funext fun r => funext fun o => branch4_apply x0 x7 x8 htok r o
  rw [val_main_v129_apply, val_main_v126_apply, val_main_v128_apply, val_main_v127_apply, Ideal.addf_def]
  unfold Cert.Spec.lin
  refine congrArg₂ (· + ·) (Finset.sum_congr rfl fun k _ => congrArg₂ (· * ·) ?_ ?_) ?_
  · have e : lidx_main_v126 (ix2 b j) k = ix2 b k :=
      funext fun e => Fin.ext (by match e with | ⟨0, _⟩ => rfl | ⟨1, _⟩ => rfl)
    rw [e]
    unfold val_main_v124
    refine (cat4_apply _ _ _ _ _ b k).trans ?_
    rw [e1, e2, e3, e4]
  · rw [val_main_v125_apply]
    exact congrArg x9 (funext fun e => Fin.ext (by match e with | ⟨0, _⟩ => rfl | ⟨1, _⟩ => rfl))
  · exact congrArg x10 (funext fun e => Fin.ext (by match e with | ⟨0, _⟩ => rfl))

theorem ref_res_eq (m : (ℓ : Loc nD τ sig) → Buf (Elt Ideal) ℓ) (c : Dev nD) :
    Cert.ReferenceIdeal.ValueP.res_main_v129 m c
      = val_main_v129 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  val_main_v129_eq m c

end Cert.ReferenceIdeal.RefValue

end
-- ==== Proof.PreFacts.lean ====
import proofs.«409415_j7344394076371_2_alg».proof.Pre_finite_inputs
import proofs.«409415_j7344394076371_2_alg».proof.Proof.Gen.Pre_finite_inputs
import proofs.«409415_j7344394076371_2_alg».proof.Proof.Spec
import Idealize.ShloMosaic.Lib.ReduceAll
import Idealize.ShloMosaic.Lib.StableHlo.Predicate
import Idealize.ShloMosaic.PureOps.Ideal
import Idealize.ShloMosaic.Lib.ValueIdx

namespace Cert.PreFacts

open Idealize.ShloMosaic Cert.Pre_finite_inputs

instance : Subsingleton S_.Idx := ⟨fun a b => funext fun d => d.elim0⟩

theorem real_of_abs_lt_top (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  simp only [Ideal.cmp, StableHlo.Predicate.ofBool_eq_one_iff, decide_eq_true_eq] at h
  constructor
  · rintro rfl; simp at h
  · rintro rfl; simp at h

theorem toNat_lt_of_signed (a : BitVec 32) (h0 : 0 ≤ a.toInt) (h1 : a.toInt < 1000) : a.toNat < 1000 := by
  have hlt : 2 * a.toNat < 2 ^ 32 := BitVec.toInt_pos_iff.1 h0
  rw [BitVec.toInt_eq_toNat_of_lt hlt] at h1
  omega

theorem all_real {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : x i ≠ ⊤ ∧ x i ≠ ⊥ :=
  real_of_abs_lt_top (x i) (Host.reduce_andi_all _ _ hr hu _ e i)

theorem all_tok_lt {axes : List (Fin S128x64.rank)} (hb : S_.BroadcastsInDim S128x64 (![] : Fin 0 → Fin S128x64.rank))
    (hr : S128x64.ReducesTo axes S_) (hu : 0 < S_.numel) (x : IVec S128x64 32)
    (e : Host.reduce IntOp.andi (cmpi .slt x (broadcastInDim S128x64 ![] hb (constantI S_ 32 1000#32)))
          (constantI S_ 1 1#1) hr hu ValueIdx.ix0 = 1#1)
    (b : Fin 128) (l : Fin 64) : (x (ValueIdx.ix2 b l)).toInt < 1000 := by
  have h : IntOp.cmpi .slt (x (ValueIdx.ix2 b l)) 1000#32 = 1#1 :=
    Host.reduce_andi_all _ _ hr hu _ e (ValueIdx.ix2 b l)
  rw [IntOp.cmpi_slt] at h
  exact h

theorem all_tok_ge {axes : List (Fin S128x64.rank)} (hb : S_.BroadcastsInDim S128x64 (![] : Fin 0 → Fin S128x64.rank))
    (hr : S128x64.ReducesTo axes S_) (hu : 0 < S_.numel) (x : IVec S128x64 32)
    (e : Host.reduce IntOp.andi (cmpi .sge x (broadcastInDim S128x64 ![] hb (constantI S_ 32 0#32)))
          (constantI S_ 1 1#1) hr hu ValueIdx.ix0 = 1#1)
    (b : Fin 128) (l : Fin 64) : 0 ≤ (x (ValueIdx.ix2 b l)).toInt := by
  have h : IntOp.cmpi .sge (x (ValueIdx.ix2 b l)) 0#32 = 1#1 :=
    Host.reduce_andi_all _ _ hr hu _ e (ValueIdx.ix2 b l)
  rw [IntOp.cmpi_sge] at h
  exact h

theorem pre_facts (x0 : IVec S128x64 32) (x1 : FVec Ideal S64x1000x5x64 .f32) (x2 : FVec Ideal S64 .f32)
    (x3 : FVec Ideal S64x1000x10x64 .f32) (x4 : FVec Ideal S64 .f32) (x5 : FVec Ideal S64x1000x15x64 .f32)
    (x6 : FVec Ideal S64 .f32) (x7 : FVec Ideal S64x1000x20x64 .f32) (x8 : FVec Ideal S64 .f32)
    (x9 : FVec Ideal S2x256 .f32) (x10 : FVec Ideal S2 .f32)
    (h : Cert.Pre_finite_inputs.fn (F := Ideal) x0 x1 x2 x3 x4 x5 x6 x7 x8 x9 x10 = fun _ => 1#1) :
    Cert.Spec.InVocab (Cert.Spec.tokOf x0)
      ∧ Cert.Spec.Fin4 (Cert.Spec.wOf x1) ∧ Cert.Spec.Fin1 (Cert.Spec.bOf x2)
      ∧ Cert.Spec.Fin4 (Cert.Spec.wOf x3) ∧ Cert.Spec.Fin1 (Cert.Spec.bOf x4)
      ∧ Cert.Spec.Fin4 (Cert.Spec.wOf x5) ∧ Cert.Spec.Fin1 (Cert.Spec.bOf x6)
      ∧ Cert.Spec.Fin4 (Cert.Spec.wOf x7) ∧ Cert.Spec.Fin1 (Cert.Spec.bOf x8) := by
  have h0 := congrFun h ValueIdx.ix0
  dsimp only [fn, fn_part1, fn_part2, fn_part3, andi] at h0
  simp only [IntOp.andi_eq_one] at h0
  obtain ⟨⟨⟨⟨⟨⟨⟨⟨⟨⟨⟨h1, h2⟩, h3⟩, h4⟩, h5⟩, h6⟩, h7⟩, h8⟩, _h9⟩, _h10⟩, hlt⟩, hge⟩ := h0
  refine ⟨fun b l => ?_, fun o v f l => ?_, fun o => ?_, fun o v f l => ?_, fun o => ?_, fun o v f l => ?_, fun o => ?_,
    fun o v f l => ?_, fun o => ?_⟩
  · exact toNat_lt_of_signed _ (all_tok_ge _ _ _ x0 hge b l) (all_tok_lt _ _ _ x0 hlt b l)
  · exact all_real _ _ _ x1 h1 _
  · exact all_real _ _ _ x2 h2 _
  · exact all_real _ _ _ x3 h3 _
  · exact all_real _ _ _ x4 h4 _
  · exact all_real _ _ _ x5 h5 _
  · exact all_real _ _ _ x6 h6 _
  · exact all_real _ _ _ x7 h7 _
  · exact all_real _ _ _ x8 h8 _

theorem pre_invocab (x0 : IVec S128x64 32) (x1 : FVec Ideal S64x1000x5x64 .f32) (x2 : FVec Ideal S64 .f32)
    (x3 : FVec Ideal S64x1000x10x64 .f32) (x4 : FVec Ideal S64 .f32) (x5 : FVec Ideal S64x1000x15x64 .f32)
    (x6 : FVec Ideal S64 .f32) (x7 : FVec Ideal S64x1000x20x64 .f32) (x8 : FVec Ideal S64 .f32)
    (x9 : FVec Ideal S2x256 .f32) (x10 : FVec Ideal S2 .f32)
    (h : Cert.Pre_finite_inputs.fn (F := Ideal) x0 x1 x2 x3 x4 x5 x6 x7 x8 x9 x10 = fun _ => 1#1) :
    Cert.Spec.InVocab (Cert.Spec.tokOf x0) := by
  have h0 := congrFun h ValueIdx.ix0
  dsimp only [fn, fn_part1, fn_part2, fn_part3, andi] at h0
  obtain ⟨h1, hge⟩ := IntOp.andi_eq_one.1 h0
  obtain ⟨_, hlt⟩ := IntOp.andi_eq_one.1 h1
  exact fun b l => toNat_lt_of_signed _ (all_tok_ge _ _ _ x0 hge b l) (all_tok_lt _ _ _ x0 hlt b l)

theorem pre_facts_lin (x0 : IVec S128x64 32) (x1 : FVec Ideal S64x1000x5x64 .f32) (x2 : FVec Ideal S64 .f32)
    (x3 : FVec Ideal S64x1000x10x64 .f32) (x4 : FVec Ideal S64 .f32) (x5 : FVec Ideal S64x1000x15x64 .f32)
    (x6 : FVec Ideal S64 .f32) (x7 : FVec Ideal S64x1000x20x64 .f32) (x8 : FVec Ideal S64 .f32)
    (x9 : FVec Ideal S2x256 .f32) (x10 : FVec Ideal S2 .f32)
    (h : Cert.Pre_finite_inputs.fn (F := Ideal) x0 x1 x2 x3 x4 x5 x6 x7 x8 x9 x10 = fun _ => 1#1) :
    (∀ j k, Cert.Spec.m2Of x9 j k ≠ ⊤ ∧ Cert.Spec.m2Of x9 j k ≠ ⊥)
      ∧ (∀ j, Cert.Spec.v1Of x10 j ≠ ⊤ ∧ Cert.Spec.v1Of x10 j ≠ ⊥) := by
  have h0 := congrFun h ValueIdx.ix0
  dsimp only [fn, fn_part1, fn_part2, fn_part3, andi] at h0
  simp only [IntOp.andi_eq_one] at h0
  obtain ⟨⟨⟨⟨_, h9⟩, h10⟩, _⟩, _⟩ := h0
  exact ⟨fun j k => all_real _ _ _ x9 h9 _, fun j => all_real _ _ _ x10 h10 _⟩

end Cert.PreFacts
-- ==== Proof.Bridge.lean ====
import proofs.«409415_j7344394076371_2_alg».proof.Defs
import proofs.«409415_j7344394076371_2_alg».proof.Proof.Gen.KernelIdeal
import proofs.«409415_j7344394076371_2_alg».proof.Proof.Gen.ReferenceIdeal
import proofs.«409415_j7344394076371_2_alg».proof.Proof.Gen.Pre_finite_inputs
import proofs.«409415_j7344394076371_2_alg».proof.Proof.KiValue
import proofs.«409415_j7344394076371_2_alg».proof.Proof.RefSide
import proofs.«409415_j7344394076371_2_alg».proof.Proof.PreFacts
import proofs.«409415_j7344394076371_2_alg».proof.Proof.SpecLaws

noncomputable section

namespace Cert.Proof.Bridge

open Idealize.ShloMosaic Idealize.ShloMosaic.TcCoe Idealize.SL.Sem

theorem feat_fun_eq {n : ℕ} (tok : Fin 128 → Fin 64 → BitVec 32) (W : Fin 64 → Fin 1000 → Fin n → Fin 64 → EReal) (bias : Fin 64 → EReal)
    (htok : Cert.Spec.InVocab tok) : Cert.Spec.featGat tok W bias = Cert.Spec.featSel tok W bias :=
  funext fun b => funext fun o => (Cert.Spec.feat_sel_eq_gat tok W bias htok b o).symm

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    Cert.ReferenceIdeal.ValueP.res_main_v129 m' c = Cert.KernelIdeal.Gen.V9 m (Cert.KernelIdeal.RunAll.outs m) c Cert.KernelIdeal.main_v33 := by
  obtain ⟨h0, h1, h2, h3, h4, h5, h6, h7, h8, h9, h10⟩ := hagree c
  have htok : Cert.Spec.InVocab (Cert.Spec.tokOf (m ((c.tc : Thread Cert.KernelIdeal.nD Cert.KernelIdeal.τ).loc Cert.KernelIdeal.main_arg0))) :=
    Cert.PreFacts.pre_invocab _ _ _ _ _ _ _ _ _ _ _ (hpre c)
  funext i
  obtain ⟨b, j, rfl⟩ : ∃ (b : Fin 128) (j : Fin 2), i = ValueIdx.ix2 b j := ⟨i 0, i 1, ValueIdx.eq_ix2 i⟩
  rw [Cert.ReferenceIdeal.RefValue.ref_res_eq, h0, h1, h2, h3, h4, h5, h6, h7, h8, h9, h10]
  rw [Cert.ReferenceIdeal.RefValue.ref_apply _ _ _ _ _ _ _ _ _ _ _ htok]
  rw [feat_fun_eq _ _ _ htok, feat_fun_eq _ _ _ htok, feat_fun_eq _ _ _ htok, feat_fun_eq _ _ _ htok]
  exact (Cert.KernelIdeal.RunAll.kernel_value m c b j).symm

end Cert.Proof.Bridge

end
-- ==== Proof.lean ====
import proofs.«409415_j7344394076371_2_alg».proof.Defs
import proofs.«409415_j7344394076371_2_alg».proof.Proof.Gen.Kernel
import proofs.«409415_j7344394076371_2_alg».proof.Proof.Gen.KernelIdeal
import proofs.«409415_j7344394076371_2_alg».proof.Proof.Gen.ReferenceIdeal
import proofs.«409415_j7344394076371_2_alg».proof.Proof.Gen.Pre_finite_inputs
import proofs.«409415_j7344394076371_2_alg».proof.Proof.KbInst
import proofs.«409415_j7344394076371_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs region by region and leaves every argument as launched. -/
theorem frame_kernel : Cert.frame_Kernel := fun m ρ _ =>
  Cert.Kernel.RunAll.frame_all m ρ (Cert.Kernel.RunAll.outs m) (Cert.Kernel.RunAll.pdats m)
    (Cert.Kernel.RunAll.ok0 m) (Cert.Kernel.RunAll.ok1 m) (Cert.Kernel.RunAll.ok2 m) (Cert.Kernel.RunAll.ok3 m)

theorem frame_kernelIdeal : Cert.frame_KernelIdeal := fun m ρ _ =>
  Cert.KernelIdeal.RunAll.frame_all m ρ (Cert.KernelIdeal.RunAll.outs m) (Cert.KernelIdeal.RunAll.pdats m)
    (Cert.KernelIdeal.RunAll.ok0 m) (Cert.KernelIdeal.RunAll.ok1 m) (Cert.KernelIdeal.RunAll.ok2 m) (Cert.KernelIdeal.RunAll.ok3 m)

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end at one result: what the kernel program's last host operations leave in its result buffer. -/
theorem algebraic : Cert.algebraic_KernelIdeal_ReferenceIdeal := by
  intro m ρ m' ρ' hpre hagree
  refine ⟨fun c => Cert.KernelIdeal.Gen.V9 m (Cert.KernelIdeal.RunAll.outs m) c Cert.KernelIdeal.main_v33, ?_, ?_⟩
  · refine (θ_run Cert.KernelIdeal.defs _ _).mono (fun r h c => ?_)
      (Cert.KernelIdeal.RunAll.run_all m ρ (Cert.KernelIdeal.RunAll.outs m) (Cert.KernelIdeal.RunAll.pdats m)
        (Cert.KernelIdeal.RunAll.ok0 m) (Cert.KernelIdeal.RunAll.ok1 m) (Cert.KernelIdeal.RunAll.ok2 m) (Cert.KernelIdeal.RunAll.ok3 m))
    have rd := fun (b : Ref Cert.KernelIdeal.sig .tc) (hb : ¬ (Proc.devRef .tc b : DevRef Cert.KernelIdeal.τ Cert.KernelIdeal.sig).isScoped) =>
      h c (Proc.devRef .tc b) (Cert.KernelIdeal.RunAll.mem_uc b hb)
    exact ⟨rd Cert.KernelIdeal.main_v33 (by decide),
      (rd Cert.KernelIdeal.main_arg0 (by decide)).trans (Cert.KernelIdeal.Gen.V9_main_arg0 m (Cert.KernelIdeal.RunAll.outs m) c),
      (rd Cert.KernelIdeal.main_arg1 (by decide)).trans (Cert.KernelIdeal.Gen.V9_main_arg1 m (Cert.KernelIdeal.RunAll.outs m) c),
      (rd Cert.KernelIdeal.main_arg2 (by decide)).trans (Cert.KernelIdeal.Gen.V9_main_arg2 m (Cert.KernelIdeal.RunAll.outs m) c),
      (rd Cert.KernelIdeal.main_arg3 (by decide)).trans (Cert.KernelIdeal.Gen.V9_main_arg3 m (Cert.KernelIdeal.RunAll.outs m) c),
      (rd Cert.KernelIdeal.main_arg4 (by decide)).trans (Cert.KernelIdeal.Gen.V9_main_arg4 m (Cert.KernelIdeal.RunAll.outs m) c),
      (rd Cert.KernelIdeal.main_arg5 (by decide)).trans (Cert.KernelIdeal.Gen.V9_main_arg5 m (Cert.KernelIdeal.RunAll.outs m) c),
      (rd Cert.KernelIdeal.main_arg6 (by decide)).trans (Cert.KernelIdeal.Gen.V9_main_arg6 m (Cert.KernelIdeal.RunAll.outs m) c),
      (rd Cert.KernelIdeal.main_arg7 (by decide)).trans (Cert.KernelIdeal.Gen.V9_main_arg7 m (Cert.KernelIdeal.RunAll.outs m) c),
      (rd Cert.KernelIdeal.main_arg8 (by decide)).trans (Cert.KernelIdeal.Gen.V9_main_arg8 m (Cert.KernelIdeal.RunAll.outs m) c),
      (rd Cert.KernelIdeal.main_arg9 (by decide)).trans (Cert.KernelIdeal.Gen.V9_main_arg9 m (Cert.KernelIdeal.RunAll.outs m) c),
      (rd Cert.KernelIdeal.main_arg10 (by decide)).trans (Cert.KernelIdeal.Gen.V9_main_arg10 m (Cert.KernelIdeal.RunAll.outs m) c)⟩
  · exact (θ_run Cert.ReferenceIdeal.defs _ _).mono
      (fun r h c => ⟨(h c).1.trans (Bridge.result_eq m m' hpre hagree c), (h c).2⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
